-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_v356) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x256 : Shape := ⟨2, ![50000, 256]⟩
abbrev S800000x2 : Shape := ⟨2, ![800000, 2]⟩
abbrev S128x128 : Shape := ⟨2, ![128, 128]⟩
abbrev S128 : Shape := ⟨1, ![128]⟩
abbrev S256x128 : Shape := ⟨2, ![256, 128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S800000x2 : S_.BroadcastsInDim S800000x2 (![] : Fin 0 → Fin S800000x2.rank)
  reducesTo_S800000x2_S_d0_1 : S800000x2.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S800000 : S_.BroadcastsInDim S800000 (![] : Fin 0 → Fin S800000.rank)
  reducesTo_S800000_S_d0 : S800000.ReducesTo [0] S_

variable [Facts]

def fn_part9 {F : FTy → Type} [FloatOps F] (main_arg31 : IVec S800000 32) (main_v150 : IVec S_ 1) (main_v152 : IVec S800000 1) (main_c_60 : IVec S_ 32) : IVec S_ 1 :=
  let main_v153 : IVec S800000 32 := broadcastInDim S800000 ![] bcast_S_S800000 main_c_60
  let main_v154 : IVec S800000 1 := cmpi .slt main_arg31 main_v153
  let main_v155 : IVec S800000 1 := andi main_v152 main_v154
  let main_c_61 : IVec S_ 1 := constantI S_ 1 1#1
  let main_v156 : IVec S_ 1 := (fun x v => Host.reduce IntOp.andi x v reducesTo_S800000_S_d0 h_S_) main_v155 main_c_61
  let main_v157 : IVec S_ 1 := andi main_v150 main_v156
  main_v157

def fn_part8 {F : FTy → Type} [FloatOps F] (main_arg28 : FVec F S128 .f32) (main_arg29 : IVec S800000 32) (main_arg31 : IVec S800000 32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128 .f32 := Host.absf main_arg28
  let main_cst_54 : FVec F S_ .f32 := constant S_ .f32 0x7F800000#32
  let main_v140 : FVec F S128 .f32 := broadcastInDim S128 ![] bcast_S_S128 main_cst_54
  let main_v141 : IVec S128 1 := cmpf .olt main_v139 main_v140
  let main_c_55 : IVec S_ 1 := constantI S_ 1 1#1
  let main_v142 : IVec S_ 1 := (fun x v => Host.reduce IntOp.andi x v reducesTo_S128_S_d0 h_S_) main_v141 main_c_55
  let main_v143 : IVec S_ 1 := andi main_v138 main_v142
  let main_c_56 : IVec S_ 32 := constantI S_ 32 0#32
  let main_v144 : IVec S800000 32 := broadcastInDim S800000 ![] bcast_S_S800000 main_c_56
  let main_v145 : IVec S800000 1 := cmpi .sge main_arg29 main_v144
  let main_c_57 : IVec S_ 32 := constantI S_ 32 50000#32
  let main_v146 : IVec S800000 32 := broadcastInDim S800000 ![] bcast_S_S800000 main_c_57
  let main_v147 : IVec S800000 1 := cmpi .slt main_arg29 main_v146
  let main_v148 : IVec S800000 1 := andi main_v145 main_v147
  let main_c_58 : IVec S_ 1 := constantI S_ 1 1#1
  let main_v149 : IVec S_ 1 := (fun x v => Host.reduce IntOp.andi x v reducesTo_S800000_S_d0 h_S_) main_v148 main_c_58
  let main_v150 : IVec S_ 1 := andi main_v143 main_v149
  let main_c_59 : IVec S_ 32 := constantI S_ 32 0#32
  let main_v151 : IVec S800000 32 := broadcastInDim S800000 ![] bcast_S_S800000 main_c_59
  let main_v152 : IVec S800000 1 := cmpi .sge main_arg31 main_v151
  let main_c_60 : IVec S_ 32 := constantI S_ 32 50000#32
  fn_part9 (F := F) main_arg31 main_v150 main_v152 main_c_60

def fn_part7 {F : FTy → Type} [FloatOps F] (main_arg25 : FVec F S256x128 .f32) (main_arg26 : FVec F S128 .f32) (main_arg27 : FVec F S128 .f32) (main_arg28 : FVec F S128 .f32) (main_arg29 : IVec S800000 32) (main_arg31 : IVec S800000 32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S256x128 .f32 := Host.absf main_arg25
  let main_cst_48 : FVec F S_ .f32 := constant S_ .f32 0x7F800000#32
  let main_v125 : FVec F S256x128 .f32 := broadcastInDim S256x128 ![] bcast_S_S256x128 main_cst_48
  let main_v126 : IVec S256x128 1 := cmpf .olt main_v124 main_v125
  let main_c_49 : IVec S_ 1 := constantI S_ 1 1#1
  let main_v127 : IVec S_ 1 := (fun x v => Host.reduce IntOp.andi x v reducesTo_S256x128_S_d0_1 h_S_) main_v126 main_c_49
  let main_v128 : IVec S_ 1 := andi main_v123 main_v127
  let main_v129 : FVec F S128 .f32 := Host.absf main_arg26
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S128 .f32 := Host.absf main_arg27
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg28 main_arg29 main_arg31 main_v133 main_v136

def fn_part6 {F : FTy → Type} [FloatOps F] (main_arg21 : FVec F S256x128 .f32) (main_arg22 : FVec F S128 .f32) (main_arg23 : FVec F S128x128 .f32) (main_arg24 : FVec F S128 .f32) (main_arg25 : FVec F S256x128 .f32) (main_arg26 : FVec F S128 .f32) (main_arg27 : FVec F S128 .f32) (main_arg28 : FVec F S128 .f32) (main_arg29 : IVec S800000 32) (main_arg31 : IVec S800000 32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S256x128 .f32 := Host.absf main_arg21
  let main_cst_40 : FVec F S_ .f32 := constant S_ .f32 0x7F800000#32
  let main_v105 : FVec F S256x128 .f32 := broadcastInDim S256x128 ![] bcast_S_S256x128 main_cst_40
  let main_v106 : IVec S256x128 1 := cmpf .olt main_v104 main_v105
  let main_c_41 : IVec S_ 1 := constantI S_ 1 1#1
  let main_v107 : IVec S_ 1 := (fun x v => Host.reduce IntOp.andi x v reducesTo_S256x128_S_d0_1 h_S_) main_v106 main_c_41
  let main_v108 : IVec S_ 1 := andi main_v103 main_v107
  let main_v109 : FVec F S128 .f32 := Host.absf main_arg22
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x128 .f32 := Host.absf main_arg23
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg24
  fn_part7 (F := F) main_arg25 main_arg26 main_arg27 main_arg28 main_arg29 main_arg31 main_v118 main_v119

def fn_part5 {F : FTy → Type} [FloatOps F] (main_arg18 : FVec F S128 .f32) (main_arg19 : FVec F S256x128 .f32) (main_arg20 : FVec F S128 .f32) (main_arg21 : FVec F S256x128 .f32) (main_arg22 : FVec F S128 .f32) (main_arg23 : FVec F S128x128 .f32) (main_arg24 : FVec F S128 .f32) (main_arg25 : FVec F S256x128 .f32) (main_arg26 : FVec F S128 .f32) (main_arg27 : FVec F S128 .f32) (main_arg28 : FVec F S128 .f32) (main_arg29 : IVec S800000 32) (main_arg31 : IVec S800000 32) (main_v83 : IVec S_ 1) (main_v84 : FVec F S256x128 .f32) (main_cst_32 : FVec F S_ .f32) : IVec S_ 1 :=
  let main_v85 : FVec F S256x128 .f32 := broadcastInDim S256x128 ![] bcast_S_S256x128 main_cst_32
  let main_v86 : IVec S256x128 1 := cmpf .olt main_v84 main_v85
  let main_c_33 : IVec S_ 1 := constantI S_ 1 1#1
  let main_v87 : IVec S_ 1 := (fun x v => Host.reduce IntOp.andi x v reducesTo_S256x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S256x128 .f32 := Host.absf main_arg19
  let main_cst_36 : FVec F S_ .f32 := constant S_ .f32 0x7F800000#32
  let main_v95 : FVec F S256x128 .f32 := broadcastInDim S256x128 ![] bcast_S_S256x128 main_cst_36
  let main_v96 : IVec S256x128 1 := cmpf .olt main_v94 main_v95
  let main_c_37 : IVec S_ 1 := constantI S_ 1 1#1
  let main_v97 : IVec S_ 1 := (fun x v => Host.reduce IntOp.andi x v reducesTo_S256x128_S_d0_1 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_arg23 main_arg24 main_arg25 main_arg26 main_arg27 main_arg28 main_arg29 main_arg31 main_v98 main_v101 main_c_39

def fn_part4 {F : FTy → Type} [FloatOps F] (main_arg14 : FVec F S128 .f32) (main_arg15 : FVec F S128 .f32) (main_arg16 : FVec F S128 .f32) (main_arg17 : FVec F S256x128 .f32) (main_arg18 : FVec F S128 .f32) (main_arg19 : FVec F S256x128 .f32) (main_arg20 : FVec F S128 .f32) (main_arg21 : FVec F S256x128 .f32) (main_arg22 : FVec F S128 .f32) (main_arg23 : FVec F S128x128 .f32) (main_arg24 : FVec F S128 .f32) (main_arg25 : FVec F S256x128 .f32) (main_arg26 : FVec F S128 .f32) (main_arg27 : FVec F S128 .f32) (main_arg28 : FVec F S128 .f32) (main_arg29 : IVec S800000 32) (main_arg31 : IVec S800000 32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S256x128 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg31 main_v83 main_v84 main_cst_32

def fn_part3 {F : FTy → Type} [FloatOps F] (main_arg11 : FVec F S128x128 .f32) (main_arg12 : FVec F S128 .f32) (main_arg13 : FVec F S128x128 .f32) (main_arg14 : FVec F S128 .f32) (main_arg15 : FVec F S128 .f32) (main_arg16 : FVec F S128 .f32) (main_arg17 : FVec F S256x128 .f32) (main_arg18 : FVec F S128 .f32) (main_arg19 : FVec F S256x128 .f32) (main_arg20 : FVec F S128 .f32) (main_arg21 : FVec F S256x128 .f32) (main_arg22 : FVec F S128 .f32) (main_arg23 : FVec F S128x128 .f32) (main_arg24 : FVec F S128 .f32) (main_arg25 : FVec F S256x128 .f32) (main_arg26 : FVec F S128 .f32) (main_arg27 : FVec F S128 .f32) (main_arg28 : FVec F S128 .f32) (main_arg29 : IVec S800000 32) (main_arg31 : IVec S800000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg31 main_v63 main_v67

def fn_part2 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_arg17 : FVec F S256x128 .f32) (main_arg18 : FVec F S128 .f32) (main_arg19 : FVec F S256x128 .f32) (main_arg20 : FVec F S128 .f32) (main_arg21 : FVec F S256x128 .f32) (main_arg22 : FVec F S128 .f32) (main_arg23 : FVec F S128x128 .f32) (main_arg24 : FVec F S128 .f32) (main_arg25 : FVec F S256x128 .f32) (main_arg26 : FVec F S128 .f32) (main_arg27 : FVec F S128 .f32) (main_arg28 : FVec F S128 .f32) (main_arg29 : IVec S800000 32) (main_arg31 : IVec S800000 32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg31 main_v48 main_v49 main_v50

def fn_part1 {F : FTy → Type} [FloatOps F] (main_arg4 : FVec F S800000x2 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_arg17 : FVec F S256x128 .f32) (main_arg18 : FVec F S128 .f32) (main_arg19 : FVec F S256x128 .f32) (main_arg20 : FVec F S128 .f32) (main_arg21 : FVec F S256x128 .f32) (main_arg22 : FVec F S128 .f32) (main_arg23 : FVec F S128x128 .f32) (main_arg24 : FVec F S128 .f32) (main_arg25 : FVec F S256x128 .f32) (main_arg26 : FVec F S128 .f32) (main_arg27 : FVec F S128 .f32) (main_arg28 : FVec F S128 .f32) (main_arg29 : IVec S800000 32) (main_arg31 : IVec S800000 32) (main_v13 : IVec S_ 1) (main_v16 : IVec S800000x2 1) : IVec S_ 1 :=
  let main_c_5 : IVec S_ 1 := constantI S_ 1 1#1
  let main_v17 : IVec S_ 1 := (fun x v => Host.reduce IntOp.andi x v reducesTo_S800000x2_S_d0_1 h_S_) main_v16 main_c_5
  let main_v18 : IVec S_ 1 := andi main_v13 main_v17
  let main_v19 : FVec F S800000x2 .f32 := Host.absf main_arg4
  let main_cst_6 : FVec F S_ .f32 := constant S_ .f32 0x7F800000#32
  let main_v20 : FVec F S800000x2 .f32 := broadcastInDim S800000x2 ![] bcast_S_S800000x2 main_cst_6
  let main_v21 : IVec S800000x2 1 := cmpf .olt main_v19 main_v20
  let main_c_7 : IVec S_ 1 := constantI S_ 1 1#1
  let main_v22 : IVec S_ 1 := (fun x v => Host.reduce IntOp.andi x v reducesTo_S800000x2_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg31 main_v33

def fn {F : FTy → Type} [FloatOps F] (main_arg0 : FVec F S50000x128 .f32) (main_arg1 : FVec F S50000x128 .f32) (main_arg2 : FVec F S50000x256 .f32) (main_arg3 : FVec F S800000x2 .f32) (main_arg4 : FVec F S800000x2 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_arg17 : FVec F S256x128 .f32) (main_arg18 : FVec F S128 .f32) (main_arg19 : FVec F S256x128 .f32) (main_arg20 : FVec F S128 .f32) (main_arg21 : FVec F S256x128 .f32) (main_arg22 : FVec F S128 .f32) (main_arg23 : FVec F S128x128 .f32) (main_arg24 : FVec F S128 .f32) (main_arg25 : FVec F S256x128 .f32) (main_arg26 : FVec F S128 .f32) (main_arg27 : FVec F S128 .f32) (main_arg28 : FVec F S128 .f32) (main_arg29 : IVec S800000 32) (main_arg30 : IVec S800000 32) (main_arg31 : IVec S800000 32) (main_arg32 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x256 .f32 := Host.absf main_arg2
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S800000x2 .f32 := Host.absf main_arg3
  let main_cst_4 : FVec F S_ .f32 := constant S_ .f32 0x7F800000#32
  let main_v15 : FVec F S800000x2 .f32 := broadcastInDim S800000x2 ![] bcast_S_S800000x2 main_cst_4
  let main_v16 : IVec S800000x2 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg31 main_v13 main_v16
-- ==== Kernel.lean ====
abbrev S50000x128 : Shape := ⟨2, ![50000, 128]⟩
abbrev S50000x256 : Shape := ⟨2, ![50000, 256]⟩
abbrev S800000x2 : Shape := ⟨2, ![800000, 2]⟩
abbrev S128x128 : Shape := ⟨2, ![128, 128]⟩
abbrev S128 : Shape := ⟨1, ![128]⟩
abbrev S256x128 : Shape := ⟨2, ![256, 128]⟩
abbrev S800000 : Shape := ⟨1, ![800000]⟩
abbrev S256x256 : Shape := ⟨2, ![256, 256]⟩
abbrev S256 : Shape := ⟨1, ![256]⟩
abbrev S2000x256 : Shape := ⟨2, ![2000, 256]⟩
abbrev S2000x128 : Shape := ⟨2, ![2000, 128]⟩
abbrev S1x256 : Shape := ⟨2, ![1, 256]⟩
abbrev S1x128 : Shape := ⟨2, ![1, 128]⟩
abbrev S800000x1 : Shape := ⟨2, ![800000, 1]⟩
abbrev S800000x256 : Shape := ⟨2, ![800000, 256]⟩
abbrev S2000x1 : Shape := ⟨2, ![2000, 1]⟩
abbrev S2000x2 : Shape := ⟨2, ![2000, 2]⟩
abbrev S1000x256 : Shape := ⟨2, ![1000, 256]⟩
abbrev S1000x128 : Shape := ⟨2, ![1000, 128]⟩
abbrev S1x1000 : Shape := ⟨2, ![1, 1000]⟩
abbrev S2000x1000 : Shape := ⟨2, ![2000, 1000]⟩
abbrev S2000x4x32 : Shape := ⟨3, ![2000, 4, 32]⟩
abbrev S2000x4 : Shape := ⟨2, ![2000, 4]⟩
abbrev S2000x4x1 : Shape := ⟨3, ![2000, 4, 1]⟩
abbrev S2000x1x1 : Shape := ⟨3, ![2000, 1, 1]⟩
abbrev S2000 : Shape := ⟨1, ![2000]⟩

abbrev nBuf : Space → Nat
  | .hbm => 47
  | .vmem => 76
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x256, .f32⟩
  | .hbm, ⟨3, _⟩ => ⟨S800000x2, .f32⟩
  | .hbm, ⟨4, _⟩ => ⟨S800000x2, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S256x128, .f32⟩
  | .hbm, ⟨18, _⟩ => ⟨S128, .f32⟩
  | .hbm, ⟨19, _⟩ => ⟨S256x128, .f32⟩
  | .hbm, ⟨20, _⟩ => ⟨S128, .f32⟩
  | .hbm, ⟨21, _⟩ => ⟨S256x128, .f32⟩
  | .hbm, ⟨22, _⟩ => ⟨S128, .f32⟩
  | .hbm, ⟨23, _⟩ => ⟨S128x128, .f32⟩
  | .hbm, ⟨24, _⟩ => ⟨S128, .f32⟩
  | .hbm, ⟨25, _⟩ => ⟨S256x128, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S256x256, .f32⟩
  | .hbm, ⟨34, _⟩ => ⟨S256, .f32⟩
  | .hbm, ⟨35, _⟩ => ⟨S50000x256, .f32⟩
  | .hbm, ⟨36, _⟩ => ⟨S50000x128, .f32⟩
  | .hbm, ⟨37, _⟩ => ⟨S800000x1, .i32⟩
  | .hbm, ⟨38, _⟩ => ⟨S800000x1, .i32⟩
  | .hbm, ⟨39, _⟩ => ⟨S800000x256, .f32⟩
  | .hbm, ⟨40, _⟩ => ⟨S50000x256, .f32⟩
  | .hbm, ⟨41, _⟩ => ⟨S50000x128, .f32⟩
  | .hbm, ⟨42, _⟩ => ⟨S800000x1, .i32⟩
  | .hbm, ⟨43, _⟩ => ⟨S800000x1, .i32⟩
  | .hbm, ⟨44, _⟩ => ⟨S800000x256, .f32⟩
  | .hbm, ⟨45, _⟩ => ⟨S50000x256, .f32⟩
  | .hbm, ⟨46, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S256, .f32⟩
  | .local _ .vmem, ⟨4, _⟩ => ⟨S256x128, .f32⟩
  | .local _ .vmem, ⟨5, _⟩ => ⟨S128, .f32⟩
  | .local _ .vmem, ⟨6, _⟩ => ⟨S2000x256, .f32⟩
  | .local _ .vmem, ⟨7, _⟩ => ⟨S2000x256, .f32⟩
  | .local _ .vmem, ⟨8, _⟩ => ⟨S2000x128, .f32⟩
  | .local _ .vmem, ⟨9, _⟩ => ⟨S2000x128, .f32⟩
  | .local _ .vmem, ⟨10, _⟩ => ⟨S2000x1, .i32⟩
  | .local _ .vmem, ⟨11, _⟩ => ⟨S2000x1, .i32⟩
  | .local _ .vmem, ⟨12, _⟩ => ⟨S2000x1, .i32⟩
  | .local _ .vmem, ⟨13, _⟩ => ⟨S2000x1, .i32⟩
  | .local _ .vmem, ⟨14, _⟩ => ⟨S2000x2, .f32⟩
  | .local _ .vmem, ⟨15, _⟩ => ⟨S2000x2, .f32⟩
  | .local _ .vmem, ⟨16, _⟩ => ⟨S1000x256, .f32⟩
  | .local _ .vmem, ⟨17, _⟩ => ⟨S1000x256, .f32⟩
  | .local _ .vmem, ⟨18, _⟩ => ⟨S1000x128, .f32⟩
  | .local _ .vmem, ⟨19, _⟩ => ⟨S1000x128, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x128, .f32⟩
  | .local _ .vmem, ⟨24, _⟩ => ⟨S2000x1, .i32⟩
  | .local _ .vmem, ⟨25, _⟩ => ⟨S2000x1, .i32⟩
  | .local _ .vmem, ⟨26, _⟩ => ⟨S2000x256, .f32⟩
  | .local _ .vmem, ⟨27, _⟩ => ⟨S2000x256, .f32⟩
  | .local _ .vmem, ⟨28, _⟩ => ⟨S1000x256, .f32⟩
  | .local _ .vmem, ⟨29, _⟩ => ⟨S1000x256, .f32⟩
  | .local _ .vmem, ⟨30, _⟩ => ⟨S1000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S128x128, .f32⟩
  | .local _ .vmem, ⟨36, _⟩ => ⟨S128, .f32⟩
  | .local _ .vmem, ⟨37, _⟩ => ⟨S256x128, .f32⟩
  | .local _ .vmem, ⟨38, _⟩ => ⟨S128, .f32⟩
  | .local _ .vmem, ⟨39, _⟩ => ⟨S128, .f32⟩
  | .local _ .vmem, ⟨40, _⟩ => ⟨S128, .f32⟩
  | .local _ .vmem, ⟨41, _⟩ => ⟨S2000x128, .f32⟩
  | .local _ .vmem, ⟨42, _⟩ => ⟨S2000x128, .f32⟩
  | .local _ .vmem, ⟨43, _⟩ => ⟨S2000x1, .i32⟩
  | .local _ .vmem, ⟨44, _⟩ => ⟨S2000x1, .i32⟩
  | .local _ .vmem, ⟨45, _⟩ => ⟨S2000x1, .i32⟩
  | .local _ .vmem, ⟨46, _⟩ => ⟨S2000x1, .i32⟩
  | .local _ .vmem, ⟨47, _⟩ => ⟨S2000x2, .f32⟩
  | .local _ .vmem, ⟨48, _⟩ => ⟨S2000x2, .f32⟩
  | .local _ .vmem, ⟨49, _⟩ => ⟨S1000x256, .f32⟩
  | .local _ .vmem, ⟨50, _⟩ => ⟨S1000x256, .f32⟩
  | .local _ .vmem, ⟨51, _⟩ => ⟨S1000x128, .f32⟩
  | .local _ .vmem, ⟨52, _⟩ => ⟨S1000x128, .f32⟩
  | .local _ .vmem, ⟨53, _⟩ => ⟨S2000x256, .f32⟩
  | .local _ .vmem, ⟨54, _⟩ => ⟨S2000x256, .f32⟩
  | .local _ .vmem, ⟨55, _⟩ => ⟨S2000x256, .f32⟩
  | .local _ .vmem, ⟨56, _⟩ => ⟨S2000x128, .f32⟩
  | .local _ .vmem, ⟨57, _⟩ => ⟨S2000x1, .i32⟩
  | .local _ .vmem, ⟨58, _⟩ => ⟨S2000x1, .i32⟩
  | .local _ .vmem, ⟨59, _⟩ => ⟨S2000x256, .f32⟩
  | .local _ .vmem, ⟨60, _⟩ => ⟨S2000x256, .f32⟩
  | .local _ .vmem, ⟨61, _⟩ => ⟨S1000x256, .f32⟩
  | .local _ .vmem, ⟨62, _⟩ => ⟨S1000x256, .f32⟩
  | .local _ .vmem, ⟨63, _⟩ => ⟨S1000x256, .f32⟩
  | .local _ .vmem, ⟨64, _⟩ => ⟨S2000x256, .f32⟩
  | .local _ .vmem, ⟨65, _⟩ => ⟨S2000x256, .f32⟩
  | .local _ .vmem, ⟨66, _⟩ => ⟨S2000x256, .f32⟩
  | .local _ .vmem, ⟨67, _⟩ => ⟨S2000x256, .f32⟩
  | .local _ .vmem, ⟨68, _⟩ => ⟨S128x128, .f32⟩
  | .local _ .vmem, ⟨69, _⟩ => ⟨S128, .f32⟩
  | .local _ .vmem, ⟨70, _⟩ => ⟨S256x128, .f32⟩
  | .local _ .vmem, ⟨71, _⟩ => ⟨S128, .f32⟩
  | .local _ .vmem, ⟨72, _⟩ => ⟨S128, .f32⟩
  | .local _ .vmem, ⟨73, _⟩ => ⟨S128, .f32⟩
  | .local _ .vmem, ⟨74, _⟩ => ⟨S2000x128, .f32⟩
  | .local _ .vmem, ⟨75, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2_0 : Ref sig .tc := ⟨.hbm, 35, rfl⟩
abbrev main_v2_1 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc1_scratch1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_scratch0 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg8_0 : Ref sig .tc := ⟨.vmem, 41, rfl⟩
abbrev cc3_stg8_1 : Ref sig .tc := ⟨.vmem, 42, rfl⟩
abbrev cc4_stg0_0 : Ref sig .tc := ⟨.vmem, 43, rfl⟩
abbrev cc4_stg0_1 : Ref sig .tc := ⟨.vmem, 44, rfl⟩
abbrev cc4_stg1_0 : Ref sig .tc := ⟨.vmem, 45, rfl⟩
abbrev cc4_stg1_1 : Ref sig .tc := ⟨.vmem, 46, rfl⟩
abbrev cc4_stg2_0 : Ref sig .tc := ⟨.vmem, 47, rfl⟩
abbrev cc4_stg2_1 : Ref sig .tc := ⟨.vmem, 48, rfl⟩
abbrev cc4_stg3_0 : Ref sig .tc := ⟨.vmem, 49, rfl⟩
abbrev cc4_stg3_1 : Ref sig .tc := ⟨.vmem, 50, rfl⟩
abbrev cc4_stg4_0 : Ref sig .tc := ⟨.vmem, 51, rfl⟩
abbrev cc4_stg4_1 : Ref sig .tc := ⟨.vmem, 52, rfl⟩
abbrev cc4_stg5_0 : Ref sig .tc := ⟨.vmem, 53, rfl⟩
abbrev cc4_stg5_1 : Ref sig .tc := ⟨.vmem, 54, rfl⟩
abbrev cc4_scratch0 : Ref sig .tc := ⟨.vmem, 55, rfl⟩
abbrev cc4_scratch1 : Ref sig .tc := ⟨.vmem, 56, rfl⟩
abbrev cc5_stg0_0 : Ref sig .tc := ⟨.vmem, 57, rfl⟩
abbrev cc5_stg0_1 : Ref sig .tc := ⟨.vmem, 58, rfl⟩
abbrev cc5_stg1_0 : Ref sig .tc := ⟨.vmem, 59, rfl⟩
abbrev cc5_stg1_1 : Ref sig .tc := ⟨.vmem, 60, rfl⟩
abbrev cc5_stg2_0 : Ref sig .tc := ⟨.vmem, 61, rfl⟩
abbrev cc5_stg2_1 : Ref sig .tc := ⟨.vmem, 62, rfl⟩
abbrev cc5_scratch0 : Ref sig .tc := ⟨.vmem, 63, rfl⟩
abbrev cc6_stg0_0 : Ref sig .tc := ⟨.vmem, 64, rfl⟩
abbrev cc6_stg0_1 : Ref sig .tc := ⟨.vmem, 65, rfl⟩
abbrev cc6_stg1_0 : Ref sig .tc := ⟨.vmem, 66, rfl⟩
abbrev cc6_stg1_1 : Ref sig .tc := ⟨.vmem, 67, rfl⟩
abbrev cc6_stg2_0 : Ref sig .tc := ⟨.vmem, 68, rfl⟩
abbrev cc6_stg3_0 : Ref sig .tc := ⟨.vmem, 69, rfl⟩
abbrev cc6_stg4_0 : Ref sig .tc := ⟨.vmem, 70, rfl⟩
abbrev cc6_stg5_0 : Ref sig .tc := ⟨.vmem, 71, rfl⟩
abbrev cc6_stg6_0 : Ref sig .tc := ⟨.vmem, 72, rfl⟩
abbrev cc6_stg7_0 : Ref sig .tc := ⟨.vmem, 73, rfl⟩
abbrev cc6_stg8_0 : Ref sig .tc := ⟨.vmem, 74, rfl⟩
abbrev cc6_stg8_1 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem8_0 : DmaSem sig := 38
abbrev cc3_sem8_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem3_1 : DmaSem sig := 47
abbrev cc4_sem4_0 : DmaSem sig := 48
abbrev cc4_sem4_1 : DmaSem sig := 49
abbrev cc4_sem5_0 : DmaSem sig := 50
abbrev cc4_sem5_1 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem2_1 : DmaSem sig := 57
abbrev cc6_sem0_0 : DmaSem sig := 58
abbrev cc6_sem0_1 : DmaSem sig := 59
abbrev cc6_sem1_0 : DmaSem sig := 60
abbrev cc6_sem1_1 : DmaSem sig := 61
abbrev cc6_sem2_0 : DmaSem sig := 62
abbrev cc6_sem3_0 : DmaSem sig := 63
abbrev cc6_sem4_0 : DmaSem sig := 64
abbrev cc6_sem5_0 : DmaSem sig := 65
abbrev cc6_sem6_0 : DmaSem sig := 66
abbrev cc6_sem7_0 : DmaSem sig := 67
abbrev cc6_sem8_0 : DmaSem sig := 68
abbrev cc6_sem8_1 : DmaSem sig := 69

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![400, 50], ![false, false]⟩

def k1_cond2 (i : grid1.Coords) : BitVec 1 :=
  let arg1 : BitVec 32 := BitVec.ofNat 32 (i 1).val
  let c49_i32 : BitVec 32 := 49#32
  let v41 : BitVec 1 := Scalar.cmpi .eq arg1 c49_i32
  let v42 : BitVec 32 := Scalar.extui v41
  let c0_i32_17 : BitVec 32 := 0#32
  let v43 : BitVec 1 := Scalar.cmpi .ne v42 c0_i32_17
  v43

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![50, 400], ![false, false]⟩

def k2_cond2 (i : grid2.Coords) : BitVec 1 :=
  let arg1 : BitVec 32 := BitVec.ofNat 32 (i 1).val
  let c399_i32 : BitVec 32 := 399#32
  let v24 : BitVec 1 := Scalar.cmpi .eq arg1 c399_i32
  let v25 : BitVec 32 := Scalar.extui v24
  let c0_i32_8 : BitVec 32 := 0#32
  let v26 : BitVec 1 := Scalar.cmpi .ne v25 c0_i32_8
  v26

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2000x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨2, ![400, 50], ![false, false]⟩

def k4_cond2 (i : grid4.Coords) : BitVec 1 :=
  let arg1 : BitVec 32 := BitVec.ofNat 32 (i 1).val
  let c49_i32 : BitVec 32 := 49#32
  let v41 : BitVec 1 := Scalar.cmpi .eq arg1 c49_i32
  let v42 : BitVec 32 := Scalar.extui v41
  let c0_i32_17 : BitVec 32 := 0#32
  let v43 : BitVec 1 := Scalar.cmpi .ne v42 c0_i32_17
  v43

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2000x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S2000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S1000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![false, true]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

abbrev grid5 : Pipeline.Grid := ⟨2, ![50, 400], ![false, false]⟩

def k5_cond2 (i : grid5.Coords) : BitVec 1 :=
  let arg1 : BitVec 32 := BitVec.ofNat 32 (i 1).val
  let c399_i32 : BitVec 32 := 399#32
  let v24 : BitVec 1 := Scalar.cmpi .eq arg1 c399_i32
  let v25 : BitVec 32 := Scalar.extui v24
  let c0_i32_8 : BitVec 32 := 0#32
  let v26 : BitVec 1 := Scalar.cmpi .ne v25 c0_i32_8
  v26

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S2000x1 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_6 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_7 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S2000x128 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

class Facts₀ : Prop where
  concatenates_S256x128_S256x128_S256x256_d1 : Shape.Concatenates [S256x128, S256x128] S256x256 1
  concatenates_S128_S128_S256_d0 : Shape.Concatenates [S128, S128] S256 0
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S2000x256 : S1x256.Broadcasts S2000x256
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  shapeCasts_S800000_S800000x1 : S800000.ShapeCasts S800000x1
  shapeCasts_S2000x256_S2000x256 : S2000x256.ShapeCasts S2000x256
  shapeCasts_S2000x128_S2000x128 : S2000x128.ShapeCasts S2000x128
  iota_S1x1000_d1_w32 : S1x1000.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x1000 : S2000x1.Broadcasts S2000x1000
  broadcasts_S1x1000_S2000x1000 : S1x1000.Broadcasts S2000x1000
  natLt_1_32 : 1 < 32
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S2000x256_S2000x128_0_0 : ∀ a, (![0, 0] : Fin 2 → Nat) a + S2000x128.size a ≤ S2000x256.size a
  shapeCasts_S2000x128_S2000x4x32 : S2000x128.ShapeCasts S2000x4x32
  inb_S2000x256_S2000x128_0_128 : ∀ a, (![0, 128] : Fin 2 → Nat) a + S2000x128.size a ≤ S2000x256.size a
  reduces_S2000x4x32_S2000x4 : S2000x4x32.Reduces [2] S2000x4
  shapeCasts_S2000x4_S2000x4x1 : S2000x4.ShapeCasts S2000x4x1
  inb_S2000x2_S2000x2_0_0 : ∀ a, (![0, 0] : Fin 2 → Nat) a + S2000x2.size a ≤ S2000x2.size a
  h_S2000x2 : 0 < S2000x2.numel
  slices_S2000x2_o0_0_S2000x1 : S2000x2.Slices ![0, 0] S2000x1
  shapeCasts_S2000x1_S2000x1x1 : S2000x1.ShapeCasts S2000x1x1
  broadcasts_S2000x1x1_S2000x4x1 : S2000x1x1.Broadcasts S2000x4x1
  shapeCasts_S2000x4x1_S2000x4x1 : S2000x4x1.ShapeCasts S2000x4x1
  broadcasts_S2000x4x1_S2000x4x32 : S2000x4x1.Broadcasts S2000x4x32
  shapeCasts_S2000x4x32_S2000x128 : S2000x4x32.ShapeCasts S2000x128
  concatenates_S2000x128_S2000x128_S2000x256_d1 : Shape.Concatenates [S2000x128, S2000x128] S2000x256 1
  slices_S2000x256_o0_0_S2000x128 : S2000x256.Slices ![0, 0] S2000x128
  slices_S2000x256_o0_128_S2000x128 : S2000x256.Slices ![0, 128] S2000x128
  inb_S128x128_S128x128_0_0 : ∀ a, (![0, 0] : Fin 2 → Nat) a + S128x128.size a ≤ S128x128.size a
  h_S128x128 : 0 < S128x128.numel
  reduces_S2000x128_S2000 : S2000x128.Reduces [1] S2000
  shapeCasts_S2000_S2000x1 : S2000.ShapeCasts S2000x1
  broadcasts_S2000x1_S2000x128 : S2000x1.Broadcasts S2000x128
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  dot_S2000x1000_S1000x256_S2000x256_1_0_0_1_n_n_wf : DotDims.WF S2000x1000 S1000x256 S2000x256 [1] [0] [0] [1] [] []
  dot_S2000x1000_S1000x128_S2000x128_1_0_0_1_n_n_wf : DotDims.WF S2000x1000 S1000x128 S2000x128 [1] [0] [0] [1] [] []
  dot_S2000x1000_S2000x256_S1000x256_0_0_1_1_n_n_wf : DotDims.WF S2000x1000 S2000x256 S1000x256 [0] [0] [1] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1.size a ≤ S800000x1.size a
  hwx1_0 : ∀ i : grid1.Coords, EltTy.bits .i32 = 32 ∨ (Rect.block (s := S800000x1) S2000x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S800000x1.size a
  hwx1_1 : ∀ i : grid1.Coords, EltTy.bits .i32 = 32 ∨ (Rect.block (s := S800000x1) S2000x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x2.size a ≤ S800000x2.size a
  hwx1_2 : ∀ i : grid1.Coords, EltTy.bits .f32 = 32 ∨ (Rect.block (s := S800000x2) S2000x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S50000x256.size a
  hwx1_3 : ∀ i : grid1.Coords, EltTy.bits .f32 = 32 ∨ (Rect.block (s := S50000x256) S1000x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x128.size a ≤ S50000x128.size a
  hwx1_4 : ∀ i : grid1.Coords, EltTy.bits .f32 = 32 ∨ (Rect.block (s := S50000x128) S1000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S800000x256.size a
  hwx1_5 : ∀ i : grid1.Coords, EltTy.bits .f32 = 32 ∨ (Rect.block (s := S800000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x1.size a ≤ S800000x1.size a
  hwx2_0 : ∀ i : grid2.Coords, EltTy.bits .i32 = 32 ∨ (Rect.block (s := S800000x1) S2000x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S800000x256.size a
  hwx2_1 : ∀ i : grid2.Coords, EltTy.bits .f32 = 32 ∨ (Rect.block (s := S800000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x256.size a ≤ S50000x256.size a
  hwx2_2 : ∀ i : grid2.Coords, EltTy.bits .f32 = 32 ∨ (Rect.block (s := S50000x256) S1000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x128.size a ≤ S256x128.size a
  hwx3_4 : ∀ i : grid3.Coords, EltTy.bits .f32 = 32 ∨ (Rect.block (s := S256x128) S256x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x128.size a ≤ S50000x128.size a
  hwx3_8 : ∀ i : grid3.Coords, EltTy.bits .f32 = 32 ∨ (Rect.block (s := S50000x128) S2000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x1.size a ≤ S800000x1.size a
  hwx4_0 : ∀ i : grid4.Coords, EltTy.bits .i32 = 32 ∨ (Rect.block (s := S800000x1) S2000x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S800000x1.size a
  hwx4_1 : ∀ i : grid4.Coords, EltTy.bits .i32 = 32 ∨ (Rect.block (s := S800000x1) S2000x1.size (cc4_transform_1 i) (hinb4_1 i)).WholeWords (EltTy.packing .i32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x2.size a ≤ S800000x2.size a
  hwx4_2 : ∀ i : grid4.Coords, EltTy.bits .f32 = 32 ∨ (Rect.block (s := S800000x2) S2000x2.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x256.size a ≤ S50000x256.size a
  hwx4_3 : ∀ i : grid4.Coords, EltTy.bits .f32 = 32 ∨ (Rect.block (s := S50000x256) S1000x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1000x128.size a ≤ S50000x128.size a
  hwx4_4 : ∀ i : grid4.Coords, EltTy.bits .f32 = 32 ∨ (Rect.block (s := S50000x128) S1000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S800000x256.size a
  hwx4_5 : ∀ i : grid4.Coords, EltTy.bits .f32 = 32 ∨ (Rect.block (s := S800000x256) S2000x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x1.size a ≤ S800000x1.size a
  hwx5_0 : ∀ i : grid5.Coords, EltTy.bits .i32 = 32 ∨ (Rect.block (s := S800000x1) S2000x1.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S800000x256.size a
  hwx5_1 : ∀ i : grid5.Coords, EltTy.bits .f32 = 32 ∨ (Rect.block (s := S800000x256) S2000x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x256.size a ≤ S50000x256.size a
  hwx5_2 : ∀ i : grid5.Coords, EltTy.bits .f32 = 32 ∨ (Rect.block (s := S50000x256) S1000x256.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S50000x256.size a
  hwx6_1 : ∀ i : grid6.Coords, EltTy.bits .f32 = 32 ∨ (Rect.block (s := S50000x256) S2000x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128.size a ≤ S128.size a
  hwx6_3 : ∀ i : grid6.Coords, EltTy.bits .f32 = 32 ∨ (Rect.block (s := S128) S128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256x128.size a ≤ S256x128.size a
  hwx6_4 : ∀ i : grid6.Coords, EltTy.bits .f32 = 32 ∨ (Rect.block (s := S256x128) S256x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128.size a ≤ S128.size a
  hwx6_5 : ∀ i : grid6.Coords, EltTy.bits .f32 = 32 ∨ (Rect.block (s := S128) S128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S128.size a ≤ S128.size a
  hwx6_6 : ∀ i : grid6.Coords, EltTy.bits .f32 = 32 ∨ (Rect.block (s := S128) S128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S128.size a ≤ S128.size a
  hwx6_7 : ∀ i : grid6.Coords, EltTy.bits .f32 = 32 ∨ (Rect.block (s := S128) S128.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S2000x128.size a ≤ S50000x128.size a
  hwx6_8 : ∀ i : grid6.Coords, EltTy.bits .f32 = 32 ∨ (Rect.block (s := S50000x128) S2000x128.size (cc6_transform_8 i) (hinb6_8 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x1000_S1000x256_S2000x256_1_0_0_1_n_n : DotDims S2000x1000 S1000x256 S2000x256 where
  lhsContracting := [1]
  rhsContracting := [0]
  lhsNonContracting := [0]
  rhsNonContracting := [1]
  lhsBatch := []
  rhsBatch := []
  wf := dot_S2000x1000_S1000x256_S2000x256_1_0_0_1_n_n_wf
def dot_S2000x1000_S1000x128_S2000x128_1_0_0_1_n_n : DotDims S2000x1000 S1000x128 S2000x128 where
  lhsContracting := [1]
  rhsContracting := [0]
  lhsNonContracting := [0]
  rhsNonContracting := [1]
  lhsBatch := []
  rhsBatch := []
  wf := dot_S2000x1000_S1000x128_S2000x128_1_0_0_1_n_n_wf
def dot_S2000x1000_S2000x256_S1000x256_0_0_1_1_n_n : DotDims S2000x1000 S2000x256 S1000x256 where
  lhsContracting := [0]
  rhsContracting := [0]
  lhsNonContracting := [1]
  rhsNonContracting := [1]
  lhsBatch := []
  rhsBatch := []
  wf := dot_S2000x1000_S2000x256_S1000x256_0_0_1_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg2) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg17) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg18) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v3) S2000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S2000x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S1000x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_1) S1000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v4) S2000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v6) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg23) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg24) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg25) S256x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg26) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg27) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg28) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v7) S2000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v8) S2000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v9) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg4) S2000x2.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v2_0) S1000x256.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v2_1) S1000x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v10) S2000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun _ => false | 5 => fun i => !(k4_cond2 i == 1#1) | ⟨_ + 6, h⟩ => absurd h (Nat.not_lt.2 (Nat.le_add_left _ _))

abbrev win5_0 : Pipeline.Window sig grid5 :=
  Pipeline.Window.ofSpec (Memref.whole main_v9) S2000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v10) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S1000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v11) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg2) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg23) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg24) S128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg25) S256x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg26) S128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_arg27) S128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg28) S128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v12) S2000x128.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

class Facts : Prop extends Facts₀ where

variable [Facts]
-- ==== ReferenceIdeal.lean ====
abbrev S50000x128 : Shape := ⟨2, ![50000, 128]⟩
abbrev S50000x256 : Shape := ⟨2, ![50000, 256]⟩
abbrev S800000x2 : Shape := ⟨2, ![800000, 2]⟩
abbrev S128x128 : Shape := ⟨2, ![128, 128]⟩
abbrev S128 : Shape := ⟨1, ![128]⟩
abbrev S256x128 : Shape := ⟨2, ![256, 128]⟩
abbrev S800000 : Shape := ⟨1, ![800000]⟩
abbrev S1x128 : Shape := ⟨2, ![1, 128]⟩
abbrev S50000x4x32 : Shape := ⟨3, ![50000, 4, 32]⟩
abbrev S800000x1 : Shape := ⟨2, ![800000, 1]⟩
abbrev S800000x1x1 : Shape := ⟨3, ![800000, 1, 1]⟩
abbrev S_ : Shape := ⟨0, ![]⟩
abbrev S800000x4x32 : Shape := ⟨3, ![800000, 4, 32]⟩
abbrev S800000x4 : Shape := ⟨2, ![800000, 4]⟩
abbrev S800000x4x1 : Shape := ⟨3, ![800000, 4, 1]⟩
abbrev S50000x4x1 : Shape := ⟨3, ![50000, 4, 1]⟩
abbrev S50000 : Shape := ⟨1, ![50000]⟩
abbrev S50000x1 : Shape := ⟨2, ![50000, 1]⟩

abbrev nBuf : Space → Nat
  | .hbm => 482
  | .vmem => 0
  | .smem => 0
  | _ => 0

abbrev hbmTy0_0 (i : Nat) : BufTy := match i % 128 with
  | 0 => ⟨S50000x128, .f32⟩
  | 1 => ⟨S50000x128, .f32⟩
  | 2 => ⟨S50000x256, .f32⟩
  | 3 => ⟨S800000x2, .f32⟩
  | 4 => ⟨S800000x2, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128, .f32⟩
  | 16 => ⟨S128, .f32⟩
  | 17 => ⟨S256x128, .f32⟩
  | 18 => ⟨S128, .f32⟩
  | 19 => ⟨S256x128, .f32⟩
  | 20 => ⟨S128, .f32⟩
  | 21 => ⟨S256x128, .f32⟩
  | 22 => ⟨S128, .f32⟩
  | 23 => ⟨S128x128, .f32⟩
  | 24 => ⟨S128, .f32⟩
  | 25 => ⟨S256x128, .f32⟩
  | 26 => ⟨S128, .f32⟩
  | 27 => ⟨S128, .f32⟩
  | 28 => ⟨S128, .f32⟩
  | 29 => ⟨S800000, .i32⟩
  | 30 => ⟨S800000, .i32⟩
  | 31 => ⟨S800000, .i32⟩
  | 32 => ⟨S800000, .i32⟩
  | 33 => ⟨S50000x128, .f32⟩
  | 34 => ⟨S1x128, .f32⟩
  | 35 => ⟨S50000x128, .f32⟩
  | 36 => ⟨S50000x128, .f32⟩
  | 37 => ⟨S50000x4x32, .f32⟩
  | 38 => ⟨S50000x128, .f32⟩
  | 39 => ⟨S1x128, .f32⟩
  | 40 => ⟨S50000x128, .f32⟩
  | 41 => ⟨S50000x128, .f32⟩
  | 42 => ⟨S50000x4x32, .f32⟩
  | 43 => ⟨S50000x128, .f32⟩
  | 44 => ⟨S1x128, .f32⟩
  | 45 => ⟨S50000x128, .f32⟩
  | 46 => ⟨S50000x128, .f32⟩
  | 47 => ⟨S50000x4x32, .f32⟩
  | 48 => ⟨S50000x128, .f32⟩
  | 49 => ⟨S1x128, .f32⟩
  | 50 => ⟨S50000x128, .f32⟩
  | 51 => ⟨S50000x128, .f32⟩
  | 52 => ⟨S50000x4x32, .f32⟩
  | 53 => ⟨S50000x128, .f32⟩
  | 54 => ⟨S1x128, .f32⟩
  | 55 => ⟨S50000x128, .f32⟩
  | 56 => ⟨S50000x128, .f32⟩
  | 57 => ⟨S50000x4x32, .f32⟩
  | 58 => ⟨S50000x128, .f32⟩
  | 59 => ⟨S1x128, .f32⟩
  | 60 => ⟨S50000x128, .f32⟩
  | 61 => ⟨S50000x128, .f32⟩
  | 62 => ⟨S50000x4x32, .f32⟩
  | 63 => ⟨S50000x128, .f32⟩
  | 64 => ⟨S1x128, .f32⟩
  | 65 => ⟨S50000x128, .f32⟩
  | 66 => ⟨S50000x128, .f32⟩
  | 67 => ⟨S50000x4x32, .f32⟩
  | 68 => ⟨S50000x128, .f32⟩
  | 69 => ⟨S1x128, .f32⟩
  | 70 => ⟨S50000x128, .f32⟩
  | 71 => ⟨S50000x128, .f32⟩
  | 72 => ⟨S50000x4x32, .f32⟩
  | 73 => ⟨S50000x128, .f32⟩
  | 74 => ⟨S1x128, .f32⟩
  | 75 => ⟨S50000x128, .f32⟩
  | 76 => ⟨S50000x128, .f32⟩
  | 77 => ⟨S50000x4x32, .f32⟩
  | 78 => ⟨S800000x1, .f32⟩
  | 79 => ⟨S800000x1x1, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x4x32, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x4x32, .f32⟩
  | 98 => ⟨S800000x4x32, .f32⟩
  | 99 => ⟨S_, .f32⟩
  | 100 => ⟨S800000x4, .f32⟩
  | 101 => ⟨S800000x4x1, .f32⟩
  | 102 => ⟨S800000x4x1, .f32⟩
  | 103 => ⟨S800000x4x1, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x4x32, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x4x32, .f32⟩
  | 122 => ⟨S800000x4x32, .f32⟩
  | 123 => ⟨S_, .f32⟩
  | 124 => ⟨S800000x4, .f32⟩
  | 125 => ⟨S800000x4x1, .f32⟩
  | 126 => ⟨S800000x4x1, .f32⟩
  | 127 => ⟨S800000x4x1, .f32⟩
  | _ => ⟨S50000x128, .f32⟩

abbrev hbmTy0_1 (i : Nat) : BufTy := match i % 128 with
  | 0 => ⟨S_, .f32⟩
  | 1 => ⟨S800000x4x1, .f32⟩
  | 2 => ⟨S800000x4x1, .f32⟩
  | 3 => ⟨S_, .f32⟩
  | 4 => ⟨S_, .f32⟩
  | 5 => ⟨S_, .f32⟩
  | 6 => ⟨S800000x4x1, .f32⟩
  | 7 => ⟨S800000x4x1, .f32⟩
  | 8 => ⟨S_, .f32⟩
  | 9 => ⟨S800000x4x1, .f32⟩
  | 10 => ⟨S800000x4x1, .f32⟩
  | 11 => ⟨S800000x4x1, .f32⟩
  | 12 => ⟨S_, .f32⟩
  | 13 => ⟨S800000x4x1, .f32⟩
  | 14 => ⟨S800000x4x1, .f32⟩
  | 15 => ⟨S_, .f32⟩
  | 16 => ⟨S_, .f32⟩
  | 17 => ⟨S_, .f32⟩
  | 18 => ⟨S800000x4x1, .f32⟩
  | 19 => ⟨S800000x4x1, .f32⟩
  | 20 => ⟨S_, .f32⟩
  | 21 => ⟨S800000x4x1, .f32⟩
  | 22 => ⟨S800000x4x1, .f32⟩
  | 23 => ⟨S800000x4x1, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x4x32, .f32⟩
  | 33 => ⟨S800000x4x32, .f32⟩
  | 34 => ⟨S800000x4x32, .f32⟩
  | 35 => ⟨S_, .f32⟩
  | 36 => ⟨S50000x4x32, .f32⟩
  | 37 => ⟨S800000x1, .i32⟩
  | 38 => ⟨S50000x4x32, .f32⟩
  | 39 => ⟨S_, .f32⟩
  | 40 => ⟨S50000x4x1, .f32⟩
  | 41 => ⟨S800000x1, .i32⟩
  | 42 => ⟨S50000x4x1, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x4x32, .f32⟩
  | 52 => ⟨S800000x4x32, .f32⟩
  | 53 => ⟨S800000x4x32, .f32⟩
  | 54 => ⟨S_, .f32⟩
  | 55 => ⟨S50000x4x32, .f32⟩
  | 56 => ⟨S800000x1, .i32⟩
  | 57 => ⟨S50000x4x32, .f32⟩
  | 58 => ⟨S_, .f32⟩
  | 59 => ⟨S50000x4x1, .f32⟩
  | 60 => ⟨S800000x1, .i32⟩
  | 61 => ⟨S50000x4x1, .f32⟩
  | 62 => ⟨S_, .f32⟩
  | 63 => ⟨S50000x4x1, .f32⟩
  | 64 => ⟨S50000x4x1, .f32⟩
  | 65 => ⟨S50000x4x32, .f32⟩
  | 66 => ⟨S50000x4x32, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S50000x128, .f32⟩
  | 77 => ⟨S_, .f32⟩
  | 78 => ⟨S50000, .f32⟩
  | 79 => ⟨S50000x1, .f32⟩
  | 80 => ⟨S_, .f32⟩
  | 81 => ⟨S50000x1, .f32⟩
  | 82 => ⟨S50000x1, .f32⟩
  | 83 => ⟨S50000x128, .f32⟩
  | 84 => ⟨S50000x128, .f32⟩
  | 85 => ⟨S50000x128, .f32⟩
  | 86 => ⟨S_, .f32⟩
  | 87 => ⟨S50000, .f32⟩
  | 88 => ⟨S50000x1, .f32⟩
  | 89 => ⟨S_, .f32⟩
  | 90 => ⟨S50000x1, .f32⟩
  | 91 => ⟨S50000x1, .f32⟩
  | 92 => ⟨S50000x128, .f32⟩
  | 93 => ⟨S50000x128, .f32⟩
  | 94 => ⟨S_, .f32⟩
  | 95 => ⟨S50000x1, .f32⟩
  | 96 => ⟨S50000x1, .f32⟩
  | 97 => ⟨S50000x1, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S50000x128, .f32⟩
  | 107 => ⟨S_, .f32⟩
  | 108 => ⟨S50000x4x1, .f32⟩
  | 109 => ⟨S50000x4x1, .f32⟩
  | 110 => ⟨S50000x4x32, .f32⟩
  | 111 => ⟨S50000x4x32, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S50000x128, .f32⟩
  | 122 => ⟨S_, .f32⟩
  | 123 => ⟨S50000, .f32⟩
  | 124 => ⟨S50000x1, .f32⟩
  | 125 => ⟨S_, .f32⟩
  | 126 => ⟨S50000x1, .f32⟩
  | 127 => ⟨S50000x1, .f32⟩
  | _ => ⟨S50000x128, .f32⟩

abbrev hbmTy0_2 (i : Nat) : BufTy := match i % 128 with
  | 0 => ⟨S50000x128, .f32⟩
  | 1 => ⟨S50000x128, .f32⟩
  | 2 => ⟨S50000x128, .f32⟩
  | 3 => ⟨S_, .f32⟩
  | 4 => ⟨S50000, .f32⟩
  | 5 => ⟨S50000x1, .f32⟩
  | 6 => ⟨S_, .f32⟩
  | 7 => ⟨S50000x1, .f32⟩
  | 8 => ⟨S50000x1, .f32⟩
  | 9 => ⟨S50000x128, .f32⟩
  | 10 => ⟨S50000x128, .f32⟩
  | 11 => ⟨S_, .f32⟩
  | 12 => ⟨S50000x1, .f32⟩
  | 13 => ⟨S50000x1, .f32⟩
  | 14 => ⟨S50000x1, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S50000x128, .f32⟩
  | 24 => ⟨S800000x1, .f32⟩
  | 25 => ⟨S800000x1x1, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x4x32, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x4x32, .f32⟩
  | 44 => ⟨S800000x4x32, .f32⟩
  | 45 => ⟨S_, .f32⟩
  | 46 => ⟨S800000x4, .f32⟩
  | 47 => ⟨S800000x4x1, .f32⟩
  | 48 => ⟨S800000x4x1, .f32⟩
  | 49 => ⟨S800000x4x1, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x4x32, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x4x32, .f32⟩
  | 68 => ⟨S800000x4x32, .f32⟩
  | 69 => ⟨S_, .f32⟩
  | 70 => ⟨S800000x4, .f32⟩
  | 71 => ⟨S800000x4x1, .f32⟩
  | 72 => ⟨S800000x4x1, .f32⟩
  | 73 => ⟨S800000x4x1, .f32⟩
  | 74 => ⟨S_, .f32⟩
  | 75 => ⟨S800000x4x1, .f32⟩
  | 76 => ⟨S800000x4x1, .f32⟩
  | 77 => ⟨S_, .f32⟩
  | 78 => ⟨S_, .f32⟩
  | 79 => ⟨S_, .f32⟩
  | 80 => ⟨S800000x4x1, .f32⟩
  | 81 => ⟨S800000x4x1, .f32⟩
  | 82 => ⟨S_, .f32⟩
  | 83 => ⟨S800000x4x1, .f32⟩
  | 84 => ⟨S800000x4x1, .f32⟩
  | 85 => ⟨S800000x4x1, .f32⟩
  | 86 => ⟨S_, .f32⟩
  | 87 => ⟨S800000x4x1, .f32⟩
  | 88 => ⟨S800000x4x1, .f32⟩
  | 89 => ⟨S_, .f32⟩
  | 90 => ⟨S_, .f32⟩
  | 91 => ⟨S_, .f32⟩
  | 92 => ⟨S800000x4x1, .f32⟩
  | 93 => ⟨S800000x4x1, .f32⟩
  | 94 => ⟨S_, .f32⟩
  | 95 => ⟨S800000x4x1, .f32⟩
  | 96 => ⟨S800000x4x1, .f32⟩
  | 97 => ⟨S800000x4x1, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x4x32, .f32⟩
  | 107 => ⟨S800000x4x32, .f32⟩
  | 108 => ⟨S800000x4x32, .f32⟩
  | 109 => ⟨S_, .f32⟩
  | 110 => ⟨S50000x4x32, .f32⟩
  | 111 => ⟨S800000x1, .i32⟩
  | 112 => ⟨S50000x4x32, .f32⟩
  | 113 => ⟨S_, .f32⟩
  | 114 => ⟨S50000x4x1, .f32⟩
  | 115 => ⟨S800000x1, .i32⟩
  | 116 => ⟨S50000x4x1, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x4x32, .f32⟩
  | 126 => ⟨S800000x4x32, .f32⟩
  | 127 => ⟨S800000x4x32, .f32⟩
  | _ => ⟨S50000x128, .f32⟩

abbrev hbmTy0_3 (i : Nat) : BufTy := match i % 128 with
  | 0 => ⟨S_, .f32⟩
  | 1 => ⟨S50000x4x32, .f32⟩
  | 2 => ⟨S800000x1, .i32⟩
  | 3 => ⟨S50000x4x32, .f32⟩
  | 4 => ⟨S_, .f32⟩
  | 5 => ⟨S50000x4x1, .f32⟩
  | 6 => ⟨S800000x1, .i32⟩
  | 7 => ⟨S50000x4x1, .f32⟩
  | 8 => ⟨S_, .f32⟩
  | 9 => ⟨S50000x4x1, .f32⟩
  | 10 => ⟨S50000x4x1, .f32⟩
  | 11 => ⟨S50000x4x32, .f32⟩
  | 12 => ⟨S50000x4x32, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S50000x128, .f32⟩
  | 23 => ⟨S_, .f32⟩
  | 24 => ⟨S50000, .f32⟩
  | 25 => ⟨S50000x1, .f32⟩
  | 26 => ⟨S_, .f32⟩
  | 27 => ⟨S50000x1, .f32⟩
  | 28 => ⟨S50000x1, .f32⟩
  | 29 => ⟨S50000x128, .f32⟩
  | 30 => ⟨S50000x128, .f32⟩
  | 31 => ⟨S50000x128, .f32⟩
  | 32 => ⟨S_, .f32⟩
  | 33 => ⟨S50000, .f32⟩
  | 34 => ⟨S50000x1, .f32⟩
  | 35 => ⟨S_, .f32⟩
  | 36 => ⟨S50000x1, .f32⟩
  | 37 => ⟨S50000x1, .f32⟩
  | 38 => ⟨S50000x128, .f32⟩
  | 39 => ⟨S50000x128, .f32⟩
  | 40 => ⟨S_, .f32⟩
  | 41 => ⟨S50000x1, .f32⟩
  | 42 => ⟨S50000x1, .f32⟩
  | 43 => ⟨S50000x1, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S50000x128, .f32⟩
  | 53 => ⟨S_, .f32⟩
  | 54 => ⟨S50000x4x1, .f32⟩
  | 55 => ⟨S50000x4x1, .f32⟩
  | 56 => ⟨S50000x4x32, .f32⟩
  | 57 => ⟨S50000x4x32, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S50000x128, .f32⟩
  | 68 => ⟨S_, .f32⟩
  | 69 => ⟨S50000, .f32⟩
  | 70 => ⟨S50000x1, .f32⟩
  | 71 => ⟨S_, .f32⟩
  | 72 => ⟨S50000x1, .f32⟩
  | 73 => ⟨S50000x1, .f32⟩
  | 74 => ⟨S50000x128, .f32⟩
  | 75 => ⟨S50000x128, .f32⟩
  | 76 => ⟨S50000x128, .f32⟩
  | 77 => ⟨S_, .f32⟩
  | 78 => ⟨S50000, .f32⟩
  | 79 => ⟨S50000x1, .f32⟩
  | 80 => ⟨S_, .f32⟩
  | 81 => ⟨S50000x1, .f32⟩
  | 82 => ⟨S50000x1, .f32⟩
  | 83 => ⟨S50000x128, .f32⟩
  | 84 => ⟨S50000x128, .f32⟩
  | 85 => ⟨S_, .f32⟩
  | 86 => ⟨S50000x1, .f32⟩
  | 87 => ⟨S50000x1, .f32⟩
  | 88 => ⟨S50000x1, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c : Ref sig .tc := ⟨.hbm, 80, rfl⟩
abbrev main_v47 : Ref sig .tc := ⟨.hbm, 81, rfl⟩
abbrev main_v48 : Ref sig .tc := ⟨.hbm, 82, rfl⟩
abbrev main_c_0 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_c_1 : Ref sig .tc := ⟨.hbm, 89, rfl⟩
abbrev main_v54 : Ref sig .tc := ⟨.hbm, 90, rfl⟩
abbrev main_v55 : Ref sig .tc := ⟨.hbm, 91, rfl⟩
abbrev main_c_2 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_c_3 : Ref sig .tc := ⟨.hbm, 104, rfl⟩
abbrev main_v66 : Ref sig .tc := ⟨.hbm, 105, rfl⟩
abbrev main_v67 : Ref sig .tc := ⟨.hbm, 106, rfl⟩
abbrev main_c_4 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_c_5 : Ref sig .tc := ⟨.hbm, 113, rfl⟩
abbrev main_v73 : Ref sig .tc := ⟨.hbm, 114, rfl⟩
abbrev main_v74 : Ref sig .tc := ⟨.hbm, 115, rfl⟩
abbrev main_c_6 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_7 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_8 : Ref sig .tc := ⟨.hbm, 128, rfl⟩
abbrev main_v85 : Ref sig .tc := ⟨.hbm, 129, rfl⟩
abbrev main_v86 : Ref sig .tc := ⟨.hbm, 130, rfl⟩
abbrev main_cst_9 : Ref sig .tc := ⟨.hbm, 131, rfl⟩
abbrev main_cst_10 : Ref sig .tc := ⟨.hbm, 132, rfl⟩
abbrev main_call0_v0 : Ref sig .tc := ⟨.hbm, 133, rfl⟩
abbrev main_call0_v1 : Ref sig .tc := ⟨.hbm, 134, rfl⟩
abbrev main_call0_v2 : Ref sig .tc := ⟨.hbm, 135, rfl⟩
abbrev main_call0_v3 : Ref sig .tc := ⟨.hbm, 136, rfl⟩
abbrev main_call0_v4 : Ref sig .tc := ⟨.hbm, 137, rfl⟩
abbrev main_v87 : Ref sig .tc := ⟨.hbm, 138, rfl⟩
abbrev main_v88 : Ref sig .tc := ⟨.hbm, 139, rfl⟩
abbrev main_cst_11 : Ref sig .tc := ⟨.hbm, 140, rfl⟩
abbrev main_v89 : Ref sig .tc := ⟨.hbm, 141, rfl⟩
abbrev main_v90 : Ref sig .tc := ⟨.hbm, 142, rfl⟩
abbrev main_cst_12 : Ref sig .tc := ⟨.hbm, 143, rfl⟩
abbrev main_cst_13 : Ref sig .tc := ⟨.hbm, 144, rfl⟩
abbrev main_call1_v0 : Ref sig .tc := ⟨.hbm, 145, rfl⟩
abbrev main_call1_v1 : Ref sig .tc := ⟨.hbm, 146, rfl⟩
abbrev main_call1_v2 : Ref sig .tc := ⟨.hbm, 147, rfl⟩
abbrev main_call1_v3 : Ref sig .tc := ⟨.hbm, 148, rfl⟩
abbrev main_call1_v4 : Ref sig .tc := ⟨.hbm, 149, rfl⟩
abbrev main_v91 : Ref sig .tc := ⟨.hbm, 150, rfl⟩
abbrev main_v92 : Ref sig .tc := ⟨.hbm, 151, rfl⟩
abbrev main_c_14 : Ref sig .tc := ⟨.hbm, 152, rfl⟩
abbrev main_v93 : Ref sig .tc := ⟨.hbm, 153, rfl⟩
abbrev main_v94 : Ref sig .tc := ⟨.hbm, 154, rfl⟩
abbrev main_c_15 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_cst_16 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_cst_17 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_c_18 : Ref sig .tc := ⟨.hbm, 171, rfl⟩
abbrev main_v108 : Ref sig .tc := ⟨.hbm, 172, rfl⟩
abbrev main_v109 : Ref sig .tc := ⟨.hbm, 173, rfl⟩
abbrev main_c_19 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_cst_20 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_cst_21 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_cst_22 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_cst_23 : Ref sig .tc := ⟨.hbm, 205, rfl⟩
abbrev main_v137 : Ref sig .tc := ⟨.hbm, 206, rfl⟩
abbrev main_v138 : Ref sig .tc := ⟨.hbm, 207, rfl⟩
abbrev main_cst_24 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_cst_25 : Ref sig .tc := ⟨.hbm, 214, rfl⟩
abbrev main_v144 : Ref sig .tc := ⟨.hbm, 215, rfl⟩
abbrev main_v145 : Ref sig .tc := ⟨.hbm, 216, rfl⟩
abbrev main_cst_26 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_cst_27 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_cst_28 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_cst_29 : Ref sig .tc := ⟨.hbm, 250, rfl⟩
abbrev main_v176 : Ref sig .tc := ⟨.hbm, 251, rfl⟩
abbrev main_v177 : Ref sig .tc := ⟨.hbm, 252, rfl⟩
abbrev main_cst_30 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_cst_31 : Ref sig .tc := ⟨.hbm, 259, rfl⟩
abbrev main_v183 : Ref sig .tc := ⟨.hbm, 260, rfl⟩
abbrev main_v184 : Ref sig .tc := ⟨.hbm, 261, rfl⟩
abbrev main_cst_32 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_cst_33 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_c_34 : Ref sig .tc := ⟨.hbm, 282, rfl⟩
abbrev main_v203 : Ref sig .tc := ⟨.hbm, 283, rfl⟩
abbrev main_v204 : Ref sig .tc := ⟨.hbm, 284, rfl⟩
abbrev main_c_35 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩
abbrev main_v209 : Ref sig .tc := ⟨.hbm, 290, rfl⟩
abbrev main_c_36 : Ref sig .tc := ⟨.hbm, 291, rfl⟩
abbrev main_v210 : Ref sig .tc := ⟨.hbm, 292, rfl⟩
abbrev main_v211 : Ref sig .tc := ⟨.hbm, 293, rfl⟩
abbrev main_c_37 : Ref sig .tc := ⟨.hbm, 294, rfl⟩
abbrev main_v212 : Ref sig .tc := ⟨.hbm, 295, rfl⟩
abbrev main_v213 : Ref sig .tc := ⟨.hbm, 296, rfl⟩
abbrev main_v214 : Ref sig .tc := ⟨.hbm, 297, rfl⟩
abbrev main_v215 : Ref sig .tc := ⟨.hbm, 298, rfl⟩
abbrev main_v216 : Ref sig .tc := ⟨.hbm, 299, rfl⟩
abbrev main_v217 : Ref sig .tc := ⟨.hbm, 300, rfl⟩
abbrev main_cst_38 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_c_39 : Ref sig .tc := ⟨.hbm, 306, rfl⟩
abbrev main_v222 : Ref sig .tc := ⟨.hbm, 307, rfl⟩
abbrev main_v223 : Ref sig .tc := ⟨.hbm, 308, rfl⟩
abbrev main_c_40 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_c_41 : Ref sig .tc := ⟨.hbm, 315, rfl⟩
abbrev main_v229 : Ref sig .tc := ⟨.hbm, 316, rfl⟩
abbrev main_v230 : Ref sig .tc := ⟨.hbm, 317, rfl⟩
abbrev main_c_42 : Ref sig .tc := ⟨.hbm, 318, rfl⟩
abbrev main_v231 : Ref sig .tc := ⟨.hbm, 319, rfl⟩
abbrev main_v232 : Ref sig .tc := ⟨.hbm, 320, rfl⟩
abbrev main_v233 : Ref sig .tc := ⟨.hbm, 321, rfl⟩
abbrev main_v234 : Ref sig .tc := ⟨.hbm, 322, rfl⟩
abbrev main_v235 : Ref sig .tc := ⟨.hbm, 323, rfl⟩
abbrev main_v236 : Ref sig .tc := ⟨.hbm, 324, rfl⟩
abbrev main_cst_43 : Ref sig .tc := ⟨.hbm, 325, rfl⟩
abbrev main_v237 : Ref sig .tc := ⟨.hbm, 326, rfl⟩
abbrev main_v238 : Ref sig .tc := ⟨.hbm, 327, rfl⟩
abbrev main_v239 : Ref sig .tc := ⟨.hbm, 328, rfl⟩
abbrev main_v240 : Ref sig .tc := ⟨.hbm, 329, rfl⟩
abbrev main_cst_44 : Ref sig .tc := ⟨.hbm, 330, rfl⟩
abbrev main_v241 : Ref sig .tc := ⟨.hbm, 331, rfl⟩
abbrev main_v242 : Ref sig .tc := ⟨.hbm, 332, rfl⟩
abbrev main_cst_45 : Ref sig .tc := ⟨.hbm, 333, rfl⟩
abbrev main_cst_46 : Ref sig .tc := ⟨.hbm, 334, rfl⟩
abbrev main_call2_v0 : Ref sig .tc := ⟨.hbm, 335, rfl⟩
abbrev main_call2_v1 : Ref sig .tc := ⟨.hbm, 336, rfl⟩
abbrev main_call2_v2 : Ref sig .tc := ⟨.hbm, 337, rfl⟩
abbrev main_call2_v3 : Ref sig .tc := ⟨.hbm, 338, rfl⟩
abbrev main_call2_v4 : Ref sig .tc := ⟨.hbm, 339, rfl⟩
abbrev main_v243 : Ref sig .tc := ⟨.hbm, 340, rfl⟩
abbrev main_v244 : Ref sig .tc := ⟨.hbm, 341, rfl⟩
abbrev main_cst_47 : Ref sig .tc := ⟨.hbm, 342, rfl⟩
abbrev main_v245 : Ref sig .tc := ⟨.hbm, 343, rfl⟩
abbrev main_v246 : Ref sig .tc := ⟨.hbm, 344, rfl⟩
abbrev main_cst_48 : Ref sig .tc := ⟨.hbm, 345, rfl⟩
abbrev main_cst_49 : Ref sig .tc := ⟨.hbm, 346, rfl⟩
abbrev main_call3_v0 : Ref sig .tc := ⟨.hbm, 347, rfl⟩
abbrev main_call3_v1 : Ref sig .tc := ⟨.hbm, 348, rfl⟩
abbrev main_call3_v2 : Ref sig .tc := ⟨.hbm, 349, rfl⟩
abbrev main_call3_v3 : Ref sig .tc := ⟨.hbm, 350, rfl⟩
abbrev main_call3_v4 : Ref sig .tc := ⟨.hbm, 351, rfl⟩
abbrev main_v247 : Ref sig .tc := ⟨.hbm, 352, rfl⟩
abbrev main_v248 : Ref sig .tc := ⟨.hbm, 353, rfl⟩
abbrev main_c_50 : Ref sig .tc := ⟨.hbm, 354, rfl⟩
abbrev main_v249 : Ref sig .tc := ⟨.hbm, 355, rfl⟩
abbrev main_v250 : Ref sig .tc := ⟨.hbm, 356, rfl⟩
abbrev main_c_51 : Ref sig .tc := ⟨.hbm, 357, rfl⟩
abbrev main_v251 : Ref sig .tc := ⟨.hbm, 358, rfl⟩
abbrev main_v252 : Ref sig .tc := ⟨.hbm, 359, rfl⟩
abbrev main_v253 : Ref sig .tc := ⟨.hbm, 360, rfl⟩
abbrev main_v254 : Ref sig .tc := ⟨.hbm, 361, rfl⟩
abbrev main_v255 : Ref sig .tc := ⟨.hbm, 362, rfl⟩
abbrev main_v256 : Ref sig .tc := ⟨.hbm, 363, rfl⟩
abbrev main_v257 : Ref sig .tc := ⟨.hbm, 364, rfl⟩
abbrev main_cst_52 : Ref sig .tc := ⟨.hbm, 365, rfl⟩
abbrev main_v258 : Ref sig .tc := ⟨.hbm, 366, rfl⟩
abbrev main_v259 : Ref sig .tc := ⟨.hbm, 367, rfl⟩
abbrev main_v260 : Ref sig .tc := ⟨.hbm, 368, rfl⟩
abbrev main_cst_53 : Ref sig .tc := ⟨.hbm, 369, rfl⟩
abbrev main_v261 : Ref sig .tc := ⟨.hbm, 370, rfl⟩
abbrev main_v262 : Ref sig .tc := ⟨.hbm, 371, rfl⟩
abbrev main_v263 : Ref sig .tc := ⟨.hbm, 372, rfl⟩
abbrev main_c_54 : Ref sig .tc := ⟨.hbm, 373, rfl⟩
abbrev main_v264 : Ref sig .tc := ⟨.hbm, 374, rfl⟩
abbrev main_v265 : Ref sig .tc := ⟨.hbm, 375, rfl⟩
abbrev main_c_55 : Ref sig .tc := ⟨.hbm, 376, rfl⟩
abbrev main_v266 : Ref sig .tc := ⟨.hbm, 377, rfl⟩
abbrev main_v267 : Ref sig .tc := ⟨.hbm, 378, rfl⟩
abbrev main_v268 : Ref sig .tc := ⟨.hbm, 379, rfl⟩
abbrev main_v269 : Ref sig .tc := ⟨.hbm, 380, rfl⟩
abbrev main_v270 : Ref sig .tc := ⟨.hbm, 381, rfl⟩
abbrev main_v271 : Ref sig .tc := ⟨.hbm, 382, rfl⟩
abbrev main_v272 : Ref sig .tc := ⟨.hbm, 383, rfl⟩
abbrev main_cst_56 : Ref sig .tc := ⟨.hbm, 384, rfl⟩
abbrev main_v273 : Ref sig .tc := ⟨.hbm, 385, rfl⟩
abbrev main_v274 : Ref sig .tc := ⟨.hbm, 386, rfl⟩
abbrev main_v275 : Ref sig .tc := ⟨.hbm, 387, rfl⟩
abbrev main_cst_57 : Ref sig .tc := ⟨.hbm, 388, rfl⟩
abbrev main_v276 : Ref sig .tc := ⟨.hbm, 389, rfl⟩
abbrev main_v277 : Ref sig .tc := ⟨.hbm, 390, rfl⟩
abbrev main_v278 : Ref sig .tc := ⟨.hbm, 391, rfl⟩
abbrev main_cst_58 : Ref sig .tc := ⟨.hbm, 392, rfl⟩
abbrev main_v279 : Ref sig .tc := ⟨.hbm, 393, rfl⟩
abbrev main_v280 : Ref sig .tc := ⟨.hbm, 394, rfl⟩
abbrev main_v281 : Ref sig .tc := ⟨.hbm, 395, rfl⟩
abbrev main_v282 : Ref sig .tc := ⟨.hbm, 396, rfl⟩
abbrev main_v283 : Ref sig .tc := ⟨.hbm, 397, rfl⟩
abbrev main_v284 : Ref sig .tc := ⟨.hbm, 398, rfl⟩
abbrev main_v285 : Ref sig .tc := ⟨.hbm, 399, rfl⟩
abbrev main_v286 : Ref sig .tc := ⟨.hbm, 400, rfl⟩
abbrev main_v287 : Ref sig .tc := ⟨.hbm, 401, rfl⟩
abbrev main_v288 : Ref sig .tc := ⟨.hbm, 402, rfl⟩
abbrev main_v289 : Ref sig .tc := ⟨.hbm, 403, rfl⟩
abbrev main_v290 : Ref sig .tc := ⟨.hbm, 404, rfl⟩
abbrev main_v291 : Ref sig .tc := ⟨.hbm, 405, rfl⟩
abbrev main_v292 : Ref sig .tc := ⟨.hbm, 406, rfl⟩
abbrev main_cst_59 : Ref sig .tc := ⟨.hbm, 407, rfl⟩
abbrev main_v293 : Ref sig .tc := ⟨.hbm, 408, rfl⟩
abbrev main_v294 : Ref sig .tc := ⟨.hbm, 409, rfl⟩
abbrev main_cst_60 : Ref sig .tc := ⟨.hbm, 410, rfl⟩
abbrev main_v295 : Ref sig .tc := ⟨.hbm, 411, rfl⟩
abbrev main_v296 : Ref sig .tc := ⟨.hbm, 412, rfl⟩
abbrev main_v297 : Ref sig .tc := ⟨.hbm, 413, rfl⟩
abbrev main_v298 : Ref sig .tc := ⟨.hbm, 414, rfl⟩
abbrev main_v299 : Ref sig .tc := ⟨.hbm, 415, rfl⟩
abbrev main_cst_61 : Ref sig .tc := ⟨.hbm, 416, rfl⟩
abbrev main_v300 : Ref sig .tc := ⟨.hbm, 417, rfl⟩
abbrev main_v301 : Ref sig .tc := ⟨.hbm, 418, rfl⟩
abbrev main_cst_62 : Ref sig .tc := ⟨.hbm, 419, rfl⟩
abbrev main_v302 : Ref sig .tc := ⟨.hbm, 420, rfl⟩
abbrev main_v303 : Ref sig .tc := ⟨.hbm, 421, rfl⟩
abbrev main_v304 : Ref sig .tc := ⟨.hbm, 422, rfl⟩
abbrev main_v305 : Ref sig .tc := ⟨.hbm, 423, rfl⟩
abbrev main_cst_63 : Ref sig .tc := ⟨.hbm, 424, rfl⟩
abbrev main_v306 : Ref sig .tc := ⟨.hbm, 425, rfl⟩
abbrev main_v307 : Ref sig .tc := ⟨.hbm, 426, rfl⟩
abbrev main_v308 : Ref sig .tc := ⟨.hbm, 427, rfl⟩
abbrev main_v309 : Ref sig .tc := ⟨.hbm, 428, rfl⟩
abbrev main_v310 : Ref sig .tc := ⟨.hbm, 429, rfl⟩
abbrev main_v311 : Ref sig .tc := ⟨.hbm, 430, rfl⟩
abbrev main_v312 : Ref sig .tc := ⟨.hbm, 431, rfl⟩
abbrev main_v313 : Ref sig .tc := ⟨.hbm, 432, rfl⟩
abbrev main_v314 : Ref sig .tc := ⟨.hbm, 433, rfl⟩
abbrev main_v315 : Ref sig .tc := ⟨.hbm, 434, rfl⟩
abbrev main_v316 : Ref sig .tc := ⟨.hbm, 435, rfl⟩
abbrev main_v317 : Ref sig .tc := ⟨.hbm, 436, rfl⟩
abbrev main_cst_64 : Ref sig .tc := ⟨.hbm, 437, rfl⟩
abbrev main_v318 : Ref sig .tc := ⟨.hbm, 438, rfl⟩
abbrev main_v319 : Ref sig .tc := ⟨.hbm, 439, rfl⟩
abbrev main_v320 : Ref sig .tc := ⟨.hbm, 440, rfl⟩
abbrev main_v321 : Ref sig .tc := ⟨.hbm, 441, rfl⟩
abbrev main_v322 : Ref sig .tc := ⟨.hbm, 442, rfl⟩
abbrev main_v323 : Ref sig .tc := ⟨.hbm, 443, rfl⟩
abbrev main_v324 : Ref sig .tc := ⟨.hbm, 444, rfl⟩
abbrev main_v325 : Ref sig .tc := ⟨.hbm, 445, rfl⟩
abbrev main_v326 : Ref sig .tc := ⟨.hbm, 446, rfl⟩
abbrev main_v327 : Ref sig .tc := ⟨.hbm, 447, rfl⟩
abbrev main_v328 : Ref sig .tc := ⟨.hbm, 448, rfl⟩
abbrev main_v329 : Ref sig .tc := ⟨.hbm, 449, rfl⟩
abbrev main_v330 : Ref sig .tc := ⟨.hbm, 450, rfl⟩
abbrev main_v331 : Ref sig .tc := ⟨.hbm, 451, rfl⟩
abbrev main_cst_65 : Ref sig .tc := ⟨.hbm, 452, rfl⟩
abbrev main_v332 : Ref sig .tc := ⟨.hbm, 453, rfl⟩
abbrev main_v333 : Ref sig .tc := ⟨.hbm, 454, rfl⟩
abbrev main_cst_66 : Ref sig .tc := ⟨.hbm, 455, rfl⟩
abbrev main_v334 : Ref sig .tc := ⟨.hbm, 456, rfl⟩
abbrev main_v335 : Ref sig .tc := ⟨.hbm, 457, rfl⟩
abbrev main_v336 : Ref sig .tc := ⟨.hbm, 458, rfl⟩
abbrev main_v337 : Ref sig .tc := ⟨.hbm, 459, rfl⟩
abbrev main_v338 : Ref sig .tc := ⟨.hbm, 460, rfl⟩
abbrev main_cst_67 : Ref sig .tc := ⟨.hbm, 461, rfl⟩
abbrev main_v339 : Ref sig .tc := ⟨.hbm, 462, rfl⟩
abbrev main_v340 : Ref sig .tc := ⟨.hbm, 463, rfl⟩
abbrev main_cst_68 : Ref sig .tc := ⟨.hbm, 464, rfl⟩
abbrev main_v341 : Ref sig .tc := ⟨.hbm, 465, rfl⟩
abbrev main_v342 : Ref sig .tc := ⟨.hbm, 466, rfl⟩
abbrev main_v343 : Ref sig .tc := ⟨.hbm, 467, rfl⟩
abbrev main_v344 : Ref sig .tc := ⟨.hbm, 468, rfl⟩
abbrev main_cst_69 : Ref sig .tc := ⟨.hbm, 469, rfl⟩
abbrev main_v345 : Ref sig .tc := ⟨.hbm, 470, rfl⟩
abbrev main_v346 : Ref sig .tc := ⟨.hbm, 471, rfl⟩
abbrev main_v347 : Ref sig .tc := ⟨.hbm, 472, rfl⟩
abbrev main_v348 : Ref sig .tc := ⟨.hbm, 473, rfl⟩
abbrev main_v349 : Ref sig .tc := ⟨.hbm, 474, rfl⟩
abbrev main_v350 : Ref sig .tc := ⟨.hbm, 475, rfl⟩
abbrev main_v351 : Ref sig .tc := ⟨.hbm, 476, rfl⟩
abbrev main_v352 : Ref sig .tc := ⟨.hbm, 477, rfl⟩
abbrev main_v353 : Ref sig .tc := ⟨.hbm, 478, rfl⟩
abbrev main_v354 : Ref sig .tc := ⟨.hbm, 479, rfl⟩
abbrev main_v355 : Ref sig .tc := ⟨.hbm, 480, rfl⟩
abbrev main_v356 : Ref sig .tc := ⟨.hbm, 481, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S50000x4x32 : S50000x128.ShapeCasts S50000x4x32
  slices_S800000x2_S800000x1_0_0 : S800000x2.Slices ![0, 0] S800000x1
  bcast_S800000x1_S800000x1x1_0_2 : S800000x1.BroadcastsInDim S800000x1x1 (![0, 2] : Fin 2 → Fin S800000x1x1.rank)
  bcast_S_S800000 : S_.BroadcastsInDim S800000 (![] : Fin 0 → Fin S800000.rank)
  bcast_S800000_S800000x1_0 : S800000.BroadcastsInDim S800000x1 (![0] : Fin 1 → Fin S800000x1.rank)
  reducesTo_S800000x4x32_S800000x4_d2 : S800000x4x32.ReducesTo [2] S800000x4
  h_S_ : 0 < S_.numel
  bcast_S800000x4_S800000x4x1_0_1 : S800000x4.BroadcastsInDim S800000x4x1 (![0, 1] : Fin 2 → Fin S800000x4x1.rank)
  bcast_S800000x1x1_S800000x4x1_0_1_2 : S800000x1x1.BroadcastsInDim S800000x4x1 (![0, 1, 2] : Fin 3 → Fin S800000x4x1.rank)
  bcast_S_S800000x4x1 : S_.BroadcastsInDim S800000x4x1 (![] : Fin 0 → Fin S800000x4x1.rank)
  bcast_S800000x4x1_S800000x4x32_0_1_2 : S800000x4x1.BroadcastsInDim S800000x4x32 (![0, 1, 2] : Fin 3 → Fin S800000x4x32.rank)
  bcast_S_S50000x4x32 : S_.BroadcastsInDim S50000x4x32 (![] : Fin 0 → Fin S50000x4x32.rank)
  bcast_S_S50000x4x1 : S_.BroadcastsInDim S50000x4x1 (![] : Fin 0 → Fin S50000x4x1.rank)
  bcast_S50000x4x1_S50000x4x32_0_1_2 : S50000x4x1.BroadcastsInDim S50000x4x32 (![0, 1, 2] : Fin 3 → Fin S50000x4x32.rank)
  shapeCasts_S50000x4x32_S50000x128 : S50000x4x32.ShapeCasts S50000x128
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  dot_S50000x256_S256x128_S50000x128_1_0_0_1_n_n_wf : DotDims.WF S50000x256 S256x128 S50000x128 [1] [0] [0] [1] [] []
  gather_S50000x4x32_S800000x1_S800000x4x32_12_0_n_n_0_1_1432_wf : GatherDims.WF S50000x4x32 S800000x1 S800000x4x32 [1, 2] [0] [] [0] [] 1 ![1, 4, 32]
  scatter_S50000x4x32_S800000x1_S800000x4x32_12_0_0_1_wf : ScatterDims.WF S50000x4x32 S800000x1 S800000x4x32 [1, 2] [0] [0] 1
  scatter_S50000x4x1_S800000x1_S800000x4x1_12_0_0_1_wf : ScatterDims.WF S50000x4x1 S800000x1 S800000x4x1 [1, 2] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x4x32_S800000x1_S800000x4x32_12_0_n_n_0_1_1432 : GatherDims S50000x4x32 S800000x1 S800000x4x32 where
  offsetDims := [1, 2]
  collapsedSliceDims := [0]
  operandBatchingDims := []
  startIndicesBatchingDims := []
  startIndexMap := [0]
  indexVectorDim := 1
  sliceSizes := ![1, 4, 32]
  wf := gather_S50000x4x32_S800000x1_S800000x4x32_12_0_n_n_0_1_1432_wf
def scatter_S50000x4x32_S800000x1_S800000x4x32_12_0_0_1 : ScatterDims S50000x4x32 S800000x1 S800000x4x32 where
  updateWindowDims := [1, 2]
  insertedWindowDims := [0]
  scatterDimsToOperandDims := [0]
  indexVectorDim := 1
  wf := scatter_S50000x4x32_S800000x1_S800000x4x32_12_0_0_1_wf
def scatter_S50000x4x1_S800000x1_S800000x4x1_12_0_0_1 : ScatterDims S50000x4x1 S800000x1 S800000x4x1 where
  updateWindowDims := [1, 2]
  insertedWindowDims := [0]
  scatterDimsToOperandDims := [0]
  indexVectorDim := 1
  wf := scatter_S50000x4x1_S800000x1_S800000x4x1_12_0_0_1_wf

class Facts : Prop extends Facts₀ where

variable [Facts]
-- ==== Proof.K.Sched.lean ====
import proofs.«406288_j68358699483732_1_alg».proof.Proof.Gen.Kernel.Launch
import proofs.«406288_j68358699483732_1_alg».proof.Proof.Gen.Kernel.Skeleton
import Idealize.ShloMosaic.Lib.Pipeline.Kit

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

namespace Sched

theorem word_toNat (n : Nat) (h : n < 400) : (BitVec.ofNat 32 n).toNat = n := by
  rw [BitVec.toNat_ofNat]
  exact Nat.mod_eq_of_lt (by omega)

theorem stride1_0 : grid1.stride 0 = 50 := by decide

theorem coords1_0 (t : Fin cfg1.N) : (grid1.coords t 0).val = t.val / 50 := by
  have hN : cfg1.N = 20000 := N_1
  have ht := t.isLt
  show t.val / grid1.stride 0 % 400 = _
  rw [stride1_0]
  omega

theorem index1_5 (t : Fin cfg1.N) : win1_5.index t = ![t.val / 50, 0] := by
  have hb : (grid1.coords t 0).val < 400 := (grid1.coords t 0).isLt
  funext a
  match a with
  | ⟨0, _⟩ =>
    show (BitVec.ofNat 32 (grid1.coords t 0).val).toNat = t.val / 50
    rw [word_toNat _ (by omega), coords1_0]
  | ⟨1, _⟩ => rfl

theorem stride2_0 : grid2.stride 0 = 400 := by decide

theorem coords2_0 (t : Fin cfg2.N) : (grid2.coords t 0).val = t.val / 400 := by
  have hN : cfg2.N = 20000 := N_2
  have ht := t.isLt
  show t.val / grid2.stride 0 % 50 = _
  rw [stride2_0]
  omega

theorem index2_2 (t : Fin cfg2.N) : win2_2.index t = ![t.val / 400, 0] := by
  have hb : (grid2.coords t 0).val < 50 := (grid2.coords t 0).isLt
  funext a
  match a with
  | ⟨0, _⟩ =>
    show (BitVec.ofNat 32 (grid2.coords t 0).val).toNat = t.val / 400
    rw [word_toNat _ (by omega), coords2_0]
  | ⟨1, _⟩ => rfl

end Sched

theorem flush0_5 : ∀ t : Fin cfg0.N, (cfg0.win 5).flush t = true :=
  (by decide +kernel : ∀ t : Fin grid0.N, win0_5.flush t = true)

theorem flush0_6 : ∀ t : Fin cfg0.N, (cfg0.win 6).flush t = true :=
  (by decide +kernel : ∀ t : Fin grid0.N, win0_6.flush t = true)

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev st0_4 (t : Fin cfg0.N) := (cfg0.win 4).stage (cfg0.slots t 4)
abbrev st0_5 (t : Fin cfg0.N) := (cfg0.win 5).stage (cfg0.slots t 5)
abbrev st0_6 (t : Fin cfg0.N) := (cfg0.win 6).stage (cfg0.slots t 6)

abbrev bodyAt0 (t : Fin cfg0.N) : Prog (TpuEff nD τ sig (Elt F) Λ₀ .tc) PUnit :=
  cc0__stage1_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))

theorem flush1_5 : ∀ t : Fin cfg1.N, (cfg1.win 5).flush t = true ↔ t.val % 50 = 49 := fun t => by
  have hN : grid1.N = 20000 := N_1
  have htl : t.val < 20000 := hN ▸ t.isLt
  show win1_5.flush t = true ↔ _
  unfold Window.flush
  rw [Bool.and_eq_true, Bool.or_eq_true, decide_eq_true_eq, decide_eq_true_eq]
  constructor
  · rintro ⟨-, h | ⟨h, hne⟩⟩
    · omega
    · by_contra hc
      apply hne
      rw [Sched.index1_5, Sched.index1_5]
      have e : (t.val + 1) / 50 = t.val / 50 := by omega
      show ![(t.val + 1) / 50, 0] = ![t.val / 50, 0]
      rw [e]
  · intro hlast
    refine ⟨rfl, ?_⟩
    by_cases hl : t.val + 1 = grid1.N
    · exact Or.inl hl
    · refine Or.inr ⟨by omega, fun he => ?_⟩
      rw [Sched.index1_5, Sched.index1_5] at he
      have h0 : (t.val + 1) / 50 = t.val / 50 := congrFun he 0
      omega

abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)
abbrev st1_3 (t : Fin cfg1.N) := (cfg1.win 3).stage (cfg1.slots t 3)
abbrev st1_4 (t : Fin cfg1.N) := (cfg1.win 4).stage (cfg1.slots t 4)
abbrev st1_5 (t : Fin cfg1.N) := (cfg1.win 5).stage (cfg1.slots t 5)

abbrev bodyAt1 (t : Fin cfg1.N) : Prog (TpuEff nD τ sig (Elt F) Λ₀ .tc) PUnit :=
  cc1__stage2_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (Memref.whole cc1_scratch0) (Memref.isWhole_whole _) (Memref.whole cc1_scratch1) (Memref.isWhole_whole _)

theorem flush2_2 : ∀ t : Fin cfg2.N, (cfg2.win 2).flush t = true ↔ t.val % 400 = 399 := fun t => by
  have hN : grid2.N = 20000 := N_2
  have htl : t.val < 20000 := hN ▸ t.isLt
  show win2_2.flush t = true ↔ _
  unfold Window.flush
  rw [Bool.and_eq_true, Bool.or_eq_true, decide_eq_true_eq, decide_eq_true_eq]
  constructor
  · rintro ⟨-, h | ⟨h, hne⟩⟩
    · omega
    · by_contra hc
      apply hne
      rw [Sched.index2_2, Sched.index2_2]
      have e : (t.val + 1) / 400 = t.val / 400 := by omega
      show ![(t.val + 1) / 400, 0] = ![t.val / 400, 0]
      rw [e]
  · intro hlast
    refine ⟨rfl, ?_⟩
    by_cases hl : t.val + 1 = grid2.N
    · exact Or.inl hl
    · refine Or.inr ⟨by omega, fun he => ?_⟩
      rw [Sched.index2_2, Sched.index2_2] at he
      have h0 : (t.val + 1) / 400 = t.val / 400 := congrFun he 0
      omega

abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)

abbrev bodyAt2 (t : Fin cfg2.N) : Prog (TpuEff nD τ sig (Elt F) Λ₀ .tc) PUnit :=
  cc2__stage3_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (Memref.whole cc2_scratch0) (Memref.isWhole_whole _)

theorem flush3_8 : ∀ t : Fin cfg3.N, (cfg3.win 8).flush t = true :=
  (by decide +kernel : ∀ t : Fin grid3.N, win3_8.flush t = true)

abbrev st3_0 (t : Fin cfg3.N) := (cfg3.win 0).stage (cfg3.slots t 0)
abbrev st3_1 (t : Fin cfg3.N) := (cfg3.win 1).stage (cfg3.slots t 1)
abbrev st3_2 (t : Fin cfg3.N) := (cfg3.win 2).stage (cfg3.slots t 2)
abbrev st3_3 (t : Fin cfg3.N) := (cfg3.win 3).stage (cfg3.slots t 3)
abbrev st3_4 (t : Fin cfg3.N) := (cfg3.win 4).stage (cfg3.slots t 4)
abbrev st3_5 (t : Fin cfg3.N) := (cfg3.win 5).stage (cfg3.slots t 5)
abbrev st3_6 (t : Fin cfg3.N) := (cfg3.win 6).stage (cfg3.slots t 6)
abbrev st3_7 (t : Fin cfg3.N) := (cfg3.win 7).stage (cfg3.slots t 7)
abbrev st3_8 (t : Fin cfg3.N) := (cfg3.win 8).stage (cfg3.slots t 8)

abbrev bodyAt3 (t : Fin cfg3.N) : Prog (TpuEff nD τ sig (Elt F) Λ₀ .tc) PUnit :=
  cc3__stage4_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4)) (win3_5.stage (cfg3.slots t 5)) (hstage3_5 ((cfg3.slots t 5).cast nbuf3_5)) (win3_6.stage (cfg3.slots t 6)) (hstage3_6 ((cfg3.slots t 6).cast nbuf3_6)) (win3_7.stage (cfg3.slots t 7)) (hstage3_7 ((cfg3.slots t 7).cast nbuf3_7)) (win3_8.stage (cfg3.slots t 8)) (hstage3_8 ((cfg3.slots t 8).cast nbuf3_8))

-- A later call of the same kernel has the earlier call's grid and index map, term for term.
theorem flush4_5 : ∀ t : Fin cfg4.N, (cfg4.win 5).flush t = true ↔ t.val % 50 = 49 := flush1_5

abbrev st4_0 (t : Fin cfg4.N) := (cfg4.win 0).stage (cfg4.slots t 0)
abbrev st4_1 (t : Fin cfg4.N) := (cfg4.win 1).stage (cfg4.slots t 1)
abbrev st4_2 (t : Fin cfg4.N) := (cfg4.win 2).stage (cfg4.slots t 2)
abbrev st4_3 (t : Fin cfg4.N) := (cfg4.win 3).stage (cfg4.slots t 3)
abbrev st4_4 (t : Fin cfg4.N) := (cfg4.win 4).stage (cfg4.slots t 4)
abbrev st4_5 (t : Fin cfg4.N) := (cfg4.win 5).stage (cfg4.slots t 5)

abbrev bodyAt4 (t : Fin cfg4.N) : Prog (TpuEff nD τ sig (Elt F) Λ₀ .tc) PUnit :=
  cc4__stage2_kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (Memref.whole cc4_scratch0) (Memref.isWhole_whole _) (Memref.whole cc4_scratch1) (Memref.isWhole_whole _)

theorem flush5_2 : ∀ t : Fin cfg5.N, (cfg5.win 2).flush t = true ↔ t.val % 400 = 399 := flush2_2

abbrev st5_0 (t : Fin cfg5.N) := (cfg5.win 0).stage (cfg5.slots t 0)
abbrev st5_1 (t : Fin cfg5.N) := (cfg5.win 1).stage (cfg5.slots t 1)
abbrev st5_2 (t : Fin cfg5.N) := (cfg5.win 2).stage (cfg5.slots t 2)

abbrev bodyAt5 (t : Fin cfg5.N) : Prog (TpuEff nD τ sig (Elt F) Λ₀ .tc) PUnit :=
  cc5__stage3_kernel (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (Memref.whole cc5_scratch0) (Memref.isWhole_whole _)

theorem flush6_8 : ∀ t : Fin cfg6.N, (cfg6.win 8).flush t = true := flush3_8

abbrev st6_0 (t : Fin cfg6.N) := (cfg6.win 0).stage (cfg6.slots t 0)
abbrev st6_1 (t : Fin cfg6.N) := (cfg6.win 1).stage (cfg6.slots t 1)
abbrev st6_2 (t : Fin cfg6.N) := (cfg6.win 2).stage (cfg6.slots t 2)
abbrev st6_3 (t : Fin cfg6.N) := (cfg6.win 3).stage (cfg6.slots t 3)
abbrev st6_4 (t : Fin cfg6.N) := (cfg6.win 4).stage (cfg6.slots t 4)
abbrev st6_5 (t : Fin cfg6.N) := (cfg6.win 5).stage (cfg6.slots t 5)
abbrev st6_6 (t : Fin cfg6.N) := (cfg6.win 6).stage (cfg6.slots t 6)
abbrev st6_7 (t : Fin cfg6.N) := (cfg6.win 7).stage (cfg6.slots t 7)
abbrev st6_8 (t : Fin cfg6.N) := (cfg6.win 8).stage (cfg6.slots t 8)

abbrev bodyAt6 (t : Fin cfg6.N) : Prog (TpuEff nD τ sig (Elt F) Λ₀ .tc) PUnit :=
  cc6__stage4_kernel (grid6.coords t) (win6_0.stage (cfg6.slots t 0)) (hstage6_0 ((cfg6.slots t 0).cast nbuf6_0)) (win6_1.stage (cfg6.slots t 1)) (hstage6_1 ((cfg6.slots t 1).cast nbuf6_1)) (win6_2.stage (cfg6.slots t 2)) (hstage6_2 ((cfg6.slots t 2).cast nbuf6_2)) (win6_3.stage (cfg6.slots t 3)) (hstage6_3 ((cfg6.slots t 3).cast nbuf6_3)) (win6_4.stage (cfg6.slots t 4)) (hstage6_4 ((cfg6.slots t 4).cast nbuf6_4)) (win6_5.stage (cfg6.slots t 5)) (hstage6_5 ((cfg6.slots t 5).cast nbuf6_5)) (win6_6.stage (cfg6.slots t 6)) (hstage6_6 ((cfg6.slots t 6).cast nbuf6_6)) (win6_7.stage (cfg6.slots t 7)) (hstage6_7 ((cfg6.slots t 7).cast nbuf6_7)) (win6_8.stage (cfg6.slots t 8)) (hstage6_8 ((cfg6.slots t 8).cast nbuf6_8))

end Cert.Kernel.Hand

end
-- ==== Proof.K.Stage1.lean ====
import proofs.«406288_j68358699483732_1_alg».proof.Proof.Gen.Kernel.Launch
import proofs.«406288_j68358699483732_1_alg».proof.Proof.Gen.Kernel.Skeleton
import proofs.«406288_j68358699483732_1_alg».proof.Proof.K.Sched
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  refine (dat.before_in_eq_fetched 0 rfl (fun _ => rfl) (fun _ _ _ => rfl) (fun t => ?_) t d).trans ?_
  · rw [hafter]; unfold Dat.blockOf iblk0; rw [hA]; try rfl
  · unfold Dat.fetched Dat.blockOf iblk0; rw [hA]; try rfl

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  refine (dat.before_in_eq_fetched 1 rfl (fun _ => rfl) (fun _ _ _ => rfl) (fun t => ?_) t d).trans ?_
  · rw [hafter]; unfold Dat.blockOf iblk0; rw [hA]; try rfl
  · unfold Dat.fetched Dat.blockOf iblk0; rw [hA]; try rfl

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t := by
  refine (dat.before_in_eq_fetched 2 rfl (fun _ => rfl) (fun _ _ _ => rfl) (fun t => ?_) t d).trans ?_
  · rw [hafter]; unfold Dat.blockOf iblk0; rw [hA]; try rfl
  · unfold Dat.fetched Dat.blockOf iblk0; rw [hA]; try rfl

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t := by
  refine (dat.before_in_eq_fetched 3 rfl (fun _ => rfl) (fun _ _ _ => rfl) (fun t => ?_) t d).trans ?_
  · rw [hafter]; unfold Dat.blockOf iblk0; rw [hA]; try rfl
  · unfold Dat.fetched Dat.blockOf iblk0; rw [hA]; try rfl

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t := by
  refine (dat.before_in_eq_fetched 4 rfl (fun _ => rfl) (fun _ _ _ => rfl) (fun t => ?_) t d).trans ?_
  · rw [hafter]; unfold Dat.blockOf iblk0; rw [hA]; try rfl
  · unfold Dat.fetched Dat.blockOf iblk0; rw [hA]; try rfl

abbrev r0_x : Rect S2000x256 := Rect.unit (s := S2000x256) ![0, 0] S2000x256.size inb_S2000x256_S2000x256_0_0
abbrev r0_w : Rect S256x256 := Rect.unit (s := S256x256) ![0, 0] S256x256.size inb_S256x256_S256x256_0_0
abbrev r0_b : Rect S256 := Rect.unit (s := S256) ![0] S256.size inb_S256_S256_0
abbrev r0_u : Rect S256x128 := Rect.unit (s := S256x128) ![0, 0] S256x128.size inb_S256x128_S256x128_0_0
abbrev r0_a : Rect S128 := Rect.unit (s := S128) ![0] S128.size inb_S128_S128_0
abbrev r0_q : Rect S2000x128 := Rect.unit (s := S2000x128) ![0, 0] S2000x128.size inb_S2000x128_S2000x128_0_0

def out0_5 (x0 : Vec F S2000x256 .f32) (x1 : Vec F S256x256 .f32) (x2 : Vec F S256 .f32) : Vec F S2000x256 .f32 :=
  View.canon [⟨r0_x, k0_pay2 (View.ld x0 r0_x) (View.ld x1 r0_w) (View.ld x2 r0_b)⟩]

def out0_6 (x0 : Vec F S2000x256 .f32) (x3 : Vec F S256x128 .f32) (x4 : Vec F S128 .f32) : Vec F S2000x128 .f32 :=
  View.canon [⟨r0_q, k0_pay3 (View.ld x0 r0_x) (View.ld x3 r0_u) (View.ld x4 r0_a)⟩]

theorem cover0_5 (p0 : Vec F S2000x256 .f32) (y : S2000x256.Idx) :
    ∃ pc ∈ ([⟨r0_x, p0⟩] : List (View.Piece (Elt F) S2000x256 .f32)), y ∈ pc.1.set :=
  View.cover_of_tiled [⟨r0_x, p0⟩] S2000x256.size (by rfl) y

theorem cover0_6 (p0 : Vec F S2000x128 .f32) (y : S2000x128.Idx) :
    ∃ pc ∈ ([⟨r0_q, p0⟩] : List (View.Piece (Elt F) S2000x128 .f32)), y ∈ pc.1.set :=
  View.cover_of_tiled [⟨r0_q, p0⟩] S2000x128.size (by rfl) y

set_option maxHeartbeats 1000000 in

theorem sound_kernel0 (c : Dev nD) (E : Set ℕ) (i : grid0.Coords)
    (arg1 : Memref sig .tc .vmem S2000x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S256x128 .f32) (harg4 : arg4.IsWhole)
    (arg5 : Memref sig .tc .vmem S128 .f32) (harg5 : arg5.IsWhole) (arg6 : Memref sig .tc .vmem S2000x256 .f32) (harg6 : arg6.IsWhole)
    (arg7 : Memref sig .tc .vmem S2000x128 .f32) (harg7 : arg7.IsWhole)
    (x0 : Vec F S2000x256 .f32) (x1 : Vec F S256x256 .f32) (x2 : Vec F S256 .f32) (x3 : Vec F S256x128 .f32) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x3 x4)) -∗ K ⟨⟩))
      ⊢ wp frame (wpE (defs₀ (F := F)) Variants.none c none) E
          (cc0__stage1_kernel i arg1 harg1 arg2 harg2 arg3 harg3 arg4 harg4 arg5 harg5 arg6 harg6 arg7 harg7) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  · iexists _; isplitr
    swap; · iexact H6
    ipureintro
    exact View.read_writes_eq_canon _ _ _ (cover0_6 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem hin0 (c : Dev nD) : (Pipeline.ΦA spec0 c : sProp 𝕄) ⊢ (dat0 V c).Φ 0 := BIBase.Entails.rfl
theorem hout0 (c : Dev nD) : (dat0 V c).Φ (Fin.last cfg0.N) ⊢ (Pipeline.ΦA spec0 c : sProp 𝕄) := BIBase.Entails.rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Defs.lean ====
import proofs.«406288_j68358699483732_1_alg».proof.Proof.Gen.Kernel.Skeleton
import proofs.«406288_j68358699483732_1_alg».proof.Proof.Gen.Kernel.Launch
import Idealize.ShloMosaic.Lib.Pipeline.FrameBody

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rK1 : Rect S2000x256 := Rect.unit (s := S2000x256) ![0, 0] S2000x128.size inb_S2000x256_S2000x128_0_0
abbrev rV1 : Rect S2000x256 := Rect.unit (s := S2000x256) ![0, 128] S2000x128.size inb_S2000x256_S2000x128_0_128

def accKV1 (c : Dev nD) : (n : ℕ) → n < cfg1.N → Vec F S2000x256 .f32
  | 0, h => k1_pay6 (grid1.coords ⟨0, h⟩) (iblk1 V c 0 ⟨0, h⟩) (iblk1 V c 3 ⟨0, h⟩) k1_pay3
  | n + 1, h => k1_pay6 (grid1.coords ⟨n + 1, h⟩) (iblk1 V c 0 ⟨n + 1, h⟩) (iblk1 V c 3 ⟨n + 1, h⟩)
      (if (n + 1) % 50 = 0 then k1_pay3 else accKV1 c n (Nat.lt_of_succ_lt h))

def accQ1 (c : Dev nD) : (n : ℕ) → n < cfg1.N → Vec F S2000x128 .f32
  | 0, h => k1_pay1 k1_pay4 (k1_pay7 (grid1.coords ⟨0, h⟩) (iblk1 V c 1 ⟨0, h⟩) (iblk1 V c 4 ⟨0, h⟩))
  | n + 1, h => k1_pay1 (if (n + 1) % 50 = 0 then k1_pay4 else accQ1 c n (Nat.lt_of_succ_lt h))
      (k1_pay7 (grid1.coords ⟨n + 1, h⟩) (iblk1 V c 1 ⟨n + 1, h⟩) (iblk1 V c 4 ⟨n + 1, h⟩))

def emit1 (c : Dev nD) (t : Fin cfg1.N) : Vec F S2000x256 .f32 :=
  k1_pay2 (View.ld (accKV1 V c t.val t.isLt) rK1) (View.ld (accKV1 V c t.val t.isLt) rV1)
    (accQ1 V c t.val t.isLt) (iblk1 V c 2 t)

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 (c : Dev nD) : (n : ℕ) → n < cfg2.N → Vec F S1000x256 .f32
  | 0, h => k2_pay2 (grid2.coords ⟨0, h⟩) (iblk2 V c 0 ⟨0, h⟩) (iblk2 V c 1 ⟨0, h⟩) k2_pay1
  | n + 1, h => k2_pay2 (grid2.coords ⟨n + 1, h⟩) (iblk2 V c 0 ⟨n + 1, h⟩) (iblk2 V c 1 ⟨n + 1, h⟩)
      (if (n + 1) % 400 = 0 then k2_pay1 else acc2 c n (Nat.lt_of_succ_lt h))

end Cert.Kernel.Hand

end
-- ==== Proof.K.Stage2Run.lean ====
import proofs.«406288_j68358699483732_1_alg».proof.Proof.Gen.Kernel.Launch
import proofs.«406288_j68358699483732_1_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop :=
  (Scalar.cmpi .ne (Scalar.extui (Scalar.cmpi .eq (BitVec.ofNat 32 (i 1).val) 0#32)) 0#32) = 1#1

abbrev cond1_1 (i : grid1.Coords) : Prop := k1_cond2 i = 1#1

theorem off2_zero1 : (![0, 0] : Fin 2 → ℕ) = fun _ => 0 := by
  funext a; fin_cases a <;> rfl

theorem readAt_whole_unread1 {s : Shape} {e : EltTy} (m : Memref sig .tc .vmem s e) (h : m.IsWhole)
    (X : s.Idx → Elt F e) {off : Fin s.rank → ℕ} (ho : off = fun _ => 0) (inb : ∀ a, off a + s.size a ≤ s.size a) :
    View.readAt (Elt F) m.view (Rect.unit off s.size inb).toLoadRect (h.unread X) = X := by
  show View.ld (m.view.read (Elt F) (h.unread X)) (Rect.unit off s.size inb) = X
  rw [h.read_unread, View.ld_unit_zero ho]

theorem read_writes_whole1 {s : Shape} {e : EltTy} (v : View sig .tc .vmem s e) (f : v.ty.Contents (Elt F))
    {off : Fin s.rank → ℕ} (ho : off = fun _ => 0) (inb : ∀ a, off a + s.size a ≤ s.size a)
    (w : s.Idx → Elt F e) (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self, View.mem_set_unit_zero ho inb y⟩),
    View.canon_cons_unit_zero ho]

theorem readCov_whole_ld1 {s : Shape} {e : EltTy} (v : View sig .tc .vmem s e)
    {off : Fin s.rank → ℕ} (ho : off = fun _ => 0) (inb : ∀ a, off a + s.size a ≤ s.size a)
    (w : s.Idx → Elt F e) (L : List (View.Piece (Elt F) s e)) (r : Rect s) :
    v.readCov ((⟨Rect.unit off s.size inb, w⟩ : View.Piece (Elt F) s e) :: L) r.toLoadRect = View.ld w r := by
  rw [View.readCov_eq_canon_ld _ _ _ (fun y => ⟨_, List.mem_cons_self, View.mem_set_unit_zero ho inb y⟩),
    View.canon_cons_unit_zero ho]

set_option maxHeartbeats 1000000 in

theorem kernelRun1_A (c : Dev nD) (i : grid1.Coords)
    (arg2 : Memref sig .tc .vmem S2000x1 .i32) (harg2 : arg2.IsWhole) (arg3 : Memref sig .tc .vmem S2000x1 .i32) (harg3 : arg3.IsWhole)
    (arg4 : Memref sig .tc .vmem S2000x2 .f32) (harg4 : arg4.IsWhole) (arg5 : Memref sig .tc .vmem S1000x256 .f32) (harg5 : arg5.IsWhole)
    (arg6 : Memref sig .tc .vmem S1000x128 .f32) (harg6 : arg6.IsWhole) (arg7 : Memref sig .tc .vmem S2000x256 .f32) (harg7 : arg7.IsWhole)
    (arg8 : Memref sig .tc .vmem S2000x256 .f32) (harg8 : arg8.IsWhole) (arg9 : Memref sig .tc .vmem S2000x128 .f32) (harg9 : arg9.IsWhole)
    (hc0 : cond1_0 i) (hc1 : ¬cond1_1 i)
    (x0 : Vec F S2000x1 .i32) (x1 : Vec F S2000x1 .i32) (x2 : Vec F S2000x2 .f32) (x3 : Vec F S1000x256 .f32) (x4 : Vec F S1000x128 .f32)
    (xi5 : Vec F S2000x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ owns (c : Thread nD τ) arg8 fullShare (k1_pay6 i x0 x3 k1_pay3)
            ∗ owns (c : Thread nD τ) arg9 fullShare (k1_pay1 k1_pay4 (k1_pay7 i x1 x4))) -∗ K ⟨⟩))
      ⊢ wp frame (wpE (defs₀ (F := F)) Variants.none c none) E
          (cc1__stage2_kernel i arg2 harg2 arg3 harg3 arg4 harg4 arg5 harg5 arg6 harg6 arg7 harg7 arg8 harg8 arg9 harg9) K := by
  simp only [cc1__stage2_kernel_eq_skeleton]; unfold cc1__stage2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr
    swap; · iexact HS0
    ipureintro
    refine (read_writes_whole1 _ _ off2_zero1 _ _ _).trans ?_
    unfold kernelRun1_A.sl.v29 kernelRun1_A.sl.HS0_1
    exact congr (congr (congrArg (k1_pay6 i) (readAt_whole_unread1 arg2 harg2 x0 off2_zero1 _))
      (readAt_whole_unread1 arg5 harg5 x3 off2_zero1 _)) (View.readCov_unit_zero _ off2_zero1 _ _)
  iexists _; isplitr
  swap; · iexact HS1
  ipureintro
  refine (read_writes_whole1 _ _ off2_zero1 _ _ _).trans ?_
  unfold kernelRun1_A.sl.v35 kernelRun1_A.sl.HS1_1
  dsimp only
  rw [View.readCov_unit_zero _ off2_zero1, readAt_whole_unread1 arg3 harg3 x1 off2_zero1,
    readAt_whole_unread1 arg6 harg6 x4 off2_zero1]

set_option maxHeartbeats 1000000 in

theorem kernelRun1_B (c : Dev nD) (i : grid1.Coords)
    (arg2 : Memref sig .tc .vmem S2000x1 .i32) (harg2 : arg2.IsWhole) (arg3 : Memref sig .tc .vmem S2000x1 .i32) (harg3 : arg3.IsWhole)
    (arg4 : Memref sig .tc .vmem S2000x2 .f32) (harg4 : arg4.IsWhole) (arg5 : Memref sig .tc .vmem S1000x256 .f32) (harg5 : arg5.IsWhole)
    (arg6 : Memref sig .tc .vmem S1000x128 .f32) (harg6 : arg6.IsWhole) (arg7 : Memref sig .tc .vmem S2000x256 .f32) (harg7 : arg7.IsWhole)
    (arg8 : Memref sig .tc .vmem S2000x256 .f32) (harg8 : arg8.IsWhole) (arg9 : Memref sig .tc .vmem S2000x128 .f32) (harg9 : arg9.IsWhole)
    (hc0 : ¬cond1_0 i) (hc1 : ¬cond1_1 i)
    (x0 : Vec F S2000x1 .i32) (x1 : Vec F S2000x1 .i32) (x2 : Vec F S2000x2 .f32) (x3 : Vec F S1000x256 .f32) (x4 : Vec F S1000x128 .f32)
    (xi5 : Vec F S2000x256 .f32) (xs0 : Vec F S2000x256 .f32) (xs1 : Vec F S2000x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
        ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
            ∗ owns (c : Thread nD τ) arg8 fullShare (k1_pay6 i x0 x3 xs0)
            ∗ owns (c : Thread nD τ) arg9 fullShare (k1_pay1 xs1 (k1_pay7 i x1 x4))) -∗ K ⟨⟩))
      ⊢ wp frame (wpE (defs₀ (F := F)) Variants.none c none) E
          (cc1__stage2_kernel i arg2 harg2 arg3 harg3 arg4 harg4 arg5 harg5 arg6 harg6 arg7 harg7 arg8 harg8 arg9 harg9) K := by
  simp only [cc1__stage2_kernel_eq_skeleton]; unfold cc1__stage2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs0; obtain rfl := harg9.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr
    swap; · iexact HS0
    ipureintro
    refine (read_writes_whole1 _ _ off2_zero1 _ _ _).trans ?_
    rw [readAt_whole_unread1 arg2 harg2 x0 off2_zero1, readAt_whole_unread1 arg5 harg5 x3 off2_zero1,
      readAt_whole_unread1 arg8 harg8 xs0 off2_zero1]
  iexists _; isplitr
  swap; · iexact HS1
  ipureintro
  refine (read_writes_whole1 _ _ off2_zero1 _ _ _).trans ?_
  dsimp only
  rw [readAt_whole_unread1 arg9 harg9 xs1 off2_zero1, readAt_whole_unread1 arg3 harg3 x1 off2_zero1,
    readAt_whole_unread1 arg6 harg6 x4 off2_zero1]

set_option maxHeartbeats 1000000 in

theorem kernelRun1_C (c : Dev nD) (i : grid1.Coords)
    (arg2 : Memref sig .tc .vmem S2000x1 .i32) (harg2 : arg2.IsWhole) (arg3 : Memref sig .tc .vmem S2000x1 .i32) (harg3 : arg3.IsWhole)
    (arg4 : Memref sig .tc .vmem S2000x2 .f32) (harg4 : arg4.IsWhole) (arg5 : Memref sig .tc .vmem S1000x256 .f32) (harg5 : arg5.IsWhole)
    (arg6 : Memref sig .tc .vmem S1000x128 .f32) (harg6 : arg6.IsWhole) (arg7 : Memref sig .tc .vmem S2000x256 .f32) (harg7 : arg7.IsWhole)
    (arg8 : Memref sig .tc .vmem S2000x256 .f32) (harg8 : arg8.IsWhole) (arg9 : Memref sig .tc .vmem S2000x128 .f32) (harg9 : arg9.IsWhole)
    (hc0 : ¬cond1_0 i) (hc1 : cond1_1 i)
    (x0 : Vec F S2000x1 .i32) (x1 : Vec F S2000x1 .i32) (x2 : Vec F S2000x2 .f32) (x3 : Vec F S1000x256 .f32) (x4 : Vec F S1000x128 .f32)
    (xs0 : Vec F S2000x256 .f32) (xs1 : Vec F S2000x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare
                (k1_pay2 (View.ld (k1_pay6 i x0 x3 xs0) (Rect.unit (s := S2000x256) ![0, 0] S2000x128.size inb_S2000x256_S2000x128_0_0))
                  (View.ld (k1_pay6 i x0 x3 xs0) (Rect.unit (s := S2000x256) ![0, 128] S2000x128.size inb_S2000x256_S2000x128_0_128))
                  (k1_pay1 xs1 (k1_pay7 i x1 x4)) x2)
            ∗ owns (c : Thread nD τ) arg8 fullShare (k1_pay6 i x0 x3 xs0)
            ∗ owns (c : Thread nD τ) arg9 fullShare (k1_pay1 xs1 (k1_pay7 i x1 x4))) -∗ K ⟨⟩))
      ⊢ wp frame (wpE (defs₀ (F := F)) Variants.none c none) E
          (cc1__stage2_kernel i arg2 harg2 arg3 harg3 arg4 harg4 arg5 harg5 arg6 harg6 arg7 harg7 arg8 harg8 arg9 harg9) K := by
  simp only [cc1__stage2_kernel_eq_skeleton]; unfold cc1__stage2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs0; obtain rfl := harg9.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (read_writes_whole1 _ _ off2_zero1 _ _ _).trans ?_
    unfold kernelRun1_C.sl.v44 kernelRun1_C.sl.v46 kernelRun1_C.sl.v48 kernelRun1_C.sl.HS0_1 kernelRun1_C.sl.HS1_1
    dsimp only
    rw [View.readCov_cons_toLoadRect, readCov_whole_ld1 _ off2_zero1, readCov_whole_ld1 _ off2_zero1,
      readAt_whole_unread1 arg2 harg2 x0 off2_zero1, readAt_whole_unread1 arg5 harg5 x3 off2_zero1,
      readAt_whole_unread1 arg8 harg8 xs0 off2_zero1, readAt_whole_unread1 arg9 harg9 xs1 off2_zero1,
      readAt_whole_unread1 arg3 harg3 x1 off2_zero1, readAt_whole_unread1 arg6 harg6 x4 off2_zero1,
      readAt_whole_unread1 arg4 harg4 x2 off2_zero1]
  isplitl [HS0]
  · iexists _; isplitr
    swap; · iexact HS0
    ipureintro
    unfold kernelRun1_C.sl.HS0_1
    refine (read_writes_whole1 _ _ off2_zero1 _ _ _).trans ?_
    rw [readAt_whole_unread1 arg2 harg2 x0 off2_zero1, readAt_whole_unread1 arg5 harg5 x3 off2_zero1,
      readAt_whole_unread1 arg8 harg8 xs0 off2_zero1]
  iexists _; isplitr
  swap; · iexact HS1
  ipureintro
  unfold kernelRun1_C.sl.HS1_1
  refine (read_writes_whole1 _ _ off2_zero1 _ _ _).trans ?_
  dsimp only
  rw [readAt_whole_unread1 arg9 harg9 xs1 off2_zero1, readAt_whole_unread1 arg3 harg3 x1 off2_zero1,
    readAt_whole_unread1 arg6 harg6 x4 off2_zero1]

end Cert.Kernel.Hand

end
-- ==== Proof.K.Stage2.lean ====
import proofs.«406288_j68358699483732_1_alg».proof.Proof.Gen.Kernel.Launch
import proofs.«406288_j68358699483732_1_alg».proof.Proof.Gen.Kernel.Skeleton
import proofs.«406288_j68358699483732_1_alg».proof.Proof.K.Sched
import proofs.«406288_j68358699483732_1_alg».proof.Proof.K.Defs
import proofs.«406288_j68358699483732_1_alg».proof.Proof.K.Stage2Run
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem coord1_1 (t : Fin cfg1.N) : (grid1.coords t 1).val = t.val % 50 := by
  show t.val / grid1.stride 1 % 50 = t.val % 50
  rw [show grid1.stride 1 = 1 from by decide, Nat.div_one]

theorem hcond1_0 (t : Fin cfg1.N) : cond1_0 (grid1.coords t) ↔ t.val % 50 = 0 := by
  have key : ∀ j : Fin 50, (Scalar.cmpi .ne (Scalar.extui (Scalar.cmpi .eq (BitVec.ofNat 32 j.val) 0#32)) 0#32) = 1#1 ↔ j.val = 0 := by
    decide +kernel
  exact (key (grid1.coords t 1)).trans (by rw [coord1_1])

theorem hcond1_1 (t : Fin cfg1.N) : cond1_1 (grid1.coords t) ↔ t.val % 50 = 49 := by
  have key : ∀ j : Fin 50, (Scalar.cmpi .ne (Scalar.extui (Scalar.cmpi .eq (BitVec.ofNat 32 j.val) 49#32)) 0#32) = 1#1 ↔ j.val = 49 := by
    decide +kernel
  exact (key (grid1.coords t 1)).trans (by rw [coord1_1])

theorem idleAt1_5 (i : grid1.Coords) (h : ¬cond1_1 i) : cfg1.idle 5 i = true := by
  show (!(k1_cond2 i == 1#1)) = true
  rw [show (k1_cond2 i == 1#1) = false from beq_eq_false_iff_ne.mpr h]; rfl

theorem liveAt1_5 (i : grid1.Coords) (h : cond1_1 i) : cfg1.idle 5 i = false := by
  show (!(k1_cond2 i == 1#1)) = false
  rw [show (k1_cond2 i == 1#1) = true from beq_iff_eq.mpr h]; rfl

theorem noFlush1_5 (t : Fin cfg1.N) (h : ¬t.val % 50 = 49) : (cfg1.win 5).flush t = false :=
  Bool.eq_false_iff.mpr fun hf => h ((flush1_5 t).mp hf)

abbrev ms1_0 (t : Fin cfg1.N) : Memref sig .tc .vmem S2000x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x2 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1000x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1000x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2000x256 .f32 := win1_5.stage (cfg1.slots t 5)
abbrev hs1_5 (t : Fin cfg1.N) : (ms1_5 t).IsWhole := hstage1_5 ((cfg1.slots t 5).cast nbuf1_5)

abbrev scM1_0 : Memref sig .tc .vmem S2000x256 .f32 := Memref.whole cc1_scratch0
abbrev scM1_1 : Memref sig .tc .vmem S2000x128 .f32 := Memref.whole cc1_scratch1

abbrev rest1 (c : Dev nD) : sProp 𝕄 :=
  Pipeline.scopedRestBut (Ix := Unit) (Name := ℕ) (U := UR sig nD τ) (Lvl := ℕ) (Val := Elt F) spec1 c [cc1_scratch0, cc1_scratch1]

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c)
          ∗ (∃ r, prngReg c r)) := by
  unfold Pipeline.ΦA; rw [scopedRest1_split]; simp only [scM1_0, scM1_1, rest1, owns_whole]; rfl

theorem accKV1_first (c : Dev nD) (t : Fin cfg1.N) (h0 : t.val % 50 = 0) :
    accKV1 V c t.val t.isLt = k1_pay6 (grid1.coords t) (iblk1 V c 0 t) (iblk1 V c 3 t) k1_pay3 := by
  obtain ⟨n, hn⟩ := t
  cases n with
  | zero => rfl
  | succ n => rw [accKV1]; dsimp only at h0 ⊢; rw [if_pos h0]

theorem accKV1_next (c : Dev nD) (t : Fin cfg1.N) (h0 : ¬t.val % 50 = 0) :
    accKV1 V c t.val t.isLt = k1_pay6 (grid1.coords t) (iblk1 V c 0 t) (iblk1 V c 3 t)
      (accKV1 V c (t.val - 1) (Nat.lt_of_le_of_lt (Nat.sub_le _ _) t.isLt)) := by
  obtain ⟨n, hn⟩ := t
  cases n with
  | zero => exact absurd (Nat.zero_mod _) h0
  | succ n => rw [accKV1]; dsimp only at h0 ⊢; rw [if_neg h0]; rfl

theorem accQ1_first (c : Dev nD) (t : Fin cfg1.N) (h0 : t.val % 50 = 0) :
    accQ1 V c t.val t.isLt = k1_pay1 k1_pay4 (k1_pay7 (grid1.coords t) (iblk1 V c 1 t) (iblk1 V c 4 t)) := by
  obtain ⟨n, hn⟩ := t
  cases n with
  | zero => rfl
  | succ n => rw [accQ1]; dsimp only at h0 ⊢; rw [if_pos h0]

theorem accQ1_next (c : Dev nD) (t : Fin cfg1.N) (h0 : ¬t.val % 50 = 0) :
    accQ1 V c t.val t.isLt = k1_pay1 (accQ1 V c (t.val - 1) (Nat.lt_of_le_of_lt (Nat.sub_le _ _) t.isLt))
      (k1_pay7 (grid1.coords t) (iblk1 V c 1 t) (iblk1 V c 4 t)) := by
  obtain ⟨n, hn⟩ := t
  cases n with
  | zero => exact absurd (Nat.zero_mod _) h0
  | succ n => rw [accQ1]; dsimp only at h0 ⊢; rw [if_neg h0]; rfl

def PhiS1 (c : Dev nD) : (n : ℕ) → n ≤ cfg1.N → sProp 𝕄
  | 0, _ => Pipeline.ΦA spec1 c
  | n + 1, hn => iprop(iprop(iprop(owns (c : Thread nD τ) scM1_0 fullShare (accKV1 V c n hn)
        ∗ owns (c : Thread nD τ) scM1_1 fullShare (accQ1 V c n hn)) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (accKV1 V c n hn)
        ∗ owns (c : Thread nD τ) scM1_1 fullShare (accQ1 V c n hn)) ∗ rest1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (accKV1 V c (n - 1) (by omega))
        ∗ owns (c : Thread nD τ) scM1_1 fullShare (accQ1 V c (n - 1) (by omega))) ∗ rest1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => emit1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

theorem after1_5 (c : Dev nD) (t : Fin cfg1.N) : (dat1 V c).after 5 t = emit1 V c t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 20000 := lt_of_lt_of_eq t.isLt (show cfg1.N = 20000 from N_1)
  rw [show (dat1 V c).leavesExact 0 t = owns (c : Thread nD τ) (ms1_0 t) fullShare ((dat1 V c).after 0 t) from rfl, after1_0]
  rw [show (dat1 V c).leavesExact 1 t = owns (c : Thread nD τ) (ms1_1 t) fullShare ((dat1 V c).after 1 t) from rfl, after1_1]
  rw [show (dat1 V c).leavesExact 2 t = owns (c : Thread nD τ) (ms1_2 t) fullShare ((dat1 V c).after 2 t) from rfl, after1_2]
  rw [show (dat1 V c).leavesExact 3 t = owns (c : Thread nD τ) (ms1_3 t) fullShare ((dat1 V c).after 3 t) from rfl, after1_3]
  rw [show (dat1 V c).leavesExact 4 t = owns (c : Thread nD τ) (ms1_4 t) fullShare ((dat1 V c).after 4 t) from rfl, after1_4]
  by_cases h0 : t.val % 50 = 0
  ·
    have h1 : ¬t.val % 50 = 49 := by omega
    have hc0 : cond1_0 (grid1.coords t) := (hcond1_0 t).mpr h0
    have hc1 : ¬cond1_1 (grid1.coords t) := fun h => h1 ((hcond1_1 t).mp h)
    rw [Dat.leavesExact_idle (dat1 V c) 5 t (idleAt1_5 _ hc1) (noFlush1_5 t h1)]
    rw [accKV1_first V c t h0, accQ1_first V c t h0]
    by_cases hz : t.val = 0
    · rw [PhiS1_castSucc V c t, PhiS1_zero V c _ _ hz, PhiA1_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply (kernelRun1_A c (grid1.coords t) _ (hs1_0 t) _ (hs1_1 t) _ (hs1_2 t) _ (hs1_3 t) _ (hs1_4 t) _ (hs1_5 t) _ (Memref.isWhole_whole _) _ (Memref.isWhole_whole _) hc0 hc1
        (iblk1 V c 0 t) (iblk1 V c 1 t) (iblk1 V c 2 t) (iblk1 V c 3 t) (iblk1 V c 4 t) ((dat1 V c).before 5 t d5) Set.univ _)
      iframe H0 H1 H2 H3 H4
      isplitl [H5]; · iexact H5
      isplitl [HS0]; · iexact HS0
      isplitl [HS1]; · iexact HS1
      iintro ⟨H0, H1, H2, H3, H4, H5, HS0, HS1⟩
      iframe Hr Hg Ho H0 H1 H2 H3 H4
      isplitl [HS0 HS1]
      · isplitl [HS0]; · iexact HS0
        iexact HS1
      iexists _; iexact H5
    · rw [PhiS1_castSucc V c t, PhiS1_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply (kernelRun1_A c (grid1.coords t) _ (hs1_0 t) _ (hs1_1 t) _ (hs1_2 t) _ (hs1_3 t) _ (hs1_4 t) _ (hs1_5 t) _ (Memref.isWhole_whole _) _ (Memref.isWhole_whole _) hc0 hc1
        (iblk1 V c 0 t) (iblk1 V c 1 t) (iblk1 V c 2 t) (iblk1 V c 3 t) (iblk1 V c 4 t) ((dat1 V c).before 5 t d5) Set.univ _)
      iframe H0 H1 H2 H3 H4
      isplitl [H5]; · iexact H5
      isplitl [HS0]; · iexists _; iexact HS0
      isplitl [HS1]; · iexists _; iexact HS1
      iintro ⟨H0, H1, H2, H3, H4, H5, HS0, HS1⟩
      iframe Hr Hg Ho H0 H1 H2 H3 H4
      isplitl [HS0 HS1]
      · isplitl [HS0]; · iexact HS0
        iexact HS1
      iexists _; iexact H5
  · have hz : t.val ≠ 0 := fun e => h0 (by rw [e])
    have hc0 : ¬cond1_0 (grid1.coords t) := fun h => h0 ((hcond1_0 t).mp h)
    by_cases h1 : t.val % 50 = 49
    ·
      have hc1 : cond1_1 (grid1.coords t) := (hcond1_1 t).mpr h1
      rw [show (dat1 V c).leavesExact 5 t = owns (c : Thread nD τ) (ms1_5 t) fullShare ((dat1 V c).after 5 t) from by
        unfold Dat.leavesExact; rw [liveAt1_5 _ hc1], after1_5]
      unfold emit1
      rw [accKV1_next V c t h0, accQ1_next V c t h0]
      rw [PhiS1_castSucc V c t, PhiS1_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply (kernelRun1_C c (grid1.coords t) _ (hs1_0 t) _ (hs1_1 t) _ (hs1_2 t) _ (hs1_3 t) _ (hs1_4 t) _ (hs1_5 t) _ (Memref.isWhole_whole _) _ (Memref.isWhole_whole _) hc0 hc1
        (iblk1 V c 0 t) (iblk1 V c 1 t) (iblk1 V c 2 t) (iblk1 V c 3 t) (iblk1 V c 4 t) (accKV1 V c (t.val - 1) (Nat.lt_of_le_of_lt (Nat.sub_le _ _) t.isLt))
        (accQ1 V c (t.val - 1) (Nat.lt_of_le_of_lt (Nat.sub_le _ _) t.isLt)) Set.univ _)
      iframe H0 H1 H2 H3 H4
      isplitl [H5]; · iexists _; iexact H5
      isplitl [HS0]; · iexact HS0
      isplitl [HS1]; · iexact HS1
      iintro ⟨H0, H1, H2, H3, H4, H5, HS0, HS1⟩
      iframe Hr Hg Ho H0 H1 H2 H3 H4
      isplitl [HS0 HS1]
      · isplitl [HS0]; · iexact HS0
        iexact HS1
      iexact H5
    ·
      have hc1 : ¬cond1_1 (grid1.coords t) := fun h => h1 ((hcond1_1 t).mp h)
      rw [Dat.leavesExact_idle (dat1 V c) 5 t (idleAt1_5 _ hc1) (noFlush1_5 t h1)]
      rw [accKV1_next V c t h0, accQ1_next V c t h0]
      rw [PhiS1_castSucc V c t, PhiS1_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply (kernelRun1_B c (grid1.coords t) _ (hs1_0 t) _ (hs1_1 t) _ (hs1_2 t) _ (hs1_3 t) _ (hs1_4 t) _ (hs1_5 t) _ (Memref.isWhole_whole _) _ (Memref.isWhole_whole _) hc0 hc1
        (iblk1 V c 0 t) (iblk1 V c 1 t) (iblk1 V c 2 t) (iblk1 V c 3 t) (iblk1 V c 4 t) ((dat1 V c).before 5 t d5) (accKV1 V c (t.val - 1) (Nat.lt_of_le_of_lt (Nat.sub_le _ _) t.isLt))
        (accQ1 V c (t.val - 1) (Nat.lt_of_le_of_lt (Nat.sub_le _ _) t.isLt)) Set.univ _)
      iframe H0 H1 H2 H3 H4
      isplitl [H5]; · iexact H5
      isplitl [HS0]; · iexact HS0
      isplitl [HS1]; · iexact HS1
      iintro ⟨H0, H1, H2, H3, H4, H5, HS0, HS1⟩
      iframe Hr Hg Ho H0 H1 H2 H3 H4
      isplitl [HS0 HS1]
      · isplitl [HS0]; · iexact HS0
        iexact HS1
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ (Pipeline.ΦA spec1 c : sProp 𝕄) := by
  have hN : (Fin.last cfg1.N).val ≠ 0 := by rw [Fin.val_last]; have : cfg1.N = 20000 := N_1; omega
  rw [show (dat1 V c).Φ (Fin.last cfg1.N) = PhiS1 V c (Fin.last cfg1.N).val (Nat.le_of_lt_succ (Fin.last cfg1.N).isLt) from rfl,
    PhiS1_pos V c _ _ hN, PhiA1_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

end Cert.Kernel.Hand

end
-- ==== Proof.K.Stage3.lean ====
import proofs.«406288_j68358699483732_1_alg».proof.Proof.Gen.Kernel.Launch
import proofs.«406288_j68358699483732_1_alg».proof.Proof.Gen.Kernel.Skeleton
import proofs.«406288_j68358699483732_1_alg».proof.Proof.K.Sched
import proofs.«406288_j68358699483732_1_alg».proof.Proof.K.Defs
import Idealize.ShloMosaic.Lib.Pipeline.FrameBody
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop := (Scalar.cmpi .ne (Scalar.extui (Scalar.cmpi .eq (BitVec.ofNat 32 (i 1).val) 0#32)) 0#32) = 1#1

abbrev cond2_1 (i : grid2.Coords) : Prop := k2_cond2 i = 1#1

theorem coords2_1 (t : Fin cfg2.N) : ((grid2.coords t) 1).val = t.val % 400 := by
  show t.val / grid2.stride 1 % grid2.bound 1 = t.val % 400
  have h : grid2.stride 1 = 1 := by decide
  rw [h, Nat.div_one]; rfl

theorem cond2_0_word : ∀ n, n < 400 →
    ((Scalar.cmpi .ne (Scalar.extui (Scalar.cmpi .eq (BitVec.ofNat 32 n) 0#32)) 0#32) = 1#1 ↔ n = 0) := by
  decide +kernel

theorem cond2_1_word : ∀ n, n < 400 →
    ((Scalar.cmpi .ne (Scalar.extui (Scalar.cmpi .eq (BitVec.ofNat 32 n) 399#32)) 0#32) = 1#1 ↔ n = 399) := by
  decide +kernel

theorem hcond2_0 (t : Fin cfg2.N) : cond2_0 (grid2.coords t) ↔ t.val % 400 = 0 := by
  have h := cond2_0_word ((grid2.coords t) 1).val (by rw [coords2_1]; exact Nat.mod_lt _ (by decide))
  rw [coords2_1] at h
  unfold cond2_0; rw [coords2_1]; exact h

theorem hcond2_1 (t : Fin cfg2.N) : cond2_1 (grid2.coords t) ↔ t.val % 400 = 399 := by
  have h := cond2_1_word ((grid2.coords t) 1).val (by rw [coords2_1]; exact Nat.mod_lt _ (by decide))
  rw [coords2_1] at h
  unfold cond2_1 k2_cond2; rw [coords2_1]; exact h

theorem live2_0 (i : grid2.Coords) : cfg2.idle 0 i = false := rfl
theorem live2_1 (i : grid2.Coords) : cfg2.idle 1 i = false := rfl

theorem idle2_2_of {i : grid2.Coords} (h : ¬cond2_1 i) : cfg2.idle 2 i = true := by
  show (!(k2_cond2 i == 1#1)) = true
  simp only [Bool.not_eq_true', beq_eq_false_iff_ne, ne_eq]; exact h
theorem live2_2_of {i : grid2.Coords} (h : cond2_1 i) : cfg2.idle 2 i = false := by
  show (!(k2_cond2 i == 1#1)) = false
  simp only [Bool.not_eq_false', beq_iff_eq]; exact h

theorem unitOff2 : (![0, 0] : Fin 2 → ℕ) = fun _ => 0 := by
  funext a; fin_cases a <;> rfl

theorem readAt_whole2 {sig' : RefSig} {κ : Kind} {sp : Space} {S : Shape} {e : EltTy} {Val : EltTy → Type}
    (v : View sig' κ sp S e) {off : Fin S.rank → Nat} (h : off = fun _ => 0)
    (inb : ∀ a, off a + S.size a ≤ S.size a) (f : v.ty.Contents Val) :
    v.readAt Val (Rect.unit off S.size inb).toLoadRect f = v.read Val f :=
  (View.readAt_eq_ld v f _).trans (View.ld_unit_zero h inb _)

theorem read_writes_whole2 {sig' : RefSig} {κ : Kind} {sp : Space} {S : Shape} {e : EltTy} {Val : EltTy → Type}
    [∀ e, Nonempty (Val e)]
    (v : View sig' κ sp S e) {off : Fin S.rank → Nat} (h : off = fun _ => 0)
    (inb : ∀ a, off a + S.size a ≤ S.size a) (f : v.ty.Contents Val) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

set_option maxHeartbeats 1000000 in

theorem run2_A (c : Dev nD) (i : grid2.Coords) (arg2 : Memref sig .tc .vmem S2000x1 .i32) (harg2 : arg2.IsWhole) (arg3 : Memref sig .tc .vmem S2000x256 .f32) (harg3 : arg3.IsWhole) (arg4 : Memref sig .tc .vmem S1000x256 .f32) (harg4 : arg4.IsWhole) (arg5 : Memref sig .tc .vmem S1000x256 .f32) (harg5 : arg5.IsWhole)
    (hc0 : cond2_0 i) (hc1 : ¬cond2_1 i)
    (x0 : Vec F S2000x1 .i32) (x1 : Vec F S2000x256 .f32) (xi2 : Vec F S1000x256 .f32) (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (k2_pay2 i x0 x1 k2_pay1)) -∗ K ⟨⟩))
      ⊢ wp frame (wpE (defs₀ (F := F)) Variants.none c none) E (cc2__stage3_kernel i arg2 harg2 arg3 harg3 arg4 harg4 arg5 harg5) K := by
  simp only [cc2__stage3_kernel_eq_skeleton]; unfold cc2__stage3_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  unfold run2_A.sl.HS_1 run2_A.sl.v19
  unfold run2_A.sl.HS_1
  rw [read_writes_whole2 _ unitOff2, View.readCov_cons_toLoadRect, readAt_whole2 _ unitOff2, readAt_whole2 _ unitOff2]

set_option maxHeartbeats 1000000 in

theorem run2_B (c : Dev nD) (i : grid2.Coords) (arg2 : Memref sig .tc .vmem S2000x1 .i32) (harg2 : arg2.IsWhole) (arg3 : Memref sig .tc .vmem S2000x256 .f32) (harg3 : arg3.IsWhole) (arg4 : Memref sig .tc .vmem S1000x256 .f32) (harg4 : arg4.IsWhole) (arg5 : Memref sig .tc .vmem S1000x256 .f32) (harg5 : arg5.IsWhole)
    (hc0 : ¬cond2_0 i) (hc1 : ¬cond2_1 i)
    (x0 : Vec F S2000x1 .i32) (x1 : Vec F S2000x256 .f32) (xi2 : Vec F S1000x256 .f32) (xs : Vec F S1000x256 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs
        ∗ (iprop(owns (c : Thread nD τ) arg2 fullShare x0 ∗ owns (c : Thread nD τ) arg3 fullShare x1 ∗ owns (c : Thread nD τ) arg4 fullShare xi2 ∗ owns (c : Thread nD τ) arg5 fullShare (k2_pay2 i x0 x1 xs)) -∗ K ⟨⟩))
      ⊢ wp frame (wpE (defs₀ (F := F)) Variants.none c none) E (cc2__stage3_kernel i arg2 harg2 arg3 harg3 arg4 harg4 arg5 harg5) K := by
  simp only [cc2__stage3_kernel_eq_skeleton]; unfold cc2__stage3_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [read_writes_whole2 _ unitOff2, readAt_whole2 _ unitOff2, readAt_whole2 _ unitOff2, readAt_whole2 _ unitOff2]

set_option maxHeartbeats 1000000 in

theorem run2_C (c : Dev nD) (i : grid2.Coords) (arg2 : Memref sig .tc .vmem S2000x1 .i32) (harg2 : arg2.IsWhole) (arg3 : Memref sig .tc .vmem S2000x256 .f32) (harg3 : arg3.IsWhole) (arg4 : Memref sig .tc .vmem S1000x256 .f32) (harg4 : arg4.IsWhole) (arg5 : Memref sig .tc .vmem S1000x256 .f32) (harg5 : arg5.IsWhole)
    (hc0 : ¬cond2_0 i) (hc1 : cond2_1 i)
    (x0 : Vec F S2000x1 .i32) (x1 : Vec F S2000x256 .f32) (xs : Vec F S1000x256 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k2_pay2 i x0 x1 xs) ∗ owns (c : Thread nD τ) arg5 fullShare (k2_pay2 i x0 x1 xs)) -∗ K ⟨⟩))
      ⊢ wp frame (wpE (defs₀ (F := F)) Variants.none c none) E (cc2__stage3_kernel i arg2 harg2 arg3 harg3 arg4 harg4 arg5 harg5) K := by
  simp only [cc2__stage3_kernel_eq_skeleton]; unfold cc2__stage3_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    unfold run2_C.sl.v27
    unfold run2_C.sl.HS_1
    rw [read_writes_whole2 _ unitOff2, View.readCov_cons_toLoadRect, readAt_whole2 _ unitOff2, readAt_whole2 _ unitOff2, readAt_whole2 _ unitOff2]
  iexists _; isplitr
  swap; · iexact HS
  ipureintro
  unfold run2_C.sl.HS_1
  rw [read_writes_whole2 _ unitOff2, readAt_whole2 _ unitOff2, readAt_whole2 _ unitOff2, readAt_whole2 _ unitOff2]

theorem acc2_A (c : Dev nD) (t : Fin cfg2.N) (h0 : t.val % 400 = 0) :
    acc2 V c t.val t.isLt = k2_pay2 (grid2.coords t) (iblk2 V c 0 t) (iblk2 V c 1 t) k2_pay1 := by
  obtain ⟨n, hn⟩ := t
  cases n with
  | zero => rfl
  | succ n => show acc2 V c (n + 1) hn = _; rw [acc2, if_pos h0]

theorem acc2_B (c : Dev nD) (t : Fin cfg2.N) (h0 : ¬t.val % 400 = 0) :
    acc2 V c t.val t.isLt = k2_pay2 (grid2.coords t) (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h0
  | succ n => show acc2 V c (n + 1) hn = _; rw [acc2, if_neg h0]; rfl

abbrev scM2 : Memref sig .tc .vmem S1000x256 .f32 := Memref.whole cc2_scratch0

theorem PhiA2_eq (c : Dev nD) :
    (Pipeline.ΦA spec2 c : sProp 𝕄)
      = iprop(iprop(iprop(∃ d, owns (c : Thread nD τ) scM2 fullShare d)
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [scM2, owns_whole]; try rfl

def PhiS2 (c : Dev nD) : (n : ℕ) → n ≤ cfg2.N → sProp 𝕄
  | 0, _ => Pipeline.ΦA spec2 c
  | n + 1, hn => iprop(iprop(owns (c : Thread nD τ) scM2 fullShare (acc2 V c n hn)
        ∗ Pipeline.scopedRestBut (Ix := Unit) (Name := ℕ) (U := UR sig nD τ) (Lvl := ℕ) (Val := Elt F) spec2 c [cc2_scratch0])
      ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn)
        ∗ Pipeline.scopedRestBut (Ix := Unit) (Name := ℕ) (U := UR sig nD τ) (Lvl := ℕ) (Val := Elt F) spec2 c [cc2_scratch0])
      ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega))
        ∗ Pipeline.scopedRestBut (Ix := Unit) (Name := ℕ) (U := UR sig nD τ) (Lvl := ℕ) (Val := Elt F) spec2 c [cc2_scratch0])
      ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ (dat2 V c).leavesExact 2 t)

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [after2_0, after2_1]
  have hN : t.val < 20000 := lt_of_lt_of_eq t.isLt (show cfg2.N = 20000 from N_2)
  by_cases h0 : t.val % 400 = 0
  · have hc0 : cond2_0 (grid2.coords t) := (hcond2_0 t).mpr h0
    have hc1 : ¬cond2_1 (grid2.coords t) := fun h => by have := (hcond2_1 t).mp h; omega
    have hnf : (cfg2.win 2).flush t = false := by
      rw [← Bool.not_eq_true, flush2_2 t]; omega
    rw [Dat.leavesExact_idle (dat2 V c) 2 t (idle2_2_of hc1) hnf]
    rw [acc2_A V c t h0]
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩⟩
      iapply (run2_A c (grid2.coords t) _ _ _ _ _ _ _ _ hc0 hc1 (iblk2 V c 0 t) (iblk2 V c 1 t) _ Set.univ _)
      iframe H0 H1
      isplitl [H2]; · iexact H2
      isplitl [HS]; · iexact HS
      iintro ⟨H0, H1, H2, HS⟩
      iframe HR Hg Ho H0 H1
      isplitl [HS]; · iexact HS
      iexists _; iexact H2
    · rw [PhiS2_castSucc V c t, PhiS2_pos V c _ _ hz]
      iintro ⟨⟨⟨HS, HR⟩, Hg⟩, Ho, ⟨%d0, H0⟩, ⟨%d1, H1⟩, ⟨%d2, H2⟩⟩
      iapply (run2_A c (grid2.coords t) _ _ _ _ _ _ _ _ hc0 hc1 (iblk2 V c 0 t) (iblk2 V c 1 t) _ Set.univ _)
      iframe H0 H1
      isplitl [H2]; · iexact H2
      isplitl [HS]; · iexists _; iexact HS
      iintro ⟨H0, H1, H2, HS⟩
      iframe HR Hg Ho H0 H1
      isplitl [HS]; · iexact HS
      iexists _; iexact H2
  · have hc0 : ¬cond2_0 (grid2.coords t) := fun h => h0 ((hcond2_0 t).mp h)
    have hz : t.val ≠ 0 := fun h => h0 (by rw [h])
    rw [acc2_B V c t h0]
    rw [PhiS2_castSucc V c t, PhiS2_pos V c _ _ hz]
    by_cases h1 : t.val % 400 = 399
    · have hc1 : cond2_1 (grid2.coords t) := (hcond2_1 t).mpr h1
      rw [show (dat2 V c).leavesExact 2 t = owns (c : Thread nD τ) (st2_2 t) fullShare ((dat2 V c).after 2 t) from by
        unfold Dat.leavesExact; rw [live2_2_of hc1], after2_2, acc2_B V c t h0]
      iintro ⟨⟨⟨HS, HR⟩, Hg⟩, Ho, ⟨%d0, H0⟩, ⟨%d1, H1⟩, ⟨%d2, H2⟩⟩
      iapply (run2_C c (grid2.coords t) _ _ _ _ _ _ _ _ hc0 hc1 (iblk2 V c 0 t) (iblk2 V c 1 t) _ Set.univ _)
      iframe H0 H1
      isplitl [H2]; · iexists _; iexact H2
      isplitl [HS]; · iexact HS
      iintro ⟨H0, H1, H2, HS⟩
      iframe HR Hg Ho H0 H1
      isplitl [HS]; · iexact HS
      iexact H2
    · have hc1 : ¬cond2_1 (grid2.coords t) := fun h => h1 ((hcond2_1 t).mp h)
      have hnf : (cfg2.win 2).flush t = false := by
        rw [← Bool.not_eq_true, flush2_2 t]; exact h1
      rw [Dat.leavesExact_idle (dat2 V c) 2 t (idle2_2_of hc1) hnf]
      iintro ⟨⟨⟨HS, HR⟩, Hg⟩, Ho, ⟨%d0, H0⟩, ⟨%d1, H1⟩, ⟨%d2, H2⟩⟩
      iapply (run2_B c (grid2.coords t) _ _ _ _ _ _ _ _ hc0 hc1 (iblk2 V c 0 t) (iblk2 V c 1 t) _ _ Set.univ _)
      iframe H0 H1
      isplitl [H2]; · iexact H2
      isplitl [HS]; · iexact HS
      iintro ⟨H0, H1, H2, HS⟩
      iframe HR Hg Ho H0 H1
      isplitl [HS]; · iexact HS
      iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ (Pipeline.ΦA spec2 c : sProp 𝕄) := by
  have ht : (Fin.last cfg2.N).val ≠ 0 := by rw [Fin.val_last]; have : cfg2.N = 20000 := N_2; omega
  rw [show (dat2 V c).Φ (Fin.last cfg2.N) = PhiS2 V c (Fin.last cfg2.N).val (Nat.le_of_lt_succ (Fin.last cfg2.N).isLt) from rfl,
    PhiS2_pos V c _ _ ht, PhiA2_eq]
  iintro ⟨⟨HS, HR⟩, Hg⟩
  isplitl [HS HR]
  · isplitl [HS]; · iexists _; iexact HS
    iexact HR
  iexact Hg

end Cert.Kernel.Hand

end
-- ==== Proof.K.Stage4.lean ====
import proofs.«406288_j68358699483732_1_alg».proof.Proof.Gen.Kernel.Launch
import proofs.«406288_j68358699483732_1_alg».proof.Proof.Gen.Kernel.Skeleton
import proofs.«406288_j68358699483732_1_alg».proof.Proof.K.Sched
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x256 := Rect.unit (s := S2000x256) ![0, 0] S2000x256.size inb_S2000x256_S2000x256_0_0
abbrev r3_2 : Rect S128x128 := Rect.unit (s := S128x128) ![0, 0] S128x128.size inb_S128x128_S128x128_0_0
abbrev r3_3 : Rect S128 := Rect.unit (s := S128) ![0] S128.size inb_S128_S128_0
abbrev r3_4 : Rect S256x128 := Rect.unit (s := S256x128) ![0, 0] S256x128.size inb_S256x128_S256x128_0_0
abbrev r3_8 : Rect S2000x128 := Rect.unit (s := S2000x128) ![0, 0] S2000x128.size inb_S2000x128_S2000x128_0_0

def out3_8 (xa xx : Vec F S2000x256 .f32) (xWo : Vec F S128x128 .f32) (xbo : Vec F S128 .f32) (xWf : Vec F S256x128 .f32) (xbf xg xb : Vec F S128 .f32) : Vec F S2000x128 .f32 :=
  View.canon [⟨r3_8, k3_pay1
    (k3_pay2 (View.ld xa r3_0) (View.ld xWo r3_2) (View.ld xbo r3_3) (View.ld xx r3_0) (View.ld xWf r3_4) (View.ld xbf r3_3))
    (k3_pay4 (View.ld xa r3_0) (View.ld xWo r3_2) (View.ld xbo r3_3) (View.ld xx r3_0) (View.ld xWf r3_4) (View.ld xbf r3_3))
    (k3_pay5 (View.ld xa r3_0) (View.ld xWo r3_2) (View.ld xbo r3_3) (View.ld xx r3_0) (View.ld xWf r3_4) (View.ld xbf r3_3))
    (View.ld xg r3_3) (View.ld xb r3_3)⟩]

theorem cover3_8 (p0 : Vec F S2000x128 .f32) (y : S2000x128.Idx) :
    ∃ pc ∈ ([⟨r3_8, p0⟩] : List (View.Piece (Elt F) S2000x128 .f32)), y ∈ pc.1.set :=
  View.cover_of_tiled [⟨r3_8, p0⟩] S2000x128.size (by rfl) y

set_option maxHeartbeats 4000000 in

theorem sound_kernel3 (c : Dev nD) (E : Set ℕ) (i : grid3.Coords) (arg1 : Memref sig .tc .vmem S2000x256 .f32) (harg1 : arg1.IsWhole) (arg2 : Memref sig .tc .vmem S2000x256 .f32) (harg2 : arg2.IsWhole) (arg3 : Memref sig .tc .vmem S128x128 .f32) (harg3 : arg3.IsWhole) (arg4 : Memref sig .tc .vmem S128 .f32) (harg4 : arg4.IsWhole) (arg5 : Memref sig .tc .vmem S256x128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S2000x128 .f32) (harg9 : arg9.IsWhole)
    (xa xx : Vec F S2000x256 .f32) (xWo : Vec F S128x128 .f32) (xbo : Vec F S128 .f32) (xWf : Vec F S256x128 .f32) (xbf xg xb : Vec F S128 .f32) (K : PUnit → sProp 𝕄) :
    iprop(owns (c : Thread nD τ) arg1 fullShare xa ∗ owns (c : Thread nD τ) arg2 fullShare xx
        ∗ owns (c : Thread nD τ) arg3 fullShare xWo ∗ owns (c : Thread nD τ) arg4 fullShare xbo
        ∗ owns (c : Thread nD τ) arg5 fullShare xWf ∗ owns (c : Thread nD τ) arg6 fullShare xbf
        ∗ owns (c : Thread nD τ) arg7 fullShare xg ∗ owns (c : Thread nD τ) arg8 fullShare xb
        ∗ (∃ d, owns (c : Thread nD τ) arg9 fullShare d)
        ∗ (iprop(owns (c : Thread nD τ) arg1 fullShare xa ∗ owns (c : Thread nD τ) arg2 fullShare xx
            ∗ owns (c : Thread nD τ) arg3 fullShare xWo ∗ owns (c : Thread nD τ) arg4 fullShare xbo
            ∗ owns (c : Thread nD τ) arg5 fullShare xWf ∗ owns (c : Thread nD τ) arg6 fullShare xbf
            ∗ owns (c : Thread nD τ) arg7 fullShare xg ∗ owns (c : Thread nD τ) arg8 fullShare xb
            ∗ owns (c : Thread nD τ) arg9 fullShare (out3_8 xa xx xWo xbo xWf xbf xg xb)) -∗ K ⟨⟩))
      ⊢ wp frame (wpE (defs₀ (F := F)) Variants.none c none) E (cc3__stage4_kernel i arg1 harg1 arg2 harg2 arg3 harg3 arg4 harg4 arg5 harg5 arg6 harg6 arg7 harg7 arg8 harg8 arg9 harg9) K := by
  simp only [cc3__stage4_kernel_eq_skeleton]; unfold cc3__stage4_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover3_8 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) :
    (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by
  dsimp only [dat3]

theorem hin3 (c : Dev nD) : (Pipeline.ΦA spec3 c : sProp 𝕄) ⊢ (dat3 V c).Φ 0 := by
  dsimp only [dat3]; exact .rfl
theorem hout3 (c : Dev nD) : (dat3 V c).Φ (Fin.last cfg3.N) ⊢ (Pipeline.ΦA spec3 c : sProp 𝕄) := by
  dsimp only [dat3]; exact .rfl

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl)
    (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl)
    (fun t => by rw [after3_6]; unfold Dat.blockOf iblk3; rw [A_eq3]; try rfl) t d).trans
    (by unfold Dat.fetched Dat.blockOf iblk3; rw [A_eq3]; try rfl)
theorem before3_7 (c : Dev nD) (t : Fin cfg3.N) (d) : (dat3 V c).before 7 t d = iblk3 V c 7 t :=
  ((dat3 V c).before_in_eq_fetched 7 rfl (fun _ => rfl) (fun _ _ _ => rfl)
    (fun t => by rw [after3_7]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

set_option maxHeartbeats 1000000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) (iblk3 V c 7 t) _)
  iframe H0 H1 H2 H3 H4 H5 H6 H7
  isplitl [H8]; · iexists _; iexact H8
  iintro ⟨H0, H1, H2, H3, H4, H5, H6, H7, H8⟩
  iframe

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.DefsB.lean ====
import proofs.«406288_j68358699483732_1_alg».proof.Proof.Gen.Kernel.Skeleton
import proofs.«406288_j68358699483732_1_alg».proof.Proof.Gen.Kernel.Launch
import Idealize.ShloMosaic.Lib.Pipeline.FrameBody

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rK4 : Rect S2000x256 := Rect.unit (s := S2000x256) ![0, 0] S2000x128.size inb_S2000x256_S2000x128_0_0
abbrev rV4 : Rect S2000x256 := Rect.unit (s := S2000x256) ![0, 128] S2000x128.size inb_S2000x256_S2000x128_0_128

def accKV4 (c : Dev nD) : (n : ℕ) → n < cfg4.N → Vec F S2000x256 .f32
  | 0, h => k4_pay6 (grid4.coords ⟨0, h⟩) (iblk4 V c 0 ⟨0, h⟩) (iblk4 V c 3 ⟨0, h⟩) k4_pay3
  | n + 1, h => k4_pay6 (grid4.coords ⟨n + 1, h⟩) (iblk4 V c 0 ⟨n + 1, h⟩) (iblk4 V c 3 ⟨n + 1, h⟩)
      (if (n + 1) % 50 = 0 then k4_pay3 else accKV4 c n (Nat.lt_of_succ_lt h))

def accQ4 (c : Dev nD) : (n : ℕ) → n < cfg4.N → Vec F S2000x128 .f32
  | 0, h => k4_pay1 k4_pay4 (k4_pay7 (grid4.coords ⟨0, h⟩) (iblk4 V c 1 ⟨0, h⟩) (iblk4 V c 4 ⟨0, h⟩))
  | n + 1, h => k4_pay1 (if (n + 1) % 50 = 0 then k4_pay4 else accQ4 c n (Nat.lt_of_succ_lt h))
      (k4_pay7 (grid4.coords ⟨n + 1, h⟩) (iblk4 V c 1 ⟨n + 1, h⟩) (iblk4 V c 4 ⟨n + 1, h⟩))

def emit4 (c : Dev nD) (t : Fin cfg4.N) : Vec F S2000x256 .f32 :=
  k4_pay2 (View.ld (accKV4 V c t.val t.isLt) rK4) (View.ld (accKV4 V c t.val t.isLt) rV4)
    (accQ4 V c t.val t.isLt) (iblk4 V c 2 t)

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def acc5 (c : Dev nD) : (n : ℕ) → n < cfg5.N → Vec F S1000x256 .f32
  | 0, h => k5_pay2 (grid5.coords ⟨0, h⟩) (iblk5 V c 0 ⟨0, h⟩) (iblk5 V c 1 ⟨0, h⟩) k5_pay1
  | n + 1, h => k5_pay2 (grid5.coords ⟨n + 1, h⟩) (iblk5 V c 0 ⟨n + 1, h⟩) (iblk5 V c 1 ⟨n + 1, h⟩)
      (if (n + 1) % 400 = 0 then k5_pay1 else acc5 c n (Nat.lt_of_succ_lt h))

end Cert.Kernel.Hand

end
-- ==== Proof.K.Stage2b.lean ====
import proofs.«406288_j68358699483732_1_alg».proof.Proof.Gen.Kernel.Launch
import proofs.«406288_j68358699483732_1_alg».proof.Proof.Gen.Kernel.Skeleton
import proofs.«406288_j68358699483732_1_alg».proof.Proof.K.Sched
import proofs.«406288_j68358699483732_1_alg».proof.Proof.K.DefsB
import proofs.«406288_j68358699483732_1_alg».proof.Proof.K.Stage2
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ms4_0 (t : Fin cfg4.N) : Memref sig .tc .vmem S2000x1 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2000x2 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1000x256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1000x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S2000x256 .f32 := win4_5.stage (cfg4.slots t 5)
abbrev hs4_5 (t : Fin cfg4.N) : (ms4_5 t).IsWhole := hstage4_5 ((cfg4.slots t 5).cast nbuf4_5)

abbrev scM4_0 : Memref sig .tc .vmem S2000x256 .f32 := Memref.whole cc4_scratch0
abbrev scM4_1 : Memref sig .tc .vmem S2000x128 .f32 := Memref.whole cc4_scratch1

abbrev rest4 (c : Dev nD) : sProp 𝕄 :=
  Pipeline.scopedRestBut (Ix := Unit) (Name := ℕ) (U := UR sig nD τ) (Lvl := ℕ) (Val := Elt F) spec4 c [cc4_scratch0, cc4_scratch1]

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 c)
          ∗ (∃ r, prngReg c r)) := by
  unfold Pipeline.ΦA; rw [scopedRest4_split]; simp only [scM4_0, scM4_1, rest4, owns_whole]; rfl

theorem accKV4_first (c : Dev nD) (t : Fin cfg4.N) (h0 : t.val % 50 = 0) :
    accKV4 V c t.val t.isLt = k4_pay6 (grid4.coords t) (iblk4 V c 0 t) (iblk4 V c 3 t) k4_pay3 := by
  obtain ⟨n, hn⟩ := t
  cases n with
  | zero => rfl
  | succ n => rw [accKV4]; dsimp only at h0 ⊢; rw [if_pos h0]

theorem accKV4_next (c : Dev nD) (t : Fin cfg4.N) (h0 : ¬t.val % 50 = 0) :
    accKV4 V c t.val t.isLt = k4_pay6 (grid4.coords t) (iblk4 V c 0 t) (iblk4 V c 3 t)
      (accKV4 V c (t.val - 1) (Nat.lt_of_le_of_lt (Nat.sub_le _ _) t.isLt)) := by
  obtain ⟨n, hn⟩ := t
  cases n with
  | zero => exact absurd (Nat.zero_mod _) h0
  | succ n => rw [accKV4]; dsimp only at h0 ⊢; rw [if_neg h0]; rfl

theorem accQ4_first (c : Dev nD) (t : Fin cfg4.N) (h0 : t.val % 50 = 0) :
    accQ4 V c t.val t.isLt = k4_pay1 k4_pay4 (k4_pay7 (grid4.coords t) (iblk4 V c 1 t) (iblk4 V c 4 t)) := by
  obtain ⟨n, hn⟩ := t
  cases n with
  | zero => rfl
  | succ n => rw [accQ4]; dsimp only at h0 ⊢; rw [if_pos h0]

theorem accQ4_next (c : Dev nD) (t : Fin cfg4.N) (h0 : ¬t.val % 50 = 0) :
    accQ4 V c t.val t.isLt = k4_pay1 (accQ4 V c (t.val - 1) (Nat.lt_of_le_of_lt (Nat.sub_le _ _) t.isLt))
      (k4_pay7 (grid4.coords t) (iblk4 V c 1 t) (iblk4 V c 4 t)) := by
  obtain ⟨n, hn⟩ := t
  cases n with
  | zero => exact absurd (Nat.zero_mod _) h0
  | succ n => rw [accQ4]; dsimp only at h0 ⊢; rw [if_neg h0]; rfl

def PhiS4 (c : Dev nD) : (n : ℕ) → n ≤ cfg4.N → sProp 𝕄
  | 0, _ => Pipeline.ΦA spec4 c
  | n + 1, hn => iprop(iprop(iprop(owns (c : Thread nD τ) scM4_0 fullShare (accKV4 V c n hn)
        ∗ owns (c : Thread nD τ) scM4_1 fullShare (accQ4 V c n hn)) ∗ rest4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (accKV4 V c n hn)
        ∗ owns (c : Thread nD τ) scM4_1 fullShare (accQ4 V c n hn)) ∗ rest4 c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (accKV4 V c (n - 1) (by omega))
        ∗ owns (c : Thread nD τ) scM4_1 fullShare (accQ4 V c (n - 1) (by omega))) ∗ rest4 c) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => emit4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]

theorem after4_5 (c : Dev nD) (t : Fin cfg4.N) : (dat4 V c).after 5 t = emit4 V c t := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
      (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
      (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl)
      (fun t => by rw [after4_4]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  have hN : t.val < 20000 := lt_of_lt_of_eq t.isLt (show cfg4.N = 20000 from N_4)
  rw [show (dat4 V c).leavesExact 0 t = owns (c : Thread nD τ) (ms4_0 t) fullShare ((dat4 V c).after 0 t) from rfl, after4_0]
  rw [show (dat4 V c).leavesExact 1 t = owns (c : Thread nD τ) (ms4_1 t) fullShare ((dat4 V c).after 1 t) from rfl, after4_1]
  rw [show (dat4 V c).leavesExact 2 t = owns (c : Thread nD τ) (ms4_2 t) fullShare ((dat4 V c).after 2 t) from rfl, after4_2]
  rw [show (dat4 V c).leavesExact 3 t = owns (c : Thread nD τ) (ms4_3 t) fullShare ((dat4 V c).after 3 t) from rfl, after4_3]
  rw [show (dat4 V c).leavesExact 4 t = owns (c : Thread nD τ) (ms4_4 t) fullShare ((dat4 V c).after 4 t) from rfl, after4_4]
  by_cases h0 : t.val % 50 = 0
  ·
    have h1 : ¬t.val % 50 = 49 := by omega
    have hc0 : cond1_0 (grid4.coords t) := (hcond1_0 t).mpr h0
    have hc1 : ¬cond1_1 (grid4.coords t) := fun h => h1 ((hcond1_1 t).mp h)
    rw [Dat.leavesExact_idle (dat4 V c) 5 t (idleAt1_5 (grid4.coords t) hc1) (noFlush1_5 t h1)]
    rw [accKV4_first V c t h0, accQ4_first V c t h0]
    by_cases hz : t.val = 0
    · rw [PhiS4_castSucc V c t, PhiS4_zero V c _ _ hz, PhiA4_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply (kernelRun1_A c (grid4.coords t) _ (hs4_0 t) _ (hs4_1 t) _ (hs4_2 t) _ (hs4_3 t) _ (hs4_4 t) _ (hs4_5 t) _ (Memref.isWhole_whole _) _ (Memref.isWhole_whole _) hc0 hc1
        (iblk4 V c 0 t) (iblk4 V c 1 t) (iblk4 V c 2 t) (iblk4 V c 3 t) (iblk4 V c 4 t) ((dat4 V c).before 5 t d5) Set.univ _)
      iframe H0 H1 H2 H3 H4
      isplitl [H5]; · iexact H5
      isplitl [HS0]; · iexact HS0
      isplitl [HS1]; · iexact HS1
      iintro ⟨H0, H1, H2, H3, H4, H5, HS0, HS1⟩
      iframe Hr Hg Ho H0 H1 H2 H3 H4
      isplitl [HS0 HS1]
      · isplitl [HS0]; · iexact HS0
        iexact HS1
      iexists _; iexact H5
    · rw [PhiS4_castSucc V c t, PhiS4_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply (kernelRun1_A c (grid4.coords t) _ (hs4_0 t) _ (hs4_1 t) _ (hs4_2 t) _ (hs4_3 t) _ (hs4_4 t) _ (hs4_5 t) _ (Memref.isWhole_whole _) _ (Memref.isWhole_whole _) hc0 hc1
        (iblk4 V c 0 t) (iblk4 V c 1 t) (iblk4 V c 2 t) (iblk4 V c 3 t) (iblk4 V c 4 t) ((dat4 V c).before 5 t d5) Set.univ _)
      iframe H0 H1 H2 H3 H4
      isplitl [H5]; · iexact H5
      isplitl [HS0]; · iexists _; iexact HS0
      isplitl [HS1]; · iexists _; iexact HS1
      iintro ⟨H0, H1, H2, H3, H4, H5, HS0, HS1⟩
      iframe Hr Hg Ho H0 H1 H2 H3 H4
      isplitl [HS0 HS1]
      · isplitl [HS0]; · iexact HS0
        iexact HS1
      iexists _; iexact H5
  · have hz : t.val ≠ 0 := fun e => h0 (by rw [e])
    have hc0 : ¬cond1_0 (grid4.coords t) := fun h => h0 ((hcond1_0 t).mp h)
    by_cases h1 : t.val % 50 = 49
    ·
      have hc1 : cond1_1 (grid4.coords t) := (hcond1_1 t).mpr h1
      rw [show (dat4 V c).leavesExact 5 t = owns (c : Thread nD τ) (ms4_5 t) fullShare ((dat4 V c).after 5 t) from by
        unfold Dat.leavesExact; rw [show cfg4.idle 5 (grid4.coords t) = false from liveAt1_5 _ hc1], after4_5]
      unfold emit4
      rw [accKV4_next V c t h0, accQ4_next V c t h0]
      rw [PhiS4_castSucc V c t, PhiS4_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply (kernelRun1_C c (grid4.coords t) _ (hs4_0 t) _ (hs4_1 t) _ (hs4_2 t) _ (hs4_3 t) _ (hs4_4 t) _ (hs4_5 t) _ (Memref.isWhole_whole _) _ (Memref.isWhole_whole _) hc0 hc1
        (iblk4 V c 0 t) (iblk4 V c 1 t) (iblk4 V c 2 t) (iblk4 V c 3 t) (iblk4 V c 4 t) (accKV4 V c (t.val - 1) (Nat.lt_of_le_of_lt (Nat.sub_le _ _) t.isLt))
        (accQ4 V c (t.val - 1) (Nat.lt_of_le_of_lt (Nat.sub_le _ _) t.isLt)) Set.univ _)
      iframe H0 H1 H2 H3 H4
      isplitl [H5]; · iexists _; iexact H5
      isplitl [HS0]; · iexact HS0
      isplitl [HS1]; · iexact HS1
      iintro ⟨H0, H1, H2, H3, H4, H5, HS0, HS1⟩
      iframe Hr Hg Ho H0 H1 H2 H3 H4
      isplitl [HS0 HS1]
      · isplitl [HS0]; · iexact HS0
        iexact HS1
      iexact H5
    ·
      have hc1 : ¬cond1_1 (grid4.coords t) := fun h => h1 ((hcond1_1 t).mp h)
      rw [Dat.leavesExact_idle (dat4 V c) 5 t (idleAt1_5 (grid4.coords t) hc1) (noFlush1_5 t h1)]
      rw [accKV4_next V c t h0, accQ4_next V c t h0]
      rw [PhiS4_castSucc V c t, PhiS4_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply (kernelRun1_B c (grid4.coords t) _ (hs4_0 t) _ (hs4_1 t) _ (hs4_2 t) _ (hs4_3 t) _ (hs4_4 t) _ (hs4_5 t) _ (Memref.isWhole_whole _) _ (Memref.isWhole_whole _) hc0 hc1
        (iblk4 V c 0 t) (iblk4 V c 1 t) (iblk4 V c 2 t) (iblk4 V c 3 t) (iblk4 V c 4 t) ((dat4 V c).before 5 t d5) (accKV4 V c (t.val - 1) (Nat.lt_of_le_of_lt (Nat.sub_le _ _) t.isLt))
        (accQ4 V c (t.val - 1) (Nat.lt_of_le_of_lt (Nat.sub_le _ _) t.isLt)) Set.univ _)
      iframe H0 H1 H2 H3 H4
      isplitl [H5]; · iexact H5
      isplitl [HS0]; · iexact HS0
      isplitl [HS1]; · iexact HS1
      iintro ⟨H0, H1, H2, H3, H4, H5, HS0, HS1⟩
      iframe Hr Hg Ho H0 H1 H2 H3 H4
      isplitl [HS0 HS1]
      · isplitl [HS0]; · iexact HS0
        iexact HS1
      iexists _; iexact H5

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ (Pipeline.ΦA spec4 c : sProp 𝕄) := by
  have hN : (Fin.last cfg4.N).val ≠ 0 := by rw [Fin.val_last]; have : cfg4.N = 20000 := N_4; omega
  rw [show (dat4 V c).Φ (Fin.last cfg4.N) = PhiS4 V c (Fin.last cfg4.N).val (Nat.le_of_lt_succ (Fin.last cfg4.N).isLt) from rfl,
    PhiS4_pos V c _ _ hN, PhiA4_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

end Cert.Kernel.Hand

end
-- ==== Proof.K.Stage3b.lean ====
import proofs.«406288_j68358699483732_1_alg».proof.Proof.Gen.Kernel.Launch
import proofs.«406288_j68358699483732_1_alg».proof.Proof.Gen.Kernel.Skeleton
import proofs.«406288_j68358699483732_1_alg».proof.Proof.K.Sched
import proofs.«406288_j68358699483732_1_alg».proof.Proof.K.DefsB
import proofs.«406288_j68358699483732_1_alg».proof.Proof.K.Stage3
import Idealize.ShloMosaic.Lib.Pipeline.FrameBody
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem acc5_A (c : Dev nD) (t : Fin cfg5.N) (h0 : t.val % 400 = 0) :
    acc5 V c t.val t.isLt = k5_pay2 (grid5.coords t) (iblk5 V c 0 t) (iblk5 V c 1 t) k5_pay1 := by
  obtain ⟨n, hn⟩ := t
  cases n with
  | zero => rfl
  | succ n => show acc5 V c (n + 1) hn = _; rw [acc5, if_pos h0]

theorem acc5_B (c : Dev nD) (t : Fin cfg5.N) (h0 : ¬t.val % 400 = 0) :
    acc5 V c t.val t.isLt = k5_pay2 (grid5.coords t) (iblk5 V c 0 t) (iblk5 V c 1 t)
      (acc5 V c (t.val - 1) (Nat.lt_of_le_of_lt (Nat.sub_le _ _) t.isLt)) := by
  obtain ⟨n, hn⟩ := t
  cases n with
  | zero => exact absurd (Nat.zero_mod _) h0
  | succ n => show acc5 V c (n + 1) hn = _; rw [acc5, if_neg h0]; rfl

abbrev scM5 : Memref sig .tc .vmem S1000x256 .f32 := Memref.whole cc5_scratch0

theorem PhiA5_eq (c : Dev nD) :
    (Pipeline.ΦA spec5 c : sProp 𝕄)
      = iprop(iprop(iprop(∃ d, owns (c : Thread nD τ) scM5 fullShare d)
          ∗ Pipeline.scopedRestBut (Ix := Unit) (Name := ℕ) (U := UR sig nD τ) (Lvl := ℕ) (Val := Elt F) spec5 c [cc5_scratch0])
        ∗ (∃ r, prngReg c r)) := by
  unfold Pipeline.ΦA; rw [scopedRest5_split]; simp only [scM5, owns_whole]; try rfl

def PhiS5 (c : Dev nD) : (n : ℕ) → n ≤ cfg5.N → sProp 𝕄
  | 0, _ => Pipeline.ΦA spec5 c
  | n + 1, hn => iprop(iprop(owns (c : Thread nD τ) scM5 fullShare (acc5 V c n hn)
        ∗ Pipeline.scopedRestBut (Ix := Unit) (Name := ℕ) (U := UR sig nD τ) (Lvl := ℕ) (Val := Elt F) spec5 c [cc5_scratch0])
      ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare (acc5 V c n hn)
        ∗ Pipeline.scopedRestBut (Ix := Unit) (Name := ℕ) (U := UR sig nD τ) (Lvl := ℕ) (Val := Elt F) spec5 c [cc5_scratch0])
      ∗ (∃ r, prngReg c r)) := rfl

theorem PhiS5_pos (c : Dev nD) (n : ℕ) (h : n ≤ cfg5.N) (hz : n ≠ 0) :
    PhiS5 V c n h = iprop(iprop(owns (c : Thread nD τ) scM5 fullShare (acc5 V c (n - 1) (by omega))
        ∗ Pipeline.scopedRestBut (Ix := Unit) (Name := ℕ) (U := UR sig nD τ) (Lvl := ℕ) (Val := Elt F) spec5 c [cc5_scratch0])
      ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => acc5 V c t.val t.isLt
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = acc5 V c t.val t.isLt := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl)
      (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
      (fun t => by rw [after5_1]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ (dat5 V c).leavesExact 2 t)

set_option maxHeartbeats 4000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [show @cc5__stage3_kernel F _ _ = cc2__stage3_kernel from rfl]
  simp only [before5_0, before5_1]
  rw [show (dat5 V c).owesAt () t.succ = (dat5 V c).owesAt () t.castSucc from rfl]
  rw [show (dat5 V c).Φ t.succ = PhiS5 V c (t.val + 1) t.isLt from rfl, PhiS5_succ]
  rw [after5_0, after5_1]
  have hN : t.val < 20000 := lt_of_lt_of_eq t.isLt (show cfg5.N = 20000 from N_5)
  by_cases h0 : t.val % 400 = 0
  · have hc0 : cond2_0 (grid5.coords t) := (hcond2_0 t).mpr h0
    have hc1 : ¬cond2_1 (grid5.coords t) := fun h => by have := (hcond2_1 t).mp h; omega
    have hnf : (cfg5.win 2).flush t = false := by
      rw [← Bool.not_eq_true, flush5_2 t]; omega
    rw [Dat.leavesExact_idle (dat5 V c) 2 t (idle2_2_of (i := grid5.coords t) hc1) hnf]
    rw [acc5_A V c t h0]
    by_cases hz : t.val = 0
    · rw [PhiS5_castSucc V c t, PhiS5_zero V c _ _ hz, PhiA5_eq]
      iintro ⟨⟨⟨HS, HR⟩, Hg⟩, Ho, ⟨%d0, H0⟩, ⟨%d1, H1⟩, ⟨%d2, H2⟩⟩
      iapply (run2_A c (grid5.coords t) _ _ _ _ _ _ _ _ hc0 hc1 (iblk5 V c 0 t) (iblk5 V c 1 t) _ Set.univ _)
      iframe H0 H1
      isplitl [H2]; · iexact H2
      isplitl [HS]; · iexact HS
      iintro ⟨H0, H1, H2, HS⟩
      iframe HR Hg Ho H0 H1
      isplitl [HS]; · iexact HS
      iexists _; iexact H2
    · rw [PhiS5_castSucc V c t, PhiS5_pos V c _ _ hz]
      iintro ⟨⟨⟨HS, HR⟩, Hg⟩, Ho, ⟨%d0, H0⟩, ⟨%d1, H1⟩, ⟨%d2, H2⟩⟩
      iapply (run2_A c (grid5.coords t) _ _ _ _ _ _ _ _ hc0 hc1 (iblk5 V c 0 t) (iblk5 V c 1 t) _ Set.univ _)
      iframe H0 H1
      isplitl [H2]; · iexact H2
      isplitl [HS]; · iexists _; iexact HS
      iintro ⟨H0, H1, H2, HS⟩
      iframe HR Hg Ho H0 H1
      isplitl [HS]; · iexact HS
      iexists _; iexact H2
  · have hc0 : ¬cond2_0 (grid5.coords t) := fun h => h0 ((hcond2_0 t).mp h)
    have hz : t.val ≠ 0 := fun h => h0 (by rw [h])
    rw [acc5_B V c t h0]
    rw [PhiS5_castSucc V c t, PhiS5_pos V c _ _ hz]
    by_cases h1 : t.val % 400 = 399
    · have hc1 : cond2_1 (grid5.coords t) := (hcond2_1 t).mpr h1
      rw [show (dat5 V c).leavesExact 2 t = owns (c : Thread nD τ) (st5_2 t) fullShare ((dat5 V c).after 2 t) from by
        unfold Dat.leavesExact; rw [show cfg5.idle 2 (grid5.coords t) = false from live2_2_of hc1], after5_2, acc5_B V c t h0]
      iintro ⟨⟨⟨HS, HR⟩, Hg⟩, Ho, ⟨%d0, H0⟩, ⟨%d1, H1⟩, ⟨%d2, H2⟩⟩
      iapply (run2_C c (grid5.coords t) _ _ _ _ _ _ _ _ hc0 hc1 (iblk5 V c 0 t) (iblk5 V c 1 t) _ Set.univ _)
      iframe H0 H1
      isplitl [H2]; · iexists _; iexact H2
      isplitl [HS]; · iexact HS
      iintro ⟨H0, H1, H2, HS⟩
      iframe HR Hg Ho H0 H1
      isplitl [HS]; · iexact HS
      iexact H2
    · have hc1 : ¬cond2_1 (grid5.coords t) := fun h => h1 ((hcond2_1 t).mp h)
      have hnf : (cfg5.win 2).flush t = false := by
        rw [← Bool.not_eq_true, flush5_2 t]; exact h1
      rw [Dat.leavesExact_idle (dat5 V c) 2 t (idle2_2_of (i := grid5.coords t) hc1) hnf]
      iintro ⟨⟨⟨HS, HR⟩, Hg⟩, Ho, ⟨%d0, H0⟩, ⟨%d1, H1⟩, ⟨%d2, H2⟩⟩
      iapply (run2_B c (grid5.coords t) _ _ _ _ _ _ _ _ hc0 hc1 (iblk5 V c 0 t) (iblk5 V c 1 t) _ _ Set.univ _)
      iframe H0 H1
      isplitl [H2]; · iexact H2
      isplitl [HS]; · iexact HS
      iintro ⟨H0, H1, H2, HS⟩
      iframe HR Hg Ho H0 H1
      isplitl [HS]; · iexact HS
      iexists _; iexact H2

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := by
  rw [show (dat5 V c).Φ 0 = PhiS5 V c 0 (Nat.zero_le _) from rfl, PhiS5_zero V c 0 _ rfl]
  try exact Idealize.SL.BI.Entails.refl _

theorem hout5 (c : Dev nD) : (dat5 V c).Φ (Fin.last cfg5.N) ⊢ (Pipeline.ΦA spec5 c : sProp 𝕄) := by
  have ht : (Fin.last cfg5.N).val ≠ 0 := by rw [Fin.val_last]; have : cfg5.N = 20000 := N_5; omega
  rw [show (dat5 V c).Φ (Fin.last cfg5.N) = PhiS5 V c (Fin.last cfg5.N).val (Nat.le_of_lt_succ (Fin.last cfg5.N).isLt) from rfl,
    PhiS5_pos V c _ _ ht, PhiA5_eq]
  iintro ⟨⟨HS, HR⟩, Hg⟩
  isplitl [HS HR]
  · isplitl [HS]; · iexists _; iexact HS
    iexact HR
  iexact Hg

end Cert.Kernel.Hand

end
-- ==== Proof.K.Stage4b.lean ====
import proofs.«406288_j68358699483732_1_alg».proof.Proof.Gen.Kernel.Launch
import proofs.«406288_j68358699483732_1_alg».proof.Proof.Gen.Kernel.Skeleton
import proofs.«406288_j68358699483732_1_alg».proof.Proof.K.Sched
import proofs.«406288_j68358699483732_1_alg».proof.Proof.K.Stage4
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S2000x256 := Rect.unit (s := S2000x256) ![0, 0] S2000x256.size inb_S2000x256_S2000x256_0_0
abbrev r6_2 : Rect S128x128 := Rect.unit (s := S128x128) ![0, 0] S128x128.size inb_S128x128_S128x128_0_0
abbrev r6_3 : Rect S128 := Rect.unit (s := S128) ![0] S128.size inb_S128_S128_0
abbrev r6_4 : Rect S256x128 := Rect.unit (s := S256x128) ![0, 0] S256x128.size inb_S256x128_S256x128_0_0
abbrev r6_8 : Rect S2000x128 := Rect.unit (s := S2000x128) ![0, 0] S2000x128.size inb_S2000x128_S2000x128_0_0

def out6_8 (xa xx : Vec F S2000x256 .f32) (xWo : Vec F S128x128 .f32) (xbo : Vec F S128 .f32) (xWf : Vec F S256x128 .f32) (xbf xg xb : Vec F S128 .f32) : Vec F S2000x128 .f32 :=
  View.canon [⟨r6_8, k6_pay1
    (k6_pay2 (View.ld xa r6_0) (View.ld xWo r6_2) (View.ld xbo r6_3) (View.ld xx r6_0) (View.ld xWf r6_4) (View.ld xbf r6_3))
    (k6_pay4 (View.ld xa r6_0) (View.ld xWo r6_2) (View.ld xbo r6_3) (View.ld xx r6_0) (View.ld xWf r6_4) (View.ld xbf r6_3))
    (k6_pay5 (View.ld xa r6_0) (View.ld xWo r6_2) (View.ld xbo r6_3) (View.ld xx r6_0) (View.ld xWf r6_4) (View.ld xbf r6_3))
    (View.ld xg r6_3) (View.ld xb r6_3)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => out6_8 (iblk6 V c 0 t) (iblk6 V c 1 t) (iblk6 V c 2 t) (iblk6 V c 3 t) (iblk6 V c 4 t) (iblk6 V c 5 t) (iblk6 V c 6 t) (iblk6 V c 7 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) :
    (dat6 V c).after 8 t = out6_8 (iblk6 V c 0 t) (iblk6 V c 1 t) (iblk6 V c 2 t) (iblk6 V c 3 t) (iblk6 V c 4 t) (iblk6 V c 5 t) (iblk6 V c 6 t) (iblk6 V c 7 t) := by
  dsimp only [dat6]

theorem hin6 (c : Dev nD) : (Pipeline.ΦA spec6 c : sProp 𝕄) ⊢ (dat6 V c).Φ 0 := by
  dsimp only [dat6]; exact .rfl
theorem hout6 (c : Dev nD) : (dat6 V c).Φ (Fin.last cfg6.N) ⊢ (Pipeline.ΦA spec6 c : sProp 𝕄) := by
  dsimp only [dat6]; exact .rfl

theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl)
    (fun t => by rw [after6_3]; unfold Dat.blockOf iblk6; rw [A_eq6]; try rfl) t d).trans
    (by unfold Dat.fetched Dat.blockOf iblk6; rw [A_eq6]; try rfl)
theorem before6_4 (c : Dev nD) (t : Fin cfg6.N) (d) : (dat6 V c).before 4 t d = iblk6 V c 4 t :=
  ((dat6 V c).before_in_eq_fetched 4 rfl (fun _ => rfl) (fun _ _ _ => rfl)
    (fun t => by rw [after6_4]; unfold Dat.blockOf iblk6; rw [A_eq6]; try rfl) t d).trans
    (by unfold Dat.fetched Dat.blockOf iblk6; rw [A_eq6]; try rfl)
theorem before6_5 (c : Dev nD) (t : Fin cfg6.N) (d) : (dat6 V c).before 5 t d = iblk6 V c 5 t :=
  ((dat6 V c).before_in_eq_fetched 5 rfl (fun _ => rfl) (fun _ _ _ => rfl)
    (fun t => by rw [after6_5]; unfold Dat.blockOf iblk6; rw [A_eq6]; try rfl) t d).trans
    (by unfold Dat.fetched Dat.blockOf iblk6; rw [A_eq6]; try rfl)
theorem before6_6 (c : Dev nD) (t : Fin cfg6.N) (d) : (dat6 V c).before 6 t d = iblk6 V c 6 t :=
  ((dat6 V c).before_in_eq_fetched 6 rfl (fun _ => rfl) (fun _ _ _ => rfl)
    (fun t => by rw [after6_6]; unfold Dat.blockOf iblk6; rw [A_eq6]; try rfl) t d).trans
    (by unfold Dat.fetched Dat.blockOf iblk6; rw [A_eq6]; try rfl)
theorem before6_7 (c : Dev nD) (t : Fin cfg6.N) (d) : (dat6 V c).before 7 t d = iblk6 V c 7 t :=
  ((dat6 V c).before_in_eq_fetched 7 rfl (fun _ => rfl) (fun _ _ _ => rfl)
    (fun t => by rw [after6_7]; unfold Dat.blockOf iblk6; rw [A_eq6]; try rfl) t d).trans
    (by unfold Dat.fetched Dat.blockOf iblk6; rw [A_eq6]; try rfl)

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t))

set_option maxHeartbeats 1000000 in

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  rw [show @cc6__stage4_kernel F _ _ = cc3__stage4_kernel from rfl]
  simp only [before6_0, before6_1, before6_2, before6_3, before6_4, before6_5, before6_6, before6_7]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _
    (iblk6 V c 0 t) (iblk6 V c 1 t) (iblk6 V c 2 t) (iblk6 V c 3 t) (iblk6 V c 4 t) (iblk6 V c 5 t) (iblk6 V c 6 t) (iblk6 V c 7 t) _)
  iframe H0 H1 H2 H3 H4 H5 H6 H7
  isplitl [H8]; · iexists _; iexact H8
  iintro ⟨H0, H1, H2, H3, H4, H5, H6, H7, H8⟩
  iframe
  iexact H8

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Family.lean ====
import proofs.«406288_j68358699483732_1_alg».proof.Proof.K.Stage1
import proofs.«406288_j68358699483732_1_alg».proof.Proof.K.Stage2
import proofs.«406288_j68358699483732_1_alg».proof.Proof.K.Stage3
import proofs.«406288_j68358699483732_1_alg».proof.Proof.K.Stage4
import proofs.«406288_j68358699483732_1_alg».proof.Proof.K.Stage2b
import proofs.«406288_j68358699483732_1_alg».proof.Proof.K.Stage3b
import proofs.«406288_j68358699483732_1_alg».proof.Proof.K.Stage4b
import Idealize.ShloMosaic.Lib.Pipeline.FrameSuffix
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (Dat Cfg BodyObligation)

variable {F : FTy → Type} [FloatOps F]

section Exit
variable {cfg : Cfg sig Λ₀} {c : Dev nD} (V : Valuation τ sig (Elt F)) (d : Dat τ (Elt F) Unit ℕ (UR sig nD τ) ℕ cfg c)
  (hinj : Function.Injective (Pipeline.arrRef cfg.spec))

/-- `V` with each window's array replaced by its final contents. -/
def exitVal : Valuation τ sig (Elt F) := Pipeline.withArrays cfg.spec c V (d.arrAt · cfg.N)

include hinj in
theorem exitVal_arr (w : Fin cfg.W) : exitVal V d (Proc.devRef .tc (Pipeline.arrRef cfg.spec w)) = d.arrAt w cfg.N :=
  Pipeline.withArrays_arr cfg.spec hinj c V _ w

theorem exitVal_of_ne (b : Ref sig .tc) (hb : ∀ w, Pipeline.arrRef cfg.spec w ≠ b) :
    exitVal V d (Proc.devRef .tc b) = V (Proc.devRef .tc b) :=
  Pipeline.withArrays_of_ne cfg.spec c V _ b hb

include hinj in
/-- A buffer outside `l` is unchanged: it is no window's array, or an input window's, whose contents never change. -/
theorem exitVal_keep (hA : ∀ w, d.A w = V (Proc.devRef .tc (Pipeline.arrRef cfg.spec w))) {l : List (Ref sig .tc)}
    (hl : ∀ w, Pipeline.arrRef cfg.spec w ∉ l → (cfg.win w).isOut = false) {b : Ref sig .tc} (hb : b ∉ l) :
    exitVal V d (Proc.devRef .tc b) = V (Proc.devRef .tc b) := by
  by_cases h : ∃ w, Pipeline.arrRef cfg.spec w = b
  · obtain ⟨w, rfl⟩ := h
    rw [exitVal_arr V d hinj]
    exact (d.arrAt_in w (hl w hb) _).trans (hA w)
  · exact exitVal_of_ne V d b fun w e => h ⟨w, e⟩

end Exit

variable (m : (ℓ : Loc nD τ sig) → Buf (Elt F) ℓ)

abbrev Bstart (c : Dev nD) : Valuation τ sig (Elt F) := fun b => m ((c : Dev nD), b)

abbrev Bin0 (c : Dev nD) : Valuation τ sig (Elt F) := StableHlo.after hostOps0 (Bstart m c)
abbrev Ein0 : (c : Dev nD) → (b : Ref sig .tc) → Buf (Elt F) ((c : Thread nD τ).loc b) := fun c b => Bin0 m c b
def Bout0 (c : Dev nD) : Valuation τ sig (Elt F) := exitVal (Bin0 m c) (dat0 (Ein0 m) c)
theorem Bout0_arr (c : Dev nD) (w : Fin cfg0.W) :
    Bout0 m c (Proc.devRef .tc (Pipeline.arrRef spec0 w)) = (dat0 (Ein0 m) c).arrAt w cfg0.N :=
  exitVal_arr _ _ launch0.win.arr_inj w
theorem keep0 (c : Dev nD) (b : Ref sig .tc) (hb : b ∉ ([main_v2_0, main_v2_1] : List (Ref sig .tc))) :
    Bout0 m c (Proc.devRef .tc b) = Bin0 m c (Proc.devRef .tc b) :=
  exitVal_keep _ _ launch0.win.arr_inj (A_eq0 (Ein0 m) c) (by decide) hb

abbrev Bin1 (c : Dev nD) : Valuation τ sig (Elt F) := StableHlo.after hostOps1 (Bout0 m c)
abbrev Ein1 : (c : Dev nD) → (b : Ref sig .tc) → Buf (Elt F) ((c : Thread nD τ).loc b) := fun c b => Bin1 m c b
def Bout1 (c : Dev nD) : Valuation τ sig (Elt F) := exitVal (Bin1 m c) (dat1 (Ein1 m) c)
theorem Bout1_arr (c : Dev nD) (w : Fin cfg1.W) :
    Bout1 m c (Proc.devRef .tc (Pipeline.arrRef spec1 w)) = (dat1 (Ein1 m) c).arrAt w cfg1.N :=
  exitVal_arr _ _ launch1.win.arr_inj w
theorem keep1 (c : Dev nD) (b : Ref sig .tc) (hb : b ∉ ([main_v5] : List (Ref sig .tc))) :
    Bout1 m c (Proc.devRef .tc b) = Bin1 m c (Proc.devRef .tc b) :=
  exitVal_keep _ _ launch1.win.arr_inj (A_eq1 (Ein1 m) c) (by decide) hb

abbrev Bin2 (c : Dev nD) : Valuation τ sig (Elt F) := Bout1 m c
abbrev Ein2 : (c : Dev nD) → (b : Ref sig .tc) → Buf (Elt F) ((c : Thread nD τ).loc b) := fun c b => Bin2 m c b
def Bout2 (c : Dev nD) : Valuation τ sig (Elt F) := exitVal (Bin2 m c) (dat2 (Ein2 m) c)
theorem Bout2_arr (c : Dev nD) (w : Fin cfg2.W) :
    Bout2 m c (Proc.devRef .tc (Pipeline.arrRef spec2 w)) = (dat2 (Ein2 m) c).arrAt w cfg2.N :=
  exitVal_arr _ _ launch2.win.arr_inj w
theorem keep2 (c : Dev nD) (b : Ref sig .tc) (hb : b ∉ ([main_v6] : List (Ref sig .tc))) :
    Bout2 m c (Proc.devRef .tc b) = Bin2 m c (Proc.devRef .tc b) :=
  exitVal_keep _ _ launch2.win.arr_inj (A_eq2 (Ein2 m) c) (by decide) hb

abbrev Bin3 (c : Dev nD) : Valuation τ sig (Elt F) := Bout2 m c
abbrev Ein3 : (c : Dev nD) → (b : Ref sig .tc) → Buf (Elt F) ((c : Thread nD τ).loc b) := fun c b => Bin3 m c b
def Bout3 (c : Dev nD) : Valuation τ sig (Elt F) := exitVal (Bin3 m c) (dat3 (Ein3 m) c)
theorem Bout3_arr (c : Dev nD) (w : Fin cfg3.W) :
    Bout3 m c (Proc.devRef .tc (Pipeline.arrRef spec3 w)) = (dat3 (Ein3 m) c).arrAt w cfg3.N :=
  exitVal_arr _ _ launch3.win.arr_inj w
theorem keep3 (c : Dev nD) (b : Ref sig .tc) (hb : b ∉ ([main_v7] : List (Ref sig .tc))) :
    Bout3 m c (Proc.devRef .tc b) = Bin3 m c (Proc.devRef .tc b) :=
  exitVal_keep _ _ launch3.win.arr_inj (A_eq3 (Ein3 m) c) (by decide) hb

abbrev Bin4 (c : Dev nD) : Valuation τ sig (Elt F) := StableHlo.after hostOps4 (Bout3 m c)
abbrev Ein4 : (c : Dev nD) → (b : Ref sig .tc) → Buf (Elt F) ((c : Thread nD τ).loc b) := fun c b => Bin4 m c b
def Bout4 (c : Dev nD) : Valuation τ sig (Elt F) := exitVal (Bin4 m c) (dat4 (Ein4 m) c)
theorem Bout4_arr (c : Dev nD) (w : Fin cfg4.W) :
    Bout4 m c (Proc.devRef .tc (Pipeline.arrRef spec4 w)) = (dat4 (Ein4 m) c).arrAt w cfg4.N :=
  exitVal_arr _ _ launch4.win.arr_inj w
theorem keep4 (c : Dev nD) (b : Ref sig .tc) (hb : b ∉ ([main_v10] : List (Ref sig .tc))) :
    Bout4 m c (Proc.devRef .tc b) = Bin4 m c (Proc.devRef .tc b) :=
  exitVal_keep _ _ launch4.win.arr_inj (A_eq4 (Ein4 m) c) (by decide) hb

abbrev Bin5 (c : Dev nD) : Valuation τ sig (Elt F) := Bout4 m c
abbrev Ein5 : (c : Dev nD) → (b : Ref sig .tc) → Buf (Elt F) ((c : Thread nD τ).loc b) := fun c b => Bin5 m c b
def Bout5 (c : Dev nD) : Valuation τ sig (Elt F) := exitVal (Bin5 m c) (dat5 (Ein5 m) c)
theorem Bout5_arr (c : Dev nD) (w : Fin cfg5.W) :
    Bout5 m c (Proc.devRef .tc (Pipeline.arrRef spec5 w)) = (dat5 (Ein5 m) c).arrAt w cfg5.N :=
  exitVal_arr _ _ launch5.win.arr_inj w
theorem keep5 (c : Dev nD) (b : Ref sig .tc) (hb : b ∉ ([main_v11] : List (Ref sig .tc))) :
    Bout5 m c (Proc.devRef .tc b) = Bin5 m c (Proc.devRef .tc b) :=
  exitVal_keep _ _ launch5.win.arr_inj (A_eq5 (Ein5 m) c) (by decide) hb

abbrev Bin6 (c : Dev nD) : Valuation τ sig (Elt F) := Bout5 m c
abbrev Ein6 : (c : Dev nD) → (b : Ref sig .tc) → Buf (Elt F) ((c : Thread nD τ).loc b) := fun c b => Bin6 m c b
def Bout6 (c : Dev nD) : Valuation τ sig (Elt F) := exitVal (Bin6 m c) (dat6 (Ein6 m) c)
theorem Bout6_arr (c : Dev nD) (w : Fin cfg6.W) :
    Bout6 m c (Proc.devRef .tc (Pipeline.arrRef spec6 w)) = (dat6 (Ein6 m) c).arrAt w cfg6.N :=
  exitVal_arr _ _ launch6.win.arr_inj w
theorem keep6 (c : Dev nD) (b : Ref sig .tc) (hb : b ∉ ([main_v12] : List (Ref sig .tc))) :
    Bout6 m c (Proc.devRef .tc b) = Bin6 m c (Proc.devRef .tc b) :=
  exitVal_keep _ _ launch6.win.arr_inj (A_eq6 (Ein6 m) c) (by decide) hb

abbrev adm : (p : Fin 7) → (pcfgs (F := F) p).Adm := fun p => (cfgs p).toPCfg_adm
def pdats : (p : Fin 7) → (c : Dev nD) → Dat τ (Elt F) Unit ℕ (UR sig nD τ) ℕ (Pipeline.pin (pcfgs (F := F)) adm p) c
  | ⟨0, _⟩ => fun c => dat0 (Ein0 m) c
  | ⟨1, _⟩ => fun c => dat1 (Ein1 m) c
  | ⟨2, _⟩ => fun c => dat2 (Ein2 m) c
  | ⟨3, _⟩ => fun c => dat3 (Ein3 m) c
  | ⟨4, _⟩ => fun c => dat4 (Ein4 m) c
  | ⟨5, _⟩ => fun c => dat5 (Ein5 m) c
  | ⟨6, _⟩ => fun c => dat6 (Ein6 m) c
abbrev 𝒱₀ : Variants := Variants.none
abbrev L : GSem nD τ sig → Finset Unit := fun _ => ∅
abbrev lv : GSem nD τ sig → Unit → ℕ := fun _ _ => 0
/-- What every item of @main carries beside the buffers: the generator register at some state, and no dues. -/
abbrev R (c : Dev nD) : sProp (MT nD τ sig Unit (Elt F) ℕ (UR sig nD τ) ℕ) :=
  iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Reg.lean ====
import proofs.«406288_j68358699483732_1_alg».proof.Proof.K.Family

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (Dat Cfg BodyObligation)

variable {F : FTy → Type} [FloatOps F] (m : (ℓ : Loc nD τ sig) → Buf (Elt F) ℓ)

/-- A call as an item of @main: its windows' arrays leave the unscoped buffers `Bin` at entry and return at exit. -/
def regOf (p : Fin 7) (lf : Pipeline.LaunchFacts (nD := nD) (τ := τ) cfgs p) (Bin : Dev nD → Valuation τ sig (Elt F))
    (hbody : ∀ c, BodyObligation (pdats m p c) defs₀ 𝒱₀ () Set.univ)
    (hq : ∀ c w, (pdats m p c).q w = fullShare)
    (hA : ∀ c w, (pdats m p c).A w = Bin c (Proc.devRef .tc (Pipeline.arrRef (cfgs p).spec w)))
    (howed : ∀ c t, (pdats m p c).owed t = 0) (hrec : ∀ c, (pdats m p c).recorded 0 = Set.univ)
    (hin : ∀ c, Pipeline.ΦA (cfgs p).spec c ⊢ (pdats m p c).Φ 0)
    (hout : ∀ c, (pdats m p c).Φ (Fin.last (cfgs p).N) ⊢ Pipeline.ΦA (cfgs p).spec c) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Bin c) ∗ R c)
  post c := iprop(StableHlo.held (c : Thread nD τ) (Pipeline.ucRefs τ sig) (exitVal (Bin c) (pdats m p c)) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Bin c b
  hentry c := by
    rw [Pipeline.ownSems0_none]
    have hsplit := Pipeline.arrays_of_unscopedBufs (p := p) (pcfgs (F := F)) adm (pdats m) lf.win lf.arr_whole c
      ((pdats m p c).share_full (hq c)) (fun b => Bin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl ((hrec c).symm ▸ trivial)
      iexact HO
    isplitl [Hp]; · iexact Hp
    iexact Hrest
  hin c := by
    have h := hin c
    unfold Pipeline.ΦA at h
    iintro ⟨Hp, -, Hr⟩
    iapply h
    isplitl [Hr]; · iexact Hr
    iexact Hp
  hout c := by
    rw [Pipeline.ownSems0_none]
    have h := hout c
    unfold Pipeline.ΦA at h
    refine h.trans ?_
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c)) (fun b => Bin c b)
      (fun b => exitVal (Bin c) (pdats m p c) b) ((pdats m p c).arrAt · (cfgs p).N)
      (fun w => (exitVal_arr _ _ lf.win.arr_inj w).symm)
      fun b hb => exitVal_of_ne _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

def reg0 : Pipeline.RegionSeg (pcfgs (F := F)) adm (pdats m) () defs₀ 𝒱₀ L lv 0 :=
  regOf m 0 launch0 (Bin0 m) (body_obligation0 (Ein0 m)) (fun _ _ => rfl) (A_eq0 (Ein0 m)) (fun _ _ => rfl) (fun _ => rfl)
    (hin0 (Ein0 m)) (hout0 (Ein0 m))

def reg1 : Pipeline.RegionSeg (pcfgs (F := F)) adm (pdats m) () defs₀ 𝒱₀ L lv 1 :=
  regOf m 1 launch1 (Bin1 m) (body_obligation1 (Ein1 m)) (fun _ _ => rfl) (A_eq1 (Ein1 m)) (fun _ _ => rfl) (fun _ => rfl)
    (hin1 (Ein1 m)) (hout1 (Ein1 m))

def reg2 : Pipeline.RegionSeg (pcfgs (F := F)) adm (pdats m) () defs₀ 𝒱₀ L lv 2 :=
  regOf m 2 launch2 (Bin2 m) (body_obligation2 (Ein2 m)) (fun _ _ => rfl) (A_eq2 (Ein2 m)) (fun _ _ => rfl) (fun _ => rfl)
    (hin2 (Ein2 m)) (hout2 (Ein2 m))

def reg3 : Pipeline.RegionSeg (pcfgs (F := F)) adm (pdats m) () defs₀ 𝒱₀ L lv 3 :=
  regOf m 3 launch3 (Bin3 m) (body_obligation3 (Ein3 m)) (fun _ _ => rfl) (A_eq3 (Ein3 m)) (fun _ _ => rfl) (fun _ => rfl)
    (hin3 (Ein3 m)) (hout3 (Ein3 m))

def reg4 : Pipeline.RegionSeg (pcfgs (F := F)) adm (pdats m) () defs₀ 𝒱₀ L lv 4 :=
  regOf m 4 launch4 (Bin4 m) (body_obligation4 (Ein4 m)) (fun _ _ => rfl) (A_eq4 (Ein4 m)) (fun _ _ => rfl) (fun _ => rfl)
    (hin4 (Ein4 m)) (hout4 (Ein4 m))

def reg5 : Pipeline.RegionSeg (pcfgs (F := F)) adm (pdats m) () defs₀ 𝒱₀ L lv 5 :=
  regOf m 5 launch5 (Bin5 m) (body_obligation5 (Ein5 m)) (fun _ _ => rfl) (A_eq5 (Ein5 m)) (fun _ _ => rfl) (fun _ => rfl)
    (hin5 (Ein5 m)) (hout5 (Ein5 m))

def reg6 : Pipeline.RegionSeg (pcfgs (F := F)) adm (pdats m) () defs₀ 𝒱₀ L lv 6 :=
  regOf m 6 launch6 (Bin6 m) (body_obligation6 (Ein6 m)) (fun _ _ => rfl) (A_eq6 (Ein6 m)) (fun _ _ => rfl) (fun _ => rfl)
    (hin6 (Ein6 m)) (hout6 (Ein6 m))

end Cert.Kernel.Hand

end
-- ==== Proof.K.Run.lean ====
import proofs.«406288_j68358699483732_1_alg».proof.Proof.K.Reg
import proofs.«406288_j68358699483732_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Tlast (c : Dev nD) : sProp 𝕄 := iprop(StableHlo.held (c : Thread nD τ) (Pipeline.ucRefs τ sig) (Bout6 m c) ∗ ∃ r, prngReg c r)

abbrev segs : List (Pipeline.Seg (pcfgs (F := F)) adm (pdats m) () defs₀ 𝒱₀ L lv) :=
  [ .host (hseg hostOps0 hostOps0_sub hostOps0_fresh (Bstart m)),
    .region (reg0 m),
    .host (hseg hostOps1 hostOps1_sub hostOps1_fresh (Bout0 m)),
    .region (reg1 m),
    .region (reg2 m),
    .region (reg3 m),
    .host (hseg hostOps4 hostOps4_sub hostOps4_fresh (Bout3 m)),
    .region (reg4 m),
    .region (reg5 m),
    .region (reg6 m) ]

theorem main_run (c : Dev nD) : main (F := F) c = Pipeline.Seg.run (segs m) := (main_chain c).trans (by chain_rfl)

set_option backward.isDefEq.respectTransparency.types false in

theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = Bout6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bstart m c) ∗ R c)) (Tₙ := Tlast m)
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (Bout6 m c) ∗ R c)
          ⊢ iprop(Tlast m c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (Bstart m c)
        from Pipeline.unscopedBufs_held c (Bstart m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bout6 m c b)
    (hfin := fun c s' => by
      iintro ⟨⟨Hh, -⟩, HSI⟩
      unfold StableHlo.held
      imodintro
      iapply (pointsTo_read_all (Pipeline.ucRefs τ sig) (fun b => (((c : Thread nD τ)).1, b)) (Bout6 m c) s')
      isplitl [Hh] <;> iassumption)
    (hQ := fun s h => h)

abbrev written : List (Ref sig .tc) :=
  [main_v0, main_v1, main_v2_0, main_v2_1, main_v3, main_v4, main_v5, main_v6, main_v7, main_v8, main_v9, main_v10, main_v11, main_v12]

theorem notMem_of_sub {b : Ref sig .tc} {l l' : List (Ref sig .tc)} (hs : ∀ x ∈ l', x ∈ l) (h : b ∉ l) : b ∉ l' :=
  fun hm => h (hs b hm)

section Keep
variable (c : Dev nD) (b : Ref sig .tc) (h : b ∉ (written : List (Ref sig .tc)))
include h

theorem in0_keep : Bin0 m c (Proc.devRef .tc b) = m ((c : Thread nD τ).loc b) :=
  StableHlo.after_of_writes_sub hostOps0 _ hostOps0_writes (notMem_of_sub (by decide) h)

theorem out0_keep : Bout0 m c (Proc.devRef .tc b) = m ((c : Thread nD τ).loc b) :=
  (keep0 m c b (notMem_of_sub (by decide) h)).trans (in0_keep m c b h)
theorem in1_keep : Bin1 m c (Proc.devRef .tc b) = m ((c : Thread nD τ).loc b) :=
  (StableHlo.after_of_writes_sub hostOps1 _ hostOps1_writes (notMem_of_sub (by decide) h)).trans (out0_keep m c b h)
theorem out1_keep : Bout1 m c (Proc.devRef .tc b) = m ((c : Thread nD τ).loc b) :=
  (keep1 m c b (notMem_of_sub (by decide) h)).trans (in1_keep m c b h)
theorem out2_keep : Bout2 m c (Proc.devRef .tc b) = m ((c : Thread nD τ).loc b) :=
  (keep2 m c b (notMem_of_sub (by decide) h)).trans (out1_keep m c b h)
theorem out3_keep : Bout3 m c (Proc.devRef .tc b) = m ((c : Thread nD τ).loc b) :=
  (keep3 m c b (notMem_of_sub (by decide) h)).trans (out2_keep m c b h)
theorem in4_keep : Bin4 m c (Proc.devRef .tc b) = m ((c : Thread nD τ).loc b) :=
  (StableHlo.after_of_writes_sub hostOps4 _ hostOps4_writes (notMem_of_sub (by decide) h)).trans (out3_keep m c b h)
theorem out4_keep : Bout4 m c (Proc.devRef .tc b) = m ((c : Thread nD τ).loc b) :=
  (keep4 m c b (notMem_of_sub (by decide) h)).trans (in4_keep m c b h)
theorem out5_keep : Bout5 m c (Proc.devRef .tc b) = m ((c : Thread nD τ).loc b) :=
  (keep5 m c b (notMem_of_sub (by decide) h)).trans (out4_keep m c b h)
theorem out6_keep : Bout6 m c (Proc.devRef .tc b) = m ((c : Thread nD τ).loc b) :=
  (keep6 m c b (notMem_of_sub (by decide) h)).trans (out5_keep m c b h)

end Keep

-- Whatever holds of every unscoped reference no item writes holds of each of the 33 arguments.
theorem args_all {P : Ref sig .tc → Prop}
    (h : ∀ b : Ref sig .tc, ¬(Proc.devRef .tc b : DevRef τ sig).isScoped → b ∉ (written : List (Ref sig .tc)) → P b) :
    P main_arg0 ∧ P main_arg1 ∧ P main_arg2 ∧ P main_arg3 ∧ P main_arg4 ∧ P main_arg5 ∧ P main_arg6 ∧ P main_arg7 ∧ P main_arg8 ∧ P main_arg9 ∧ P main_arg10 ∧ P main_arg11 ∧ P main_arg12 ∧ P main_arg13 ∧ P main_arg14 ∧ P main_arg15 ∧ P main_arg16 ∧ P main_arg17 ∧ P main_arg18 ∧ P main_arg19 ∧ P main_arg20 ∧ P main_arg21 ∧ P main_arg22 ∧ P main_arg23 ∧ P main_arg24 ∧ P main_arg25 ∧ P main_arg26 ∧ P main_arg27 ∧ P main_arg28 ∧ P main_arg29 ∧ P main_arg30 ∧ P main_arg31 ∧ P main_arg32 :=
  ⟨h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide)⟩

-- The frame: every weakly fair execution of @main terminates, nothing faulting, and what no item writes ends as launched.
theorem kept_all (ρ : Dev nD → PrngReg) :
    θ_run defs (onTc (τ := τ) (main (F := F))) ⟨m, fun _ => 0, ρ⟩ (fun r => ∀ (c : Dev nD) (b : Ref sig .tc),
      ¬(Proc.devRef .tc b : DevRef τ sig).isScoped → b ∉ (written : List (Ref sig .tc)) →
      r.2.mem ((c.tc : Thread nD τ).loc b) = m ((c.tc : Thread nD τ).loc b)) :=
  (θ_run defs _ _).mono (fun r h c b hs hw => (h c _ (mem_uc b hs)).trans (out6_keep m c b hw)) (run_all m ρ)

end Cert.Kernel.Hand

end
-- ==== Proof.KI.Sched.lean ====
import proofs.«406288_j68358699483732_1_alg».proof.Proof.Gen.KernelIdeal.Launch
import proofs.«406288_j68358699483732_1_alg».proof.Proof.Gen.KernelIdeal.Skeleton
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

namespace Sched

theorem word_toNat (n : Nat) (h : n < 400) : (BitVec.ofNat 32 n).toNat = n := by
  rw [BitVec.toNat_ofNat]
  exact Nat.mod_eq_of_lt (by omega)

theorem stride1_0 : grid1.stride 0 = 50 := by decide

theorem coords1_0 (t : Fin cfg1.N) : (grid1.coords t 0).val = t.val / 50 := by
  have hN : cfg1.N = 20000 := N_1
  have ht := t.isLt
  show t.val / grid1.stride 0 % 400 = _
  rw [stride1_0]
  omega

theorem index1_5 (t : Fin cfg1.N) : win1_5.index t = ![t.val / 50, 0] := by
  have hb : (grid1.coords t 0).val < 400 := (grid1.coords t 0).isLt
  funext a
  match a with
  | ⟨0, _⟩ =>
    show (BitVec.ofNat 32 (grid1.coords t 0).val).toNat = t.val / 50
    rw [word_toNat _ (by omega), coords1_0]
  | ⟨1, _⟩ => rfl

theorem stride2_0 : grid2.stride 0 = 400 := by decide

theorem coords2_0 (t : Fin cfg2.N) : (grid2.coords t 0).val = t.val / 400 := by
  have hN : cfg2.N = 20000 := N_2
  have ht := t.isLt
  show t.val / grid2.stride 0 % 50 = _
  rw [stride2_0]
  omega

theorem index2_2 (t : Fin cfg2.N) : win2_2.index t = ![t.val / 400, 0] := by
  have hb : (grid2.coords t 0).val < 50 := (grid2.coords t 0).isLt
  funext a
  match a with
  | ⟨0, _⟩ =>
    show (BitVec.ofNat 32 (grid2.coords t 0).val).toNat = t.val / 400
    rw [word_toNat _ (by omega), coords2_0]
  | ⟨1, _⟩ => rfl

end Sched

theorem flush0_5 : ∀ t : Fin cfg0.N, (cfg0.win 5).flush t = true :=
  (by decide +kernel : ∀ t : Fin grid0.N, win0_5.flush t = true)

theorem flush0_6 : ∀ t : Fin cfg0.N, (cfg0.win 6).flush t = true :=
  (by decide +kernel : ∀ t : Fin grid0.N, win0_6.flush t = true)

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev st0_4 (t : Fin cfg0.N) := (cfg0.win 4).stage (cfg0.slots t 4)
abbrev st0_5 (t : Fin cfg0.N) := (cfg0.win 5).stage (cfg0.slots t 5)
abbrev st0_6 (t : Fin cfg0.N) := (cfg0.win 6).stage (cfg0.slots t 6)

abbrev bodyAt0 (t : Fin cfg0.N) : Prog (TpuEff nD τ sig (Elt F) Λ₀ .tc) PUnit :=
  cc0__stage1_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))

theorem flush1_5 : ∀ t : Fin cfg1.N, (cfg1.win 5).flush t = true ↔ t.val % 50 = 49 := fun t => by
  have hN : grid1.N = 20000 := N_1
  have htl : t.val < 20000 := hN ▸ t.isLt
  show win1_5.flush t = true ↔ _
  unfold Window.flush
  rw [Bool.and_eq_true, Bool.or_eq_true, decide_eq_true_eq, decide_eq_true_eq]
  constructor
  · rintro ⟨-, h | ⟨h, hne⟩⟩
    · omega
    · by_contra hc
      apply hne
      rw [Sched.index1_5, Sched.index1_5]
      have e : (t.val + 1) / 50 = t.val / 50 := by omega
      show ![(t.val + 1) / 50, 0] = ![t.val / 50, 0]
      rw [e]
  · intro hlast
    refine ⟨rfl, ?_⟩
    by_cases hl : t.val + 1 = grid1.N
    · exact Or.inl hl
    · refine Or.inr ⟨by omega, fun he => ?_⟩
      rw [Sched.index1_5, Sched.index1_5] at he
      have h0 : (t.val + 1) / 50 = t.val / 50 := congrFun he 0
      omega

abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)
abbrev st1_3 (t : Fin cfg1.N) := (cfg1.win 3).stage (cfg1.slots t 3)
abbrev st1_4 (t : Fin cfg1.N) := (cfg1.win 4).stage (cfg1.slots t 4)
abbrev st1_5 (t : Fin cfg1.N) := (cfg1.win 5).stage (cfg1.slots t 5)

abbrev bodyAt1 (t : Fin cfg1.N) : Prog (TpuEff nD τ sig (Elt F) Λ₀ .tc) PUnit :=
  cc1__stage2_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (Memref.whole cc1_scratch0) (Memref.isWhole_whole _) (Memref.whole cc1_scratch1) (Memref.isWhole_whole _)

theorem flush2_2 : ∀ t : Fin cfg2.N, (cfg2.win 2).flush t = true ↔ t.val % 400 = 399 := fun t => by
  have hN : grid2.N = 20000 := N_2
  have htl : t.val < 20000 := hN ▸ t.isLt
  show win2_2.flush t = true ↔ _
  unfold Window.flush
  rw [Bool.and_eq_true, Bool.or_eq_true, decide_eq_true_eq, decide_eq_true_eq]
  constructor
  · rintro ⟨-, h | ⟨h, hne⟩⟩
    · omega
    · by_contra hc
      apply hne
      rw [Sched.index2_2, Sched.index2_2]
      have e : (t.val + 1) / 400 = t.val / 400 := by omega
      show ![(t.val + 1) / 400, 0] = ![t.val / 400, 0]
      rw [e]
  · intro hlast
    refine ⟨rfl, ?_⟩
    by_cases hl : t.val + 1 = grid2.N
    · exact Or.inl hl
    · refine Or.inr ⟨by omega, fun he => ?_⟩
      rw [Sched.index2_2, Sched.index2_2] at he
      have h0 : (t.val + 1) / 400 = t.val / 400 := congrFun he 0
      omega

abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)

abbrev bodyAt2 (t : Fin cfg2.N) : Prog (TpuEff nD τ sig (Elt F) Λ₀ .tc) PUnit :=
  cc2__stage3_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (Memref.whole cc2_scratch0) (Memref.isWhole_whole _)

theorem flush3_8 : ∀ t : Fin cfg3.N, (cfg3.win 8).flush t = true :=
  (by decide +kernel : ∀ t : Fin grid3.N, win3_8.flush t = true)

abbrev st3_0 (t : Fin cfg3.N) := (cfg3.win 0).stage (cfg3.slots t 0)
abbrev st3_1 (t : Fin cfg3.N) := (cfg3.win 1).stage (cfg3.slots t 1)
abbrev st3_2 (t : Fin cfg3.N) := (cfg3.win 2).stage (cfg3.slots t 2)
abbrev st3_3 (t : Fin cfg3.N) := (cfg3.win 3).stage (cfg3.slots t 3)
abbrev st3_4 (t : Fin cfg3.N) := (cfg3.win 4).stage (cfg3.slots t 4)
abbrev st3_5 (t : Fin cfg3.N) := (cfg3.win 5).stage (cfg3.slots t 5)
abbrev st3_6 (t : Fin cfg3.N) := (cfg3.win 6).stage (cfg3.slots t 6)
abbrev st3_7 (t : Fin cfg3.N) := (cfg3.win 7).stage (cfg3.slots t 7)
abbrev st3_8 (t : Fin cfg3.N) := (cfg3.win 8).stage (cfg3.slots t 8)

abbrev bodyAt3 (t : Fin cfg3.N) : Prog (TpuEff nD τ sig (Elt F) Λ₀ .tc) PUnit :=
  cc3__stage4_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4)) (win3_5.stage (cfg3.slots t 5)) (hstage3_5 ((cfg3.slots t 5).cast nbuf3_5)) (win3_6.stage (cfg3.slots t 6)) (hstage3_6 ((cfg3.slots t 6).cast nbuf3_6)) (win3_7.stage (cfg3.slots t 7)) (hstage3_7 ((cfg3.slots t 7).cast nbuf3_7)) (win3_8.stage (cfg3.slots t 8)) (hstage3_8 ((cfg3.slots t 8).cast nbuf3_8))

-- A later call of the same kernel has the earlier call's grid and index map, term for term.
theorem flush4_5 : ∀ t : Fin cfg4.N, (cfg4.win 5).flush t = true ↔ t.val % 50 = 49 := flush1_5

abbrev st4_0 (t : Fin cfg4.N) := (cfg4.win 0).stage (cfg4.slots t 0)
abbrev st4_1 (t : Fin cfg4.N) := (cfg4.win 1).stage (cfg4.slots t 1)
abbrev st4_2 (t : Fin cfg4.N) := (cfg4.win 2).stage (cfg4.slots t 2)
abbrev st4_3 (t : Fin cfg4.N) := (cfg4.win 3).stage (cfg4.slots t 3)
abbrev st4_4 (t : Fin cfg4.N) := (cfg4.win 4).stage (cfg4.slots t 4)
abbrev st4_5 (t : Fin cfg4.N) := (cfg4.win 5).stage (cfg4.slots t 5)

abbrev bodyAt4 (t : Fin cfg4.N) : Prog (TpuEff nD τ sig (Elt F) Λ₀ .tc) PUnit :=
  cc4__stage2_kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (Memref.whole cc4_scratch0) (Memref.isWhole_whole _) (Memref.whole cc4_scratch1) (Memref.isWhole_whole _)

theorem flush5_2 : ∀ t : Fin cfg5.N, (cfg5.win 2).flush t = true ↔ t.val % 400 = 399 := flush2_2

abbrev st5_0 (t : Fin cfg5.N) := (cfg5.win 0).stage (cfg5.slots t 0)
abbrev st5_1 (t : Fin cfg5.N) := (cfg5.win 1).stage (cfg5.slots t 1)
abbrev st5_2 (t : Fin cfg5.N) := (cfg5.win 2).stage (cfg5.slots t 2)

abbrev bodyAt5 (t : Fin cfg5.N) : Prog (TpuEff nD τ sig (Elt F) Λ₀ .tc) PUnit :=
  cc5__stage3_kernel (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (Memref.whole cc5_scratch0) (Memref.isWhole_whole _)

theorem flush6_8 : ∀ t : Fin cfg6.N, (cfg6.win 8).flush t = true := flush3_8

abbrev st6_0 (t : Fin cfg6.N) := (cfg6.win 0).stage (cfg6.slots t 0)
abbrev st6_1 (t : Fin cfg6.N) := (cfg6.win 1).stage (cfg6.slots t 1)
abbrev st6_2 (t : Fin cfg6.N) := (cfg6.win 2).stage (cfg6.slots t 2)
abbrev st6_3 (t : Fin cfg6.N) := (cfg6.win 3).stage (cfg6.slots t 3)
abbrev st6_4 (t : Fin cfg6.N) := (cfg6.win 4).stage (cfg6.slots t 4)
abbrev st6_5 (t : Fin cfg6.N) := (cfg6.win 5).stage (cfg6.slots t 5)
abbrev st6_6 (t : Fin cfg6.N) := (cfg6.win 6).stage (cfg6.slots t 6)
abbrev st6_7 (t : Fin cfg6.N) := (cfg6.win 7).stage (cfg6.slots t 7)
abbrev st6_8 (t : Fin cfg6.N) := (cfg6.win 8).stage (cfg6.slots t 8)

abbrev bodyAt6 (t : Fin cfg6.N) : Prog (TpuEff nD τ sig (Elt F) Λ₀ .tc) PUnit :=
  cc6__stage4_kernel (grid6.coords t) (win6_0.stage (cfg6.slots t 0)) (hstage6_0 ((cfg6.slots t 0).cast nbuf6_0)) (win6_1.stage (cfg6.slots t 1)) (hstage6_1 ((cfg6.slots t 1).cast nbuf6_1)) (win6_2.stage (cfg6.slots t 2)) (hstage6_2 ((cfg6.slots t 2).cast nbuf6_2)) (win6_3.stage (cfg6.slots t 3)) (hstage6_3 ((cfg6.slots t 3).cast nbuf6_3)) (win6_4.stage (cfg6.slots t 4)) (hstage6_4 ((cfg6.slots t 4).cast nbuf6_4)) (win6_5.stage (cfg6.slots t 5)) (hstage6_5 ((cfg6.slots t 5).cast nbuf6_5)) (win6_6.stage (cfg6.slots t 6)) (hstage6_6 ((cfg6.slots t 6).cast nbuf6_6)) (win6_7.stage (cfg6.slots t 7)) (hstage6_7 ((cfg6.slots t 7).cast nbuf6_7)) (win6_8.stage (cfg6.slots t 8)) (hstage6_8 ((cfg6.slots t 8).cast nbuf6_8))

end Cert.KernelIdeal.Hand

end
-- ==== Proof.KI.Stage1.lean ====
import proofs.«406288_j68358699483732_1_alg».proof.Proof.Gen.KernelIdeal.Launch
import proofs.«406288_j68358699483732_1_alg».proof.Proof.Gen.KernelIdeal.Skeleton
import proofs.«406288_j68358699483732_1_alg».proof.Proof.KI.Sched
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  refine (dat.before_in_eq_fetched 0 rfl (fun _ => rfl) (fun _ _ _ => rfl) (fun t => ?_) t d).trans ?_
  · rw [hafter]; unfold Dat.blockOf iblk0; rw [hA]; try rfl
  · unfold Dat.fetched Dat.blockOf iblk0; rw [hA]; try rfl

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  refine (dat.before_in_eq_fetched 1 rfl (fun _ => rfl) (fun _ _ _ => rfl) (fun t => ?_) t d).trans ?_
  · rw [hafter]; unfold Dat.blockOf iblk0; rw [hA]; try rfl
  · unfold Dat.fetched Dat.blockOf iblk0; rw [hA]; try rfl

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t := by
  refine (dat.before_in_eq_fetched 2 rfl (fun _ => rfl) (fun _ _ _ => rfl) (fun t => ?_) t d).trans ?_
  · rw [hafter]; unfold Dat.blockOf iblk0; rw [hA]; try rfl
  · unfold Dat.fetched Dat.blockOf iblk0; rw [hA]; try rfl

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t := by
  refine (dat.before_in_eq_fetched 3 rfl (fun _ => rfl) (fun _ _ _ => rfl) (fun t => ?_) t d).trans ?_
  · rw [hafter]; unfold Dat.blockOf iblk0; rw [hA]; try rfl
  · unfold Dat.fetched Dat.blockOf iblk0; rw [hA]; try rfl

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t := by
  refine (dat.before_in_eq_fetched 4 rfl (fun _ => rfl) (fun _ _ _ => rfl) (fun t => ?_) t d).trans ?_
  · rw [hafter]; unfold Dat.blockOf iblk0; rw [hA]; try rfl
  · unfold Dat.fetched Dat.blockOf iblk0; rw [hA]; try rfl

abbrev r0_x : Rect S2000x256 := Rect.unit (s := S2000x256) ![0, 0] S2000x256.size inb_S2000x256_S2000x256_0_0
abbrev r0_w : Rect S256x256 := Rect.unit (s := S256x256) ![0, 0] S256x256.size inb_S256x256_S256x256_0_0
abbrev r0_b : Rect S256 := Rect.unit (s := S256) ![0] S256.size inb_S256_S256_0
abbrev r0_u : Rect S256x128 := Rect.unit (s := S256x128) ![0, 0] S256x128.size inb_S256x128_S256x128_0_0
abbrev r0_a : Rect S128 := Rect.unit (s := S128) ![0] S128.size inb_S128_S128_0
abbrev r0_q : Rect S2000x128 := Rect.unit (s := S2000x128) ![0, 0] S2000x128.size inb_S2000x128_S2000x128_0_0

def out0_5 (x0 : Vec F S2000x256 .f32) (x1 : Vec F S256x256 .f32) (x2 : Vec F S256 .f32) : Vec F S2000x256 .f32 :=
  View.canon [⟨r0_x, k0_pay2 (View.ld x0 r0_x) (View.ld x1 r0_w) (View.ld x2 r0_b)⟩]

def out0_6 (x0 : Vec F S2000x256 .f32) (x3 : Vec F S256x128 .f32) (x4 : Vec F S128 .f32) : Vec F S2000x128 .f32 :=
  View.canon [⟨r0_q, k0_pay3 (View.ld x0 r0_x) (View.ld x3 r0_u) (View.ld x4 r0_a)⟩]

theorem cover0_5 (p0 : Vec F S2000x256 .f32) (y : S2000x256.Idx) :
    ∃ pc ∈ ([⟨r0_x, p0⟩] : List (View.Piece (Elt F) S2000x256 .f32)), y ∈ pc.1.set :=
  View.cover_of_tiled [⟨r0_x, p0⟩] S2000x256.size (by rfl) y

theorem cover0_6 (p0 : Vec F S2000x128 .f32) (y : S2000x128.Idx) :
    ∃ pc ∈ ([⟨r0_q, p0⟩] : List (View.Piece (Elt F) S2000x128 .f32)), y ∈ pc.1.set :=
  View.cover_of_tiled [⟨r0_q, p0⟩] S2000x128.size (by rfl) y

set_option maxHeartbeats 1000000 in

theorem sound_kernel0 (c : Dev nD) (E : Set ℕ) (i : grid0.Coords)
    (arg1 : Memref sig .tc .vmem S2000x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S256x128 .f32) (harg4 : arg4.IsWhole)
    (arg5 : Memref sig .tc .vmem S128 .f32) (harg5 : arg5.IsWhole) (arg6 : Memref sig .tc .vmem S2000x256 .f32) (harg6 : arg6.IsWhole)
    (arg7 : Memref sig .tc .vmem S2000x128 .f32) (harg7 : arg7.IsWhole)
    (x0 : Vec F S2000x256 .f32) (x1 : Vec F S256x256 .f32) (x2 : Vec F S256 .f32) (x3 : Vec F S256x128 .f32) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x3 x4)) -∗ K ⟨⟩))
      ⊢ wp frame (wpE (defs₀ (F := F)) Variants.none c none) E
          (cc0__stage1_kernel i arg1 harg1 arg2 harg2 arg3 harg3 arg4 harg4 arg5 harg5 arg6 harg6 arg7 harg7) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  · iexists _; isplitr
    swap; · iexact H6
    ipureintro
    exact View.read_writes_eq_canon _ _ _ (cover0_6 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem hin0 (c : Dev nD) : (Pipeline.ΦA spec0 c : sProp 𝕄) ⊢ (dat0 V c).Φ 0 := BIBase.Entails.rfl
theorem hout0 (c : Dev nD) : (dat0 V c).Φ (Fin.last cfg0.N) ⊢ (Pipeline.ΦA spec0 c : sProp 𝕄) := BIBase.Entails.rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Defs.lean ====
import proofs.«406288_j68358699483732_1_alg».proof.Proof.Gen.KernelIdeal.Skeleton
import proofs.«406288_j68358699483732_1_alg».proof.Proof.Gen.KernelIdeal.Launch
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rK1 : Rect S2000x256 := Rect.unit (s := S2000x256) ![0, 0] S2000x128.size inb_S2000x256_S2000x128_0_0
abbrev rV1 : Rect S2000x256 := Rect.unit (s := S2000x256) ![0, 128] S2000x128.size inb_S2000x256_S2000x128_0_128

def accKV1 (c : Dev nD) : (n : ℕ) → n < cfg1.N → Vec F S2000x256 .f32
  | 0, h => k1_pay6 (grid1.coords ⟨0, h⟩) (iblk1 V c 0 ⟨0, h⟩) (iblk1 V c 3 ⟨0, h⟩) k1_pay3
  | n + 1, h => k1_pay6 (grid1.coords ⟨n + 1, h⟩) (iblk1 V c 0 ⟨n + 1, h⟩) (iblk1 V c 3 ⟨n + 1, h⟩)
      (if (n + 1) % 50 = 0 then k1_pay3 else accKV1 c n (Nat.lt_of_succ_lt h))

def accQ1 (c : Dev nD) : (n : ℕ) → n < cfg1.N → Vec F S2000x128 .f32
  | 0, h => k1_pay1 k1_pay4 (k1_pay7 (grid1.coords ⟨0, h⟩) (iblk1 V c 1 ⟨0, h⟩) (iblk1 V c 4 ⟨0, h⟩))
  | n + 1, h => k1_pay1 (if (n + 1) % 50 = 0 then k1_pay4 else accQ1 c n (Nat.lt_of_succ_lt h))
      (k1_pay7 (grid1.coords ⟨n + 1, h⟩) (iblk1 V c 1 ⟨n + 1, h⟩) (iblk1 V c 4 ⟨n + 1, h⟩))

def emit1 (c : Dev nD) (t : Fin cfg1.N) : Vec F S2000x256 .f32 :=
  k1_pay2 (View.ld (accKV1 V c t.val t.isLt) rK1) (View.ld (accKV1 V c t.val t.isLt) rV1)
    (accQ1 V c t.val t.isLt) (iblk1 V c 2 t)

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 (c : Dev nD) : (n : ℕ) → n < cfg2.N → Vec F S1000x256 .f32
  | 0, h => k2_pay2 (grid2.coords ⟨0, h⟩) (iblk2 V c 0 ⟨0, h⟩) (iblk2 V c 1 ⟨0, h⟩) k2_pay1
  | n + 1, h => k2_pay2 (grid2.coords ⟨n + 1, h⟩) (iblk2 V c 0 ⟨n + 1, h⟩) (iblk2 V c 1 ⟨n + 1, h⟩)
      (if (n + 1) % 400 = 0 then k2_pay1 else acc2 c n (Nat.lt_of_succ_lt h))

end Cert.KernelIdeal.Hand

end
-- ==== Proof.KI.Stage2Run.lean ====
import proofs.«406288_j68358699483732_1_alg».proof.Proof.Gen.KernelIdeal.Launch
import proofs.«406288_j68358699483732_1_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop :=
  (Scalar.cmpi .ne (Scalar.extui (Scalar.cmpi .eq (BitVec.ofNat 32 (i 1).val) 0#32)) 0#32) = 1#1

abbrev cond1_1 (i : grid1.Coords) : Prop := k1_cond2 i = 1#1

theorem off2_zero1 : (![0, 0] : Fin 2 → ℕ) = fun _ => 0 := by
  funext a; fin_cases a <;> rfl

theorem readAt_whole_unread1 {s : Shape} {e : EltTy} (m : Memref sig .tc .vmem s e) (h : m.IsWhole)
    (X : s.Idx → Elt F e) {off : Fin s.rank → ℕ} (ho : off = fun _ => 0) (inb : ∀ a, off a + s.size a ≤ s.size a) :
    View.readAt (Elt F) m.view (Rect.unit off s.size inb).toLoadRect (h.unread X) = X := by
  show View.ld (m.view.read (Elt F) (h.unread X)) (Rect.unit off s.size inb) = X
  rw [h.read_unread, View.ld_unit_zero ho]

theorem read_writes_whole1 {s : Shape} {e : EltTy} (v : View sig .tc .vmem s e) (f : v.ty.Contents (Elt F))
    {off : Fin s.rank → ℕ} (ho : off = fun _ => 0) (inb : ∀ a, off a + s.size a ≤ s.size a)
    (w : s.Idx → Elt F e) (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self, View.mem_set_unit_zero ho inb y⟩),
    View.canon_cons_unit_zero ho]

theorem readCov_whole_ld1 {s : Shape} {e : EltTy} (v : View sig .tc .vmem s e)
    {off : Fin s.rank → ℕ} (ho : off = fun _ => 0) (inb : ∀ a, off a + s.size a ≤ s.size a)
    (w : s.Idx → Elt F e) (L : List (View.Piece (Elt F) s e)) (r : Rect s) :
    v.readCov ((⟨Rect.unit off s.size inb, w⟩ : View.Piece (Elt F) s e) :: L) r.toLoadRect = View.ld w r := by
  rw [View.readCov_eq_canon_ld _ _ _ (fun y => ⟨_, List.mem_cons_self, View.mem_set_unit_zero ho inb y⟩),
    View.canon_cons_unit_zero ho]

set_option maxHeartbeats 1000000 in

theorem kernelRun1_A (c : Dev nD) (i : grid1.Coords)
    (arg2 : Memref sig .tc .vmem S2000x1 .i32) (harg2 : arg2.IsWhole) (arg3 : Memref sig .tc .vmem S2000x1 .i32) (harg3 : arg3.IsWhole)
    (arg4 : Memref sig .tc .vmem S2000x2 .f32) (harg4 : arg4.IsWhole) (arg5 : Memref sig .tc .vmem S1000x256 .f32) (harg5 : arg5.IsWhole)
    (arg6 : Memref sig .tc .vmem S1000x128 .f32) (harg6 : arg6.IsWhole) (arg7 : Memref sig .tc .vmem S2000x256 .f32) (harg7 : arg7.IsWhole)
    (arg8 : Memref sig .tc .vmem S2000x256 .f32) (harg8 : arg8.IsWhole) (arg9 : Memref sig .tc .vmem S2000x128 .f32) (harg9 : arg9.IsWhole)
    (hc0 : cond1_0 i) (hc1 : ¬cond1_1 i)
    (x0 : Vec F S2000x1 .i32) (x1 : Vec F S2000x1 .i32) (x2 : Vec F S2000x2 .f32) (x3 : Vec F S1000x256 .f32) (x4 : Vec F S1000x128 .f32)
    (xi5 : Vec F S2000x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xi5
            ∗ owns (c : Thread nD τ) arg8 fullShare (k1_pay6 i x0 x3 k1_pay3)
            ∗ owns (c : Thread nD τ) arg9 fullShare (k1_pay1 k1_pay4 (k1_pay7 i x1 x4))) -∗ K ⟨⟩))
      ⊢ wp frame (wpE (defs₀ (F := F)) Variants.none c none) E
          (cc1__stage2_kernel i arg2 harg2 arg3 harg3 arg4 harg4 arg5 harg5 arg6 harg6 arg7 harg7 arg8 harg8 arg9 harg9) K := by
  simp only [cc1__stage2_kernel_eq_skeleton]; unfold cc1__stage2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr
    swap; · iexact HS0
    ipureintro
    refine (read_writes_whole1 _ _ off2_zero1 _ _ _).trans ?_
    unfold kernelRun1_A.sl.v29 kernelRun1_A.sl.HS0_1
    exact congr (congr (congrArg (k1_pay6 i) (readAt_whole_unread1 arg2 harg2 x0 off2_zero1 _))
      (readAt_whole_unread1 arg5 harg5 x3 off2_zero1 _)) (View.readCov_unit_zero _ off2_zero1 _ _)
  iexists _; isplitr
  swap; · iexact HS1
  ipureintro
  refine (read_writes_whole1 _ _ off2_zero1 _ _ _).trans ?_
  unfold kernelRun1_A.sl.v35 kernelRun1_A.sl.HS1_1
  dsimp only
  rw [View.readCov_unit_zero _ off2_zero1, readAt_whole_unread1 arg3 harg3 x1 off2_zero1,
    readAt_whole_unread1 arg6 harg6 x4 off2_zero1]

set_option maxHeartbeats 1000000 in

theorem kernelRun1_B (c : Dev nD) (i : grid1.Coords)
    (arg2 : Memref sig .tc .vmem S2000x1 .i32) (harg2 : arg2.IsWhole) (arg3 : Memref sig .tc .vmem S2000x1 .i32) (harg3 : arg3.IsWhole)
    (arg4 : Memref sig .tc .vmem S2000x2 .f32) (harg4 : arg4.IsWhole) (arg5 : Memref sig .tc .vmem S1000x256 .f32) (harg5 : arg5.IsWhole)
    (arg6 : Memref sig .tc .vmem S1000x128 .f32) (harg6 : arg6.IsWhole) (arg7 : Memref sig .tc .vmem S2000x256 .f32) (harg7 : arg7.IsWhole)
    (arg8 : Memref sig .tc .vmem S2000x256 .f32) (harg8 : arg8.IsWhole) (arg9 : Memref sig .tc .vmem S2000x128 .f32) (harg9 : arg9.IsWhole)
    (hc0 : ¬cond1_0 i) (hc1 : ¬cond1_1 i)
    (x0 : Vec F S2000x1 .i32) (x1 : Vec F S2000x1 .i32) (x2 : Vec F S2000x2 .f32) (x3 : Vec F S1000x256 .f32) (x4 : Vec F S1000x128 .f32)
    (xi5 : Vec F S2000x256 .f32) (xs0 : Vec F S2000x256 .f32) (xs1 : Vec F S2000x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
        ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
            ∗ owns (c : Thread nD τ) arg8 fullShare (k1_pay6 i x0 x3 xs0)
            ∗ owns (c : Thread nD τ) arg9 fullShare (k1_pay1 xs1 (k1_pay7 i x1 x4))) -∗ K ⟨⟩))
      ⊢ wp frame (wpE (defs₀ (F := F)) Variants.none c none) E
          (cc1__stage2_kernel i arg2 harg2 arg3 harg3 arg4 harg4 arg5 harg5 arg6 harg6 arg7 harg7 arg8 harg8 arg9 harg9) K := by
  simp only [cc1__stage2_kernel_eq_skeleton]; unfold cc1__stage2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs0; obtain rfl := harg9.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr
    swap; · iexact HS0
    ipureintro
    refine (read_writes_whole1 _ _ off2_zero1 _ _ _).trans ?_
    rw [readAt_whole_unread1 arg2 harg2 x0 off2_zero1, readAt_whole_unread1 arg5 harg5 x3 off2_zero1,
      readAt_whole_unread1 arg8 harg8 xs0 off2_zero1]
  iexists _; isplitr
  swap; · iexact HS1
  ipureintro
  refine (read_writes_whole1 _ _ off2_zero1 _ _ _).trans ?_
  dsimp only
  rw [readAt_whole_unread1 arg9 harg9 xs1 off2_zero1, readAt_whole_unread1 arg3 harg3 x1 off2_zero1,
    readAt_whole_unread1 arg6 harg6 x4 off2_zero1]

set_option maxHeartbeats 1000000 in

theorem kernelRun1_C (c : Dev nD) (i : grid1.Coords)
    (arg2 : Memref sig .tc .vmem S2000x1 .i32) (harg2 : arg2.IsWhole) (arg3 : Memref sig .tc .vmem S2000x1 .i32) (harg3 : arg3.IsWhole)
    (arg4 : Memref sig .tc .vmem S2000x2 .f32) (harg4 : arg4.IsWhole) (arg5 : Memref sig .tc .vmem S1000x256 .f32) (harg5 : arg5.IsWhole)
    (arg6 : Memref sig .tc .vmem S1000x128 .f32) (harg6 : arg6.IsWhole) (arg7 : Memref sig .tc .vmem S2000x256 .f32) (harg7 : arg7.IsWhole)
    (arg8 : Memref sig .tc .vmem S2000x256 .f32) (harg8 : arg8.IsWhole) (arg9 : Memref sig .tc .vmem S2000x128 .f32) (harg9 : arg9.IsWhole)
    (hc0 : ¬cond1_0 i) (hc1 : cond1_1 i)
    (x0 : Vec F S2000x1 .i32) (x1 : Vec F S2000x1 .i32) (x2 : Vec F S2000x2 .f32) (x3 : Vec F S1000x256 .f32) (x4 : Vec F S1000x128 .f32)
    (xs0 : Vec F S2000x256 .f32) (xs1 : Vec F S2000x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare
                (k1_pay2 (View.ld (k1_pay6 i x0 x3 xs0) (Rect.unit (s := S2000x256) ![0, 0] S2000x128.size inb_S2000x256_S2000x128_0_0))
                  (View.ld (k1_pay6 i x0 x3 xs0) (Rect.unit (s := S2000x256) ![0, 128] S2000x128.size inb_S2000x256_S2000x128_0_128))
                  (k1_pay1 xs1 (k1_pay7 i x1 x4)) x2)
            ∗ owns (c : Thread nD τ) arg8 fullShare (k1_pay6 i x0 x3 xs0)
            ∗ owns (c : Thread nD τ) arg9 fullShare (k1_pay1 xs1 (k1_pay7 i x1 x4))) -∗ K ⟨⟩))
      ⊢ wp frame (wpE (defs₀ (F := F)) Variants.none c none) E
          (cc1__stage2_kernel i arg2 harg2 arg3 harg3 arg4 harg4 arg5 harg5 arg6 harg6 arg7 harg7 arg8 harg8 arg9 harg9) K := by
  simp only [cc1__stage2_kernel_eq_skeleton]; unfold cc1__stage2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs0; obtain rfl := harg9.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (read_writes_whole1 _ _ off2_zero1 _ _ _).trans ?_
    unfold kernelRun1_C.sl.v44 kernelRun1_C.sl.v46 kernelRun1_C.sl.v48 kernelRun1_C.sl.HS0_1 kernelRun1_C.sl.HS1_1
    dsimp only
    rw [View.readCov_cons_toLoadRect, readCov_whole_ld1 _ off2_zero1, readCov_whole_ld1 _ off2_zero1,
      readAt_whole_unread1 arg2 harg2 x0 off2_zero1, readAt_whole_unread1 arg5 harg5 x3 off2_zero1,
      readAt_whole_unread1 arg8 harg8 xs0 off2_zero1, readAt_whole_unread1 arg9 harg9 xs1 off2_zero1,
      readAt_whole_unread1 arg3 harg3 x1 off2_zero1, readAt_whole_unread1 arg6 harg6 x4 off2_zero1,
      readAt_whole_unread1 arg4 harg4 x2 off2_zero1]
  isplitl [HS0]
  · iexists _; isplitr
    swap; · iexact HS0
    ipureintro
    unfold kernelRun1_C.sl.HS0_1
    refine (read_writes_whole1 _ _ off2_zero1 _ _ _).trans ?_
    rw [readAt_whole_unread1 arg2 harg2 x0 off2_zero1, readAt_whole_unread1 arg5 harg5 x3 off2_zero1,
      readAt_whole_unread1 arg8 harg8 xs0 off2_zero1]
  iexists _; isplitr
  swap; · iexact HS1
  ipureintro
  unfold kernelRun1_C.sl.HS1_1
  refine (read_writes_whole1 _ _ off2_zero1 _ _ _).trans ?_
  dsimp only
  rw [readAt_whole_unread1 arg9 harg9 xs1 off2_zero1, readAt_whole_unread1 arg3 harg3 x1 off2_zero1,
    readAt_whole_unread1 arg6 harg6 x4 off2_zero1]

end Cert.KernelIdeal.Hand

end
-- ==== Proof.KI.Stage2.lean ====
import proofs.«406288_j68358699483732_1_alg».proof.Proof.Gen.KernelIdeal.Launch
import proofs.«406288_j68358699483732_1_alg».proof.Proof.Gen.KernelIdeal.Skeleton
import proofs.«406288_j68358699483732_1_alg».proof.Proof.KI.Sched
import proofs.«406288_j68358699483732_1_alg».proof.Proof.KI.Defs
import proofs.«406288_j68358699483732_1_alg».proof.Proof.KI.Stage2Run
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem coord1_1 (t : Fin cfg1.N) : (grid1.coords t 1).val = t.val % 50 := by
  show t.val / grid1.stride 1 % 50 = t.val % 50
  rw [show grid1.stride 1 = 1 from by decide, Nat.div_one]

theorem hcond1_0 (t : Fin cfg1.N) : cond1_0 (grid1.coords t) ↔ t.val % 50 = 0 := by
  have key : ∀ j : Fin 50, (Scalar.cmpi .ne (Scalar.extui (Scalar.cmpi .eq (BitVec.ofNat 32 j.val) 0#32)) 0#32) = 1#1 ↔ j.val = 0 := by
    decide +kernel
  exact (key (grid1.coords t 1)).trans (by rw [coord1_1])

theorem hcond1_1 (t : Fin cfg1.N) : cond1_1 (grid1.coords t) ↔ t.val % 50 = 49 := by
  have key : ∀ j : Fin 50, (Scalar.cmpi .ne (Scalar.extui (Scalar.cmpi .eq (BitVec.ofNat 32 j.val) 49#32)) 0#32) = 1#1 ↔ j.val = 49 := by
    decide +kernel
  exact (key (grid1.coords t 1)).trans (by rw [coord1_1])

theorem idleAt1_5 (i : grid1.Coords) (h : ¬cond1_1 i) : cfg1.idle 5 i = true := by
  show (!(k1_cond2 i == 1#1)) = true
  rw [show (k1_cond2 i == 1#1) = false from beq_eq_false_iff_ne.mpr h]; rfl

theorem liveAt1_5 (i : grid1.Coords) (h : cond1_1 i) : cfg1.idle 5 i = false := by
  show (!(k1_cond2 i == 1#1)) = false
  rw [show (k1_cond2 i == 1#1) = true from beq_iff_eq.mpr h]; rfl

theorem noFlush1_5 (t : Fin cfg1.N) (h : ¬t.val % 50 = 49) : (cfg1.win 5).flush t = false :=
  Bool.eq_false_iff.mpr fun hf => h ((flush1_5 t).mp hf)

abbrev ms1_0 (t : Fin cfg1.N) : Memref sig .tc .vmem S2000x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x2 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1000x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1000x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2000x256 .f32 := win1_5.stage (cfg1.slots t 5)
abbrev hs1_5 (t : Fin cfg1.N) : (ms1_5 t).IsWhole := hstage1_5 ((cfg1.slots t 5).cast nbuf1_5)

abbrev scM1_0 : Memref sig .tc .vmem S2000x256 .f32 := Memref.whole cc1_scratch0
abbrev scM1_1 : Memref sig .tc .vmem S2000x128 .f32 := Memref.whole cc1_scratch1

abbrev rest1 (c : Dev nD) : sProp 𝕄 :=
  Pipeline.scopedRestBut (Ix := Unit) (Name := ℕ) (U := UR sig nD τ) (Lvl := ℕ) (Val := Elt F) spec1 c [cc1_scratch0, cc1_scratch1]

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c)
          ∗ (∃ r, prngReg c r)) := by
  unfold Pipeline.ΦA; rw [scopedRest1_split]; simp only [scM1_0, scM1_1, rest1, owns_whole]; rfl

theorem accKV1_first (c : Dev nD) (t : Fin cfg1.N) (h0 : t.val % 50 = 0) :
    accKV1 V c t.val t.isLt = k1_pay6 (grid1.coords t) (iblk1 V c 0 t) (iblk1 V c 3 t) k1_pay3 := by
  obtain ⟨n, hn⟩ := t
  cases n with
  | zero => rfl
  | succ n => rw [accKV1]; dsimp only at h0 ⊢; rw [if_pos h0]

theorem accKV1_next (c : Dev nD) (t : Fin cfg1.N) (h0 : ¬t.val % 50 = 0) :
    accKV1 V c t.val t.isLt = k1_pay6 (grid1.coords t) (iblk1 V c 0 t) (iblk1 V c 3 t)
      (accKV1 V c (t.val - 1) (Nat.lt_of_le_of_lt (Nat.sub_le _ _) t.isLt)) := by
  obtain ⟨n, hn⟩ := t
  cases n with
  | zero => exact absurd (Nat.zero_mod _) h0
  | succ n => rw [accKV1]; dsimp only at h0 ⊢; rw [if_neg h0]; rfl

theorem accQ1_first (c : Dev nD) (t : Fin cfg1.N) (h0 : t.val % 50 = 0) :
    accQ1 V c t.val t.isLt = k1_pay1 k1_pay4 (k1_pay7 (grid1.coords t) (iblk1 V c 1 t) (iblk1 V c 4 t)) := by
  obtain ⟨n, hn⟩ := t
  cases n with
  | zero => rfl
  | succ n => rw [accQ1]; dsimp only at h0 ⊢; rw [if_pos h0]

theorem accQ1_next (c : Dev nD) (t : Fin cfg1.N) (h0 : ¬t.val % 50 = 0) :
    accQ1 V c t.val t.isLt = k1_pay1 (accQ1 V c (t.val - 1) (Nat.lt_of_le_of_lt (Nat.sub_le _ _) t.isLt))
      (k1_pay7 (grid1.coords t) (iblk1 V c 1 t) (iblk1 V c 4 t)) := by
  obtain ⟨n, hn⟩ := t
  cases n with
  | zero => exact absurd (Nat.zero_mod _) h0
  | succ n => rw [accQ1]; dsimp only at h0 ⊢; rw [if_neg h0]; rfl

def PhiS1 (c : Dev nD) : (n : ℕ) → n ≤ cfg1.N → sProp 𝕄
  | 0, _ => Pipeline.ΦA spec1 c
  | n + 1, hn => iprop(iprop(iprop(owns (c : Thread nD τ) scM1_0 fullShare (accKV1 V c n hn)
        ∗ owns (c : Thread nD τ) scM1_1 fullShare (accQ1 V c n hn)) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (accKV1 V c n hn)
        ∗ owns (c : Thread nD τ) scM1_1 fullShare (accQ1 V c n hn)) ∗ rest1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (accKV1 V c (n - 1) (by omega))
        ∗ owns (c : Thread nD τ) scM1_1 fullShare (accQ1 V c (n - 1) (by omega))) ∗ rest1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => emit1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

theorem after1_5 (c : Dev nD) (t : Fin cfg1.N) : (dat1 V c).after 5 t = emit1 V c t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 20000 := lt_of_lt_of_eq t.isLt (show cfg1.N = 20000 from N_1)
  rw [show (dat1 V c).leavesExact 0 t = owns (c : Thread nD τ) (ms1_0 t) fullShare ((dat1 V c).after 0 t) from rfl, after1_0]
  rw [show (dat1 V c).leavesExact 1 t = owns (c : Thread nD τ) (ms1_1 t) fullShare ((dat1 V c).after 1 t) from rfl, after1_1]
  rw [show (dat1 V c).leavesExact 2 t = owns (c : Thread nD τ) (ms1_2 t) fullShare ((dat1 V c).after 2 t) from rfl, after1_2]
  rw [show (dat1 V c).leavesExact 3 t = owns (c : Thread nD τ) (ms1_3 t) fullShare ((dat1 V c).after 3 t) from rfl, after1_3]
  rw [show (dat1 V c).leavesExact 4 t = owns (c : Thread nD τ) (ms1_4 t) fullShare ((dat1 V c).after 4 t) from rfl, after1_4]
  by_cases h0 : t.val % 50 = 0
  ·
    have h1 : ¬t.val % 50 = 49 := by omega
    have hc0 : cond1_0 (grid1.coords t) := (hcond1_0 t).mpr h0
    have hc1 : ¬cond1_1 (grid1.coords t) := fun h => h1 ((hcond1_1 t).mp h)
    rw [Dat.leavesExact_idle (dat1 V c) 5 t (idleAt1_5 _ hc1) (noFlush1_5 t h1)]
    rw [accKV1_first V c t h0, accQ1_first V c t h0]
    by_cases hz : t.val = 0
    · rw [PhiS1_castSucc V c t, PhiS1_zero V c _ _ hz, PhiA1_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply (kernelRun1_A c (grid1.coords t) _ (hs1_0 t) _ (hs1_1 t) _ (hs1_2 t) _ (hs1_3 t) _ (hs1_4 t) _ (hs1_5 t) _ (Memref.isWhole_whole _) _ (Memref.isWhole_whole _) hc0 hc1
        (iblk1 V c 0 t) (iblk1 V c 1 t) (iblk1 V c 2 t) (iblk1 V c 3 t) (iblk1 V c 4 t) ((dat1 V c).before 5 t d5) Set.univ _)
      iframe H0 H1 H2 H3 H4
      isplitl [H5]; · iexact H5
      isplitl [HS0]; · iexact HS0
      isplitl [HS1]; · iexact HS1
      iintro ⟨H0, H1, H2, H3, H4, H5, HS0, HS1⟩
      iframe Hr Hg Ho H0 H1 H2 H3 H4
      isplitl [HS0 HS1]
      · isplitl [HS0]; · iexact HS0
        iexact HS1
      iexists _; iexact H5
    · rw [PhiS1_castSucc V c t, PhiS1_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply (kernelRun1_A c (grid1.coords t) _ (hs1_0 t) _ (hs1_1 t) _ (hs1_2 t) _ (hs1_3 t) _ (hs1_4 t) _ (hs1_5 t) _ (Memref.isWhole_whole _) _ (Memref.isWhole_whole _) hc0 hc1
        (iblk1 V c 0 t) (iblk1 V c 1 t) (iblk1 V c 2 t) (iblk1 V c 3 t) (iblk1 V c 4 t) ((dat1 V c).before 5 t d5) Set.univ _)
      iframe H0 H1 H2 H3 H4
      isplitl [H5]; · iexact H5
      isplitl [HS0]; · iexists _; iexact HS0
      isplitl [HS1]; · iexists _; iexact HS1
      iintro ⟨H0, H1, H2, H3, H4, H5, HS0, HS1⟩
      iframe Hr Hg Ho H0 H1 H2 H3 H4
      isplitl [HS0 HS1]
      · isplitl [HS0]; · iexact HS0
        iexact HS1
      iexists _; iexact H5
  · have hz : t.val ≠ 0 := fun e => h0 (by rw [e])
    have hc0 : ¬cond1_0 (grid1.coords t) := fun h => h0 ((hcond1_0 t).mp h)
    by_cases h1 : t.val % 50 = 49
    ·
      have hc1 : cond1_1 (grid1.coords t) := (hcond1_1 t).mpr h1
      rw [show (dat1 V c).leavesExact 5 t = owns (c : Thread nD τ) (ms1_5 t) fullShare ((dat1 V c).after 5 t) from by
        unfold Dat.leavesExact; rw [liveAt1_5 _ hc1], after1_5]
      unfold emit1
      rw [accKV1_next V c t h0, accQ1_next V c t h0]
      rw [PhiS1_castSucc V c t, PhiS1_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply (kernelRun1_C c (grid1.coords t) _ (hs1_0 t) _ (hs1_1 t) _ (hs1_2 t) _ (hs1_3 t) _ (hs1_4 t) _ (hs1_5 t) _ (Memref.isWhole_whole _) _ (Memref.isWhole_whole _) hc0 hc1
        (iblk1 V c 0 t) (iblk1 V c 1 t) (iblk1 V c 2 t) (iblk1 V c 3 t) (iblk1 V c 4 t) (accKV1 V c (t.val - 1) (Nat.lt_of_le_of_lt (Nat.sub_le _ _) t.isLt))
        (accQ1 V c (t.val - 1) (Nat.lt_of_le_of_lt (Nat.sub_le _ _) t.isLt)) Set.univ _)
      iframe H0 H1 H2 H3 H4
      isplitl [H5]; · iexists _; iexact H5
      isplitl [HS0]; · iexact HS0
      isplitl [HS1]; · iexact HS1
      iintro ⟨H0, H1, H2, H3, H4, H5, HS0, HS1⟩
      iframe Hr Hg Ho H0 H1 H2 H3 H4
      isplitl [HS0 HS1]
      · isplitl [HS0]; · iexact HS0
        iexact HS1
      iexact H5
    ·
      have hc1 : ¬cond1_1 (grid1.coords t) := fun h => h1 ((hcond1_1 t).mp h)
      rw [Dat.leavesExact_idle (dat1 V c) 5 t (idleAt1_5 _ hc1) (noFlush1_5 t h1)]
      rw [accKV1_next V c t h0, accQ1_next V c t h0]
      rw [PhiS1_castSucc V c t, PhiS1_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply (kernelRun1_B c (grid1.coords t) _ (hs1_0 t) _ (hs1_1 t) _ (hs1_2 t) _ (hs1_3 t) _ (hs1_4 t) _ (hs1_5 t) _ (Memref.isWhole_whole _) _ (Memref.isWhole_whole _) hc0 hc1
        (iblk1 V c 0 t) (iblk1 V c 1 t) (iblk1 V c 2 t) (iblk1 V c 3 t) (iblk1 V c 4 t) ((dat1 V c).before 5 t d5) (accKV1 V c (t.val - 1) (Nat.lt_of_le_of_lt (Nat.sub_le _ _) t.isLt))
        (accQ1 V c (t.val - 1) (Nat.lt_of_le_of_lt (Nat.sub_le _ _) t.isLt)) Set.univ _)
      iframe H0 H1 H2 H3 H4
      isplitl [H5]; · iexact H5
      isplitl [HS0]; · iexact HS0
      isplitl [HS1]; · iexact HS1
      iintro ⟨H0, H1, H2, H3, H4, H5, HS0, HS1⟩
      iframe Hr Hg Ho H0 H1 H2 H3 H4
      isplitl [HS0 HS1]
      · isplitl [HS0]; · iexact HS0
        iexact HS1
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ (Pipeline.ΦA spec1 c : sProp 𝕄) := by
  have hN : (Fin.last cfg1.N).val ≠ 0 := by rw [Fin.val_last]; have : cfg1.N = 20000 := N_1; omega
  rw [show (dat1 V c).Φ (Fin.last cfg1.N) = PhiS1 V c (Fin.last cfg1.N).val (Nat.le_of_lt_succ (Fin.last cfg1.N).isLt) from rfl,
    PhiS1_pos V c _ _ hN, PhiA1_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

end Cert.KernelIdeal.Hand

end
-- ==== Proof.KI.Stage3.lean ====
import proofs.«406288_j68358699483732_1_alg».proof.Proof.Gen.KernelIdeal.Launch
import proofs.«406288_j68358699483732_1_alg».proof.Proof.Gen.KernelIdeal.Skeleton
import proofs.«406288_j68358699483732_1_alg».proof.Proof.KI.Sched
import proofs.«406288_j68358699483732_1_alg».proof.Proof.KI.Defs
import Idealize.ShloMosaic.Lib.Pipeline.FrameBody
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop := (Scalar.cmpi .ne (Scalar.extui (Scalar.cmpi .eq (BitVec.ofNat 32 (i 1).val) 0#32)) 0#32) = 1#1

abbrev cond2_1 (i : grid2.Coords) : Prop := k2_cond2 i = 1#1

theorem coords2_1 (t : Fin cfg2.N) : ((grid2.coords t) 1).val = t.val % 400 := by
  show t.val / grid2.stride 1 % grid2.bound 1 = t.val % 400
  have h : grid2.stride 1 = 1 := by decide
  rw [h, Nat.div_one]; rfl

theorem cond2_0_word : ∀ n, n < 400 →
    ((Scalar.cmpi .ne (Scalar.extui (Scalar.cmpi .eq (BitVec.ofNat 32 n) 0#32)) 0#32) = 1#1 ↔ n = 0) := by
  decide +kernel

theorem cond2_1_word : ∀ n, n < 400 →
    ((Scalar.cmpi .ne (Scalar.extui (Scalar.cmpi .eq (BitVec.ofNat 32 n) 399#32)) 0#32) = 1#1 ↔ n = 399) := by
  decide +kernel

theorem hcond2_0 (t : Fin cfg2.N) : cond2_0 (grid2.coords t) ↔ t.val % 400 = 0 := by
  have h := cond2_0_word ((grid2.coords t) 1).val (by rw [coords2_1]; exact Nat.mod_lt _ (by decide))
  rw [coords2_1] at h
  unfold cond2_0; rw [coords2_1]; exact h

theorem hcond2_1 (t : Fin cfg2.N) : cond2_1 (grid2.coords t) ↔ t.val % 400 = 399 := by
  have h := cond2_1_word ((grid2.coords t) 1).val (by rw [coords2_1]; exact Nat.mod_lt _ (by decide))
  rw [coords2_1] at h
  unfold cond2_1 k2_cond2; rw [coords2_1]; exact h

theorem live2_0 (i : grid2.Coords) : cfg2.idle 0 i = false := rfl
theorem live2_1 (i : grid2.Coords) : cfg2.idle 1 i = false := rfl

theorem idle2_2_of {i : grid2.Coords} (h : ¬cond2_1 i) : cfg2.idle 2 i = true := by
  show (!(k2_cond2 i == 1#1)) = true
  simp only [Bool.not_eq_true', beq_eq_false_iff_ne, ne_eq]; exact h
theorem live2_2_of {i : grid2.Coords} (h : cond2_1 i) : cfg2.idle 2 i = false := by
  show (!(k2_cond2 i == 1#1)) = false
  simp only [Bool.not_eq_false', beq_iff_eq]; exact h

theorem unitOff2 : (![0, 0] : Fin 2 → ℕ) = fun _ => 0 := by
  funext a; fin_cases a <;> rfl

theorem readAt_whole2 {sig' : RefSig} {κ : Kind} {sp : Space} {S : Shape} {e : EltTy} {Val : EltTy → Type}
    (v : View sig' κ sp S e) {off : Fin S.rank → Nat} (h : off = fun _ => 0)
    (inb : ∀ a, off a + S.size a ≤ S.size a) (f : v.ty.Contents Val) :
    v.readAt Val (Rect.unit off S.size inb).toLoadRect f = v.read Val f :=
  (View.readAt_eq_ld v f _).trans (View.ld_unit_zero h inb _)

theorem read_writes_whole2 {sig' : RefSig} {κ : Kind} {sp : Space} {S : Shape} {e : EltTy} {Val : EltTy → Type}
    [∀ e, Nonempty (Val e)]
    (v : View sig' κ sp S e) {off : Fin S.rank → Nat} (h : off = fun _ => 0)
    (inb : ∀ a, off a + S.size a ≤ S.size a) (f : v.ty.Contents Val) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

set_option maxHeartbeats 1000000 in

theorem run2_A (c : Dev nD) (i : grid2.Coords) (arg2 : Memref sig .tc .vmem S2000x1 .i32) (harg2 : arg2.IsWhole) (arg3 : Memref sig .tc .vmem S2000x256 .f32) (harg3 : arg3.IsWhole) (arg4 : Memref sig .tc .vmem S1000x256 .f32) (harg4 : arg4.IsWhole) (arg5 : Memref sig .tc .vmem S1000x256 .f32) (harg5 : arg5.IsWhole)
    (hc0 : cond2_0 i) (hc1 : ¬cond2_1 i)
    (x0 : Vec F S2000x1 .i32) (x1 : Vec F S2000x256 .f32) (xi2 : Vec F S1000x256 .f32) (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (k2_pay2 i x0 x1 k2_pay1)) -∗ K ⟨⟩))
      ⊢ wp frame (wpE (defs₀ (F := F)) Variants.none c none) E (cc2__stage3_kernel i arg2 harg2 arg3 harg3 arg4 harg4 arg5 harg5) K := by
  simp only [cc2__stage3_kernel_eq_skeleton]; unfold cc2__stage3_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  unfold run2_A.sl.HS_1 run2_A.sl.v19
  unfold run2_A.sl.HS_1
  rw [read_writes_whole2 _ unitOff2, View.readCov_cons_toLoadRect, readAt_whole2 _ unitOff2, readAt_whole2 _ unitOff2]

set_option maxHeartbeats 1000000 in

theorem run2_B (c : Dev nD) (i : grid2.Coords) (arg2 : Memref sig .tc .vmem S2000x1 .i32) (harg2 : arg2.IsWhole) (arg3 : Memref sig .tc .vmem S2000x256 .f32) (harg3 : arg3.IsWhole) (arg4 : Memref sig .tc .vmem S1000x256 .f32) (harg4 : arg4.IsWhole) (arg5 : Memref sig .tc .vmem S1000x256 .f32) (harg5 : arg5.IsWhole)
    (hc0 : ¬cond2_0 i) (hc1 : ¬cond2_1 i)
    (x0 : Vec F S2000x1 .i32) (x1 : Vec F S2000x256 .f32) (xi2 : Vec F S1000x256 .f32) (xs : Vec F S1000x256 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs
        ∗ (iprop(owns (c : Thread nD τ) arg2 fullShare x0 ∗ owns (c : Thread nD τ) arg3 fullShare x1 ∗ owns (c : Thread nD τ) arg4 fullShare xi2 ∗ owns (c : Thread nD τ) arg5 fullShare (k2_pay2 i x0 x1 xs)) -∗ K ⟨⟩))
      ⊢ wp frame (wpE (defs₀ (F := F)) Variants.none c none) E (cc2__stage3_kernel i arg2 harg2 arg3 harg3 arg4 harg4 arg5 harg5) K := by
  simp only [cc2__stage3_kernel_eq_skeleton]; unfold cc2__stage3_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [read_writes_whole2 _ unitOff2, readAt_whole2 _ unitOff2, readAt_whole2 _ unitOff2, readAt_whole2 _ unitOff2]

set_option maxHeartbeats 1000000 in

theorem run2_C (c : Dev nD) (i : grid2.Coords) (arg2 : Memref sig .tc .vmem S2000x1 .i32) (harg2 : arg2.IsWhole) (arg3 : Memref sig .tc .vmem S2000x256 .f32) (harg3 : arg3.IsWhole) (arg4 : Memref sig .tc .vmem S1000x256 .f32) (harg4 : arg4.IsWhole) (arg5 : Memref sig .tc .vmem S1000x256 .f32) (harg5 : arg5.IsWhole)
    (hc0 : ¬cond2_0 i) (hc1 : cond2_1 i)
    (x0 : Vec F S2000x1 .i32) (x1 : Vec F S2000x256 .f32) (xs : Vec F S1000x256 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k2_pay2 i x0 x1 xs) ∗ owns (c : Thread nD τ) arg5 fullShare (k2_pay2 i x0 x1 xs)) -∗ K ⟨⟩))
      ⊢ wp frame (wpE (defs₀ (F := F)) Variants.none c none) E (cc2__stage3_kernel i arg2 harg2 arg3 harg3 arg4 harg4 arg5 harg5) K := by
  simp only [cc2__stage3_kernel_eq_skeleton]; unfold cc2__stage3_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    unfold run2_C.sl.v27
    unfold run2_C.sl.HS_1
    rw [read_writes_whole2 _ unitOff2, View.readCov_cons_toLoadRect, readAt_whole2 _ unitOff2, readAt_whole2 _ unitOff2, readAt_whole2 _ unitOff2]
  iexists _; isplitr
  swap; · iexact HS
  ipureintro
  unfold run2_C.sl.HS_1
  rw [read_writes_whole2 _ unitOff2, readAt_whole2 _ unitOff2, readAt_whole2 _ unitOff2, readAt_whole2 _ unitOff2]

theorem acc2_A (c : Dev nD) (t : Fin cfg2.N) (h0 : t.val % 400 = 0) :
    acc2 V c t.val t.isLt = k2_pay2 (grid2.coords t) (iblk2 V c 0 t) (iblk2 V c 1 t) k2_pay1 := by
  obtain ⟨n, hn⟩ := t
  cases n with
  | zero => rfl
  | succ n => show acc2 V c (n + 1) hn = _; rw [acc2, if_pos h0]

theorem acc2_B (c : Dev nD) (t : Fin cfg2.N) (h0 : ¬t.val % 400 = 0) :
    acc2 V c t.val t.isLt = k2_pay2 (grid2.coords t) (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h0
  | succ n => show acc2 V c (n + 1) hn = _; rw [acc2, if_neg h0]; rfl

abbrev scM2 : Memref sig .tc .vmem S1000x256 .f32 := Memref.whole cc2_scratch0

theorem PhiA2_eq (c : Dev nD) :
    (Pipeline.ΦA spec2 c : sProp 𝕄)
      = iprop(iprop(iprop(∃ d, owns (c : Thread nD τ) scM2 fullShare d)
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [scM2, owns_whole]; try rfl

def PhiS2 (c : Dev nD) : (n : ℕ) → n ≤ cfg2.N → sProp 𝕄
  | 0, _ => Pipeline.ΦA spec2 c
  | n + 1, hn => iprop(iprop(owns (c : Thread nD τ) scM2 fullShare (acc2 V c n hn)
        ∗ Pipeline.scopedRestBut (Ix := Unit) (Name := ℕ) (U := UR sig nD τ) (Lvl := ℕ) (Val := Elt F) spec2 c [cc2_scratch0])
      ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn)
        ∗ Pipeline.scopedRestBut (Ix := Unit) (Name := ℕ) (U := UR sig nD τ) (Lvl := ℕ) (Val := Elt F) spec2 c [cc2_scratch0])
      ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega))
        ∗ Pipeline.scopedRestBut (Ix := Unit) (Name := ℕ) (U := UR sig nD τ) (Lvl := ℕ) (Val := Elt F) spec2 c [cc2_scratch0])
      ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ (dat2 V c).leavesExact 2 t)

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [after2_0, after2_1]
  have hN : t.val < 20000 := lt_of_lt_of_eq t.isLt (show cfg2.N = 20000 from N_2)
  by_cases h0 : t.val % 400 = 0
  · have hc0 : cond2_0 (grid2.coords t) := (hcond2_0 t).mpr h0
    have hc1 : ¬cond2_1 (grid2.coords t) := fun h => by have := (hcond2_1 t).mp h; omega
    have hnf : (cfg2.win 2).flush t = false := by
      rw [← Bool.not_eq_true, flush2_2 t]; omega
    rw [Dat.leavesExact_idle (dat2 V c) 2 t (idle2_2_of hc1) hnf]
    rw [acc2_A V c t h0]
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩⟩
      iapply (run2_A c (grid2.coords t) _ _ _ _ _ _ _ _ hc0 hc1 (iblk2 V c 0 t) (iblk2 V c 1 t) _ Set.univ _)
      iframe H0 H1
      isplitl [H2]; · iexact H2
      isplitl [HS]; · iexact HS
      iintro ⟨H0, H1, H2, HS⟩
      iframe HR Hg Ho H0 H1
      isplitl [HS]; · iexact HS
      iexists _; iexact H2
    · rw [PhiS2_castSucc V c t, PhiS2_pos V c _ _ hz]
      iintro ⟨⟨⟨HS, HR⟩, Hg⟩, Ho, ⟨%d0, H0⟩, ⟨%d1, H1⟩, ⟨%d2, H2⟩⟩
      iapply (run2_A c (grid2.coords t) _ _ _ _ _ _ _ _ hc0 hc1 (iblk2 V c 0 t) (iblk2 V c 1 t) _ Set.univ _)
      iframe H0 H1
      isplitl [H2]; · iexact H2
      isplitl [HS]; · iexists _; iexact HS
      iintro ⟨H0, H1, H2, HS⟩
      iframe HR Hg Ho H0 H1
      isplitl [HS]; · iexact HS
      iexists _; iexact H2
  · have hc0 : ¬cond2_0 (grid2.coords t) := fun h => h0 ((hcond2_0 t).mp h)
    have hz : t.val ≠ 0 := fun h => h0 (by rw [h])
    rw [acc2_B V c t h0]
    rw [PhiS2_castSucc V c t, PhiS2_pos V c _ _ hz]
    by_cases h1 : t.val % 400 = 399
    · have hc1 : cond2_1 (grid2.coords t) := (hcond2_1 t).mpr h1
      rw [show (dat2 V c).leavesExact 2 t = owns (c : Thread nD τ) (st2_2 t) fullShare ((dat2 V c).after 2 t) from by
        unfold Dat.leavesExact; rw [live2_2_of hc1], after2_2, acc2_B V c t h0]
      iintro ⟨⟨⟨HS, HR⟩, Hg⟩, Ho, ⟨%d0, H0⟩, ⟨%d1, H1⟩, ⟨%d2, H2⟩⟩
      iapply (run2_C c (grid2.coords t) _ _ _ _ _ _ _ _ hc0 hc1 (iblk2 V c 0 t) (iblk2 V c 1 t) _ Set.univ _)
      iframe H0 H1
      isplitl [H2]; · iexists _; iexact H2
      isplitl [HS]; · iexact HS
      iintro ⟨H0, H1, H2, HS⟩
      iframe HR Hg Ho H0 H1
      isplitl [HS]; · iexact HS
      iexact H2
    · have hc1 : ¬cond2_1 (grid2.coords t) := fun h => h1 ((hcond2_1 t).mp h)
      have hnf : (cfg2.win 2).flush t = false := by
        rw [← Bool.not_eq_true, flush2_2 t]; exact h1
      rw [Dat.leavesExact_idle (dat2 V c) 2 t (idle2_2_of hc1) hnf]
      iintro ⟨⟨⟨HS, HR⟩, Hg⟩, Ho, ⟨%d0, H0⟩, ⟨%d1, H1⟩, ⟨%d2, H2⟩⟩
      iapply (run2_B c (grid2.coords t) _ _ _ _ _ _ _ _ hc0 hc1 (iblk2 V c 0 t) (iblk2 V c 1 t) _ _ Set.univ _)
      iframe H0 H1
      isplitl [H2]; · iexact H2
      isplitl [HS]; · iexact HS
      iintro ⟨H0, H1, H2, HS⟩
      iframe HR Hg Ho H0 H1
      isplitl [HS]; · iexact HS
      iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ (Pipeline.ΦA spec2 c : sProp 𝕄) := by
  have ht : (Fin.last cfg2.N).val ≠ 0 := by rw [Fin.val_last]; have : cfg2.N = 20000 := N_2; omega
  rw [show (dat2 V c).Φ (Fin.last cfg2.N) = PhiS2 V c (Fin.last cfg2.N).val (Nat.le_of_lt_succ (Fin.last cfg2.N).isLt) from rfl,
    PhiS2_pos V c _ _ ht, PhiA2_eq]
  iintro ⟨⟨HS, HR⟩, Hg⟩
  isplitl [HS HR]
  · isplitl [HS]; · iexists _; iexact HS
    iexact HR
  iexact Hg

end Cert.KernelIdeal.Hand

end
-- ==== Proof.KI.Stage4.lean ====
import proofs.«406288_j68358699483732_1_alg».proof.Proof.Gen.KernelIdeal.Launch
import proofs.«406288_j68358699483732_1_alg».proof.Proof.Gen.KernelIdeal.Skeleton
import proofs.«406288_j68358699483732_1_alg».proof.Proof.KI.Sched
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x256 := Rect.unit (s := S2000x256) ![0, 0] S2000x256.size inb_S2000x256_S2000x256_0_0
abbrev r3_2 : Rect S128x128 := Rect.unit (s := S128x128) ![0, 0] S128x128.size inb_S128x128_S128x128_0_0
abbrev r3_3 : Rect S128 := Rect.unit (s := S128) ![0] S128.size inb_S128_S128_0
abbrev r3_4 : Rect S256x128 := Rect.unit (s := S256x128) ![0, 0] S256x128.size inb_S256x128_S256x128_0_0
abbrev r3_8 : Rect S2000x128 := Rect.unit (s := S2000x128) ![0, 0] S2000x128.size inb_S2000x128_S2000x128_0_0

def out3_8 (xa xx : Vec F S2000x256 .f32) (xWo : Vec F S128x128 .f32) (xbo : Vec F S128 .f32) (xWf : Vec F S256x128 .f32) (xbf xg xb : Vec F S128 .f32) : Vec F S2000x128 .f32 :=
  View.canon [⟨r3_8, k3_pay1
    (k3_pay2 (View.ld xa r3_0) (View.ld xWo r3_2) (View.ld xbo r3_3) (View.ld xx r3_0) (View.ld xWf r3_4) (View.ld xbf r3_3))
    (k3_pay4 (View.ld xa r3_0) (View.ld xWo r3_2) (View.ld xbo r3_3) (View.ld xx r3_0) (View.ld xWf r3_4) (View.ld xbf r3_3))
    (k3_pay5 (View.ld xa r3_0) (View.ld xWo r3_2) (View.ld xbo r3_3) (View.ld xx r3_0) (View.ld xWf r3_4) (View.ld xbf r3_3))
    (View.ld xg r3_3) (View.ld xb r3_3)⟩]

theorem cover3_8 (p0 : Vec F S2000x128 .f32) (y : S2000x128.Idx) :
    ∃ pc ∈ ([⟨r3_8, p0⟩] : List (View.Piece (Elt F) S2000x128 .f32)), y ∈ pc.1.set :=
  View.cover_of_tiled [⟨r3_8, p0⟩] S2000x128.size (by rfl) y

set_option maxHeartbeats 4000000 in

theorem sound_kernel3 (c : Dev nD) (E : Set ℕ) (i : grid3.Coords) (arg1 : Memref sig .tc .vmem S2000x256 .f32) (harg1 : arg1.IsWhole) (arg2 : Memref sig .tc .vmem S2000x256 .f32) (harg2 : arg2.IsWhole) (arg3 : Memref sig .tc .vmem S128x128 .f32) (harg3 : arg3.IsWhole) (arg4 : Memref sig .tc .vmem S128 .f32) (harg4 : arg4.IsWhole) (arg5 : Memref sig .tc .vmem S256x128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S2000x128 .f32) (harg9 : arg9.IsWhole)
    (xa xx : Vec F S2000x256 .f32) (xWo : Vec F S128x128 .f32) (xbo : Vec F S128 .f32) (xWf : Vec F S256x128 .f32) (xbf xg xb : Vec F S128 .f32) (K : PUnit → sProp 𝕄) :
    iprop(owns (c : Thread nD τ) arg1 fullShare xa ∗ owns (c : Thread nD τ) arg2 fullShare xx
        ∗ owns (c : Thread nD τ) arg3 fullShare xWo ∗ owns (c : Thread nD τ) arg4 fullShare xbo
        ∗ owns (c : Thread nD τ) arg5 fullShare xWf ∗ owns (c : Thread nD τ) arg6 fullShare xbf
        ∗ owns (c : Thread nD τ) arg7 fullShare xg ∗ owns (c : Thread nD τ) arg8 fullShare xb
        ∗ (∃ d, owns (c : Thread nD τ) arg9 fullShare d)
        ∗ (iprop(owns (c : Thread nD τ) arg1 fullShare xa ∗ owns (c : Thread nD τ) arg2 fullShare xx
            ∗ owns (c : Thread nD τ) arg3 fullShare xWo ∗ owns (c : Thread nD τ) arg4 fullShare xbo
            ∗ owns (c : Thread nD τ) arg5 fullShare xWf ∗ owns (c : Thread nD τ) arg6 fullShare xbf
            ∗ owns (c : Thread nD τ) arg7 fullShare xg ∗ owns (c : Thread nD τ) arg8 fullShare xb
            ∗ owns (c : Thread nD τ) arg9 fullShare (out3_8 xa xx xWo xbo xWf xbf xg xb)) -∗ K ⟨⟩))
      ⊢ wp frame (wpE (defs₀ (F := F)) Variants.none c none) E (cc3__stage4_kernel i arg1 harg1 arg2 harg2 arg3 harg3 arg4 harg4 arg5 harg5 arg6 harg6 arg7 harg7 arg8 harg8 arg9 harg9) K := by
  simp only [cc3__stage4_kernel_eq_skeleton]; unfold cc3__stage4_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover3_8 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) :
    (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by
  dsimp only [dat3]

theorem hin3 (c : Dev nD) : (Pipeline.ΦA spec3 c : sProp 𝕄) ⊢ (dat3 V c).Φ 0 := by
  dsimp only [dat3]; exact .rfl
theorem hout3 (c : Dev nD) : (dat3 V c).Φ (Fin.last cfg3.N) ⊢ (Pipeline.ΦA spec3 c : sProp 𝕄) := by
  dsimp only [dat3]; exact .rfl

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl)
    (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl)
    (fun t => by rw [after3_6]; unfold Dat.blockOf iblk3; rw [A_eq3]; try rfl) t d).trans
    (by unfold Dat.fetched Dat.blockOf iblk3; rw [A_eq3]; try rfl)
theorem before3_7 (c : Dev nD) (t : Fin cfg3.N) (d) : (dat3 V c).before 7 t d = iblk3 V c 7 t :=
  ((dat3 V c).before_in_eq_fetched 7 rfl (fun _ => rfl) (fun _ _ _ => rfl)
    (fun t => by rw [after3_7]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

set_option maxHeartbeats 1000000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) (iblk3 V c 7 t) _)
  iframe H0 H1 H2 H3 H4 H5 H6 H7
  isplitl [H8]; · iexists _; iexact H8
  iintro ⟨H0, H1, H2, H3, H4, H5, H6, H7, H8⟩
  iframe

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.DefsB.lean ====
import proofs.«406288_j68358699483732_1_alg».proof.Proof.Gen.KernelIdeal.Skeleton
import proofs.«406288_j68358699483732_1_alg».proof.Proof.Gen.KernelIdeal.Launch
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rK4 : Rect S2000x256 := Rect.unit (s := S2000x256) ![0, 0] S2000x128.size inb_S2000x256_S2000x128_0_0
abbrev rV4 : Rect S2000x256 := Rect.unit (s := S2000x256) ![0, 128] S2000x128.size inb_S2000x256_S2000x128_0_128

def accKV4 (c : Dev nD) : (n : ℕ) → n < cfg4.N → Vec F S2000x256 .f32
  | 0, h => k4_pay6 (grid4.coords ⟨0, h⟩) (iblk4 V c 0 ⟨0, h⟩) (iblk4 V c 3 ⟨0, h⟩) k4_pay3
  | n + 1, h => k4_pay6 (grid4.coords ⟨n + 1, h⟩) (iblk4 V c 0 ⟨n + 1, h⟩) (iblk4 V c 3 ⟨n + 1, h⟩)
      (if (n + 1) % 50 = 0 then k4_pay3 else accKV4 c n (Nat.lt_of_succ_lt h))

def accQ4 (c : Dev nD) : (n : ℕ) → n < cfg4.N → Vec F S2000x128 .f32
  | 0, h => k4_pay1 k4_pay4 (k4_pay7 (grid4.coords ⟨0, h⟩) (iblk4 V c 1 ⟨0, h⟩) (iblk4 V c 4 ⟨0, h⟩))
  | n + 1, h => k4_pay1 (if (n + 1) % 50 = 0 then k4_pay4 else accQ4 c n (Nat.lt_of_succ_lt h))
      (k4_pay7 (grid4.coords ⟨n + 1, h⟩) (iblk4 V c 1 ⟨n + 1, h⟩) (iblk4 V c 4 ⟨n + 1, h⟩))

def emit4 (c : Dev nD) (t : Fin cfg4.N) : Vec F S2000x256 .f32 :=
  k4_pay2 (View.ld (accKV4 V c t.val t.isLt) rK4) (View.ld (accKV4 V c t.val t.isLt) rV4)
    (accQ4 V c t.val t.isLt) (iblk4 V c 2 t)

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def acc5 (c : Dev nD) : (n : ℕ) → n < cfg5.N → Vec F S1000x256 .f32
  | 0, h => k5_pay2 (grid5.coords ⟨0, h⟩) (iblk5 V c 0 ⟨0, h⟩) (iblk5 V c 1 ⟨0, h⟩) k5_pay1
  | n + 1, h => k5_pay2 (grid5.coords ⟨n + 1, h⟩) (iblk5 V c 0 ⟨n + 1, h⟩) (iblk5 V c 1 ⟨n + 1, h⟩)
      (if (n + 1) % 400 = 0 then k5_pay1 else acc5 c n (Nat.lt_of_succ_lt h))

end Cert.KernelIdeal.Hand

end
-- ==== Proof.KI.Stage2b.lean ====
import proofs.«406288_j68358699483732_1_alg».proof.Proof.Gen.KernelIdeal.Launch
import proofs.«406288_j68358699483732_1_alg».proof.Proof.Gen.KernelIdeal.Skeleton
import proofs.«406288_j68358699483732_1_alg».proof.Proof.KI.Sched
import proofs.«406288_j68358699483732_1_alg».proof.Proof.KI.DefsB
import proofs.«406288_j68358699483732_1_alg».proof.Proof.KI.Stage2
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev ms4_0 (t : Fin cfg4.N) : Memref sig .tc .vmem S2000x1 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2000x2 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1000x256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1000x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S2000x256 .f32 := win4_5.stage (cfg4.slots t 5)
abbrev hs4_5 (t : Fin cfg4.N) : (ms4_5 t).IsWhole := hstage4_5 ((cfg4.slots t 5).cast nbuf4_5)

abbrev scM4_0 : Memref sig .tc .vmem S2000x256 .f32 := Memref.whole cc4_scratch0
abbrev scM4_1 : Memref sig .tc .vmem S2000x128 .f32 := Memref.whole cc4_scratch1

abbrev rest4 (c : Dev nD) : sProp 𝕄 :=
  Pipeline.scopedRestBut (Ix := Unit) (Name := ℕ) (U := UR sig nD τ) (Lvl := ℕ) (Val := Elt F) spec4 c [cc4_scratch0, cc4_scratch1]

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 c)
          ∗ (∃ r, prngReg c r)) := by
  unfold Pipeline.ΦA; rw [scopedRest4_split]; simp only [scM4_0, scM4_1, rest4, owns_whole]; rfl

theorem accKV4_first (c : Dev nD) (t : Fin cfg4.N) (h0 : t.val % 50 = 0) :
    accKV4 V c t.val t.isLt = k4_pay6 (grid4.coords t) (iblk4 V c 0 t) (iblk4 V c 3 t) k4_pay3 := by
  obtain ⟨n, hn⟩ := t
  cases n with
  | zero => rfl
  | succ n => rw [accKV4]; dsimp only at h0 ⊢; rw [if_pos h0]

theorem accKV4_next (c : Dev nD) (t : Fin cfg4.N) (h0 : ¬t.val % 50 = 0) :
    accKV4 V c t.val t.isLt = k4_pay6 (grid4.coords t) (iblk4 V c 0 t) (iblk4 V c 3 t)
      (accKV4 V c (t.val - 1) (Nat.lt_of_le_of_lt (Nat.sub_le _ _) t.isLt)) := by
  obtain ⟨n, hn⟩ := t
  cases n with
  | zero => exact absurd (Nat.zero_mod _) h0
  | succ n => rw [accKV4]; dsimp only at h0 ⊢; rw [if_neg h0]; rfl

theorem accQ4_first (c : Dev nD) (t : Fin cfg4.N) (h0 : t.val % 50 = 0) :
    accQ4 V c t.val t.isLt = k4_pay1 k4_pay4 (k4_pay7 (grid4.coords t) (iblk4 V c 1 t) (iblk4 V c 4 t)) := by
  obtain ⟨n, hn⟩ := t
  cases n with
  | zero => rfl
  | succ n => rw [accQ4]; dsimp only at h0 ⊢; rw [if_pos h0]

theorem accQ4_next (c : Dev nD) (t : Fin cfg4.N) (h0 : ¬t.val % 50 = 0) :
    accQ4 V c t.val t.isLt = k4_pay1 (accQ4 V c (t.val - 1) (Nat.lt_of_le_of_lt (Nat.sub_le _ _) t.isLt))
      (k4_pay7 (grid4.coords t) (iblk4 V c 1 t) (iblk4 V c 4 t)) := by
  obtain ⟨n, hn⟩ := t
  cases n with
  | zero => exact absurd (Nat.zero_mod _) h0
  | succ n => rw [accQ4]; dsimp only at h0 ⊢; rw [if_neg h0]; rfl

def PhiS4 (c : Dev nD) : (n : ℕ) → n ≤ cfg4.N → sProp 𝕄
  | 0, _ => Pipeline.ΦA spec4 c
  | n + 1, hn => iprop(iprop(iprop(owns (c : Thread nD τ) scM4_0 fullShare (accKV4 V c n hn)
        ∗ owns (c : Thread nD τ) scM4_1 fullShare (accQ4 V c n hn)) ∗ rest4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (accKV4 V c n hn)
        ∗ owns (c : Thread nD τ) scM4_1 fullShare (accQ4 V c n hn)) ∗ rest4 c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (accKV4 V c (n - 1) (by omega))
        ∗ owns (c : Thread nD τ) scM4_1 fullShare (accQ4 V c (n - 1) (by omega))) ∗ rest4 c) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => emit4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]

theorem after4_5 (c : Dev nD) (t : Fin cfg4.N) : (dat4 V c).after 5 t = emit4 V c t := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
      (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
      (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl)
      (fun t => by rw [after4_4]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  have hN : t.val < 20000 := lt_of_lt_of_eq t.isLt (show cfg4.N = 20000 from N_4)
  rw [show (dat4 V c).leavesExact 0 t = owns (c : Thread nD τ) (ms4_0 t) fullShare ((dat4 V c).after 0 t) from rfl, after4_0]
  rw [show (dat4 V c).leavesExact 1 t = owns (c : Thread nD τ) (ms4_1 t) fullShare ((dat4 V c).after 1 t) from rfl, after4_1]
  rw [show (dat4 V c).leavesExact 2 t = owns (c : Thread nD τ) (ms4_2 t) fullShare ((dat4 V c).after 2 t) from rfl, after4_2]
  rw [show (dat4 V c).leavesExact 3 t = owns (c : Thread nD τ) (ms4_3 t) fullShare ((dat4 V c).after 3 t) from rfl, after4_3]
  rw [show (dat4 V c).leavesExact 4 t = owns (c : Thread nD τ) (ms4_4 t) fullShare ((dat4 V c).after 4 t) from rfl, after4_4]
  by_cases h0 : t.val % 50 = 0
  ·
    have h1 : ¬t.val % 50 = 49 := by omega
    have hc0 : cond1_0 (grid4.coords t) := (hcond1_0 t).mpr h0
    have hc1 : ¬cond1_1 (grid4.coords t) := fun h => h1 ((hcond1_1 t).mp h)
    rw [Dat.leavesExact_idle (dat4 V c) 5 t (idleAt1_5 (grid4.coords t) hc1) (noFlush1_5 t h1)]
    rw [accKV4_first V c t h0, accQ4_first V c t h0]
    by_cases hz : t.val = 0
    · rw [PhiS4_castSucc V c t, PhiS4_zero V c _ _ hz, PhiA4_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply (kernelRun1_A c (grid4.coords t) _ (hs4_0 t) _ (hs4_1 t) _ (hs4_2 t) _ (hs4_3 t) _ (hs4_4 t) _ (hs4_5 t) _ (Memref.isWhole_whole _) _ (Memref.isWhole_whole _) hc0 hc1
        (iblk4 V c 0 t) (iblk4 V c 1 t) (iblk4 V c 2 t) (iblk4 V c 3 t) (iblk4 V c 4 t) ((dat4 V c).before 5 t d5) Set.univ _)
      iframe H0 H1 H2 H3 H4
      isplitl [H5]; · iexact H5
      isplitl [HS0]; · iexact HS0
      isplitl [HS1]; · iexact HS1
      iintro ⟨H0, H1, H2, H3, H4, H5, HS0, HS1⟩
      iframe Hr Hg Ho H0 H1 H2 H3 H4
      isplitl [HS0 HS1]
      · isplitl [HS0]; · iexact HS0
        iexact HS1
      iexists _; iexact H5
    · rw [PhiS4_castSucc V c t, PhiS4_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply (kernelRun1_A c (grid4.coords t) _ (hs4_0 t) _ (hs4_1 t) _ (hs4_2 t) _ (hs4_3 t) _ (hs4_4 t) _ (hs4_5 t) _ (Memref.isWhole_whole _) _ (Memref.isWhole_whole _) hc0 hc1
        (iblk4 V c 0 t) (iblk4 V c 1 t) (iblk4 V c 2 t) (iblk4 V c 3 t) (iblk4 V c 4 t) ((dat4 V c).before 5 t d5) Set.univ _)
      iframe H0 H1 H2 H3 H4
      isplitl [H5]; · iexact H5
      isplitl [HS0]; · iexists _; iexact HS0
      isplitl [HS1]; · iexists _; iexact HS1
      iintro ⟨H0, H1, H2, H3, H4, H5, HS0, HS1⟩
      iframe Hr Hg Ho H0 H1 H2 H3 H4
      isplitl [HS0 HS1]
      · isplitl [HS0]; · iexact HS0
        iexact HS1
      iexists _; iexact H5
  · have hz : t.val ≠ 0 := fun e => h0 (by rw [e])
    have hc0 : ¬cond1_0 (grid4.coords t) := fun h => h0 ((hcond1_0 t).mp h)
    by_cases h1 : t.val % 50 = 49
    ·
      have hc1 : cond1_1 (grid4.coords t) := (hcond1_1 t).mpr h1
      rw [show (dat4 V c).leavesExact 5 t = owns (c : Thread nD τ) (ms4_5 t) fullShare ((dat4 V c).after 5 t) from by
        unfold Dat.leavesExact; rw [show cfg4.idle 5 (grid4.coords t) = false from liveAt1_5 _ hc1], after4_5]
      unfold emit4
      rw [accKV4_next V c t h0, accQ4_next V c t h0]
      rw [PhiS4_castSucc V c t, PhiS4_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply (kernelRun1_C c (grid4.coords t) _ (hs4_0 t) _ (hs4_1 t) _ (hs4_2 t) _ (hs4_3 t) _ (hs4_4 t) _ (hs4_5 t) _ (Memref.isWhole_whole _) _ (Memref.isWhole_whole _) hc0 hc1
        (iblk4 V c 0 t) (iblk4 V c 1 t) (iblk4 V c 2 t) (iblk4 V c 3 t) (iblk4 V c 4 t) (accKV4 V c (t.val - 1) (Nat.lt_of_le_of_lt (Nat.sub_le _ _) t.isLt))
        (accQ4 V c (t.val - 1) (Nat.lt_of_le_of_lt (Nat.sub_le _ _) t.isLt)) Set.univ _)
      iframe H0 H1 H2 H3 H4
      isplitl [H5]; · iexists _; iexact H5
      isplitl [HS0]; · iexact HS0
      isplitl [HS1]; · iexact HS1
      iintro ⟨H0, H1, H2, H3, H4, H5, HS0, HS1⟩
      iframe Hr Hg Ho H0 H1 H2 H3 H4
      isplitl [HS0 HS1]
      · isplitl [HS0]; · iexact HS0
        iexact HS1
      iexact H5
    ·
      have hc1 : ¬cond1_1 (grid4.coords t) := fun h => h1 ((hcond1_1 t).mp h)
      rw [Dat.leavesExact_idle (dat4 V c) 5 t (idleAt1_5 (grid4.coords t) hc1) (noFlush1_5 t h1)]
      rw [accKV4_next V c t h0, accQ4_next V c t h0]
      rw [PhiS4_castSucc V c t, PhiS4_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply (kernelRun1_B c (grid4.coords t) _ (hs4_0 t) _ (hs4_1 t) _ (hs4_2 t) _ (hs4_3 t) _ (hs4_4 t) _ (hs4_5 t) _ (Memref.isWhole_whole _) _ (Memref.isWhole_whole _) hc0 hc1
        (iblk4 V c 0 t) (iblk4 V c 1 t) (iblk4 V c 2 t) (iblk4 V c 3 t) (iblk4 V c 4 t) ((dat4 V c).before 5 t d5) (accKV4 V c (t.val - 1) (Nat.lt_of_le_of_lt (Nat.sub_le _ _) t.isLt))
        (accQ4 V c (t.val - 1) (Nat.lt_of_le_of_lt (Nat.sub_le _ _) t.isLt)) Set.univ _)
      iframe H0 H1 H2 H3 H4
      isplitl [H5]; · iexact H5
      isplitl [HS0]; · iexact HS0
      isplitl [HS1]; · iexact HS1
      iintro ⟨H0, H1, H2, H3, H4, H5, HS0, HS1⟩
      iframe Hr Hg Ho H0 H1 H2 H3 H4
      isplitl [HS0 HS1]
      · isplitl [HS0]; · iexact HS0
        iexact HS1
      iexists _; iexact H5

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ (Pipeline.ΦA spec4 c : sProp 𝕄) := by
  have hN : (Fin.last cfg4.N).val ≠ 0 := by rw [Fin.val_last]; have : cfg4.N = 20000 := N_4; omega
  rw [show (dat4 V c).Φ (Fin.last cfg4.N) = PhiS4 V c (Fin.last cfg4.N).val (Nat.le_of_lt_succ (Fin.last cfg4.N).isLt) from rfl,
    PhiS4_pos V c _ _ hN, PhiA4_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

end Cert.KernelIdeal.Hand

end
-- ==== Proof.KI.Stage3b.lean ====
import proofs.«406288_j68358699483732_1_alg».proof.Proof.Gen.KernelIdeal.Launch
import proofs.«406288_j68358699483732_1_alg».proof.Proof.Gen.KernelIdeal.Skeleton
import proofs.«406288_j68358699483732_1_alg».proof.Proof.KI.Sched
import proofs.«406288_j68358699483732_1_alg».proof.Proof.KI.DefsB
import proofs.«406288_j68358699483732_1_alg».proof.Proof.KI.Stage3
import Idealize.ShloMosaic.Lib.Pipeline.FrameBody
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem acc5_A (c : Dev nD) (t : Fin cfg5.N) (h0 : t.val % 400 = 0) :
    acc5 V c t.val t.isLt = k5_pay2 (grid5.coords t) (iblk5 V c 0 t) (iblk5 V c 1 t) k5_pay1 := by
  obtain ⟨n, hn⟩ := t
  cases n with
  | zero => rfl
  | succ n => show acc5 V c (n + 1) hn = _; rw [acc5, if_pos h0]

theorem acc5_B (c : Dev nD) (t : Fin cfg5.N) (h0 : ¬t.val % 400 = 0) :
    acc5 V c t.val t.isLt = k5_pay2 (grid5.coords t) (iblk5 V c 0 t) (iblk5 V c 1 t)
      (acc5 V c (t.val - 1) (Nat.lt_of_le_of_lt (Nat.sub_le _ _) t.isLt)) := by
  obtain ⟨n, hn⟩ := t
  cases n with
  | zero => exact absurd (Nat.zero_mod _) h0
  | succ n => show acc5 V c (n + 1) hn = _; rw [acc5, if_neg h0]; rfl

abbrev scM5 : Memref sig .tc .vmem S1000x256 .f32 := Memref.whole cc5_scratch0

theorem PhiA5_eq (c : Dev nD) :
    (Pipeline.ΦA spec5 c : sProp 𝕄)
      = iprop(iprop(iprop(∃ d, owns (c : Thread nD τ) scM5 fullShare d)
          ∗ Pipeline.scopedRestBut (Ix := Unit) (Name := ℕ) (U := UR sig nD τ) (Lvl := ℕ) (Val := Elt F) spec5 c [cc5_scratch0])
        ∗ (∃ r, prngReg c r)) := by
  unfold Pipeline.ΦA; rw [scopedRest5_split]; simp only [scM5, owns_whole]; try rfl

def PhiS5 (c : Dev nD) : (n : ℕ) → n ≤ cfg5.N → sProp 𝕄
  | 0, _ => Pipeline.ΦA spec5 c
  | n + 1, hn => iprop(iprop(owns (c : Thread nD τ) scM5 fullShare (acc5 V c n hn)
        ∗ Pipeline.scopedRestBut (Ix := Unit) (Name := ℕ) (U := UR sig nD τ) (Lvl := ℕ) (Val := Elt F) spec5 c [cc5_scratch0])
      ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare (acc5 V c n hn)
        ∗ Pipeline.scopedRestBut (Ix := Unit) (Name := ℕ) (U := UR sig nD τ) (Lvl := ℕ) (Val := Elt F) spec5 c [cc5_scratch0])
      ∗ (∃ r, prngReg c r)) := rfl

theorem PhiS5_pos (c : Dev nD) (n : ℕ) (h : n ≤ cfg5.N) (hz : n ≠ 0) :
    PhiS5 V c n h = iprop(iprop(owns (c : Thread nD τ) scM5 fullShare (acc5 V c (n - 1) (by omega))
        ∗ Pipeline.scopedRestBut (Ix := Unit) (Name := ℕ) (U := UR sig nD τ) (Lvl := ℕ) (Val := Elt F) spec5 c [cc5_scratch0])
      ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => acc5 V c t.val t.isLt
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = acc5 V c t.val t.isLt := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl)
      (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
      (fun t => by rw [after5_1]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ (dat5 V c).leavesExact 2 t)

set_option maxHeartbeats 4000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [show @cc5__stage3_kernel F _ _ = cc2__stage3_kernel from rfl]
  simp only [before5_0, before5_1]
  rw [show (dat5 V c).owesAt () t.succ = (dat5 V c).owesAt () t.castSucc from rfl]
  rw [show (dat5 V c).Φ t.succ = PhiS5 V c (t.val + 1) t.isLt from rfl, PhiS5_succ]
  rw [after5_0, after5_1]
  have hN : t.val < 20000 := lt_of_lt_of_eq t.isLt (show cfg5.N = 20000 from N_5)
  by_cases h0 : t.val % 400 = 0
  · have hc0 : cond2_0 (grid5.coords t) := (hcond2_0 t).mpr h0
    have hc1 : ¬cond2_1 (grid5.coords t) := fun h => by have := (hcond2_1 t).mp h; omega
    have hnf : (cfg5.win 2).flush t = false := by
      rw [← Bool.not_eq_true, flush5_2 t]; omega
    rw [Dat.leavesExact_idle (dat5 V c) 2 t (idle2_2_of (i := grid5.coords t) hc1) hnf]
    rw [acc5_A V c t h0]
    by_cases hz : t.val = 0
    · rw [PhiS5_castSucc V c t, PhiS5_zero V c _ _ hz, PhiA5_eq]
      iintro ⟨⟨⟨HS, HR⟩, Hg⟩, Ho, ⟨%d0, H0⟩, ⟨%d1, H1⟩, ⟨%d2, H2⟩⟩
      iapply (run2_A c (grid5.coords t) _ _ _ _ _ _ _ _ hc0 hc1 (iblk5 V c 0 t) (iblk5 V c 1 t) _ Set.univ _)
      iframe H0 H1
      isplitl [H2]; · iexact H2
      isplitl [HS]; · iexact HS
      iintro ⟨H0, H1, H2, HS⟩
      iframe HR Hg Ho H0 H1
      isplitl [HS]; · iexact HS
      iexists _; iexact H2
    · rw [PhiS5_castSucc V c t, PhiS5_pos V c _ _ hz]
      iintro ⟨⟨⟨HS, HR⟩, Hg⟩, Ho, ⟨%d0, H0⟩, ⟨%d1, H1⟩, ⟨%d2, H2⟩⟩
      iapply (run2_A c (grid5.coords t) _ _ _ _ _ _ _ _ hc0 hc1 (iblk5 V c 0 t) (iblk5 V c 1 t) _ Set.univ _)
      iframe H0 H1
      isplitl [H2]; · iexact H2
      isplitl [HS]; · iexists _; iexact HS
      iintro ⟨H0, H1, H2, HS⟩
      iframe HR Hg Ho H0 H1
      isplitl [HS]; · iexact HS
      iexists _; iexact H2
  · have hc0 : ¬cond2_0 (grid5.coords t) := fun h => h0 ((hcond2_0 t).mp h)
    have hz : t.val ≠ 0 := fun h => h0 (by rw [h])
    rw [acc5_B V c t h0]
    rw [PhiS5_castSucc V c t, PhiS5_pos V c _ _ hz]
    by_cases h1 : t.val % 400 = 399
    · have hc1 : cond2_1 (grid5.coords t) := (hcond2_1 t).mpr h1
      rw [show (dat5 V c).leavesExact 2 t = owns (c : Thread nD τ) (st5_2 t) fullShare ((dat5 V c).after 2 t) from by
        unfold Dat.leavesExact; rw [show cfg5.idle 2 (grid5.coords t) = false from live2_2_of hc1], after5_2, acc5_B V c t h0]
      iintro ⟨⟨⟨HS, HR⟩, Hg⟩, Ho, ⟨%d0, H0⟩, ⟨%d1, H1⟩, ⟨%d2, H2⟩⟩
      iapply (run2_C c (grid5.coords t) _ _ _ _ _ _ _ _ hc0 hc1 (iblk5 V c 0 t) (iblk5 V c 1 t) _ Set.univ _)
      iframe H0 H1
      isplitl [H2]; · iexists _; iexact H2
      isplitl [HS]; · iexact HS
      iintro ⟨H0, H1, H2, HS⟩
      iframe HR Hg Ho H0 H1
      isplitl [HS]; · iexact HS
      iexact H2
    · have hc1 : ¬cond2_1 (grid5.coords t) := fun h => h1 ((hcond2_1 t).mp h)
      have hnf : (cfg5.win 2).flush t = false := by
        rw [← Bool.not_eq_true, flush5_2 t]; exact h1
      rw [Dat.leavesExact_idle (dat5 V c) 2 t (idle2_2_of (i := grid5.coords t) hc1) hnf]
      iintro ⟨⟨⟨HS, HR⟩, Hg⟩, Ho, ⟨%d0, H0⟩, ⟨%d1, H1⟩, ⟨%d2, H2⟩⟩
      iapply (run2_B c (grid5.coords t) _ _ _ _ _ _ _ _ hc0 hc1 (iblk5 V c 0 t) (iblk5 V c 1 t) _ _ Set.univ _)
      iframe H0 H1
      isplitl [H2]; · iexact H2
      isplitl [HS]; · iexact HS
      iintro ⟨H0, H1, H2, HS⟩
      iframe HR Hg Ho H0 H1
      isplitl [HS]; · iexact HS
      iexists _; iexact H2

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := by
  rw [show (dat5 V c).Φ 0 = PhiS5 V c 0 (Nat.zero_le _) from rfl, PhiS5_zero V c 0 _ rfl]
  try exact Idealize.SL.BI.Entails.refl _

theorem hout5 (c : Dev nD) : (dat5 V c).Φ (Fin.last cfg5.N) ⊢ (Pipeline.ΦA spec5 c : sProp 𝕄) := by
  have ht : (Fin.last cfg5.N).val ≠ 0 := by rw [Fin.val_last]; have : cfg5.N = 20000 := N_5; omega
  rw [show (dat5 V c).Φ (Fin.last cfg5.N) = PhiS5 V c (Fin.last cfg5.N).val (Nat.le_of_lt_succ (Fin.last cfg5.N).isLt) from rfl,
    PhiS5_pos V c _ _ ht, PhiA5_eq]
  iintro ⟨⟨HS, HR⟩, Hg⟩
  isplitl [HS HR]
  · isplitl [HS]; · iexists _; iexact HS
    iexact HR
  iexact Hg

end Cert.KernelIdeal.Hand

end
-- ==== Proof.KI.Stage4b.lean ====
import proofs.«406288_j68358699483732_1_alg».proof.Proof.Gen.KernelIdeal.Launch
import proofs.«406288_j68358699483732_1_alg».proof.Proof.Gen.KernelIdeal.Skeleton
import proofs.«406288_j68358699483732_1_alg».proof.Proof.KI.Sched
import proofs.«406288_j68358699483732_1_alg».proof.Proof.KI.Stage4
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S2000x256 := Rect.unit (s := S2000x256) ![0, 0] S2000x256.size inb_S2000x256_S2000x256_0_0
abbrev r6_2 : Rect S128x128 := Rect.unit (s := S128x128) ![0, 0] S128x128.size inb_S128x128_S128x128_0_0
abbrev r6_3 : Rect S128 := Rect.unit (s := S128) ![0] S128.size inb_S128_S128_0
abbrev r6_4 : Rect S256x128 := Rect.unit (s := S256x128) ![0, 0] S256x128.size inb_S256x128_S256x128_0_0
abbrev r6_8 : Rect S2000x128 := Rect.unit (s := S2000x128) ![0, 0] S2000x128.size inb_S2000x128_S2000x128_0_0

def out6_8 (xa xx : Vec F S2000x256 .f32) (xWo : Vec F S128x128 .f32) (xbo : Vec F S128 .f32) (xWf : Vec F S256x128 .f32) (xbf xg xb : Vec F S128 .f32) : Vec F S2000x128 .f32 :=
  View.canon [⟨r6_8, k6_pay1
    (k6_pay2 (View.ld xa r6_0) (View.ld xWo r6_2) (View.ld xbo r6_3) (View.ld xx r6_0) (View.ld xWf r6_4) (View.ld xbf r6_3))
    (k6_pay4 (View.ld xa r6_0) (View.ld xWo r6_2) (View.ld xbo r6_3) (View.ld xx r6_0) (View.ld xWf r6_4) (View.ld xbf r6_3))
    (k6_pay5 (View.ld xa r6_0) (View.ld xWo r6_2) (View.ld xbo r6_3) (View.ld xx r6_0) (View.ld xWf r6_4) (View.ld xbf r6_3))
    (View.ld xg r6_3) (View.ld xb r6_3)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => out6_8 (iblk6 V c 0 t) (iblk6 V c 1 t) (iblk6 V c 2 t) (iblk6 V c 3 t) (iblk6 V c 4 t) (iblk6 V c 5 t) (iblk6 V c 6 t) (iblk6 V c 7 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) :
    (dat6 V c).after 8 t = out6_8 (iblk6 V c 0 t) (iblk6 V c 1 t) (iblk6 V c 2 t) (iblk6 V c 3 t) (iblk6 V c 4 t) (iblk6 V c 5 t) (iblk6 V c 6 t) (iblk6 V c 7 t) := by
  dsimp only [dat6]

theorem hin6 (c : Dev nD) : (Pipeline.ΦA spec6 c : sProp 𝕄) ⊢ (dat6 V c).Φ 0 := by
  dsimp only [dat6]; exact .rfl
theorem hout6 (c : Dev nD) : (dat6 V c).Φ (Fin.last cfg6.N) ⊢ (Pipeline.ΦA spec6 c : sProp 𝕄) := by
  dsimp only [dat6]; exact .rfl

theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl)
    (fun t => by rw [after6_3]; unfold Dat.blockOf iblk6; rw [A_eq6]; try rfl) t d).trans
    (by unfold Dat.fetched Dat.blockOf iblk6; rw [A_eq6]; try rfl)
theorem before6_4 (c : Dev nD) (t : Fin cfg6.N) (d) : (dat6 V c).before 4 t d = iblk6 V c 4 t :=
  ((dat6 V c).before_in_eq_fetched 4 rfl (fun _ => rfl) (fun _ _ _ => rfl)
    (fun t => by rw [after6_4]; unfold Dat.blockOf iblk6; rw [A_eq6]; try rfl) t d).trans
    (by unfold Dat.fetched Dat.blockOf iblk6; rw [A_eq6]; try rfl)
theorem before6_5 (c : Dev nD) (t : Fin cfg6.N) (d) : (dat6 V c).before 5 t d = iblk6 V c 5 t :=
  ((dat6 V c).before_in_eq_fetched 5 rfl (fun _ => rfl) (fun _ _ _ => rfl)
    (fun t => by rw [after6_5]; unfold Dat.blockOf iblk6; rw [A_eq6]; try rfl) t d).trans
    (by unfold Dat.fetched Dat.blockOf iblk6; rw [A_eq6]; try rfl)
theorem before6_6 (c : Dev nD) (t : Fin cfg6.N) (d) : (dat6 V c).before 6 t d = iblk6 V c 6 t :=
  ((dat6 V c).before_in_eq_fetched 6 rfl (fun _ => rfl) (fun _ _ _ => rfl)
    (fun t => by rw [after6_6]; unfold Dat.blockOf iblk6; rw [A_eq6]; try rfl) t d).trans
    (by unfold Dat.fetched Dat.blockOf iblk6; rw [A_eq6]; try rfl)
theorem before6_7 (c : Dev nD) (t : Fin cfg6.N) (d) : (dat6 V c).before 7 t d = iblk6 V c 7 t :=
  ((dat6 V c).before_in_eq_fetched 7 rfl (fun _ => rfl) (fun _ _ _ => rfl)
    (fun t => by rw [after6_7]; unfold Dat.blockOf iblk6; rw [A_eq6]; try rfl) t d).trans
    (by unfold Dat.fetched Dat.blockOf iblk6; rw [A_eq6]; try rfl)

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t))

set_option maxHeartbeats 1000000 in

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  rw [show @cc6__stage4_kernel F _ _ = cc3__stage4_kernel from rfl]
  simp only [before6_0, before6_1, before6_2, before6_3, before6_4, before6_5, before6_6, before6_7]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _
    (iblk6 V c 0 t) (iblk6 V c 1 t) (iblk6 V c 2 t) (iblk6 V c 3 t) (iblk6 V c 4 t) (iblk6 V c 5 t) (iblk6 V c 6 t) (iblk6 V c 7 t) _)
  iframe H0 H1 H2 H3 H4 H5 H6 H7
  isplitl [H8]; · iexists _; iexact H8
  iintro ⟨H0, H1, H2, H3, H4, H5, H6, H7, H8⟩
  iframe
  iexact H8

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Family.lean ====
import proofs.«406288_j68358699483732_1_alg».proof.Proof.KI.Stage1
import proofs.«406288_j68358699483732_1_alg».proof.Proof.KI.Stage2
import proofs.«406288_j68358699483732_1_alg».proof.Proof.KI.Stage3
import proofs.«406288_j68358699483732_1_alg».proof.Proof.KI.Stage4
import proofs.«406288_j68358699483732_1_alg».proof.Proof.KI.Stage2b
import proofs.«406288_j68358699483732_1_alg».proof.Proof.KI.Stage3b
import proofs.«406288_j68358699483732_1_alg».proof.Proof.KI.Stage4b
import Idealize.ShloMosaic.Lib.Pipeline.FrameSuffix
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (Dat Cfg BodyObligation)

variable {F : FTy → Type} [FloatOps F]

section Exit
variable {cfg : Cfg sig Λ₀} {c : Dev nD} (V : Valuation τ sig (Elt F)) (d : Dat τ (Elt F) Unit ℕ (UR sig nD τ) ℕ cfg c)
  (hinj : Function.Injective (Pipeline.arrRef cfg.spec))

/-- `V` with each window's array replaced by its final contents. -/
def exitVal : Valuation τ sig (Elt F) := Pipeline.withArrays cfg.spec c V (d.arrAt · cfg.N)

include hinj in
theorem exitVal_arr (w : Fin cfg.W) : exitVal V d (Proc.devRef .tc (Pipeline.arrRef cfg.spec w)) = d.arrAt w cfg.N :=
  Pipeline.withArrays_arr cfg.spec hinj c V _ w

theorem exitVal_of_ne (b : Ref sig .tc) (hb : ∀ w, Pipeline.arrRef cfg.spec w ≠ b) :
    exitVal V d (Proc.devRef .tc b) = V (Proc.devRef .tc b) :=
  Pipeline.withArrays_of_ne cfg.spec c V _ b hb

include hinj in
/-- A buffer outside `l` is unchanged: it is no window's array, or an input window's, whose contents never change. -/
theorem exitVal_keep (hA : ∀ w, d.A w = V (Proc.devRef .tc (Pipeline.arrRef cfg.spec w))) {l : List (Ref sig .tc)}
    (hl : ∀ w, Pipeline.arrRef cfg.spec w ∉ l → (cfg.win w).isOut = false) {b : Ref sig .tc} (hb : b ∉ l) :
    exitVal V d (Proc.devRef .tc b) = V (Proc.devRef .tc b) := by
  by_cases h : ∃ w, Pipeline.arrRef cfg.spec w = b
  · obtain ⟨w, rfl⟩ := h
    rw [exitVal_arr V d hinj]
    exact (d.arrAt_in w (hl w hb) _).trans (hA w)
  · exact exitVal_of_ne V d b fun w e => h ⟨w, e⟩

end Exit

variable (m : (ℓ : Loc nD τ sig) → Buf (Elt F) ℓ)

abbrev Bstart (c : Dev nD) : Valuation τ sig (Elt F) := fun b => m ((c : Dev nD), b)

abbrev Bin0 (c : Dev nD) : Valuation τ sig (Elt F) := StableHlo.after hostOps0 (Bstart m c)
abbrev Ein0 : (c : Dev nD) → (b : Ref sig .tc) → Buf (Elt F) ((c : Thread nD τ).loc b) := fun c b => Bin0 m c b
def Bout0 (c : Dev nD) : Valuation τ sig (Elt F) := exitVal (Bin0 m c) (dat0 (Ein0 m) c)
theorem Bout0_arr (c : Dev nD) (w : Fin cfg0.W) :
    Bout0 m c (Proc.devRef .tc (Pipeline.arrRef spec0 w)) = (dat0 (Ein0 m) c).arrAt w cfg0.N :=
  exitVal_arr _ _ launch0.win.arr_inj w
theorem keep0 (c : Dev nD) (b : Ref sig .tc) (hb : b ∉ ([main_v2_0, main_v2_1] : List (Ref sig .tc))) :
    Bout0 m c (Proc.devRef .tc b) = Bin0 m c (Proc.devRef .tc b) :=
  exitVal_keep _ _ launch0.win.arr_inj (A_eq0 (Ein0 m) c) (by decide) hb

abbrev Bin1 (c : Dev nD) : Valuation τ sig (Elt F) := StableHlo.after hostOps1 (Bout0 m c)
abbrev Ein1 : (c : Dev nD) → (b : Ref sig .tc) → Buf (Elt F) ((c : Thread nD τ).loc b) := fun c b => Bin1 m c b
def Bout1 (c : Dev nD) : Valuation τ sig (Elt F) := exitVal (Bin1 m c) (dat1 (Ein1 m) c)
theorem Bout1_arr (c : Dev nD) (w : Fin cfg1.W) :
    Bout1 m c (Proc.devRef .tc (Pipeline.arrRef spec1 w)) = (dat1 (Ein1 m) c).arrAt w cfg1.N :=
  exitVal_arr _ _ launch1.win.arr_inj w
theorem keep1 (c : Dev nD) (b : Ref sig .tc) (hb : b ∉ ([main_v5] : List (Ref sig .tc))) :
    Bout1 m c (Proc.devRef .tc b) = Bin1 m c (Proc.devRef .tc b) :=
  exitVal_keep _ _ launch1.win.arr_inj (A_eq1 (Ein1 m) c) (by decide) hb

abbrev Bin2 (c : Dev nD) : Valuation τ sig (Elt F) := Bout1 m c
abbrev Ein2 : (c : Dev nD) → (b : Ref sig .tc) → Buf (Elt F) ((c : Thread nD τ).loc b) := fun c b => Bin2 m c b
def Bout2 (c : Dev nD) : Valuation τ sig (Elt F) := exitVal (Bin2 m c) (dat2 (Ein2 m) c)
theorem Bout2_arr (c : Dev nD) (w : Fin cfg2.W) :
    Bout2 m c (Proc.devRef .tc (Pipeline.arrRef spec2 w)) = (dat2 (Ein2 m) c).arrAt w cfg2.N :=
  exitVal_arr _ _ launch2.win.arr_inj w
theorem keep2 (c : Dev nD) (b : Ref sig .tc) (hb : b ∉ ([main_v6] : List (Ref sig .tc))) :
    Bout2 m c (Proc.devRef .tc b) = Bin2 m c (Proc.devRef .tc b) :=
  exitVal_keep _ _ launch2.win.arr_inj (A_eq2 (Ein2 m) c) (by decide) hb

abbrev Bin3 (c : Dev nD) : Valuation τ sig (Elt F) := Bout2 m c
abbrev Ein3 : (c : Dev nD) → (b : Ref sig .tc) → Buf (Elt F) ((c : Thread nD τ).loc b) := fun c b => Bin3 m c b
def Bout3 (c : Dev nD) : Valuation τ sig (Elt F) := exitVal (Bin3 m c) (dat3 (Ein3 m) c)
theorem Bout3_arr (c : Dev nD) (w : Fin cfg3.W) :
    Bout3 m c (Proc.devRef .tc (Pipeline.arrRef spec3 w)) = (dat3 (Ein3 m) c).arrAt w cfg3.N :=
  exitVal_arr _ _ launch3.win.arr_inj w
theorem keep3 (c : Dev nD) (b : Ref sig .tc) (hb : b ∉ ([main_v7] : List (Ref sig .tc))) :
    Bout3 m c (Proc.devRef .tc b) = Bin3 m c (Proc.devRef .tc b) :=
  exitVal_keep _ _ launch3.win.arr_inj (A_eq3 (Ein3 m) c) (by decide) hb

abbrev Bin4 (c : Dev nD) : Valuation τ sig (Elt F) := StableHlo.after hostOps4 (Bout3 m c)
abbrev Ein4 : (c : Dev nD) → (b : Ref sig .tc) → Buf (Elt F) ((c : Thread nD τ).loc b) := fun c b => Bin4 m c b
def Bout4 (c : Dev nD) : Valuation τ sig (Elt F) := exitVal (Bin4 m c) (dat4 (Ein4 m) c)
theorem Bout4_arr (c : Dev nD) (w : Fin cfg4.W) :
    Bout4 m c (Proc.devRef .tc (Pipeline.arrRef spec4 w)) = (dat4 (Ein4 m) c).arrAt w cfg4.N :=
  exitVal_arr _ _ launch4.win.arr_inj w
theorem keep4 (c : Dev nD) (b : Ref sig .tc) (hb : b ∉ ([main_v10] : List (Ref sig .tc))) :
    Bout4 m c (Proc.devRef .tc b) = Bin4 m c (Proc.devRef .tc b) :=
  exitVal_keep _ _ launch4.win.arr_inj (A_eq4 (Ein4 m) c) (by decide) hb

abbrev Bin5 (c : Dev nD) : Valuation τ sig (Elt F) := Bout4 m c
abbrev Ein5 : (c : Dev nD) → (b : Ref sig .tc) → Buf (Elt F) ((c : Thread nD τ).loc b) := fun c b => Bin5 m c b
def Bout5 (c : Dev nD) : Valuation τ sig (Elt F) := exitVal (Bin5 m c) (dat5 (Ein5 m) c)
theorem Bout5_arr (c : Dev nD) (w : Fin cfg5.W) :
    Bout5 m c (Proc.devRef .tc (Pipeline.arrRef spec5 w)) = (dat5 (Ein5 m) c).arrAt w cfg5.N :=
  exitVal_arr _ _ launch5.win.arr_inj w
theorem keep5 (c : Dev nD) (b : Ref sig .tc) (hb : b ∉ ([main_v11] : List (Ref sig .tc))) :
    Bout5 m c (Proc.devRef .tc b) = Bin5 m c (Proc.devRef .tc b) :=
  exitVal_keep _ _ launch5.win.arr_inj (A_eq5 (Ein5 m) c) (by decide) hb

abbrev Bin6 (c : Dev nD) : Valuation τ sig (Elt F) := Bout5 m c
abbrev Ein6 : (c : Dev nD) → (b : Ref sig .tc) → Buf (Elt F) ((c : Thread nD τ).loc b) := fun c b => Bin6 m c b
def Bout6 (c : Dev nD) : Valuation τ sig (Elt F) := exitVal (Bin6 m c) (dat6 (Ein6 m) c)
theorem Bout6_arr (c : Dev nD) (w : Fin cfg6.W) :
    Bout6 m c (Proc.devRef .tc (Pipeline.arrRef spec6 w)) = (dat6 (Ein6 m) c).arrAt w cfg6.N :=
  exitVal_arr _ _ launch6.win.arr_inj w
theorem keep6 (c : Dev nD) (b : Ref sig .tc) (hb : b ∉ ([main_v12] : List (Ref sig .tc))) :
    Bout6 m c (Proc.devRef .tc b) = Bin6 m c (Proc.devRef .tc b) :=
  exitVal_keep _ _ launch6.win.arr_inj (A_eq6 (Ein6 m) c) (by decide) hb

abbrev adm : (p : Fin 7) → (pcfgs (F := F) p).Adm := fun p => (cfgs p).toPCfg_adm
def pdats : (p : Fin 7) → (c : Dev nD) → Dat τ (Elt F) Unit ℕ (UR sig nD τ) ℕ (Pipeline.pin (pcfgs (F := F)) adm p) c
  | ⟨0, _⟩ => fun c => dat0 (Ein0 m) c
  | ⟨1, _⟩ => fun c => dat1 (Ein1 m) c
  | ⟨2, _⟩ => fun c => dat2 (Ein2 m) c
  | ⟨3, _⟩ => fun c => dat3 (Ein3 m) c
  | ⟨4, _⟩ => fun c => dat4 (Ein4 m) c
  | ⟨5, _⟩ => fun c => dat5 (Ein5 m) c
  | ⟨6, _⟩ => fun c => dat6 (Ein6 m) c
abbrev 𝒱₀ : Variants := Variants.none
abbrev L : GSem nD τ sig → Finset Unit := fun _ => ∅
abbrev lv : GSem nD τ sig → Unit → ℕ := fun _ _ => 0
/-- What every item of @main carries beside the buffers: the generator register at some state, and no dues. -/
abbrev R (c : Dev nD) : sProp (MT nD τ sig Unit (Elt F) ℕ (UR sig nD τ) ℕ) :=
  iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Reg.lean ====
import proofs.«406288_j68358699483732_1_alg».proof.Proof.KI.Family

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (Dat Cfg BodyObligation)

variable {F : FTy → Type} [FloatOps F] (m : (ℓ : Loc nD τ sig) → Buf (Elt F) ℓ)

/-- A call as an item of @main: its windows' arrays leave the unscoped buffers `Bin` at entry and return at exit. -/
def regOf (p : Fin 7) (lf : Pipeline.LaunchFacts (nD := nD) (τ := τ) cfgs p) (Bin : Dev nD → Valuation τ sig (Elt F))
    (hbody : ∀ c, BodyObligation (pdats m p c) defs₀ 𝒱₀ () Set.univ)
    (hq : ∀ c w, (pdats m p c).q w = fullShare)
    (hA : ∀ c w, (pdats m p c).A w = Bin c (Proc.devRef .tc (Pipeline.arrRef (cfgs p).spec w)))
    (howed : ∀ c t, (pdats m p c).owed t = 0) (hrec : ∀ c, (pdats m p c).recorded 0 = Set.univ)
    (hin : ∀ c, Pipeline.ΦA (cfgs p).spec c ⊢ (pdats m p c).Φ 0)
    (hout : ∀ c, (pdats m p c).Φ (Fin.last (cfgs p).N) ⊢ Pipeline.ΦA (cfgs p).spec c) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Bin c) ∗ R c)
  post c := iprop(StableHlo.held (c : Thread nD τ) (Pipeline.ucRefs τ sig) (exitVal (Bin c) (pdats m p c)) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Bin c b
  hentry c := by
    rw [Pipeline.ownSems0_none]
    have hsplit := Pipeline.arrays_of_unscopedBufs (p := p) (pcfgs (F := F)) adm (pdats m) lf.win lf.arr_whole c
      ((pdats m p c).share_full (hq c)) (fun b => Bin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl ((hrec c).symm ▸ trivial)
      iexact HO
    isplitl [Hp]; · iexact Hp
    iexact Hrest
  hin c := by
    have h := hin c
    unfold Pipeline.ΦA at h
    iintro ⟨Hp, -, Hr⟩
    iapply h
    isplitl [Hr]; · iexact Hr
    iexact Hp
  hout c := by
    rw [Pipeline.ownSems0_none]
    have h := hout c
    unfold Pipeline.ΦA at h
    refine h.trans ?_
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c)) (fun b => Bin c b)
      (fun b => exitVal (Bin c) (pdats m p c) b) ((pdats m p c).arrAt · (cfgs p).N)
      (fun w => (exitVal_arr _ _ lf.win.arr_inj w).symm)
      fun b hb => exitVal_of_ne _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

def reg0 : Pipeline.RegionSeg (pcfgs (F := F)) adm (pdats m) () defs₀ 𝒱₀ L lv 0 :=
  regOf m 0 launch0 (Bin0 m) (body_obligation0 (Ein0 m)) (fun _ _ => rfl) (A_eq0 (Ein0 m)) (fun _ _ => rfl) (fun _ => rfl)
    (hin0 (Ein0 m)) (hout0 (Ein0 m))

def reg1 : Pipeline.RegionSeg (pcfgs (F := F)) adm (pdats m) () defs₀ 𝒱₀ L lv 1 :=
  regOf m 1 launch1 (Bin1 m) (body_obligation1 (Ein1 m)) (fun _ _ => rfl) (A_eq1 (Ein1 m)) (fun _ _ => rfl) (fun _ => rfl)
    (hin1 (Ein1 m)) (hout1 (Ein1 m))

def reg2 : Pipeline.RegionSeg (pcfgs (F := F)) adm (pdats m) () defs₀ 𝒱₀ L lv 2 :=
  regOf m 2 launch2 (Bin2 m) (body_obligation2 (Ein2 m)) (fun _ _ => rfl) (A_eq2 (Ein2 m)) (fun _ _ => rfl) (fun _ => rfl)
    (hin2 (Ein2 m)) (hout2 (Ein2 m))

def reg3 : Pipeline.RegionSeg (pcfgs (F := F)) adm (pdats m) () defs₀ 𝒱₀ L lv 3 :=
  regOf m 3 launch3 (Bin3 m) (body_obligation3 (Ein3 m)) (fun _ _ => rfl) (A_eq3 (Ein3 m)) (fun _ _ => rfl) (fun _ => rfl)
    (hin3 (Ein3 m)) (hout3 (Ein3 m))

def reg4 : Pipeline.RegionSeg (pcfgs (F := F)) adm (pdats m) () defs₀ 𝒱₀ L lv 4 :=
  regOf m 4 launch4 (Bin4 m) (body_obligation4 (Ein4 m)) (fun _ _ => rfl) (A_eq4 (Ein4 m)) (fun _ _ => rfl) (fun _ => rfl)
    (hin4 (Ein4 m)) (hout4 (Ein4 m))

def reg5 : Pipeline.RegionSeg (pcfgs (F := F)) adm (pdats m) () defs₀ 𝒱₀ L lv 5 :=
  regOf m 5 launch5 (Bin5 m) (body_obligation5 (Ein5 m)) (fun _ _ => rfl) (A_eq5 (Ein5 m)) (fun _ _ => rfl) (fun _ => rfl)
    (hin5 (Ein5 m)) (hout5 (Ein5 m))

def reg6 : Pipeline.RegionSeg (pcfgs (F := F)) adm (pdats m) () defs₀ 𝒱₀ L lv 6 :=
  regOf m 6 launch6 (Bin6 m) (body_obligation6 (Ein6 m)) (fun _ _ => rfl) (A_eq6 (Ein6 m)) (fun _ _ => rfl) (fun _ => rfl)
    (hin6 (Ein6 m)) (hout6 (Ein6 m))

end Cert.KernelIdeal.Hand

end
-- ==== Proof.KI.Run.lean ====
import proofs.«406288_j68358699483732_1_alg».proof.Proof.KI.Reg
import proofs.«406288_j68358699483732_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Tlast (c : Dev nD) : sProp 𝕄 := iprop(StableHlo.held (c : Thread nD τ) (Pipeline.ucRefs τ sig) (Bout6 m c) ∗ ∃ r, prngReg c r)

abbrev segs : List (Pipeline.Seg (pcfgs (F := F)) adm (pdats m) () defs₀ 𝒱₀ L lv) :=
  [ .host (hseg hostOps0 hostOps0_sub hostOps0_fresh (Bstart m)),
    .region (reg0 m),
    .host (hseg hostOps1 hostOps1_sub hostOps1_fresh (Bout0 m)),
    .region (reg1 m),
    .region (reg2 m),
    .region (reg3 m),
    .host (hseg hostOps4 hostOps4_sub hostOps4_fresh (Bout3 m)),
    .region (reg4 m),
    .region (reg5 m),
    .region (reg6 m) ]

theorem main_run (c : Dev nD) : main (F := F) c = Pipeline.Seg.run (segs m) := (main_chain c).trans (by chain_rfl)

set_option backward.isDefEq.respectTransparency.types false in

theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = Bout6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bstart m c) ∗ R c)) (Tₙ := Tlast m)
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (Bout6 m c) ∗ R c)
          ⊢ iprop(Tlast m c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (Bstart m c)
        from Pipeline.unscopedBufs_held c (Bstart m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bout6 m c b)
    (hfin := fun c s' => by
      iintro ⟨⟨Hh, -⟩, HSI⟩
      unfold StableHlo.held
      imodintro
      iapply (pointsTo_read_all (Pipeline.ucRefs τ sig) (fun b => (((c : Thread nD τ)).1, b)) (Bout6 m c) s')
      isplitl [Hh] <;> iassumption)
    (hQ := fun s h => h)

abbrev written : List (Ref sig .tc) :=
  [main_v0, main_v1, main_v2_0, main_v2_1, main_v3, main_v4, main_v5, main_v6, main_v7, main_v8, main_v9, main_v10, main_v11, main_v12]

theorem notMem_of_sub {b : Ref sig .tc} {l l' : List (Ref sig .tc)} (hs : ∀ x ∈ l', x ∈ l) (h : b ∉ l) : b ∉ l' :=
  fun hm => h (hs b hm)

section Keep
variable (c : Dev nD) (b : Ref sig .tc) (h : b ∉ (written : List (Ref sig .tc)))
include h

theorem in0_keep : Bin0 m c (Proc.devRef .tc b) = m ((c : Thread nD τ).loc b) :=
  StableHlo.after_of_writes_sub hostOps0 _ hostOps0_writes (notMem_of_sub (by decide) h)

theorem out0_keep : Bout0 m c (Proc.devRef .tc b) = m ((c : Thread nD τ).loc b) :=
  (keep0 m c b (notMem_of_sub (by decide) h)).trans (in0_keep m c b h)
theorem in1_keep : Bin1 m c (Proc.devRef .tc b) = m ((c : Thread nD τ).loc b) :=
  (StableHlo.after_of_writes_sub hostOps1 _ hostOps1_writes (notMem_of_sub (by decide) h)).trans (out0_keep m c b h)
theorem out1_keep : Bout1 m c (Proc.devRef .tc b) = m ((c : Thread nD τ).loc b) :=
  (keep1 m c b (notMem_of_sub (by decide) h)).trans (in1_keep m c b h)
theorem out2_keep : Bout2 m c (Proc.devRef .tc b) = m ((c : Thread nD τ).loc b) :=
  (keep2 m c b (notMem_of_sub (by decide) h)).trans (out1_keep m c b h)
theorem out3_keep : Bout3 m c (Proc.devRef .tc b) = m ((c : Thread nD τ).loc b) :=
  (keep3 m c b (notMem_of_sub (by decide) h)).trans (out2_keep m c b h)
theorem in4_keep : Bin4 m c (Proc.devRef .tc b) = m ((c : Thread nD τ).loc b) :=
  (StableHlo.after_of_writes_sub hostOps4 _ hostOps4_writes (notMem_of_sub (by decide) h)).trans (out3_keep m c b h)
theorem out4_keep : Bout4 m c (Proc.devRef .tc b) = m ((c : Thread nD τ).loc b) :=
  (keep4 m c b (notMem_of_sub (by decide) h)).trans (in4_keep m c b h)
theorem out5_keep : Bout5 m c (Proc.devRef .tc b) = m ((c : Thread nD τ).loc b) :=
  (keep5 m c b (notMem_of_sub (by decide) h)).trans (out4_keep m c b h)
theorem out6_keep : Bout6 m c (Proc.devRef .tc b) = m ((c : Thread nD τ).loc b) :=
  (keep6 m c b (notMem_of_sub (by decide) h)).trans (out5_keep m c b h)

end Keep

-- Whatever holds of every unscoped reference no item writes holds of each of the 33 arguments.
theorem args_all {P : Ref sig .tc → Prop}
    (h : ∀ b : Ref sig .tc, ¬(Proc.devRef .tc b : DevRef τ sig).isScoped → b ∉ (written : List (Ref sig .tc)) → P b) :
    P main_arg0 ∧ P main_arg1 ∧ P main_arg2 ∧ P main_arg3 ∧ P main_arg4 ∧ P main_arg5 ∧ P main_arg6 ∧ P main_arg7 ∧ P main_arg8 ∧ P main_arg9 ∧ P main_arg10 ∧ P main_arg11 ∧ P main_arg12 ∧ P main_arg13 ∧ P main_arg14 ∧ P main_arg15 ∧ P main_arg16 ∧ P main_arg17 ∧ P main_arg18 ∧ P main_arg19 ∧ P main_arg20 ∧ P main_arg21 ∧ P main_arg22 ∧ P main_arg23 ∧ P main_arg24 ∧ P main_arg25 ∧ P main_arg26 ∧ P main_arg27 ∧ P main_arg28 ∧ P main_arg29 ∧ P main_arg30 ∧ P main_arg31 ∧ P main_arg32 :=
  ⟨h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide), h _ (by decide) (by decide)⟩

-- The frame: every weakly fair execution of @main terminates, nothing faulting, and what no item writes ends as launched.
theorem kept_all (ρ : Dev nD → PrngReg) :
    θ_run defs (onTc (τ := τ) (main (F := F))) ⟨m, fun _ => 0, ρ⟩ (fun r => ∀ (c : Dev nD) (b : Ref sig .tc),
      ¬(Proc.devRef .tc b : DevRef τ sig).isScoped → b ∉ (written : List (Ref sig .tc)) →
      r.2.mem ((c.tc : Thread nD τ).loc b) = m ((c.tc : Thread nD τ).loc b)) :=
  (θ_run defs _ _).mono (fun r h c b hs hw => (h c _ (mem_uc b hs)).trans (out6_keep m c b hw)) (run_all m ρ)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Mat (a b : Nat) : Type := FVec Ideal ⟨2, ![a, b]⟩ .f32
abbrev Row (a : Nat) : Type := FVec Ideal ⟨1, ![a]⟩ .f32
abbrev ICol (a : Nat) : Type := IVec ⟨2, ![a, 1]⟩ 32

abbrev cScale : EReal := Ideal.ofBits .f32 0x3DB504F3#32
abbrev cLo : EReal := Ideal.ofBits .f32 0xC0A00000#32
abbrev cHi : EReal := Ideal.ofBits .f32 0x40A00000#32
abbrev cOne : EReal := Ideal.ofBits .f32 0x3F800000#32
abbrev c128 : EReal := Ideal.ofBits .f32 0x43000000#32
abbrev cEps : EReal := Ideal.ofBits .f32 0x3727C5AC#32

def hot (w : BitVec 32) (n : Nat) : EReal := if w = BitVec.ofNat 32 n then 1 else 0

def lin {r a b : Nat} (x : Mat r a) (W : Mat a b) (bias : Row b) : Mat r b :=
  fun i => (∑ k : Fin a, x (ix2 (i 0) k) * W (ix2 k (i 1))) + bias (ix1 (i 1))

def hd (h : Fin 4) (d : Fin 32) : Fin 128 := ⟨32 * h.val + d.val, by omega⟩

def headOf (j : Fin 128) : Fin 4 := ⟨j.val / 32, by omega⟩

def gath {b : Nat} (idx : ICol 800000) (T : Mat 50000 b) : Mat 800000 b :=
  fun i => ∑ q : Fin 50, ∑ r : Fin 1000,
    hot (idx (ix2 (i 0) 0)) (q.val * 1000 + r.val) * T (ix2 ⟨q.val * 1000 + r.val, by omega⟩ (i 1))

def score (kv : Mat 800000 256) (qg : Mat 800000 128) (feat : Mat 800000 2) (e : Fin 800000) (h : Fin 4) : EReal :=
  Ideal.exp (min cHi (max cLo
    (((∑ d : Fin 32, kv (ix2 e ⟨32 * h.val + d.val, by omega⟩) * qg (ix2 e (hd h d))) * feat (ix2 e 0)) * cScale)))

def payload (src dst : ICol 800000) (feat : Mat 800000 2) (kvT : Mat 50000 256) (qT : Mat 50000 128) : Mat 800000 256 :=
  fun i =>
    if hlt : (i 1).val < 128 then
      gath src kvT (ix2 (i 0) ⟨128 + (i 1).val, by omega⟩)
        * score (gath src kvT) (gath dst qT) feat (i 0) ⟨(i 1).val / 32, by omega⟩
    else
      score (gath src kvT) (gath dst qT) feat (i 0) ⟨((i 1).val - 128) / 32, by have h : (i 1).val < 256 := (i 1).isLt; omega⟩

def scat (dst : ICol 800000) (P : Mat 800000 256) : Mat 50000 256 :=
  fun i => ∑ q : Fin 400, ∑ r : Fin 2000,
    hot (dst (ix2 ⟨q.val * 2000 + r.val, by omega⟩ 0)) (i 0).val * P (ix2 ⟨q.val * 2000 + r.val, by omega⟩ (i 1))

def wmean (acc : Mat 50000 256) : Mat 50000 128 :=
  fun i => Ideal.div (acc (ix2 (i 0) ⟨(i 1).val, by have h : (i 1).val < 128 := (i 1).isLt; omega⟩))
    (acc (ix2 (i 0) ⟨128 + (i 1).val, by have h : (i 1).val < 128 := (i 1).isLt; omega⟩) + cOne)

def preLn (acc : Mat 50000 256) (x : Mat 50000 256) (Wao : Mat 128 128) (bao : Row 128)
    (Waffn : Mat 256 128) (baffn : Row 128) : Mat 50000 128 :=
  fun i => ((∑ k : Fin 256, x (ix2 (i 0) k) * Waffn (ix2 k (i 1))) + baffn (ix1 (i 1)))
    + ((∑ k : Fin 128, wmean acc (ix2 (i 0) k) * Wao (ix2 k (i 1))) + bao (ix1 (i 1)))

def rowMean (a : Mat 50000 128) (n : Fin 50000) : EReal := Ideal.div (∑ j : Fin 128, a (ix2 n j)) c128
def rowRstd (a : Mat 50000 128) (n : Fin 50000) : EReal :=
  Ideal.rsqrt (Ideal.div (∑ j : Fin 128, (a (ix2 n j) - rowMean a n) * (a (ix2 n j) - rowMean a n)) c128 + cEps)

def outp (acc : Mat 50000 256) (x : Mat 50000 256) (Wao : Mat 128 128) (bao : Row 128)
    (Waffn : Mat 256 128) (baffn : Row 128) (g b : Row 128) : Mat 50000 128 :=
  fun i =>
    preLn acc x Wao bao Waffn baffn i
      + ((((preLn acc x Wao bao Waffn baffn i - rowMean (preLn acc x Wao bao Waffn baffn) (i 0))
            * rowRstd (preLn acc x Wao bao Waffn baffn) (i 0)) * g (ix1 (i 1))) + b (ix1 (i 1)))

def pass (x : Mat 50000 256) (Wkv : Mat 256 256) (bkv : Row 256) (Wq : Mat 256 128) (bq : Row 128)
    (src dst : ICol 800000) (feat : Mat 800000 2) (Wao : Mat 128 128) (bao : Row 128)
    (Waffn : Mat 256 128) (baffn : Row 128) (g b : Row 128) : Mat 50000 128 :=
  outp (scat dst (payload src dst feat (lin x Wkv bkv) (lin x Wq bq))) x Wao bao Waffn baffn g b

def catCols (a b : Mat 256 128) : Mat 256 256 :=
  fun i => if h : (i 1).val < 128 then a (ix2 (i 0) ⟨(i 1).val, h⟩)
    else b (ix2 (i 0) ⟨(i 1).val - 128, by have h' : (i 1).val < 256 := (i 1).isLt; omega⟩)
def catRow (a b : Row 128) : Row 256 :=
  fun i => if h : (i 0).val < 128 then a (ix1 ⟨(i 0).val, h⟩)
    else b (ix1 ⟨(i 0).val - 128, by have h' : (i 0).val < 256 := (i 0).isLt; omega⟩)
def colOf (v : IVec ⟨1, ![800000]⟩ 32) : ICol 800000 := fun i => v (ix1 (i 0))

def passOf (x : Mat 50000 256) (Wak Wav Waq : Mat 256 128) (bak bav baq : Row 128)
    (src dst : IVec ⟨1, ![800000]⟩ 32) (feat : Mat 800000 2) (Wao : Mat 128 128) (bao : Row 128)
    (Waffn : Mat 256 128) (baffn : Row 128) (g b : Row 128) : Mat 50000 128 :=
  pass x (catCols Wak Wav) (catRow bak bav) Waq baq (colOf src) (colOf dst) feat Wao bao Waffn baffn g b

end Cert.Spec

end
-- ==== Proof.KI.Glue.lean ====
import proofs.«406288_j68358699483732_1_alg».proof.KernelIdeal
import proofs.«406288_j68358699483732_1_alg».proof.Proof.Gen.KernelIdeal.Launch
import proofs.«406288_j68358699483732_1_alg».proof.Proof.Spec
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

theorem glue_catCols (a b : FVec Ideal S256x128 .f32) (h : Shape.Concatenates [S256x128, S256x128] S256x256 1) :
    concatenate S256x256 1 [⟨S256x128, a⟩, ⟨S256x128, b⟩] h = Cert.Spec.catCols a b := by
  funext j
  unfold Cert.Spec.catCols
  by_cases hj : (j 1).val < 128
  · rw [dif_pos hj]
    refine concatenate_pair_apply_left 1 a b h j rfl (ix2 (j 0) ⟨(j 1).val, hj⟩) (fun c => ?_)
    match c with
    | ⟨0, _⟩ => rfl
    | ⟨1, _⟩ => rfl
  · rw [dif_neg hj]
    have hlt : (j 1).val < 256 := (j 1).isLt
    refine concatenate_pair_apply_right 1 a b h j rfl rfl
      (ix2 (j 0) ⟨(j 1).val - 128, by omega⟩) (fun c hc => ?_) ?_
    · match c with
      | ⟨0, _⟩ => rfl
      | ⟨1, _⟩ => exact absurd rfl hc
    · show (j 1).val - 128 + 128 = (j 1).val
      omega

theorem glue_catRow (a b : FVec Ideal S128 .f32) (h : Shape.Concatenates [S128, S128] S256 0) :
    concatenate S256 0 [⟨S128, a⟩, ⟨S128, b⟩] h = Cert.Spec.catRow a b := by
  funext j
  unfold Cert.Spec.catRow
  by_cases hj : (j 0).val < 128
  · rw [dif_pos hj]
    refine concatenate_pair_apply_left 0 a b h j rfl (ix1 ⟨(j 0).val, hj⟩) (fun c => ?_)
    match c with
    | ⟨0, _⟩ => rfl
  · rw [dif_neg hj]
    have hlt : (j 0).val < 256 := (j 0).isLt
    refine concatenate_pair_apply_right 0 a b h j rfl rfl
      (ix1 ⟨(j 0).val - 128, by omega⟩) (fun c hc => ?_) ?_
    · match c with
      | ⟨0, _⟩ => exact absurd rfl hc
    · show (j 0).val - 128 + 128 = (j 0).val
      omega

theorem glue_col (v : IVec S800000 32) (h : S800000.ShapeCasts S800000x1) :
    shapeCast S800000x1 v h = Cert.Spec.colOf v := by
  funext j
  unfold Cert.Spec.colOf
  refine shapeCast_apply v h j (ix1 (j 0)) ?_
  rw [Shape.rowMajor_val_one, Shape.rowMajor_val_two]
  have h1 : (j 1).val < 1 := (j 1).isLt
  show (j 0).val = (j 0).val * 1 + (j 1).val
  omega

theorem after_hostOps0_v0 (W : Valuation τ sig (Elt Ideal)) :
    (StableHlo.after (hostOps0 (F := Ideal)) W (Proc.devRef .tc main_v0) : S256x256.Idx → EReal)
      = Cert.Spec.catCols (W (Proc.devRef .tc main_arg19)) (W (Proc.devRef .tc main_arg21)) := by
  dsimp only [hostOps0]
  after_results
  exact glue_catCols _ _ _

theorem after_hostOps0_v1 (W : Valuation τ sig (Elt Ideal)) :
    (StableHlo.after (hostOps0 (F := Ideal)) W (Proc.devRef .tc main_v1) : S256.Idx → EReal)
      = Cert.Spec.catRow (W (Proc.devRef .tc main_arg20)) (W (Proc.devRef .tc main_arg22)) := by
  dsimp only [hostOps0]
  after_results
  exact glue_catRow _ _ _

theorem after_hostOps1_v3 (W : Valuation τ sig (Elt Ideal)) :
    (StableHlo.after (hostOps1 (F := Ideal)) W (Proc.devRef .tc main_v3) : IVec S800000x1 32)
      = Cert.Spec.colOf (W (Proc.devRef .tc main_arg29)) := by
  dsimp only [hostOps1]
  after_results
  exact glue_col _ _

theorem after_hostOps1_v4 (W : Valuation τ sig (Elt Ideal)) :
    (StableHlo.after (hostOps1 (F := Ideal)) W (Proc.devRef .tc main_v4) : IVec S800000x1 32)
      = Cert.Spec.colOf (W (Proc.devRef .tc main_arg30)) := by
  dsimp only [hostOps1]
  after_results
  exact glue_col _ _

theorem after_hostOps4_v8 (W : Valuation τ sig (Elt Ideal)) :
    (StableHlo.after (hostOps4 (F := Ideal)) W (Proc.devRef .tc main_v8) : IVec S800000x1 32)
      = Cert.Spec.colOf (W (Proc.devRef .tc main_arg31)) := by
  dsimp only [hostOps4]
  after_results
  exact glue_col _ _

theorem after_hostOps4_v9 (W : Valuation τ sig (Elt Ideal)) :
    (StableHlo.after (hostOps4 (F := Ideal)) W (Proc.devRef .tc main_v9) : IVec S800000x1 32)
      = Cert.Spec.colOf (W (Proc.devRef .tc main_arg32)) := by
  dsimp only [hostOps4]
  after_results
  exact glue_col _ _

end Cert.KernelIdeal.Hand

end
-- ==== Proof.KI.Val0.lean ====
import proofs.«406288_j68358699483732_1_alg».proof.Proof.KI.Stage1
import proofs.«406288_j68358699483732_1_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem matmul_rows_cols {m k n : Nat} {φ₁ φ₂ : FTy} (D : DotDims ⟨2, ![m, k]⟩ ⟨2, ![k, n]⟩ ⟨2, ![m, n]⟩)
    (hD : D = DotDims.plain m k n) (prec : Option ContractPrecision)
    (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b)
      = ∑ c : Fin k, A (ix2 a c) * B (ix2 c b) := by
  subst hD
  have h := StackMember.dotGeneral_plain_apply prec A B a b
  rw [show Host.dotGeneral (DotDims.plain m k n) prec A B (ix2 a b)
      = FloatOps.dotGeneral (DotDims.plain m k n) prec _ A B (ix2 a b) from rfl, Ideal.dotGeneral_apply] at h
  rw [← h]
  exact Ideal.matmul_constant_zero_apply _ _ _ _ _

theorem bias_rows_apply {r n : Nat} (x : (⟨1, ![n]⟩ : Shape).Idx → EReal)
    (h1 : (⟨1, ![n]⟩ : Shape).ShapeCasts ⟨2, ![1, n]⟩) (h2 : (⟨2, ![1, n]⟩ : Shape).Broadcasts ⟨2, ![r, n]⟩)
    (hn : n ≠ 1) (p : Fin r) (q : Fin n) :
    broadcastTo ⟨2, ![r, n]⟩ (shapeCast ⟨2, ![1, n]⟩ x h1) h2 (ix2 p q) = x (ix1 q) := by
  rw [broadcastTo_apply _ h2 (ix2 p q) (ix2 (0 : Fin 1) q) (fun a => by
    match a with
    | ⟨0, _⟩ => rfl
    | ⟨1, _⟩ => show q.val = if n = 1 then 0 else q.val; rw [if_neg hn])]
  exact shapeCast_apply x h1 (ix2 (0 : Fin 1) q) (ix1 q) (by
    rw [Shape.rowMajor_val_two, Shape.rowMajor_val_one]
    show q.val = 0 * n + q.val
    omega)

theorem k0_pay2_apply (x0 : Vec Ideal S2000x256 .f32) (x1 : Vec Ideal S256x256 .f32) (x2 : Vec Ideal S256 .f32)
    (p : Fin 2000) (q : Fin 256) :
    k0_pay2 x0 x1 x2 (ix2 p q) = (∑ k : Fin 256, x0 (ix2 p k) * x1 (ix2 k q)) + x2 (ix1 q) := by
  unfold k0_pay2 k0_pay1
  dsimp only
  rw [addf_apply]
  refine congrArg₂ (· + ·) ?_ ?_
  · refine (matmul_rows_cols _ rfl none _ _ p q).trans ?_
    refine Finset.sum_congr rfl fun k _ => ?_
    rw [truncf_apply, truncf_apply, shapeCast_self]
  · rw [shapeCast_self]
    exact bias_rows_apply x2 _ _ (by decide) p q

theorem k0_pay3_apply (x0 : Vec Ideal S2000x256 .f32) (x3 : Vec Ideal S256x128 .f32) (x4 : Vec Ideal S128 .f32)
    (p : Fin 2000) (q : Fin 128) :
    k0_pay3 x0 x3 x4 (ix2 p q) = (∑ k : Fin 256, x0 (ix2 p k) * x3 (ix2 k q)) + x4 (ix1 q) := by
  unfold k0_pay3 k0_pay1
  dsimp only
  rw [addf_apply]
  refine congrArg₂ (· + ·) ?_ ?_
  · refine (matmul_rows_cols _ rfl none _ _ p q).trans ?_
    refine Finset.sum_congr rfl fun k _ => ?_
    rw [truncf_apply, truncf_apply]
  · exact bias_rows_apply x4 _ _ (by decide) p q

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem lin_block_of {n : Nat} (X : Cert.Spec.Mat 50000 256) (W : Cert.Spec.Mat 256 n) (bias : Cert.Spec.Row n)
    (x0 : Vec Ideal S2000x256 .f32) (x1 : (⟨2, ![256, n]⟩ : Shape).Idx → EReal) (x2 : (⟨1, ![n]⟩ : Shape).Idx → EReal)
    (r : Nat) (hr : r < 25)
    (h0 : ∀ (p : Fin 2000) (k : Fin 256), x0 (ix2 p k) = X (ix2 ⟨r * 2000 + p.val, by omega⟩ k))
    (h1 : x1 = W) (h2 : x2 = bias) (p : Fin 2000) (q : Fin n) :
    (∑ k : Fin 256, x0 (ix2 p k) * x1 (ix2 k q)) + x2 (ix1 q)
      = Cert.Spec.lin X W bias (ix2 ⟨r * 2000 + p.val, by omega⟩ q) := by
  subst h1; subst h2
  unfold Cert.Spec.lin
  refine congrArg₂ (· + ·) (Finset.sum_congr rfl fun k _ => ?_) rfl
  rw [h0]
  rfl

theorem iblk0_0_apply (c : Dev nD) (t : Fin cfg0.N) (ht : t.val < 25) (p : Fin 2000) (k : Fin 256) :
    iblk0 V c 0 t (ix2 p k) = (V c main_arg2 : Cert.Spec.Mat 50000 256) (ix2 ⟨t.val * 2000 + p.val, by omega⟩ k) := by
  obtain ⟨e00, e01, -⟩ := idx_facts0 t
  show V c main_arg2 (((cfg0.win 0).blk t).view.emb (ix2 p k)) = _
  refine congrArg (V c main_arg2) (funext fun a => Fin.ext ?_)
  match a with
  | ⟨0, _⟩ => show win0_0.index t (0 : Fin 2) * 2000 + 1 * p.val = t.val * 2000 + p.val; omega
  | ⟨1, _⟩ => show win0_0.index t (1 : Fin 2) * 256 + 1 * k.val = k.val; omega

theorem iblk0_1_eq (c : Dev nD) (t : Fin cfg0.N) : iblk0 V c 1 t = (V c main_v0 : Cert.Spec.Mat 256 256) := by
  obtain ⟨-, -, e10, e11, -⟩ := idx_facts0 t
  funext y
  show V c main_v0 (((cfg0.win 1).blk t).view.emb y) = V c main_v0 y
  refine congrArg (V c main_v0) (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

theorem iblk0_2_eq (c : Dev nD) (t : Fin cfg0.N) : iblk0 V c 2 t = (V c main_v1 : Cert.Spec.Row 256) := by
  obtain ⟨-, -, -, -, e20, -⟩ := idx_facts0 t
  funext y
  show V c main_v1 (((cfg0.win 2).blk t).view.emb y) = V c main_v1 y
  refine congrArg (V c main_v1) (funext fun a => Fin.ext ?_)
  match a with
  | ⟨0, _⟩ => show win0_2.index t (0 : Fin 1) * 256 + 1 * (y 0).val = (y 0).val; omega

theorem iblk0_3_eq (c : Dev nD) (t : Fin cfg0.N) : iblk0 V c 3 t = (V c main_arg17 : Cert.Spec.Mat 256 128) := by
  obtain ⟨-, -, -, -, -, e30, e31, -⟩ := idx_facts0 t
  funext y
  show V c main_arg17 (((cfg0.win 3).blk t).view.emb y) = V c main_arg17 y
  refine congrArg (V c main_arg17) (funext fun a => Fin.ext ?_)
  match a with
  | ⟨0, _⟩ => show win0_3.index t (0 : Fin 2) * 256 + 1 * (y 0).val = (y 0).val; omega
  | ⟨1, _⟩ => show win0_3.index t (1 : Fin 2) * 128 + 1 * (y 1).val = (y 1).val; omega

theorem iblk0_4_eq (c : Dev nD) (t : Fin cfg0.N) : iblk0 V c 4 t = (V c main_arg18 : Cert.Spec.Row 128) := by
  obtain ⟨-, -, -, -, -, -, -, e40, -⟩ := idx_facts0 t
  funext y
  show V c main_arg18 (((cfg0.win 4).blk t).view.emb y) = V c main_arg18 y
  refine congrArg (V c main_arg18) (funext fun a => Fin.ext ?_)
  match a with
  | ⟨0, _⟩ => show win0_4.index t (0 : Fin 1) * 128 + 1 * (y 0).val = (y 0).val; omega

theorem flushed0_5_eq (c : Dev nD) (t : Fin cfg0.N) :
    (dat0 (F := Ideal) V c).flushed 5 t
      = ((cfg0.win 5).blk t).view.read (Elt Ideal) (Cert.Spec.lin (V c main_arg2) (V c main_v0) (V c main_v1) : Cert.Spec.Mat 50000 256) := by
  have ht : t.val < 25 := lt_of_lt_of_eq t.isLt N_0
  show (cfg0.win 5).cut (grid0.coords t) ((dat0 (F := Ideal) V c).after 5 t) = _
  rw [after0_5]
  unfold out0_5
  rw [View.canon_unit_zero zeros2]
  simp only [View.ld_unit_zero (S := S2000x256) zeros2, View.ld_unit_zero (S := S256x256) zeros2, View.ld_unit_zero (S := S256) zeros1]
  obtain ⟨-, -, -, -, -, -, -, -, e50, e51, -⟩ := idx_facts0 t
  funext j
  obtain ⟨p, q, rfl⟩ : ∃ (p : Fin 2000) (q : Fin 256), j = ix2 p q := ⟨j 0, j 1, eq_ix2 j⟩
  have hemb : ((cfg0.win 5).blk t).view.emb (ix2 p q) = (ix2 ⟨t.val * 2000 + p.val, by omega⟩ q : S50000x256.Idx) := by
    funext a; apply Fin.ext
    match a with
    | ⟨0, _⟩ => show win0_5.index t (0 : Fin 2) * 2000 + 1 * p.val = t.val * 2000 + p.val; omega
    | ⟨1, _⟩ => show win0_5.index t (1 : Fin 2) * 256 + 1 * q.val = q.val; omega
  show k0_pay2 (iblk0 V c 0 t) (iblk0 V c 1 t) (iblk0 V c 2 t) (ix2 p q)
    = (Cert.Spec.lin (V c main_arg2) (V c main_v0) (V c main_v1) : Cert.Spec.Mat 50000 256) (((cfg0.win 5).blk t).view.emb (ix2 p q))
  rw [hemb]
  refine (k0_pay2_apply (iblk0 V c 0 t) (iblk0 V c 1 t) (iblk0 V c 2 t) p q).trans ?_
  exact lin_block_of (V c main_arg2) (V c main_v0) (V c main_v1) (iblk0 V c 0 t) (iblk0 V c 1 t) (iblk0 V c 2 t) t.val ht
    (iblk0_0_apply V c t ht) (iblk0_1_eq V c t) (iblk0_2_eq V c t) p q

theorem flushed0_6_eq (c : Dev nD) (t : Fin cfg0.N) :
    (dat0 (F := Ideal) V c).flushed 6 t
      = ((cfg0.win 6).blk t).view.read (Elt Ideal) (Cert.Spec.lin (V c main_arg2) (V c main_arg17) (V c main_arg18) : Cert.Spec.Mat 50000 128) := by
  have ht : t.val < 25 := lt_of_lt_of_eq t.isLt N_0
  show (cfg0.win 6).cut (grid0.coords t) ((dat0 (F := Ideal) V c).after 6 t) = _
  rw [after0_6]
  unfold out0_6
  rw [View.canon_unit_zero zeros2]
  simp only [View.ld_unit_zero (S := S2000x256) zeros2, View.ld_unit_zero (S := S256x128) zeros2, View.ld_unit_zero (S := S128) zeros1]
  obtain ⟨-, -, -, -, -, -, -, -, -, -, e60, e61⟩ := idx_facts0 t
  funext j
  obtain ⟨p, q, rfl⟩ : ∃ (p : Fin 2000) (q : Fin 128), j = ix2 p q := ⟨j 0, j 1, eq_ix2 j⟩
  have hemb : ((cfg0.win 6).blk t).view.emb (ix2 p q) = (ix2 ⟨t.val * 2000 + p.val, by omega⟩ q : S50000x128.Idx) := by
    funext a; apply Fin.ext
    match a with
    | ⟨0, _⟩ => show win0_6.index t (0 : Fin 2) * 2000 + 1 * p.val = t.val * 2000 + p.val; omega
    | ⟨1, _⟩ => show win0_6.index t (1 : Fin 2) * 128 + 1 * q.val = q.val; omega
  show k0_pay3 (iblk0 V c 0 t) (iblk0 V c 3 t) (iblk0 V c 4 t) (ix2 p q)
    = (Cert.Spec.lin (V c main_arg2) (V c main_arg17) (V c main_arg18) : Cert.Spec.Mat 50000 128) (((cfg0.win 6).blk t).view.emb (ix2 p q))
  rw [hemb]
  refine (k0_pay3_apply (iblk0 V c 0 t) (iblk0 V c 3 t) (iblk0 V c 4 t) p q).trans ?_
  exact lin_block_of (V c main_arg2) (V c main_arg17) (V c main_arg18) (iblk0 V c 0 t) (iblk0 V c 3 t) (iblk0 V c 4 t) t.val ht
    (iblk0_0_apply V c t ht) (iblk0_3_eq V c t) (iblk0_4_eq V c t) p q

theorem mem_blk0_5 (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v2_0).slice (win0_5.rect t)).set ↔ _
  rw [View.set_slice_whole, Rect.mem_set_unit]
  exact Iff.rfl

theorem mem_blk0_6 (t : Fin cfg0.N) (i : S50000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v2_1).slice (win0_6.rect t)).set ↔ _
  rw [View.set_slice_whole, Rect.mem_set_unit]
  exact Iff.rfl

theorem tiled0_5 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : (i 0).val / 2000 < cfg0.N := lt_of_lt_of_eq (show (i 0).val / 2000 < 25 by omega) N_0.symm
  obtain ⟨-, -, -, -, -, -, -, -, e50, e51, -⟩ := idx_facts0 ⟨(i 0).val / 2000, hN⟩
  refine ⟨⟨(i 0).val / 2000, hN⟩, flush0_5 _, ?_⟩
  rw [mem_blk0_5]
  intro a
  match a with
  | ⟨0, _⟩ =>
    show win0_5.index ⟨(i 0).val / 2000, hN⟩ (0 : Fin 2) * 2000 ≤ (i 0).val
      ∧ (i 0).val < win0_5.index ⟨(i 0).val / 2000, hN⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, hN⟩ (1 : Fin 2) * 256 ≤ (i 1).val
      ∧ (i 1).val < win0_5.index ⟨(i 0).val / 2000, hN⟩ (1 : Fin 2) * 256 + 256
    rw [e51]; omega

theorem tiled0_6 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : (i 0).val / 2000 < cfg0.N := lt_of_lt_of_eq (show (i 0).val / 2000 < 25 by omega) N_0.symm
  obtain ⟨-, -, -, -, -, -, -, -, -, -, e60, e61⟩ := idx_facts0 ⟨(i 0).val / 2000, hN⟩
  refine ⟨⟨(i 0).val / 2000, hN⟩, flush0_6 _, ?_⟩
  rw [mem_blk0_6]
  intro a
  match a with
  | ⟨0, _⟩ =>
    show win0_6.index ⟨(i 0).val / 2000, hN⟩ (0 : Fin 2) * 2000 ≤ (i 0).val
      ∧ (i 0).val < win0_6.index ⟨(i 0).val / 2000, hN⟩ (0 : Fin 2) * 2000 + 2000
    rw [e60]; show (i 0).val / 2000 * 2000 ≤ (i 0).val ∧ (i 0).val < (i 0).val / 2000 * 2000 + 2000; omega
  | ⟨1, _⟩ =>
    show win0_6.index ⟨(i 0).val / 2000, hN⟩ (1 : Fin 2) * 128 ≤ (i 1).val
      ∧ (i 1).val < win0_6.index ⟨(i 0).val / 2000, hN⟩ (1 : Fin 2) * 128 + 128
    rw [e61]; omega

theorem val0_kv (c : Dev nD) :
    (dat0 (F := Ideal) V c).arrAt 5 cfg0.N = (Cert.Spec.lin (V c main_arg2) (V c main_v0) (V c main_v1) : Cert.Spec.Mat 50000 256) :=
  (dat0 (F := Ideal) V c).arrAt_eq_of_cover 5 _ (fun t _ => flushed0_5_eq V c t) tiled0_5

theorem val0_q (c : Dev nD) :
    (dat0 (F := Ideal) V c).arrAt 6 cfg0.N = (Cert.Spec.lin (V c main_arg2) (V c main_arg17) (V c main_arg18) : Cert.Spec.Mat 50000 128) :=
  (dat0 (F := Ideal) V c).arrAt_eq_of_cover 6 _ (fun t _ => flushed0_6_eq V c t) tiled0_6

end Cert.KernelIdeal.Hand

end
-- ==== Proof.KI.Val1.lean ====
import proofs.«406288_j68358699483732_1_alg».proof.Proof.Gen.KernelIdeal.Launch
import proofs.«406288_j68358699483732_1_alg».proof.Proof.Gen.KernelIdeal.Skeleton
import proofs.«406288_j68358699483732_1_alg».proof.Proof.KI.Defs
import proofs.«406288_j68358699483732_1_alg».proof.Proof.KI.Sched
import proofs.«406288_j68358699483732_1_alg».proof.Proof.Spec
import Idealize.ShloMosaic.Lib.Pipeline.FrameBody
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

namespace Val1

theorem pay5_apply (i : grid1.Coords) (y : S1x1000.Idx) :
    k1_pay5 i y = BitVec.ofNat 32 ((i 1).val * 1000 + (y 1).val) := by
  unfold k1_pay5
  show IntOp.addi (Scalar.muli (BitVec.ofNat 32 (i 1).val) 1000#32) (iota .tc S1x1000 32 [1] iota_S1x1000_d1_w32 y) = _
  rw [iota_single_apply]
  show BitVec.ofNat 32 (i 1).val * 1000#32 + BitVec.ofNat 32 (y 1).val = _
  rw [BitVec.ofNat_add, BitVec.ofNat_mul]

theorem onehot_word (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · subst h
    rw [if_pos rfl]
    simp [IntOp.cmpi]
  · rw [if_neg h]
    have hb : (a == b) = false := beq_eq_false_iff_ne.mpr h
    simp [IntOp.cmpi, hb]

theorem hotmat_apply (i : grid1.Coords) (v7 : IVec S2000x1 32) (p : S2000x1000.Idx) :
    (truncf .bf16 (sitofp (F := Ideal) .f32 (extui 32 (cmpi .eq
        (broadcastTo S2000x1000 v7 broadcasts_S2000x1_S2000x1000)
        (broadcastTo S2000x1000 (k1_pay5 i) broadcasts_S1x1000_S2000x1000)) natLt_1_32)) bitsLt_bf16_f32) p
      = Cert.Spec.hot (v7 (ix2 (p 0) 0)) ((i 1).val * 1000 + (p 1).val) := by
  show FloatOps.sitofp (F := Ideal) .f32 ((IntOp.cmpi .eq
      (broadcastTo S2000x1000 v7 broadcasts_S2000x1_S2000x1000 p)
      (broadcastTo S2000x1000 (k1_pay5 i) broadcasts_S1x1000_S2000x1000 p)).setWidth 32) = _
  rw [onehot_word,
    broadcastTo_apply v7 broadcasts_S2000x1_S2000x1000 p (ix2 (p 0) 0) (fun a => by
      match a with
      | ⟨0, _⟩ => rfl
      | ⟨1, _⟩ => rfl),
    broadcastTo_apply (k1_pay5 i) broadcasts_S1x1000_S2000x1000 p (ix2 0 (p 1)) (fun a => by
      match a with
      | ⟨0, _⟩ => rfl
      | ⟨1, _⟩ => rfl),
    pay5_apply]
  rfl

theorem pay6_apply (i : grid1.Coords) (v7 : IVec S2000x1 32) (v23 : FVec Ideal S1000x256 .f32)
    (v29 : FVec Ideal S2000x256 .f32) (r : Fin 2000) (j : Fin 256) :
    k1_pay6 (F := Ideal) i v7 v23 v29 (ix2 r j)
      = v29 (ix2 r j) + ∑ k : Fin 1000, Cert.Spec.hot (v7 (ix2 r 0)) ((i 1).val * 1000 + k.val) * v23 (ix2 k j) := by
  unfold k1_pay6
  simp only [shapeCast_self]
  rw [addf_apply]
  refine congrArg (v29 (ix2 r j) + ·) ?_
  refine (Ideal.matmul_constant_zero_apply dot_S2000x1000_S1000x256_S2000x256_1_0_0_1_n_n none _ _ (ix2 r j)).trans ?_
  refine Fintype.sum_equiv (contrEquiv1 dot_S2000x1000_S1000x256_S2000x256_1_0_0_1_n_n 1000 rfl rfl) _ _ (fun k => ?_)
  rw [hotmat_apply]
  have h0 : dot_S2000x1000_S1000x256_S2000x256_1_0_0_1_n_n.lhsIdx (ix2 r j) k 0 = r := Fin.ext rfl
  have h1 : (dot_S2000x1000_S1000x256_S2000x256_1_0_0_1_n_n.lhsIdx (ix2 r j) k 1).val
      = ((contrEquiv1 dot_S2000x1000_S1000x256_S2000x256_1_0_0_1_n_n 1000 rfl rfl) k).val := rfl
  have h2 : dot_S2000x1000_S1000x256_S2000x256_1_0_0_1_n_n.rhsIdx (ix2 r j) k
      = ix2 ((contrEquiv1 dot_S2000x1000_S1000x256_S2000x256_1_0_0_1_n_n 1000 rfl rfl) k) j :=
    Shape.idx_ext₂ rfl rfl
  rw [h0, h1, h2]
  rfl

theorem pay7_apply (i : grid1.Coords) (v9 : IVec S2000x1 32) (v26 : FVec Ideal S1000x128 .f32) (r : Fin 2000) (j : Fin 128) :
    k1_pay7 (F := Ideal) i v9 v26 (ix2 r j)
      = ∑ k : Fin 1000, Cert.Spec.hot (v9 (ix2 r 0)) ((i 1).val * 1000 + k.val) * v26 (ix2 k j) := by
  unfold k1_pay7
  simp only [shapeCast_self]
  refine (Ideal.matmul_constant_zero_apply dot_S2000x1000_S1000x128_S2000x128_1_0_0_1_n_n none _ _ (ix2 r j)).trans ?_
  refine Fintype.sum_equiv (contrEquiv1 dot_S2000x1000_S1000x128_S2000x128_1_0_0_1_n_n 1000 rfl rfl) _ _ (fun k => ?_)
  rw [hotmat_apply]
  have h0 : dot_S2000x1000_S1000x128_S2000x128_1_0_0_1_n_n.lhsIdx (ix2 r j) k 0 = r := Fin.ext rfl
  have h1 : (dot_S2000x1000_S1000x128_S2000x128_1_0_0_1_n_n.lhsIdx (ix2 r j) k 1).val
      = ((contrEquiv1 dot_S2000x1000_S1000x128_S2000x128_1_0_0_1_n_n 1000 rfl rfl) k).val := rfl
  have h2 : dot_S2000x1000_S1000x128_S2000x128_1_0_0_1_n_n.rhsIdx (ix2 r j) k
      = ix2 ((contrEquiv1 dot_S2000x1000_S1000x128_S2000x128_1_0_0_1_n_n 1000 rfl rfl) k) j :=
    Shape.idx_ext₂ rfl rfl
  rw [h0, h1, h2]
  rfl

theorem pay1_apply (v35 v36 : FVec Ideal S2000x128 .f32) (y : S2000x128.Idx) :
    k1_pay1 (F := Ideal) v35 v36 y = v35 y + v36 y := by
  unfold k1_pay1
  simp only [shapeCast_self]
  rfl

theorem pay3_apply (y : S2000x256.Idx) : k1_pay3 (F := Ideal) y = 0 := by
  unfold k1_pay3
  simp only [shapeCast_self]
  exact Ideal.ofBits_zero_f32

theorem pay4_apply (y : S2000x128.Idx) : k1_pay4 (F := Ideal) y = 0 := by
  unfold k1_pay4
  simp only [shapeCast_self]
  exact Ideal.ofBits_zero_f32

variable {α : Type}

theorem split_apply (X : S2000x128.Idx → α) (r : Fin 2000) (h : Fin 4) (d : Fin 32) :
    shapeCast S2000x4x32 X shapeCasts_S2000x128_S2000x4x32 (ix3 r h d)
      = X (ix2 r ⟨32 * h.val + d.val, by omega⟩) :=
  shapeCast_apply X shapeCasts_S2000x128_S2000x4x32 (ix3 r h d) (ix2 r ⟨32 * h.val + d.val, by omega⟩) (by
    rw [Shape.rowMajor_val_two, Shape.rowMajor_val_three]
    show r.val * 128 + (32 * h.val + d.val) = (r.val * 4 + h.val) * 32 + d.val
    omega)

theorem merge_apply (Y : S2000x4x32.Idx → α) (r : Fin 2000) (c : Fin 128) :
    shapeCast S2000x128 Y shapeCasts_S2000x4x32_S2000x128 (ix2 r c)
      = Y (ix3 r ⟨c.val / 32, by omega⟩ ⟨c.val % 32, by omega⟩) :=
  shapeCast_apply Y shapeCasts_S2000x4x32_S2000x128 (ix2 r c) (ix3 r ⟨c.val / 32, by omega⟩ ⟨c.val % 32, by omega⟩) (by
    rw [Shape.rowMajor_val_two, Shape.rowMajor_val_three]
    show (r.val * 4 + c.val / 32) * 32 + c.val % 32 = r.val * 128 + c.val
    omega)

theorem dotKQ_apply (K Q : FVec Ideal S2000x128 .f32) (r : Fin 2000) (h : Fin 4) :
    multiReduction .add [2] S2000x4
        (mulf (shapeCast S2000x4x32 K shapeCasts_S2000x128_S2000x4x32) (shapeCast S2000x4x32 Q shapeCasts_S2000x128_S2000x4x32))
        0x00000000#32 reduces_S2000x4x32_S2000x4 (.inl rfl) rfl (ix2 r h)
      = ∑ d : Fin 32, K (ix2 r ⟨32 * h.val + d.val, by omega⟩) * Q (ix2 r ⟨32 * h.val + d.val, by omega⟩) := by
  refine (Ideal.multiReduction_add_single _ _ reduces_S2000x4x32_S2000x4 (.inl rfl) rfl (ix2 r h)).trans ?_
  show (∑ d : Fin 32, mulf (shapeCast S2000x4x32 K shapeCasts_S2000x128_S2000x4x32)
      (shapeCast S2000x4x32 Q shapeCasts_S2000x128_S2000x4x32) (reduces_S2000x4x32_S2000x4.lift (ix2 r h) d)) = _
  refine Finset.sum_congr rfl fun d _ => ?_
  have hl : reduces_S2000x4x32_S2000x4.lift (ix2 r h) d = ix3 r h d := by
    funext a
    match a with
    | ⟨0, _⟩ => rfl
    | ⟨1, _⟩ => rfl
    | ⟨2, _⟩ => rfl
  rw [hl, mulf_apply, split_apply, split_apply]

def wgt (K Q : FVec Ideal S2000x128 .f32) (feat : FVec Ideal S2000x2 .f32) (r : Fin 2000) (h : Fin 4) : EReal :=
  Ideal.exp (min (Ideal.ofBits .f32 0x40A00000#32) (max (Ideal.ofBits .f32 0xC0A00000#32)
    (((∑ d : Fin 32, K (ix2 r ⟨32 * h.val + d.val, by omega⟩) * Q (ix2 r ⟨32 * h.val + d.val, by omega⟩))
      * feat (ix2 r 0)) * Ideal.ofBits .f32 0x3DB504F3#32)))

def wstage (K Q : FVec Ideal S2000x128 .f32) (feat : FVec Ideal S2000x2 .f32) : FVec Ideal S2000x4x1 .f32 :=
  exp (minimumf (broadcast S2000x4x1 (Scalar.ofBits .f32 0x40A00000#32))
    (maximumf (broadcast S2000x4x1 (Scalar.ofBits .f32 0xC0A00000#32))
      (mulf (mulf
        (shapeCast S2000x4x1 (multiReduction .add [2] S2000x4
          (mulf (shapeCast S2000x4x32 K shapeCasts_S2000x128_S2000x4x32) (shapeCast S2000x4x32 Q shapeCasts_S2000x128_S2000x4x32))
          0x00000000#32 reduces_S2000x4x32_S2000x4 (.inl rfl) rfl) shapeCasts_S2000x4_S2000x4x1)
        (broadcastTo S2000x4x1 (shapeCast S2000x1x1 (extractStridedSlice S2000x1 ![0, 0] feat slices_S2000x2_o0_0_S2000x1)
          shapeCasts_S2000x1_S2000x1x1) broadcasts_S2000x1x1_S2000x4x1))
        (broadcast S2000x4x1 (Scalar.ofBits .f32 0x3DB504F3#32)))))

theorem wstage_apply (K Q : FVec Ideal S2000x128 .f32) (feat : FVec Ideal S2000x2 .f32) (r : Fin 2000) (h : Fin 4) (u : Fin 1) :
    wstage K Q feat (ix3 r h u) = wgt K Q feat r h := by
  have hu : u.val = 0 := by omega
  show Ideal.exp (min (Ideal.ofBits .f32 0x40A00000#32) (max (Ideal.ofBits .f32 0xC0A00000#32)
    ((shapeCast S2000x4x1 (multiReduction .add [2] S2000x4
          (mulf (shapeCast S2000x4x32 K shapeCasts_S2000x128_S2000x4x32) (shapeCast S2000x4x32 Q shapeCasts_S2000x128_S2000x4x32))
          0x00000000#32 reduces_S2000x4x32_S2000x4 (.inl rfl) rfl) shapeCasts_S2000x4_S2000x4x1 (ix3 r h u)
      * broadcastTo S2000x4x1 (shapeCast S2000x1x1 (extractStridedSlice S2000x1 ![0, 0] feat slices_S2000x2_o0_0_S2000x1)
          shapeCasts_S2000x1_S2000x1x1) broadcasts_S2000x1x1_S2000x4x1 (ix3 r h u))
      * Ideal.ofBits .f32 0x3DB504F3#32))) = _
  rw [shapeCast_apply _ shapeCasts_S2000x4_S2000x4x1 (ix3 r h u) (ix2 r h) (by
      rw [Shape.rowMajor_val_two, Shape.rowMajor_val_three]
      show r.val * 4 + h.val = (r.val * 4 + h.val) * 1 + u.val
      omega),
    dotKQ_apply,
    broadcastTo_apply _ broadcasts_S2000x1x1_S2000x4x1 (ix3 r h u) (ix3 r (0 : Fin 1) (0 : Fin 1)) (fun a => by
      match a with
      | ⟨0, _⟩ => rfl
      | ⟨1, _⟩ => rfl
      | ⟨2, _⟩ => rfl),
    shapeCast_apply _ shapeCasts_S2000x1_S2000x1x1 (ix3 r (0 : Fin 1) (0 : Fin 1)) (ix2 r (0 : Fin 1)) (by
      rw [Shape.rowMajor_val_two, Shape.rowMajor_val_three]
      show r.val * 1 + 0 = (r.val * 1 + 0) * 1 + 0
      omega),
    extractStridedSlice_apply ![0, 0] feat slices_S2000x2_o0_0_S2000x1 (ix2 r (0 : Fin 1)) (ix2 r (0 : Fin 2)) (fun a => by
      match a with
      | ⟨0, _⟩ => show r.val = 0 + r.val; omega
      | ⟨1, _⟩ => rfl)]
  rfl

theorem pay2_eq (K V Q : FVec Ideal S2000x128 .f32) (feat : FVec Ideal S2000x2 .f32) :
    k1_pay2 (F := Ideal) K V Q feat
      = concatenate S2000x256 1
          [⟨S2000x128, shapeCast S2000x128 (mulf (shapeCast S2000x4x32 V shapeCasts_S2000x128_S2000x4x32)
              (broadcastTo S2000x4x32 (wstage K Q feat) broadcasts_S2000x4x1_S2000x4x32)) shapeCasts_S2000x4x32_S2000x128⟩,
           ⟨S2000x128, shapeCast S2000x128 (broadcastTo S2000x4x32
              (shapeCast S2000x4x1 (wstage K Q feat) shapeCasts_S2000x4x1_S2000x4x1) broadcasts_S2000x4x1_S2000x4x32)
              shapeCasts_S2000x4x32_S2000x128⟩]
          concatenates_S2000x128_S2000x128_S2000x256_d1 := rfl

theorem wlanes_apply (W : FVec Ideal S2000x4x1 .f32) (r : Fin 2000) (h : Fin 4) (d : Fin 32) :
    broadcastTo S2000x4x32 W broadcasts_S2000x4x1_S2000x4x32 (ix3 r h d) = W (ix3 r h (0 : Fin 1)) :=
  broadcastTo_apply W broadcasts_S2000x4x1_S2000x4x32 (ix3 r h d) (ix3 r h (0 : Fin 1)) (fun a => by
    match a with
    | ⟨0, _⟩ => rfl
    | ⟨1, _⟩ => rfl
    | ⟨2, _⟩ => rfl)

theorem pay2_left (K V Q : FVec Ideal S2000x128 .f32) (feat : FVec Ideal S2000x2 .f32) (r : Fin 2000) (j : Fin 128) :
    k1_pay2 (F := Ideal) K V Q feat (ix2 r ⟨j.val, by omega⟩) = V (ix2 r j) * wgt K Q feat r ⟨j.val / 32, by omega⟩ := by
  rw [pay2_eq]
  refine (concatenate_pair_apply_left (t := S2000x256) (s₁ := S2000x128) (s₂ := S2000x128) (1 : Fin 2) _ _ concatenates_S2000x128_S2000x128_S2000x256_d1
    (ix2 r (⟨j.val, by omega⟩ : Fin 256)) rfl (ix2 r j) (fun b => by
      match b with
      | ⟨0, _⟩ => rfl
      | ⟨1, _⟩ => rfl)).trans ?_
  rw [merge_apply, mulf_apply, split_apply, wlanes_apply, wstage_apply]
  congr 2
  exact Shape.idx_ext₂ rfl (by show 32 * (j.val / 32) + j.val % 32 = j.val; omega)

theorem pay2_right (K V Q : FVec Ideal S2000x128 .f32) (feat : FVec Ideal S2000x2 .f32) (r : Fin 2000) (j : Fin 128) :
    k1_pay2 (F := Ideal) K V Q feat (ix2 r ⟨128 + j.val, by omega⟩) = wgt K Q feat r ⟨j.val / 32, by omega⟩ := by
  rw [pay2_eq]
  refine (concatenate_pair_apply_right (t := S2000x256) (s₁ := S2000x128) (s₂ := S2000x128) (1 : Fin 2) _ _ concatenates_S2000x128_S2000x128_S2000x256_d1
    (ix2 r (⟨128 + j.val, by omega⟩ : Fin 256)) rfl rfl (ix2 r j) (fun b hb => by
      match b with
      | ⟨0, _⟩ => rfl
      | ⟨1, _⟩ => exact absurd rfl hb) (by show j.val + 128 = 128 + j.val; omega)).trans ?_
  rw [merge_apply, wlanes_apply, shapeCast_self, wstage_apply]

theorem stride1_0 : grid1.stride 0 = 50 := by decide
theorem stride1_1 : grid1.stride 1 = 1 := by decide

theorem coords1_0 (t : Fin cfg1.N) : (grid1.coords t 0).val = t.val / 50 := by
  have hN : cfg1.N = 20000 := N_1
  have ht := t.isLt
  show t.val / grid1.stride 0 % 400 = _
  rw [stride1_0]
  omega

theorem coords1_1 (t : Fin cfg1.N) : (grid1.coords t 1).val = t.val % 50 := by
  show t.val / grid1.stride 1 % 50 = _
  rw [stride1_1, Nat.div_one]

theorem word_toNat (n : Nat) (h : n < 400) : (BitVec.ofNat 32 n).toNat = n := by
  rw [BitVec.toNat_ofNat]
  exact Nat.mod_eq_of_lt (by omega)

theorem word_hi (t : Fin cfg1.N) : (BitVec.ofNat 32 (grid1.coords t 0).val).toNat = t.val / 50 := by
  rw [word_toNat _ (grid1.coords t 0).isLt, coords1_0]

theorem word_lo (t : Fin cfg1.N) : (BitVec.ofNat 32 (grid1.coords t 1).val).toNat = t.val % 50 := by
  have hb : (grid1.coords t 1).val < 50 := (grid1.coords t 1).isLt
  rw [word_toNat _ (by omega), coords1_1]

theorem index1_0 (t : Fin cfg1.N) : win1_0.index t 0 = t.val / 50 ∧ win1_0.index t 1 = 0 := ⟨word_hi t, rfl⟩

theorem index1_5 (t : Fin cfg1.N) : win1_5.index t 0 = t.val / 50 ∧ win1_5.index t 1 = 0 := ⟨word_hi t, rfl⟩

theorem index1_3 (t : Fin cfg1.N) : win1_3.index t 0 = t.val % 50 ∧ win1_3.index t 1 = 0 := ⟨word_lo t, rfl⟩

def erow (t : Fin cfg1.N) (r : Fin 2000) : Fin 800000 :=
  ⟨t.val / 50 * 2000 + r.val, by have := t.isLt; have hN : cfg1.N = 20000 := N_1; omega⟩

def nrow (t : Fin cfg1.N) (k : Fin 1000) : Fin 50000 := ⟨t.val % 50 * 1000 + k.val, by omega⟩

theorem mem_blk1_5 (t : Fin cfg1.N) (i : S800000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v5).slice (win1_5.rect t)).set ↔ _
  rw [View.set_slice_whole, Rect.mem_set_unit]
  exact Iff.rfl

theorem cover1_5 (i : S800000x256.Idx) :
    ∃ t : Fin cfg1.N, t.val % 50 = 49 ∧ i ∈ ((cfg1.win 5).blk t).view.set := by
  have hN : cfg1.N = 20000 := N_1
  have hi0 : (i 0).val < 800000 := (i 0).isLt
  have hi1 : (i 1).val < 256 := (i 1).isLt
  have ht : 50 * ((i 0).val / 2000) + 49 < cfg1.N := by omega
  refine ⟨⟨50 * ((i 0).val / 2000) + 49, ht⟩, by show (50 * ((i 0).val / 2000) + 49) % 50 = 49; omega, ?_⟩
  rw [mem_blk1_5]
  intro a
  match a with
  | ⟨0, _⟩ =>
    show win1_5.index ⟨50 * ((i 0).val / 2000) + 49, ht⟩ 0 * 2000 ≤ (i 0).val
      ∧ (i 0).val < win1_5.index ⟨50 * ((i 0).val / 2000) + 49, ht⟩ 0 * 2000 + 2000
    rw [(index1_5 _).1]
    show (50 * ((i 0).val / 2000) + 49) / 50 * 2000 ≤ (i 0).val ∧ (i 0).val < (50 * ((i 0).val / 2000) + 49) / 50 * 2000 + 2000
    omega
  | ⟨1, _⟩ =>
    show win1_5.index ⟨50 * ((i 0).val / 2000) + 49, ht⟩ 1 * 256 ≤ (i 1).val
      ∧ (i 1).val < win1_5.index ⟨50 * ((i 0).val / 2000) + 49, ht⟩ 1 * 256 + 256
    rw [(index1_5 _).2]
    omega

theorem index1_1 (t : Fin cfg1.N) : win1_1.index t 0 = t.val / 50 ∧ win1_1.index t 1 = 0 := ⟨word_hi t, rfl⟩

theorem index1_2 (t : Fin cfg1.N) : win1_2.index t 0 = t.val / 50 ∧ win1_2.index t 1 = 0 := ⟨word_hi t, rfl⟩

theorem index1_4 (t : Fin cfg1.N) : win1_4.index t 0 = t.val % 50 ∧ win1_4.index t 1 = 0 := ⟨word_lo t, rfl⟩

def part {b : Nat} (idx : Cert.Spec.ICol 800000) (T : Cert.Spec.Mat 50000 b) (e : Fin 800000) (j : Fin b) (q : ℕ) : EReal :=
  if hq : q < 50 then
    ∑ k : Fin 1000, Cert.Spec.hot (idx (ix2 e 0)) (q * 1000 + k.val) * T (ix2 ⟨q * 1000 + k.val, by omega⟩ j)
  else 0

theorem gath_eq {b : Nat} (idx : Cert.Spec.ICol 800000) (T : Cert.Spec.Mat 50000 b) (e : Fin 800000) (j : Fin b) :
    Cert.Spec.gath idx T (ix2 e j) = ∑ q ∈ Finset.range 50, part idx T e j q := by
  rw [← Fin.sum_univ_eq_sum_range (fun q => part idx T e j q) 50]
  unfold Cert.Spec.gath
  refine Finset.sum_congr rfl fun q _ => ?_
  unfold part
  rw [dif_pos q.isLt]
  rfl

theorem blk_src (A : Cert.Spec.ICol 800000) (t : Fin cfg1.N) (r : Fin 2000) (u : Fin 1) :
    (((cfg1.win 0).blk t).view.read (Elt Ideal) A : IVec S2000x1 32) (ix2 r u) = A (ix2 (erow t r) (0 : Fin 1)) := by
  rw [View.read_apply]
  refine congrArg A (funext fun a => Fin.ext ?_)
  match a with
  | ⟨0, _⟩ => show win1_0.index t 0 * 2000 + 1 * r.val = t.val / 50 * 2000 + r.val; rw [(index1_0 t).1]; omega
  | ⟨1, _⟩ => show win1_0.index t 1 * 1 + 1 * u.val = 0; rw [(index1_0 t).2]; omega

theorem blk_dst (A : Cert.Spec.ICol 800000) (t : Fin cfg1.N) (r : Fin 2000) (u : Fin 1) :
    (((cfg1.win 1).blk t).view.read (Elt Ideal) A : IVec S2000x1 32) (ix2 r u) = A (ix2 (erow t r) (0 : Fin 1)) := by
  rw [View.read_apply]
  refine congrArg A (funext fun a => Fin.ext ?_)
  match a with
  | ⟨0, _⟩ => show win1_1.index t 0 * 2000 + 1 * r.val = t.val / 50 * 2000 + r.val; rw [(index1_1 t).1]; omega
  | ⟨1, _⟩ => show win1_1.index t 1 * 1 + 1 * u.val = 0; rw [(index1_1 t).2]; omega

theorem blk_feat (A : Cert.Spec.Mat 800000 2) (t : Fin cfg1.N) (r : Fin 2000) (u : Fin 2) :
    (((cfg1.win 2).blk t).view.read (Elt Ideal) A : FVec Ideal S2000x2 .f32) (ix2 r u) = A (ix2 (erow t r) u) := by
  rw [View.read_apply]
  refine congrArg A (funext fun a => Fin.ext ?_)
  match a with
  | ⟨0, _⟩ => show win1_2.index t 0 * 2000 + 1 * r.val = t.val / 50 * 2000 + r.val; rw [(index1_2 t).1]; omega
  | ⟨1, _⟩ => show win1_2.index t 1 * 2 + 1 * u.val = u.val; rw [(index1_2 t).2]; omega

theorem blk_kv (A : Cert.Spec.Mat 50000 256) (t : Fin cfg1.N) (k : Fin 1000) (j : Fin 256) :
    (((cfg1.win 3).blk t).view.read (Elt Ideal) A : FVec Ideal S1000x256 .f32) (ix2 k j) = A (ix2 (nrow t k) j) := by
  rw [View.read_apply]
  refine congrArg A (funext fun a => Fin.ext ?_)
  match a with
  | ⟨0, _⟩ => show win1_3.index t 0 * 1000 + 1 * k.val = t.val % 50 * 1000 + k.val; rw [(index1_3 t).1]; omega
  | ⟨1, _⟩ => show win1_3.index t 1 * 256 + 1 * j.val = j.val; rw [(index1_3 t).2]; omega

theorem blk_q (A : Cert.Spec.Mat 50000 128) (t : Fin cfg1.N) (k : Fin 1000) (j : Fin 128) :
    (((cfg1.win 4).blk t).view.read (Elt Ideal) A : FVec Ideal S1000x128 .f32) (ix2 k j) = A (ix2 (nrow t k) j) := by
  rw [View.read_apply]
  refine congrArg A (funext fun a => Fin.ext ?_)
  match a with
  | ⟨0, _⟩ => show win1_4.index t 0 * 1000 + 1 * k.val = t.val % 50 * 1000 + k.val; rw [(index1_4 t).1]; omega
  | ⟨1, _⟩ => show win1_4.index t 1 * 128 + 1 * j.val = j.val; rw [(index1_4 t).2]; omega

theorem stepKV (src : Cert.Spec.ICol 800000) (kv : Cert.Spec.Mat 50000 256) (t : Fin cfg1.N)
    (X : FVec Ideal S2000x256 .f32) (r : Fin 2000) (j : Fin 256) :
    k1_pay6 (F := Ideal) (grid1.coords t) (((cfg1.win 0).blk t).view.read (Elt Ideal) src)
        (((cfg1.win 3).blk t).view.read (Elt Ideal) kv) X (ix2 r j)
      = X (ix2 r j) + part src kv (erow t r) j (t.val % 50) := by
  refine (pay6_apply (grid1.coords t) _ _ X r j).trans ?_
  refine congrArg (X (ix2 r j) + ·) ?_
  unfold part
  rw [dif_pos (Nat.mod_lt _ (by decide))]
  refine Finset.sum_congr rfl fun k _ => ?_
  rw [blk_src, blk_kv, coords1_1]
  rfl

theorem stepQ (dst : Cert.Spec.ICol 800000) (q : Cert.Spec.Mat 50000 128) (t : Fin cfg1.N)
    (X : FVec Ideal S2000x128 .f32) (r : Fin 2000) (j : Fin 128) :
    k1_pay1 (F := Ideal) X (k1_pay7 (grid1.coords t) (((cfg1.win 1).blk t).view.read (Elt Ideal) dst)
        (((cfg1.win 4).blk t).view.read (Elt Ideal) q)) (ix2 r j)
      = X (ix2 r j) + part dst q (erow t r) j (t.val % 50) := by
  rw [pay1_apply]
  refine congrArg (X (ix2 r j) + ·) ?_
  refine (pay7_apply (grid1.coords t) _ _ r j).trans ?_
  unfold part
  rw [dif_pos (Nat.mod_lt _ (by decide))]
  refine Finset.sum_congr rfl fun k _ => ?_
  rw [blk_dst, blk_q, coords1_1]
  rfl

-- a running sum that restarts at every multiple of 50 holds the partial sum of its addends since the restart
theorem acc_closed {b : ℕ} (idx : Cert.Spec.ICol 800000) (T : Cert.Spec.Mat 50000 b)
    (a : (n : ℕ) → n < cfg1.N → Fin 2000 → Fin b → EReal)
    (h0 : ∀ n h r j, n % 50 = 0 → a n h r j = part idx T (erow ⟨n, h⟩ r) j (n % 50))
    (h1 : ∀ n h r j, ¬(n + 1) % 50 = 0 →
      a (n + 1) h r j = a n (Nat.lt_of_succ_lt h) r j + part idx T (erow ⟨n + 1, h⟩ r) j ((n + 1) % 50)) :
    ∀ (n : ℕ) (h : n < cfg1.N) (r : Fin 2000) (j : Fin b),
      a n h r j = ∑ q ∈ Finset.range (n % 50 + 1), part idx T (erow ⟨n, h⟩ r) j q
  | 0, h, r, j => by
    rw [h0 0 h r j rfl]
    exact (Finset.sum_range_one _).symm
  | n + 1, h, r, j => by
    by_cases hn : (n + 1) % 50 = 0
    · rw [h0 (n + 1) h r j hn, hn]
      exact (Finset.sum_range_one _).symm
    · rw [h1 n h r j hn, acc_closed idx T a h0 h1 n (Nat.lt_of_succ_lt h) r j]
      have e1 : erow ⟨n + 1, h⟩ r = erow ⟨n, Nat.lt_of_succ_lt h⟩ r :=
        Fin.ext (by show (n + 1) / 50 * 2000 + r.val = n / 50 * 2000 + r.val; omega)
      have e2 : (n + 1) % 50 = n % 50 + 1 := by omega
      rw [e1, e2, Finset.sum_range_succ _ (n % 50 + 1)]

theorem ldK_apply (X : Vec Ideal S2000x256 .f32) (r : Fin 2000) (d : Fin 128) :
    View.ld (Val := Elt Ideal) (e' := .f32) X rK1 (ix2 r d) = X (ix2 r ⟨d.val, by omega⟩) := by
  show X (rK1.idx (ix2 r d)) = X _
  congr 1
  exact Shape.idx_ext₂ (by show 0 + 1 * r.val = r.val; omega) (by show 0 + 1 * d.val = d.val; omega)

theorem ldV_apply (X : Vec Ideal S2000x256 .f32) (r : Fin 2000) (d : Fin 128) :
    View.ld (Val := Elt Ideal) (e' := .f32) X rV1 (ix2 r d) = X (ix2 r ⟨128 + d.val, by omega⟩) := by
  show X (rV1.idx (ix2 r d)) = X _
  congr 1
  exact Shape.idx_ext₂ (by show 0 + 1 * r.val = r.val; omega) (by show 128 + 1 * d.val = 128 + d.val; omega)

theorem wgt_eq_score (K Q : FVec Ideal S2000x128 .f32) (feat : FVec Ideal S2000x2 .f32)
    (kv : Cert.Spec.Mat 800000 256) (qg : Cert.Spec.Mat 800000 128) (ft : Cert.Spec.Mat 800000 2)
    (r : Fin 2000) (e : Fin 800000) (h : Fin 4)
    (hK : ∀ d : Fin 128, K (ix2 r d) = kv (ix2 e ⟨d.val, by omega⟩))
    (hQ : ∀ d : Fin 128, Q (ix2 r d) = qg (ix2 e d))
    (hf : feat (ix2 r 0) = ft (ix2 e 0)) :
    wgt K Q feat r h = Cert.Spec.score kv qg ft e h := by
  unfold wgt Cert.Spec.score
  rw [hf]
  simp only [hK, hQ]
  rfl

theorem emit_eq (aKV : Vec Ideal S2000x256 .f32) (aQ : Vec Ideal S2000x128 .f32) (bf : FVec Ideal S2000x2 .f32)
    (src dst : Cert.Spec.ICol 800000) (feat : Cert.Spec.Mat 800000 2) (kv : Cert.Spec.Mat 50000 256)
    (q : Cert.Spec.Mat 50000 128) (e : Fin 800000) (r : Fin 2000)
    (hKV : ∀ j : Fin 256, aKV (ix2 r j) = Cert.Spec.gath src kv (ix2 e j))
    (hQ : ∀ d : Fin 128, aQ (ix2 r d) = Cert.Spec.gath dst q (ix2 e d))
    (hf : bf (ix2 r 0) = feat (ix2 e 0)) (j : Fin 256) :
    k1_pay2 (F := Ideal) (View.ld aKV rK1) (View.ld aKV rV1) aQ bf (ix2 r j)
      = Cert.Spec.payload src dst feat kv q (ix2 e j) := by
  have hK : ∀ d : Fin 128, View.ld aKV rK1 (ix2 r d) = Cert.Spec.gath src kv (ix2 e ⟨d.val, by omega⟩) :=
    fun d => (ldK_apply _ r d).trans (hKV _)
  have hV : ∀ d : Fin 128, View.ld aKV rV1 (ix2 r d) = Cert.Spec.gath src kv (ix2 e ⟨128 + d.val, by omega⟩) :=
    fun d => (ldV_apply _ r d).trans (hKV _)
  have hw : ∀ h : Fin 4, wgt (View.ld aKV rK1) aQ bf r h
      = Cert.Spec.score (Cert.Spec.gath src kv) (Cert.Spec.gath dst q) feat e h :=
    fun h => wgt_eq_score (View.ld aKV rK1) aQ bf (Cert.Spec.gath src kv) (Cert.Spec.gath dst q) feat r e h hK hQ hf
  by_cases hj : j.val < 128
  · refine (pay2_left (View.ld aKV rK1) (View.ld aKV rV1) aQ bf r ⟨j.val, hj⟩).trans ?_
    rw [hV, hw]
    unfold Cert.Spec.payload
    rw [dif_pos (show ((ix2 e j : (⟨2, ![800000, 256]⟩ : Shape).Idx) 1).val < 128 from hj)]
  · have hj3 : j.val < 256 := j.isLt
    have ej : (ix2 r j : S2000x256.Idx) = ix2 r (⟨128 + (j.val - 128), by omega⟩ : Fin 256) := by
      congr 1
      exact Fin.ext (by show j.val = 128 + (j.val - 128); omega)
    refine (congrArg (k1_pay2 (F := Ideal) (View.ld aKV rK1) (View.ld aKV rV1) aQ bf) ej).trans ?_
    refine (pay2_right (View.ld aKV rK1) (View.ld aKV rV1) aQ bf r ⟨j.val - 128, by omega⟩).trans ?_
    rw [hw]
    unfold Cert.Spec.payload
    rw [dif_neg (show ¬((ix2 e j : (⟨2, ![800000, 256]⟩ : Shape).Idx) 1).val < 128 from hj)]

theorem cut_eq (E : Vec Ideal S2000x256 .f32) (P : Cert.Spec.Mat 800000 256) (t : Fin cfg1.N)
    (hE : ∀ (r : Fin 2000) (j : Fin 256), E (ix2 r j) = P (ix2 (erow t r) j)) :
    (cfg1.win 5).cut (grid1.coords t) E = ((cfg1.win 5).blk t).view.read (Elt Ideal) P := by
  funext y
  have hy0 : (y 0).val < 2000 := (y 0).isLt
  have hy1 : (y 1).val < 256 := (y 1).isLt
  have e1 : (cfg1.win 5).cut (grid1.coords t) E y = E (ix2 (⟨(y 0).val, hy0⟩ : Fin 2000) (⟨(y 1).val, hy1⟩ : Fin 256)) :=
    congrArg E (funext fun a => by
      match a with
      | ⟨0, _⟩ => rfl
      | ⟨1, _⟩ => rfl)
  refine e1.trans ((hE _ _).trans ?_)
  show P (ix2 (erow t ⟨(y 0).val, hy0⟩) ⟨(y 1).val, hy1⟩) = P (((cfg1.win 5).blk t).view.emb y)
  refine congrArg P (funext fun a => Fin.ext ?_)
  match a with
  | ⟨0, _⟩ =>
    show t.val / 50 * 2000 + (y 0).val = win1_5.index t 0 * 2000 + 1 * (y 0).val
    rw [(index1_5 t).1]; omega
  | ⟨1, _⟩ =>
    show (y 1).val = win1_5.index t 1 * 256 + 1 * (y 1).val
    rw [(index1_5 t).2]; omega

variable (V : (c : Dev nD) → (b : Ref sig .tc) → Buf (Elt Ideal) ((c : Thread nD τ).loc b))

abbrev srcA (c : Dev nD) : Cert.Spec.ICol 800000 := V c main_v3
abbrev dstA (c : Dev nD) : Cert.Spec.ICol 800000 := V c main_v4
abbrev featA (c : Dev nD) : Cert.Spec.Mat 800000 2 := V c main_arg3
abbrev kvA (c : Dev nD) : Cert.Spec.Mat 50000 256 := V c main_v2_0
abbrev qA (c : Dev nD) : Cert.Spec.Mat 50000 128 := V c main_v2_1

theorem accKV1_reset (c : Dev nD) (n : ℕ) (h : n < cfg1.N) (hn : n % 50 = 0) :
    accKV1 V c n h = k1_pay6 (grid1.coords ⟨n, h⟩) (iblk1 V c 0 ⟨n, h⟩) (iblk1 V c 3 ⟨n, h⟩) (k1_pay3 (F := Ideal)) := by
  cases n with
  | zero => rfl
  | succ m => rw [accKV1, if_pos hn]

theorem accKV1_step (c : Dev nD) (n : ℕ) (h : n + 1 < cfg1.N) (hn : ¬(n + 1) % 50 = 0) :
    accKV1 V c (n + 1) h = k1_pay6 (grid1.coords ⟨n + 1, h⟩) (iblk1 V c 0 ⟨n + 1, h⟩) (iblk1 V c 3 ⟨n + 1, h⟩)
      (accKV1 V c n (Nat.lt_of_succ_lt h)) := by
  rw [accKV1, if_neg hn]

theorem accQ1_reset (c : Dev nD) (n : ℕ) (h : n < cfg1.N) (hn : n % 50 = 0) :
    accQ1 V c n h = k1_pay1 (k1_pay4 (F := Ideal)) (k1_pay7 (grid1.coords ⟨n, h⟩) (iblk1 V c 1 ⟨n, h⟩) (iblk1 V c 4 ⟨n, h⟩)) := by
  cases n with
  | zero => rfl
  | succ m => rw [accQ1, if_pos hn]

theorem accQ1_step (c : Dev nD) (n : ℕ) (h : n + 1 < cfg1.N) (hn : ¬(n + 1) % 50 = 0) :
    accQ1 V c (n + 1) h = k1_pay1 (accQ1 V c n (Nat.lt_of_succ_lt h))
      (k1_pay7 (grid1.coords ⟨n + 1, h⟩) (iblk1 V c 1 ⟨n + 1, h⟩) (iblk1 V c 4 ⟨n + 1, h⟩)) := by
  rw [accQ1, if_neg hn]

theorem accKV1_closed (c : Dev nD) (n : ℕ) (h : n < cfg1.N) (r : Fin 2000) (j : Fin 256) :
    accKV1 V c n h (ix2 r j) = ∑ q ∈ Finset.range (n % 50 + 1), part (srcA V c) (kvA V c) (erow ⟨n, h⟩ r) j q :=
  acc_closed (srcA V c) (kvA V c) (fun n h r j => accKV1 V c n h (ix2 r j))
    (fun n h r j hn => by
      rw [accKV1_reset V c n h hn]
      exact (stepKV (srcA V c) (kvA V c) ⟨n, h⟩ k1_pay3 r j).trans (by rw [pay3_apply, zero_add]))
    (fun n h r j hn => by
      rw [accKV1_step V c n h hn]
      exact stepKV (srcA V c) (kvA V c) ⟨n + 1, h⟩ _ r j) n h r j

theorem accQ1_closed (c : Dev nD) (n : ℕ) (h : n < cfg1.N) (r : Fin 2000) (j : Fin 128) :
    accQ1 V c n h (ix2 r j) = ∑ q ∈ Finset.range (n % 50 + 1), part (dstA V c) (qA V c) (erow ⟨n, h⟩ r) j q :=
  acc_closed (dstA V c) (qA V c) (fun n h r j => accQ1 V c n h (ix2 r j))
    (fun n h r j hn => by
      rw [accQ1_reset V c n h hn]
      exact (stepQ (dstA V c) (qA V c) ⟨n, h⟩ k1_pay4 r j).trans (by rw [pay4_apply, zero_add]))
    (fun n h r j hn => by
      rw [accQ1_step V c n h hn]
      exact stepQ (dstA V c) (qA V c) ⟨n + 1, h⟩ _ r j) n h r j

theorem accKV1_last (c : Dev nD) (t : Fin cfg1.N) (ht : t.val % 50 = 49) (r : Fin 2000) (j : Fin 256) :
    accKV1 V c t.val t.isLt (ix2 r j) = Cert.Spec.gath (srcA V c) (kvA V c) (ix2 (erow t r) j) := by
  rw [accKV1_closed V c t.val t.isLt r j, gath_eq, ht]

theorem accQ1_last (c : Dev nD) (t : Fin cfg1.N) (ht : t.val % 50 = 49) (r : Fin 2000) (j : Fin 128) :
    accQ1 V c t.val t.isLt (ix2 r j) = Cert.Spec.gath (dstA V c) (qA V c) (ix2 (erow t r) j) := by
  rw [accQ1_closed V c t.val t.isLt r j, gath_eq, ht]

theorem emit_apply (c : Dev nD) (t : Fin cfg1.N) (ht : t.val % 50 = 49) (r : Fin 2000) (j : Fin 256) :
    emit1 V c t (ix2 r j)
      = Cert.Spec.payload (srcA V c) (dstA V c) (featA V c) (kvA V c) (qA V c) (ix2 (erow t r) j) :=
  emit_eq _ _ _ (srcA V c) (dstA V c) (featA V c) (kvA V c) (qA V c) (erow t r) r
    (fun j => accKV1_last V c t ht r j) (fun d => accQ1_last V c t ht r d) (blk_feat (featA V c) t r 0) j

theorem flushed1_eq (c : Dev nD) (dat : Dat τ (Elt Ideal) Unit ℕ (UR sig nD τ) ℕ cfg1 c)
    (hafter : ∀ t, dat.after 5 t = emit1 V c t) (t : Fin cfg1.N) (hf : (cfg1.win 5).flush t = true) :
    dat.flushed 5 t = ((cfg1.win 5).blk t).view.read (Elt Ideal)
      (Cert.Spec.payload (srcA V c) (dstA V c) (featA V c) (kvA V c) (qA V c)) := by
  show (cfg1.win 5).cut (grid1.coords t) (dat.after 5 t) = _
  rw [hafter t]
  exact cut_eq _ _ t (emit_apply V c t ((flush1_5 t).mp hf))

end Val1

variable (V : (c : Dev nD) → (b : Ref sig .tc) → Buf (Elt Ideal) ((c : Thread nD τ).loc b))

theorem val1_of (c : Dev nD) (dat : Dat τ (Elt Ideal) Unit ℕ (UR sig nD τ) ℕ cfg1 c)
    (hA : ∀ w, dat.A w = V c (Pipeline.arrRef spec1 w)) (hafter : ∀ t, dat.after 5 t = emit1 V c t) :
    dat.arrAt 5 cfg1.N
      = Cert.Spec.payload (V c main_v3) (V c main_v4) (V c main_arg3) (V c main_v2_0) (V c main_v2_1) :=
  dat.arrAt_eq_of_cover 5 (Cert.Spec.payload (Val1.srcA V c) (Val1.dstA V c) (Val1.featA V c) (Val1.kvA V c) (Val1.qA V c))
    (Val1.flushed1_eq V c dat hafter) (fun i => by
      obtain ⟨t, ht, hi⟩ := Val1.cover1_5 i
      exact ⟨t, (flush1_5 t).mpr ht, hi⟩)

end Cert.KernelIdeal.Hand

end
-- ==== Proof.KI.Val2.lean ====
import proofs.«406288_j68358699483732_1_alg».proof.Proof.Gen.KernelIdeal.Launch
import proofs.«406288_j68358699483732_1_alg».proof.Proof.Gen.KernelIdeal.Skeleton
import proofs.«406288_j68358699483732_1_alg».proof.Proof.KI.Defs
import proofs.«406288_j68358699483732_1_alg».proof.Proof.KI.Sched
import proofs.«406288_j68358699483732_1_alg».proof.Proof.Spec
import Idealize.ShloMosaic.Lib.Pipeline.FrameBody
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

namespace Val2

theorem word_of_node (a n : Nat) :
    Scalar.muli (BitVec.ofNat 32 a) 1000#32 + BitVec.ofNat 32 n = BitVec.ofNat 32 (a * 1000 + n) := by
  rw [BitVec.ofNat_add, BitVec.ofNat_mul]
  rfl

theorem bit_as_real (w x : BitVec 32) :
    ((((IntOp.cmpi .eq w x).setWidth 32).toInt : ℝ) : EReal) = if w = x then 1 else 0 := by
  by_cases h : w = x
  · subst h
    simp [IntOp.cmpi]
  · have hb : (w == x) = false := beq_eq_false_iff_ne.mpr h
    simp [IntOp.cmpi, hb, h]

theorem pay1_apply (j : S1000x256.Idx) : k2_pay1 (F := Ideal) j = 0 := by
  unfold k2_pay1
  rw [shapeCast_self]
  show Ideal.ofBits .f32 0x00000000#32 = 0
  exact Ideal.ofBits_zero_f32

theorem lhs_axis0 (i : S1000x256.Idx) (q : dot_S2000x1000_S2000x256_S1000x256_0_0_1_1_n_n.contr.Idx) :
    (dot_S2000x1000_S2000x256_S1000x256_0_0_1_1_n_n.lhsIdx i q 0).val = (q ⟨0, by decide⟩).val :=
  dot_S2000x1000_S2000x256_S1000x256_0_0_1_1_n_n.lhsIdx_val_of_single rfl i q

theorem lhs_axis1 (i : S1000x256.Idx) (q : dot_S2000x1000_S2000x256_S1000x256_0_0_1_1_n_n.contr.Idx) :
    (dot_S2000x1000_S2000x256_S1000x256_0_0_1_1_n_n.lhsIdx i q 1).val = (i 0).val := by
  unfold DotDims.lhsIdx
  rw [dif_neg (show ¬(1 : Fin S2000x1000.rank) ∈ dot_S2000x1000_S2000x256_S1000x256_0_0_1_1_n_n.lhsBatch by decide),
    dif_pos (show (1 : Fin S2000x1000.rank) ∈ dot_S2000x1000_S2000x256_S1000x256_0_0_1_1_n_n.lhsNonContracting by decide)]
  rfl

theorem rhs_axis0 (i : S1000x256.Idx) (q : dot_S2000x1000_S2000x256_S1000x256_0_0_1_1_n_n.contr.Idx) :
    (dot_S2000x1000_S2000x256_S1000x256_0_0_1_1_n_n.rhsIdx i q 0).val = (q ⟨0, by decide⟩).val :=
  dot_S2000x1000_S2000x256_S1000x256_0_0_1_1_n_n.rhsIdx_val_of_single rfl i q

theorem rhs_axis1 (i : S1000x256.Idx) (q : dot_S2000x1000_S2000x256_S1000x256_0_0_1_1_n_n.contr.Idx) :
    (dot_S2000x1000_S2000x256_S1000x256_0_0_1_1_n_n.rhsIdx i q 1).val = (i 1).val := by
  unfold DotDims.rhsIdx
  rw [dif_neg (show ¬(1 : Fin S2000x256.rank) ∈ dot_S2000x1000_S2000x256_S1000x256_0_0_1_1_n_n.rhsBatch by decide),
    dif_pos (show (1 : Fin S2000x256.rank) ∈ dot_S2000x1000_S2000x256_S1000x256_0_0_1_1_n_n.rhsNonContracting by decide)]
  rfl

theorem onehot_apply (i : grid2.Coords) (dstb : Vec Ideal S2000x1 .i32) (e : Fin 2000) (r : Fin 1000) :
    (truncf .bf16 (sitofp (F := Ideal) .f32 (extui 32 (cmpi .eq
        (broadcastTo S2000x1000 (shapeCast S2000x1 dstb shapeCasts_S2000x1_S2000x1) broadcasts_S2000x1_S2000x1000)
        (broadcastTo S2000x1000 (addi (broadcast S1x1000 (Scalar.muli (BitVec.ofNat 32 (i 0).val) 1000#32))
          (iota .tc S1x1000 32 [1] iota_S1x1000_d1_w32)) broadcasts_S1x1000_S2000x1000)) natLt_1_32)) bitsLt_bf16_f32
      : FVec Ideal S2000x1000 .bf16) (ix2 e r)
      = Cert.Spec.hot (dstb (ix2 e 0)) ((i 0).val * 1000 + r.val) := by
  rw [truncf_apply, sitofp_apply, extui_apply]
  show ((((IntOp.cmpi .eq _ _).setWidth 32).toInt : ℝ) : EReal) = _
  rw [bit_as_real]
  unfold Cert.Spec.hot
  rw [broadcastTo_apply (k := ix2 e 0) (hk := fun a => by match a with | ⟨0, _⟩ => rfl | ⟨1, _⟩ => rfl),
    broadcastTo_apply (k := ix2 0 r) (hk := fun a => by match a with | ⟨0, _⟩ => rfl | ⟨1, _⟩ => rfl),
    shapeCast_self]
  show (if dstb (ix2 e 0) = IntOp.addi (Scalar.muli (BitVec.ofNat 32 (i 0).val) 1000#32)
      (iota .tc S1x1000 32 [1] iota_S1x1000_d1_w32 (ix2 0 r)) then (1 : EReal) else 0) = _
  rw [iota_single_apply]
  show (if dstb (ix2 e 0) = Scalar.muli (BitVec.ofNat 32 (i 0).val) 1000#32 + BitVec.ofNat 32 r.val
      then (1 : EReal) else 0) = _
  rw [word_of_node]

theorem pay2_apply (i : grid2.Coords) (dstb : Vec Ideal S2000x1 .i32) (pb : Vec Ideal S2000x256 .f32)
    (old : Vec Ideal S1000x256 .f32) (r : Fin 1000) (cc : Fin 256) :
    k2_pay2 (F := Ideal) i dstb pb old (ix2 r cc)
      = old (ix2 r cc)
        + ∑ e : Fin 2000, Cert.Spec.hot (dstb (ix2 e 0)) ((i 0).val * 1000 + r.val) * pb (ix2 e cc) := by
  unfold k2_pay2
  dsimp only
  rw [shapeCast_self, addf_apply]
  congr 1
  simp only [matmul]
  rw [Ideal.matmul_constant_zero_apply,
    ← Equiv.sum_comp (contrEquiv1 dot_S2000x1000_S2000x256_S1000x256_0_0_1_1_n_n 2000 rfl rfl).symm]
  refine Finset.sum_congr rfl fun e _ => ?_
  have hk := contrEquiv1_symm_val dot_S2000x1000_S2000x256_S1000x256_0_0_1_1_n_n 2000 rfl rfl e
  have el : dot_S2000x1000_S2000x256_S1000x256_0_0_1_1_n_n.lhsIdx (ix2 r cc)
      ((contrEquiv1 dot_S2000x1000_S2000x256_S1000x256_0_0_1_1_n_n 2000 rfl rfl).symm e) = ix2 e r :=
    funext fun a => Fin.ext (by
      match a with
      | ⟨0, _⟩ => exact (lhs_axis0 _ _).trans hk
      | ⟨1, _⟩ => exact lhs_axis1 _ _)
  have er : dot_S2000x1000_S2000x256_S1000x256_0_0_1_1_n_n.rhsIdx (ix2 r cc)
      ((contrEquiv1 dot_S2000x1000_S2000x256_S1000x256_0_0_1_1_n_n 2000 rfl rfl).symm e) = ix2 e cc :=
    funext fun a => Fin.ext (by
      match a with
      | ⟨0, _⟩ => exact (rhs_axis0 _ _).trans hk
      | ⟨1, _⟩ => exact rhs_axis1 _ _)
  rw [el, er, onehot_apply, truncf_apply, shapeCast_self]

end Val2

variable (V : (c : Dev nD) → (b : Ref sig .tc) → Buf (Elt Ideal) ((c : Thread nD τ).loc b))

namespace Val2

theorem toNat_word (x : Nat) (h : x < 4294967296) : (BitVec.ofNat 32 x).toNat = x := by
  rw [BitVec.toNat_ofNat]; exact Nat.mod_eq_of_lt h

theorem coords_facts (t : Fin cfg2.N) :
    (grid2.coords t 0).val = t.val / 400 ∧ (grid2.coords t 1).val = t.val % 400 := by
  have hN : cfg2.N = 20000 := N_2
  have ht : t.val < 20000 := hN ▸ t.isLt
  constructor
  · show t.val / grid2.stride 0 % 50 = _
    rw [show grid2.stride 0 = 400 from by decide]
    omega
  · show t.val / grid2.stride 1 % 400 = _
    rw [show grid2.stride 1 = 1 from by decide]
    omega

theorem idx_facts (t : Fin cfg2.N) :
    (win2_0.index t 0 = t.val % 400 ∧ win2_0.index t 1 = 0)
    ∧ (win2_1.index t 0 = t.val % 400 ∧ win2_1.index t 1 = 0)
    ∧ (win2_2.index t 0 = t.val / 400 ∧ win2_2.index t 1 = 0)
    ∧ (grid2.coords t 0).val = t.val / 400 := by
  have hN : cfg2.N = 20000 := N_2
  have ht : t.val < 20000 := hN ▸ t.isLt
  obtain ⟨c0, c1⟩ := coords_facts t
  refine ⟨⟨?_, ?_⟩, ⟨?_, ?_⟩, ⟨?_, ?_⟩, c0⟩
  · show (BitVec.ofNat 32 (grid2.coords t 1).val).toNat = _
    rw [c1, toNat_word _ (by omega)]
  · show (0#32 : BitVec 32).toNat = 0
    rfl
  · show (BitVec.ofNat 32 (grid2.coords t 1).val).toNat = _
    rw [c1, toNat_word _ (by omega)]
  · show (0#32 : BitVec 32).toNat = 0
    rfl
  · show (BitVec.ofNat 32 (grid2.coords t 0).val).toNat = _
    rw [c0, toNat_word _ (by omega)]
  · show (0#32 : BitVec 32).toNat = 0
    rfl

theorem dblk_apply (A : Cert.Spec.ICol 800000) (t : Fin cfg2.N) (e : Fin 2000) (k : Fin 800000)
    (hk : k.val = t.val % 400 * 2000 + e.val) :
    (((cfg2.win 0).blk t).view.read (Elt Ideal) A : Vec Ideal S2000x1 .i32) (ix2 e 0) = A (ix2 k 0) := by
  have hi := (idx_facts t).1
  rw [View.read_apply]
  refine congrArg A (funext fun a => Fin.ext ?_)
  match a with
  | ⟨0, _⟩ => show win2_0.index t 0 * 2000 + 1 * e.val = k.val; rw [hi.1, hk]; omega
  | ⟨1, _⟩ => show win2_0.index t 1 * 1 + 1 * 0 = 0; rw [hi.2]

theorem pblk_apply (A : Cert.Spec.Mat 800000 256) (t : Fin cfg2.N) (e : Fin 2000) (cc : Fin 256) (k : Fin 800000)
    (hk : k.val = t.val % 400 * 2000 + e.val) :
    (((cfg2.win 1).blk t).view.read (Elt Ideal) A : Vec Ideal S2000x256 .f32) (ix2 e cc) = A (ix2 k cc) := by
  have hi := (idx_facts t).2.1
  rw [View.read_apply]
  refine congrArg A (funext fun a => Fin.ext ?_)
  match a with
  | ⟨0, _⟩ => show win2_1.index t 0 * 2000 + 1 * e.val = k.val; rw [hi.1, hk]; omega
  | ⟨1, _⟩ => show win2_1.index t 1 * 256 + 1 * cc.val = cc.val; rw [hi.2]; omega

def addend (dst : Cert.Spec.ICol 800000) (P : Cert.Spec.Mat 800000 256) (n : Nat) (j : S1000x256.Idx) : EReal :=
  ∑ e : Fin 2000,
    Cert.Spec.hot (dst (ix2 ⟨n % 400 * 2000 + e.val, by have := e.isLt; omega⟩ 0)) (n / 400 * 1000 + (j 0).val)
      * P (ix2 ⟨n % 400 * 2000 + e.val, by have := e.isLt; omega⟩ (j 1))

def stepF (dst : Cert.Spec.ICol 800000) (P : Cert.Spec.Mat 800000 256) (t : Fin cfg2.N)
    (old : Vec Ideal S1000x256 .f32) : Vec Ideal S1000x256 .f32 :=
  k2_pay2 (grid2.coords t) (((cfg2.win 0).blk t).view.read (Elt Ideal) dst) (((cfg2.win 1).blk t).view.read (Elt Ideal) P) old

theorem step_apply (dst : Cert.Spec.ICol 800000) (P : Cert.Spec.Mat 800000 256) (t : Fin cfg2.N)
    (old : Vec Ideal S1000x256 .f32) (j : S1000x256.Idx) :
    stepF dst P t old j = old j + addend dst P t.val j := by
  obtain ⟨r, cc, rfl⟩ : ∃ (r : Fin 1000) (cc : Fin 256), j = ix2 r cc := ⟨j 0, j 1, eq_ix2 j⟩
  refine (pay2_apply (grid2.coords t) _ _ old r cc).trans ?_
  congr 1
  unfold addend
  refine Finset.sum_congr rfl fun e _ => ?_
  have hc : (grid2.coords t 0).val = t.val / 400 := (idx_facts t).2.2.2
  rw [dblk_apply dst t e ⟨t.val % 400 * 2000 + e.val, by have := e.isLt; omega⟩ rfl,
    pblk_apply P t e cc ⟨t.val % 400 * 2000 + e.val, by have := e.isLt; omega⟩ rfl, hc]

theorem acc_closed (dst : Cert.Spec.ICol 800000) (P : Cert.Spec.Mat 800000 256)
    (a : (n : ℕ) → n < cfg2.N → Vec Ideal S1000x256 .f32)
    (h0 : ∀ (n : ℕ) (h : n < cfg2.N), n % 400 = 0 → a n h = stepF dst P ⟨n, h⟩ (k2_pay1 (F := Ideal)))
    (hs : ∀ (n : ℕ) (h : n + 1 < cfg2.N), ¬(n + 1) % 400 = 0 →
      a (n + 1) h = stepF dst P ⟨n + 1, h⟩ (a n (Nat.lt_of_succ_lt h)))
    (t : ℕ) (ht : t < cfg2.N) (j : S1000x256.Idx) :
    a t ht j = 0 + ∑ s ∈ Finset.range (t % 400 + 1), addend dst P (400 * (t / 400) + s) j := by
  have h' : 400 * (t / 400) + t % 400 < cfg2.N := by rw [Nat.div_add_mod]; exact ht
  rw [Pipeline.eq_accAt_of_mod a 400 (fun n h => stepF dst P ⟨n, h⟩ (k2_pay1 (F := Ideal)))
    (fun n h old => stepF dst P ⟨n, h⟩ old) h0 hs (by decide) t ht h']
  exact Pipeline.accAt_add_apply (fun n h => stepF dst P ⟨n, h⟩ (k2_pay1 (F := Ideal)))
    (fun n h old => stepF dst P ⟨n, h⟩ old) (fun _ => 0) (addend dst P) (400 * (t / 400)) 399
    (fun h i => (step_apply dst P ⟨400 * (t / 400), h⟩ (k2_pay1 (F := Ideal)) i).trans (by rw [pay1_apply]))
    (fun n h old i _ _ => step_apply dst P ⟨n, h⟩ old i)
    (t % 400) (by omega) h' j

theorem term_congr (dst : Cert.Spec.ICol 800000) (P : Cert.Spec.Mat 800000 256) (k k' : Fin 800000) (m m' : Nat)
    (cc : Fin 256) (hk : k = k') (hm : m = m') :
    Cert.Spec.hot (dst (ix2 k 0)) m * P (ix2 k cc) = Cert.Spec.hot (dst (ix2 k' 0)) m' * P (ix2 k' cc) := by
  subst hk hm; rfl

theorem last_eq (dst : Cert.Spec.ICol 800000) (P : Cert.Spec.Mat 800000 256) (A : Vec Ideal S1000x256 .f32)
    (t : Fin cfg2.N) (hm : t.val % 400 = 399)
    (hA : ∀ j, A j = 0 + ∑ s ∈ Finset.range (t.val % 400 + 1), addend dst P (400 * (t.val / 400) + s) j)
    (x : S1000x256.Idx) (k : S50000x256.Idx)
    (hk0 : (k 0).val = t.val / 400 * 1000 + (x 0).val) (hk1 : (k 1).val = (x 1).val) :
    A x = Cert.Spec.scat dst P k := by
  rw [hA, zero_add, show t.val % 400 + 1 = 400 from by omega, Finset.sum_range]
  unfold Cert.Spec.scat
  refine Finset.sum_congr rfl fun q _ => ?_
  unfold addend
  refine Finset.sum_congr rfl fun e _ => ?_
  have hq := q.isLt
  have hk1' : x 1 = k 1 := Fin.ext hk1.symm
  rw [hk1']
  exact term_congr _ _ _ _ _ _ _ (Fin.ext (by show (400 * (t.val / 400) + q.val) % 400 * 2000 + e.val = q.val * 2000 + e.val; omega))
    (by rw [hk0]; omega)

theorem cut_eq (dst : Cert.Spec.ICol 800000) (P : Cert.Spec.Mat 800000 256) (E : Vec Ideal S1000x256 .f32) (t : Fin cfg2.N)
    (hE : ∀ (x : S1000x256.Idx) (k : S50000x256.Idx), (k 0).val = t.val / 400 * 1000 + (x 0).val →
      (k 1).val = (x 1).val → E x = Cert.Spec.scat dst P k) :
    (cfg2.win 2).cut (grid2.coords t) E = ((cfg2.win 2).blk t).view.read (Elt Ideal) (Cert.Spec.scat dst P) := by
  have hi := (idx_facts t).2.2.1
  funext y
  rw [View.read_apply]
  show E ((cfg2.win 2).xinj (grid2.coords t) y) = Cert.Spec.scat dst P (((cfg2.win 2).blk t).view.emb y)
  refine hE _ _ ?_ ?_
  · show win2_2.index t 0 * 1000 + 1 * (y 0).val = t.val / 400 * 1000 + (y 0).val
    rw [hi.1]; omega
  · show win2_2.index t 1 * 256 + 1 * (y 1).val = (y 1).val
    rw [hi.2]; omega

theorem cover (i : S50000x256.Idx) :
    ∃ t : Fin cfg2.N, (cfg2.win 2).flush t = true ∧ i ∈ ((cfg2.win 2).blk t).view.set := by
  have h0 : (i 0 : Nat) < 50000 := (i 0).isLt
  have h1 : (i 1 : Nat) < 256 := (i 1).isLt
  have hN : cfg2.N = 20000 := N_2
  let t : Fin cfg2.N := ⟨400 * ((i 0).val / 1000) + 399, by rw [hN]; omega⟩
  have htv : t.val = 400 * ((i 0).val / 1000) + 399 := rfl
  have hi := (idx_facts t).2.2.1
  refine ⟨t, (flush2_2 t).mpr (by rw [htv]; omega), ?_⟩
  show i ∈ ((View.whole main_v6).slice (win2_2.rect t)).set
  rw [View.set_slice_whole, Rect.mem_set_unit]
  intro a
  match a with
  | ⟨0, _⟩ =>
    show win2_2.index t 0 * 1000 ≤ (i 0 : Nat) ∧ (i 0 : Nat) < win2_2.index t 0 * 1000 + 1000
    rw [hi.1, htv]; omega
  | ⟨1, _⟩ =>
    show win2_2.index t 1 * 256 ≤ (i 1 : Nat) ∧ (i 1 : Nat) < win2_2.index t 1 * 256 + 256
    rw [hi.2]; omega

theorem acc2_closed (c : Dev nD) (t : ℕ) (ht : t < cfg2.N) (j : S1000x256.Idx) :
    acc2 V c t ht j
      = 0 + ∑ s ∈ Finset.range (t % 400 + 1), addend (V c main_v4) (V c main_v5) (400 * (t / 400) + s) j :=
  acc_closed (V c main_v4) (V c main_v5) (acc2 V c)
    (fun n h hm => by
      show acc2 V c n h = k2_pay2 (grid2.coords ⟨n, h⟩) (iblk2 V c 0 ⟨n, h⟩) (iblk2 V c 1 ⟨n, h⟩) (k2_pay1 (F := Ideal))
      cases n with
      | zero => rw [acc2]
      | succ n => rw [acc2, if_pos hm])
    (fun n h hm => by
      show acc2 V c (n + 1) h = k2_pay2 (grid2.coords ⟨n + 1, h⟩) (iblk2 V c 0 ⟨n + 1, h⟩) (iblk2 V c 1 ⟨n + 1, h⟩) _
      rw [acc2, if_neg hm]) t ht j

theorem flushed_eq (c : Dev nD) (dat : Dat τ (Elt Ideal) Unit ℕ (UR sig nD τ) ℕ cfg2 c)
    (hafter : ∀ t, dat.after 2 t = acc2 V c t.val t.isLt) (t : Fin cfg2.N) (hf : (cfg2.win 2).flush t = true) :
    dat.flushed 2 t
      = ((cfg2.win 2).blk t).view.read (Elt Ideal) (Cert.Spec.scat (V c main_v4) (V c main_v5)) := by
  show (cfg2.win 2).cut (grid2.coords t) (dat.after 2 t) = _
  rw [hafter]
  exact cut_eq _ _ _ t (last_eq _ _ _ t ((flush2_2 t).mp hf) (acc2_closed V c t.val t.isLt))

end Val2

theorem val2_of (c : Dev nD) (dat : Dat τ (Elt Ideal) Unit ℕ (UR sig nD τ) ℕ cfg2 c)
    (hA : ∀ w, dat.A w = V c (Pipeline.arrRef spec2 w))
    (hafter : ∀ t, dat.after 2 t = acc2 V c t.val t.isLt) :
    dat.arrAt 2 cfg2.N = Cert.Spec.scat (V c main_v4) (V c main_v5) :=
  dat.arrAt_eq_of_cover 2 (Cert.Spec.scat (V c main_v4) (V c main_v5)) (Val2.flushed_eq V c dat hafter) Val2.cover

end Cert.KernelIdeal.Hand

end
-- ==== Proof.KI.Val4.lean ====
import proofs.«406288_j68358699483732_1_alg».proof.Proof.KI.DefsB
import proofs.«406288_j68358699483732_1_alg».proof.Proof.KI.Val1
import proofs.«406288_j68358699483732_1_alg».proof.Proof.KI.Sched

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

namespace Val4

open Val1 (part gath_eq erow)

variable (V : (c : Dev nD) → (b : Ref sig .tc) → Buf (Elt Ideal) ((c : Thread nD τ).loc b))

abbrev srcA (c : Dev nD) : Cert.Spec.ICol 800000 := V c main_v8
abbrev dstA (c : Dev nD) : Cert.Spec.ICol 800000 := V c main_v9
abbrev featA (c : Dev nD) : Cert.Spec.Mat 800000 2 := V c main_arg4
abbrev kvA (c : Dev nD) : Cert.Spec.Mat 50000 256 := V c main_v2_0
abbrev qA (c : Dev nD) : Cert.Spec.Mat 50000 128 := V c main_v2_1

theorem accKV4_reset (c : Dev nD) (n : ℕ) (h : n < cfg4.N) (hn : n % 50 = 0) :
    accKV4 V c n h = k4_pay6 (grid4.coords ⟨n, h⟩) (iblk4 V c 0 ⟨n, h⟩) (iblk4 V c 3 ⟨n, h⟩) (k4_pay3 (F := Ideal)) := by
  cases n with
  | zero => rfl
  | succ m => rw [accKV4, if_pos hn]

theorem accKV4_step (c : Dev nD) (n : ℕ) (h : n + 1 < cfg4.N) (hn : ¬(n + 1) % 50 = 0) :
    accKV4 V c (n + 1) h = k4_pay6 (grid4.coords ⟨n + 1, h⟩) (iblk4 V c 0 ⟨n + 1, h⟩) (iblk4 V c 3 ⟨n + 1, h⟩)
      (accKV4 V c n (Nat.lt_of_succ_lt h)) := by
  rw [accKV4, if_neg hn]

theorem accQ4_reset (c : Dev nD) (n : ℕ) (h : n < cfg4.N) (hn : n % 50 = 0) :
    accQ4 V c n h = k4_pay1 (k4_pay4 (F := Ideal)) (k4_pay7 (grid4.coords ⟨n, h⟩) (iblk4 V c 1 ⟨n, h⟩) (iblk4 V c 4 ⟨n, h⟩)) := by
  cases n with
  | zero => rfl
  | succ m => rw [accQ4, if_pos hn]

theorem accQ4_step (c : Dev nD) (n : ℕ) (h : n + 1 < cfg4.N) (hn : ¬(n + 1) % 50 = 0) :
    accQ4 V c (n + 1) h = k4_pay1 (accQ4 V c n (Nat.lt_of_succ_lt h))
      (k4_pay7 (grid4.coords ⟨n + 1, h⟩) (iblk4 V c 1 ⟨n + 1, h⟩) (iblk4 V c 4 ⟨n + 1, h⟩)) := by
  rw [accQ4, if_neg hn]

theorem accKV4_closed (c : Dev nD) (n : ℕ) (h : n < cfg4.N) (r : Fin 2000) (j : Fin 256) :
    accKV4 V c n h (ix2 r j) = ∑ q ∈ Finset.range (n % 50 + 1), part (srcA V c) (kvA V c) (erow ⟨n, h⟩ r) j q :=
  Val1.acc_closed (srcA V c) (kvA V c) (fun n h r j => accKV4 V c n h (ix2 r j))
    (fun n h r j hn => by
      rw [accKV4_reset V c n h hn]
      exact (Val1.stepKV (srcA V c) (kvA V c) ⟨n, h⟩ k1_pay3 r j).trans (by rw [Val1.pay3_apply, zero_add]))
    (fun n h r j hn => by
      rw [accKV4_step V c n h hn]
      exact Val1.stepKV (srcA V c) (kvA V c) ⟨n + 1, h⟩ _ r j) n h r j

theorem accQ4_closed (c : Dev nD) (n : ℕ) (h : n < cfg4.N) (r : Fin 2000) (j : Fin 128) :
    accQ4 V c n h (ix2 r j) = ∑ q ∈ Finset.range (n % 50 + 1), part (dstA V c) (qA V c) (erow ⟨n, h⟩ r) j q :=
  Val1.acc_closed (dstA V c) (qA V c) (fun n h r j => accQ4 V c n h (ix2 r j))
    (fun n h r j hn => by
      rw [accQ4_reset V c n h hn]
      exact (Val1.stepQ (dstA V c) (qA V c) ⟨n, h⟩ k1_pay4 r j).trans (by rw [Val1.pay4_apply, zero_add]))
    (fun n h r j hn => by
      rw [accQ4_step V c n h hn]
      exact Val1.stepQ (dstA V c) (qA V c) ⟨n + 1, h⟩ _ r j) n h r j

theorem accKV4_last (c : Dev nD) (t : Fin cfg4.N) (ht : t.val % 50 = 49) (r : Fin 2000) (j : Fin 256) :
    accKV4 V c t.val t.isLt (ix2 r j) = Cert.Spec.gath (srcA V c) (kvA V c) (ix2 (erow t r) j) := by
  rw [accKV4_closed V c t.val t.isLt r j, gath_eq, ht]

theorem accQ4_last (c : Dev nD) (t : Fin cfg4.N) (ht : t.val % 50 = 49) (r : Fin 2000) (j : Fin 128) :
    accQ4 V c t.val t.isLt (ix2 r j) = Cert.Spec.gath (dstA V c) (qA V c) (ix2 (erow t r) j) := by
  rw [accQ4_closed V c t.val t.isLt r j, gath_eq, ht]

theorem emit_apply (c : Dev nD) (t : Fin cfg4.N) (ht : t.val % 50 = 49) (r : Fin 2000) (j : Fin 256) :
    emit4 V c t (ix2 r j)
      = Cert.Spec.payload (srcA V c) (dstA V c) (featA V c) (kvA V c) (qA V c) (ix2 (erow t r) j) :=
  Val1.emit_eq _ _ _ (srcA V c) (dstA V c) (featA V c) (kvA V c) (qA V c) (erow t r) r
    (fun j => accKV4_last V c t ht r j) (fun d => accQ4_last V c t ht r d) (Val1.blk_feat (featA V c) t r 0) j

theorem flushed4_eq (c : Dev nD) (dat : Dat τ (Elt Ideal) Unit ℕ (UR sig nD τ) ℕ cfg4 c)
    (hafter : ∀ t, dat.after 5 t = emit4 V c t) (t : Fin cfg4.N) (hf : (cfg4.win 5).flush t = true) :
    dat.flushed 5 t = ((cfg4.win 5).blk t).view.read (Elt Ideal)
      (Cert.Spec.payload (srcA V c) (dstA V c) (featA V c) (kvA V c) (qA V c)) := by
  show (cfg4.win 5).cut (grid4.coords t) (dat.after 5 t) = _
  rw [hafter t]
  exact Val1.cut_eq _ _ t (emit_apply V c t ((flush4_5 t).mp hf))

end Val4

variable (V : (c : Dev nD) → (b : Ref sig .tc) → Buf (Elt Ideal) ((c : Thread nD τ).loc b))

theorem val4_of (c : Dev nD) (dat : Dat τ (Elt Ideal) Unit ℕ (UR sig nD τ) ℕ cfg4 c)
    (hA : ∀ w, dat.A w = V c (Pipeline.arrRef spec4 w)) (hafter : ∀ t, dat.after 5 t = emit4 V c t) :
    dat.arrAt 5 cfg4.N
      = Cert.Spec.payload (V c main_v8) (V c main_v9) (V c main_arg4) (V c main_v2_0) (V c main_v2_1) :=
  dat.arrAt_eq_of_cover 5 (Cert.Spec.payload (Val4.srcA V c) (Val4.dstA V c) (Val4.featA V c) (Val4.kvA V c) (Val4.qA V c))
    (Val4.flushed4_eq V c dat hafter) (fun i => by
      obtain ⟨t, ht, hi⟩ := Val1.cover1_5 i
      exact ⟨t, (flush4_5 t).mpr ht, hi⟩)

end Cert.KernelIdeal.Hand

end
-- ==== Proof.KI.Val5.lean ====
import proofs.«406288_j68358699483732_1_alg».proof.Proof.KI.DefsB
import proofs.«406288_j68358699483732_1_alg».proof.Proof.KI.Val2
import proofs.«406288_j68358699483732_1_alg».proof.Proof.KI.Sched

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

namespace Val5

open Val2 (addend)

theorem acc5_closed (c : Dev nD) (t : ℕ) (ht : t < cfg5.N) (j : S1000x256.Idx) :
    acc5 V c t ht j
      = 0 + ∑ s ∈ Finset.range (t % 400 + 1), addend (V c main_v9) (V c main_v10) (400 * (t / 400) + s) j :=
  Val2.acc_closed (V c main_v9) (V c main_v10) (acc5 V c)
    (fun n h hm => by
      show acc5 V c n h = k5_pay2 (grid5.coords ⟨n, h⟩) (iblk5 V c 0 ⟨n, h⟩) (iblk5 V c 1 ⟨n, h⟩) (k5_pay1 (F := Ideal))
      cases n with
      | zero => rw [acc5]
      | succ n => rw [acc5, if_pos hm])
    (fun n h hm => by
      show acc5 V c (n + 1) h = k5_pay2 (grid5.coords ⟨n + 1, h⟩) (iblk5 V c 0 ⟨n + 1, h⟩) (iblk5 V c 1 ⟨n + 1, h⟩) _
      rw [acc5, if_neg hm]) t ht j

theorem flushed_eq (c : Dev nD) (dat : Dat τ (Elt Ideal) Unit ℕ (UR sig nD τ) ℕ cfg5 c)
    (hafter : ∀ t, dat.after 2 t = acc5 V c t.val t.isLt) (t : Fin cfg5.N) (hf : (cfg5.win 2).flush t = true) :
    dat.flushed 2 t
      = ((cfg5.win 2).blk t).view.read (Elt Ideal) (Cert.Spec.scat (V c main_v9) (V c main_v10)) := by
  show (cfg5.win 2).cut (grid5.coords t) (dat.after 2 t) = _
  rw [hafter]
  exact Val2.cut_eq _ _ _ t (Val2.last_eq _ _ _ t ((flush5_2 t).mp hf) (acc5_closed V c t.val t.isLt))

end Val5

theorem val5_of (c : Dev nD) (dat : Dat τ (Elt Ideal) Unit ℕ (UR sig nD τ) ℕ cfg5 c)
    (hA : ∀ w, dat.A w = V c (Pipeline.arrRef spec5 w))
    (hafter : ∀ t, dat.after 2 t = acc5 V c t.val t.isLt) :
    dat.arrAt 2 cfg5.N = Cert.Spec.scat (V c main_v9) (V c main_v10) :=
  dat.arrAt_eq_of_cover 2 (Cert.Spec.scat (V c main_v9) (V c main_v10)) (Val5.flushed_eq V c dat hafter) fun i => Val2.cover i

end Cert.KernelIdeal.Hand

end
-- ==== Proof.KI.Vals.lean ====
import proofs.«406288_j68358699483732_1_alg».proof.Proof.KI.Stage2
import proofs.«406288_j68358699483732_1_alg».proof.Proof.KI.Stage3
import proofs.«406288_j68358699483732_1_alg».proof.Proof.KI.Stage2b
import proofs.«406288_j68358699483732_1_alg».proof.Proof.KI.Stage3b
import proofs.«406288_j68358699483732_1_alg».proof.Proof.KI.Val1
import proofs.«406288_j68358699483732_1_alg».proof.Proof.KI.Val2
import proofs.«406288_j68358699483732_1_alg».proof.Proof.KI.Val4
import proofs.«406288_j68358699483732_1_alg».proof.Proof.KI.Val5

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b))

theorem val1 (c : Dev nD) : (dat1 (F := Ideal) V c).arrAt 5 cfg1.N
    = Cert.Spec.payload (V c main_v3) (V c main_v4) (V c main_arg3) (V c main_v2_0) (V c main_v2_1) :=
  val1_of V c (dat1 V c) (fun w => A_eq1 V c w) (fun t => after1_5 V c t)
theorem val2 (c : Dev nD) : (dat2 (F := Ideal) V c).arrAt 2 cfg2.N = Cert.Spec.scat (V c main_v4) (V c main_v5) :=
  val2_of V c (dat2 V c) (fun w => A_eq2 V c w) (fun t => after2_2 V c t)

theorem val4 (c : Dev nD) : (dat4 (F := Ideal) V c).arrAt 5 cfg4.N
    = Cert.Spec.payload (V c main_v8) (V c main_v9) (V c main_arg4) (V c main_v2_0) (V c main_v2_1) :=
  val4_of V c (dat4 V c) (fun w => A_eq4 V c w) (fun t => after4_5 V c t)
theorem val5 (c : Dev nD) : (dat5 (F := Ideal) V c).arrAt 2 cfg5.N = Cert.Spec.scat (V c main_v9) (V c main_v10) :=
  val5_of V c (dat5 V c) (fun w => A_eq5 V c w) (fun t => after5_2 V c t)

end Cert.KernelIdeal.Hand

end
-- ==== Proof.KI.NormOps.lean ====
import proofs.«406288_j68358699483732_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

theorem lhsP_0 (j : S2000x128.Idx) (k : dot_S2000x128_S128x128_S2000x128_1_0_0_1_n_n.contr.Idx) :
    (dot_S2000x128_S128x128_S2000x128_1_0_0_1_n_n.lhsIdx j k 0).val = (j 0).val := rfl
theorem lhsP_1 (j : S2000x128.Idx) (k : dot_S2000x128_S128x128_S2000x128_1_0_0_1_n_n.contr.Idx) :
    (dot_S2000x128_S128x128_S2000x128_1_0_0_1_n_n.lhsIdx j k 1).val = (k ⟨0, by decide⟩).val :=
  dot_S2000x128_S128x128_S2000x128_1_0_0_1_n_n.lhsIdx_val_of_single (cl := 1) rfl j k
theorem rhsP_0 (j : S2000x128.Idx) (k : dot_S2000x128_S128x128_S2000x128_1_0_0_1_n_n.contr.Idx) :
    (dot_S2000x128_S128x128_S2000x128_1_0_0_1_n_n.rhsIdx j k 0).val = (k ⟨0, by decide⟩).val :=
  dot_S2000x128_S128x128_S2000x128_1_0_0_1_n_n.rhsIdx_val_of_single (cr := 0) rfl j k
theorem rhsP_1 (j : S2000x128.Idx) (k : dot_S2000x128_S128x128_S2000x128_1_0_0_1_n_n.contr.Idx) :
    (dot_S2000x128_S128x128_S2000x128_1_0_0_1_n_n.rhsIdx j k 1).val = (j 1).val := rfl

theorem mmP_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  congr 1
  · exact congrArg l (Shape.idx_ext₂ (lhsP_0 _ _) ((lhsP_1 _ _).trans hk))
  · exact congrArg r (Shape.idx_ext₂ ((rhsP_0 _ _).trans hk) (rhsP_1 _ _))

theorem lhsQ_0 (j : S2000x128.Idx) (k : dot_S2000x256_S256x128_S2000x128_1_0_0_1_n_n.contr.Idx) :
    (dot_S2000x256_S256x128_S2000x128_1_0_0_1_n_n.lhsIdx j k 0).val = (j 0).val := rfl
theorem lhsQ_1 (j : S2000x128.Idx) (k : dot_S2000x256_S256x128_S2000x128_1_0_0_1_n_n.contr.Idx) :
    (dot_S2000x256_S256x128_S2000x128_1_0_0_1_n_n.lhsIdx j k 1).val = (k ⟨0, by decide⟩).val :=
  dot_S2000x256_S256x128_S2000x128_1_0_0_1_n_n.lhsIdx_val_of_single (cl := 1) rfl j k
theorem rhsQ_0 (j : S2000x128.Idx) (k : dot_S2000x256_S256x128_S2000x128_1_0_0_1_n_n.contr.Idx) :
    (dot_S2000x256_S256x128_S2000x128_1_0_0_1_n_n.rhsIdx j k 0).val = (k ⟨0, by decide⟩).val :=
  dot_S2000x256_S256x128_S2000x128_1_0_0_1_n_n.rhsIdx_val_of_single (cr := 0) rfl j k
theorem rhsQ_1 (j : S2000x128.Idx) (k : dot_S2000x256_S256x128_S2000x128_1_0_0_1_n_n.contr.Idx) :
    (dot_S2000x256_S256x128_S2000x128_1_0_0_1_n_n.rhsIdx j k 1).val = (j 1).val := rfl

theorem mmQ_apply (l : FVec Ideal S2000x256 .bf16) (r : FVec Ideal S256x128 .bf16) (p : Fin 2000) (q : Fin 128) :
    matmul dot_S2000x256_S256x128_S2000x128_1_0_0_1_n_n none l r (constant (F := Ideal) S2000x128 .f32 0x00000000#32) (ix2 p q)
      = ∑ k : Fin 256, l (ix2 p k) * r (ix2 k q) := by
  simp only [matmul]
  rw [Ideal.matmul_constant_zero_apply,
    ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  congr 1
  · exact congrArg l (Shape.idx_ext₂ (lhsQ_0 _ _) ((lhsQ_1 _ _).trans hk))
  · exact congrArg r (Shape.idx_ext₂ ((rhsQ_0 _ _).trans hk) (rhsQ_1 _ _))

theorem rowBcast_apply {α : Type} (v : S128.Idx → α) (h1 : S128.ShapeCasts S1x128) (h2 : S1x128.Broadcasts S2000x128)
    (p : Fin 2000) (q : Fin 128) :
    broadcastTo S2000x128 (shapeCast S1x128 v h1) h2 (ix2 p q) = v (ix1 q) := by
  refine (broadcastTo_apply _ h2 (ix2 p q) (ix2 (0 : Fin 1) q) (fun a => ?_)).trans ?_
  · match a with
    | ⟨0, _⟩ => rfl
    | ⟨1, _⟩ => rfl
  · refine (shapeCast_addUnit_apply ![128] v h1 (ix2 (0 : Fin 1) q)).trans (congrArg v ?_)
    funext a; match a with | ⟨0, _⟩ => rfl

theorem colBcast_apply {α : Type} (w : S2000x1.Idx → α) (h : S2000x1.Broadcasts S2000x128) (p : Fin 2000) (q : Fin 128) :
    broadcastTo S2000x128 w h (ix2 p q) = w (ix2 p (0 : Fin 1)) := by
  refine broadcastTo_apply w h (ix2 p q) (ix2 p (0 : Fin 1)) (fun a => ?_)
  match a with
  | ⟨0, _⟩ => rfl
  | ⟨1, _⟩ => rfl

theorem laneSum_apply (src : FVec Ideal S2000x128 .f32) (hr : S2000x128.Reduces [1] S2000) (hφ) (hacc)
    (hc : S2000.ShapeCasts S2000x1) (p : Fin 2000) :
    shapeCast S2000x1 (multiReduction (F := Ideal) .add [1] S2000 src 0x00000000#32 hr hφ hacc) hc (ix2 p (0 : Fin 1))
      = ∑ k : Fin 128, src (ix2 p k) := by
  refine (shapeCast_apply _ hc (ix2 p (0 : Fin 1)) (ix1 p) ?_).trans ?_
  · rw [Shape.rowMajor_val_one, Shape.rowMajor_val_two]; show p.val = p.val * 1 + 0; omega
  · rw [Ideal.multiReduction_add_single]
    refine Finset.sum_congr rfl fun k _ => congrArg src ?_
    exact Shape.idx_ext₂ rfl rfl

theorem loHalf_apply {α : Type} (x : S2000x256.Idx → α) (h : S2000x256.Slices ![0, 0] S2000x128) (p : Fin 2000) (q : Fin 128) :
    extractStridedSlice S2000x128 ![0, 0] x h (ix2 p q) = x (ix2 p ⟨q.val, by omega⟩) := by
  refine extractStridedSlice_apply _ x h (ix2 p q) _ (fun a => ?_)
  match a with
  | ⟨0, _⟩ => show p.val = 0 + p.val; omega
  | ⟨1, _⟩ => show q.val = 0 + q.val; omega
theorem hiHalf_apply {α : Type} (x : S2000x256.Idx → α) (h : S2000x256.Slices ![0, 128] S2000x128) (p : Fin 2000) (q : Fin 128) :
    extractStridedSlice S2000x128 ![0, 128] x h (ix2 p q) = x (ix2 p ⟨128 + q.val, by omega⟩) := by
  refine extractStridedSlice_apply _ x h (ix2 p q) _ (fun a => ?_)
  match a with
  | ⟨0, _⟩ => show p.val = 0 + p.val; omega
  | ⟨1, _⟩ => rfl

theorem hzPair : (![0, 0] : Fin 2 → Nat) = fun _ => 0 := funext fun a => by match a with | ⟨0, _⟩ => rfl | ⟨1, _⟩ => rfl
theorem hzOne : (![0] : Fin 1 → Nat) = fun _ => 0 := funext fun a => by match a with | ⟨0, _⟩ => rfl

abbrev RM (r b : Nat) : Type := FVec Ideal ⟨2, ![r, b]⟩ .f32
abbrev RV (b : Nat) : Type := FVec Ideal ⟨1, ![b]⟩ .f32

def wmeanR {r : Nat} (acc : RM r 256) : RM r 128 :=
  fun i => Ideal.div (acc (ix2 (i 0) ⟨(i 1).val, by have h : (i 1).val < 128 := (i 1).isLt; omega⟩))
    (acc (ix2 (i 0) ⟨128 + (i 1).val, by have h : (i 1).val < 128 := (i 1).isLt; omega⟩) + Ideal.ofBits .f32 0x3F800000#32)

def preLnR {r : Nat} (acc : RM r 256) (x : RM r 256) (Wao : RM 128 128) (bao : RV 128)
    (Waffn : RM 256 128) (baffn : RV 128) : RM r 128 :=
  fun i => ((∑ k : Fin 256, x (ix2 (i 0) k) * Waffn (ix2 k (i 1))) + baffn (ix1 (i 1)))
    + ((∑ k : Fin 128, wmeanR acc (ix2 (i 0) k) * Wao (ix2 k (i 1))) + bao (ix1 (i 1)))

def rowMeanR {r : Nat} (a : RM r 128) (n : Fin r) : EReal :=
  Ideal.div (∑ j : Fin 128, a (ix2 n j)) (Ideal.ofBits .f32 0x43000000#32)
def rowRstdR {r : Nat} (a : RM r 128) (n : Fin r) : EReal :=
  Ideal.rsqrt (Ideal.div (∑ j : Fin 128, (a (ix2 n j) - rowMeanR a n) * (a (ix2 n j) - rowMeanR a n)) (Ideal.ofBits .f32 0x43000000#32)
    + Ideal.ofBits .f32 0x3727C5AC#32)

def outpR {r : Nat} (acc : RM r 256) (x : RM r 256) (Wao : RM 128 128) (bao : RV 128)
    (Waffn : RM 256 128) (baffn : RV 128) (g b : RV 128) : RM r 128 :=
  fun i =>
    preLnR acc x Wao bao Waffn baffn i
      + ((((preLnR acc x Wao bao Waffn baffn i - rowMeanR (preLnR acc x Wao bao Waffn baffn) (i 0))
            * rowRstdR (preLnR acc x Wao bao Waffn baffn) (i 0)) * g (ix1 (i 1))) + b (ix1 (i 1)))

theorem preLnR_row {r r' : Nat} (acc x : RM r 256) (acc' x' : RM r' 256) (Wao : RM 128 128) (bao : RV 128)
    (Waffn : RM 256 128) (baffn : RV 128) (n : Fin r) (n' : Fin r')
    (ha : ∀ k : Fin 256, acc (ix2 n k) = acc' (ix2 n' k)) (hx : ∀ k : Fin 256, x (ix2 n k) = x' (ix2 n' k)) (q : Fin 128) :
    preLnR acc x Wao bao Waffn baffn (ix2 n q) = preLnR acc' x' Wao bao Waffn baffn (ix2 n' q) := by
  show ((∑ k : Fin 256, x (ix2 n k) * Waffn (ix2 k q)) + baffn (ix1 q))
      + ((∑ k : Fin 128, Ideal.div (acc (ix2 n ⟨k.val, by omega⟩)) (acc (ix2 n ⟨128 + k.val, by omega⟩) + Ideal.ofBits .f32 0x3F800000#32)
          * Wao (ix2 k q)) + bao (ix1 q))
    = ((∑ k : Fin 256, x' (ix2 n' k) * Waffn (ix2 k q)) + baffn (ix1 q))
      + ((∑ k : Fin 128, Ideal.div (acc' (ix2 n' ⟨k.val, by omega⟩)) (acc' (ix2 n' ⟨128 + k.val, by omega⟩) + Ideal.ofBits .f32 0x3F800000#32)
          * Wao (ix2 k q)) + bao (ix1 q))
  simp only [ha, hx]

theorem outpR_row {r r' : Nat} (acc x : RM r 256) (acc' x' : RM r' 256) (Wao : RM 128 128) (bao : RV 128)
    (Waffn : RM 256 128) (baffn : RV 128) (g b : RV 128) (n : Fin r) (n' : Fin r')
    (ha : ∀ k : Fin 256, acc (ix2 n k) = acc' (ix2 n' k)) (hx : ∀ k : Fin 256, x (ix2 n k) = x' (ix2 n' k)) (q : Fin 128) :
    outpR acc x Wao bao Waffn baffn g b (ix2 n q) = outpR acc' x' Wao bao Waffn baffn g b (ix2 n' q) := by
  have hp : ∀ j : Fin 128, preLnR acc x Wao bao Waffn baffn (ix2 n j) = preLnR acc' x' Wao bao Waffn baffn (ix2 n' j) :=
    preLnR_row acc x acc' x' Wao bao Waffn baffn n n' ha hx
  have hm : rowMeanR (preLnR acc x Wao bao Waffn baffn) n = rowMeanR (preLnR acc' x' Wao bao Waffn baffn) n' := by
    unfold rowMeanR; simp only [hp]
  have hr : rowRstdR (preLnR acc x Wao bao Waffn baffn) n = rowRstdR (preLnR acc' x' Wao bao Waffn baffn) n' := by
    unfold rowRstdR; simp only [hp, hm]
  show preLnR acc x Wao bao Waffn baffn (ix2 n q)
      + ((((preLnR acc x Wao bao Waffn baffn (ix2 n q) - rowMeanR (preLnR acc x Wao bao Waffn baffn) n)
            * rowRstdR (preLnR acc x Wao bao Waffn baffn) n) * g (ix1 q)) + b (ix1 q))
    = preLnR acc' x' Wao bao Waffn baffn (ix2 n' q)
      + ((((preLnR acc' x' Wao bao Waffn baffn (ix2 n' q) - rowMeanR (preLnR acc' x' Wao bao Waffn baffn) n')
            * rowRstdR (preLnR acc' x' Wao bao Waffn baffn) n') * g (ix1 q)) + b (ix1 q))
  rw [hp, hm, hr]

end Cert.KernelIdeal.Hand

end
-- ==== Proof.KI.Val3.lean ====
import proofs.«406288_j68358699483732_1_alg».proof.Proof.KI.Stage4
import proofs.«406288_j68358699483732_1_alg».proof.Proof.KI.NormOps
import proofs.«406288_j68358699483732_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem pre3_apply (v0 : Vec Ideal S2000x256 .f32) (v8 : Vec Ideal S128x128 .f32) (v11 : Vec Ideal S128 .f32) (v15 : Vec Ideal S2000x256 .f32) (v17 : Vec Ideal S256x128 .f32) (v20 : Vec Ideal S128 .f32) (p : Fin 2000) (q : Fin 128) :
    k3_pay2 v0 v8 v11 v15 v17 v20 (ix2 p q) = preLnR v0 v15 v8 v11 v17 v20 (ix2 p q) := by
  unfold k3_pay2
  simp only [addf_apply, mmP_apply, mmQ_apply, truncf_apply, divf_apply, loHalf_apply, hiHalf_apply,
    shapeCast_self, broadcast_apply]
  rw [rowBcast_apply, rowBcast_apply]
  rfl

theorem mean3_apply (v0 : Vec Ideal S2000x256 .f32) (v8 : Vec Ideal S128x128 .f32) (v11 : Vec Ideal S128 .f32) (v15 : Vec Ideal S2000x256 .f32) (v17 : Vec Ideal S256x128 .f32) (v20 : Vec Ideal S128 .f32) (p : Fin 2000) :
    k3_pay3 v0 v8 v11 v15 v17 v20 (ix2 p (0 : Fin 1)) = rowMeanR (preLnR v0 v15 v8 v11 v17 v20) p :=
  congrArg (fun z => Ideal.div z (Ideal.ofBits .f32 0x43000000#32))
    ((laneSum_apply (k3_pay2 v0 v8 v11 v15 v17 v20) _ _ _ _ p).trans (Finset.sum_congr rfl fun k _ => pre3_apply v0 v8 v11 v15 v17 v20 p k))

theorem centred3_apply (v0 : Vec Ideal S2000x256 .f32) (v8 : Vec Ideal S128x128 .f32) (v11 : Vec Ideal S128 .f32) (v15 : Vec Ideal S2000x256 .f32) (v17 : Vec Ideal S256x128 .f32) (v20 : Vec Ideal S128 .f32) (p : Fin 2000) (q : Fin 128) :
    k3_pay4 v0 v8 v11 v15 v17 v20 (ix2 p q)
      = preLnR v0 v15 v8 v11 v17 v20 (ix2 p q) - rowMeanR (preLnR v0 v15 v8 v11 v17 v20) p := by
  unfold k3_pay4
  rw [subf_apply, colBcast_apply, pre3_apply, mean3_apply]

theorem rstd3_apply (v0 : Vec Ideal S2000x256 .f32) (v8 : Vec Ideal S128x128 .f32) (v11 : Vec Ideal S128 .f32) (v15 : Vec Ideal S2000x256 .f32) (v17 : Vec Ideal S256x128 .f32) (v20 : Vec Ideal S128 .f32) (p : Fin 2000) :
    k3_pay5 v0 v8 v11 v15 v17 v20 (ix2 p (0 : Fin 1)) = rowRstdR (preLnR v0 v15 v8 v11 v17 v20) p :=
  congrArg (fun z => Ideal.rsqrt (Ideal.div z (Ideal.ofBits .f32 0x43000000#32) + (Ideal.ofBits .f32 0x3727C5AC#32)))
    ((laneSum_apply _ _ _ _ _ p).trans (Finset.sum_congr rfl fun k _ => by
      rw [mulf_apply, subf_apply, colBcast_apply, pre3_apply, mean3_apply]))

theorem store3_apply (v24 v37 : FVec Ideal S2000x128 .f32) (v40 : FVec Ideal S2000x1 .f32) (v43 v47 : Vec Ideal S128 .f32)
    (p : Fin 2000) (q : Fin 128) :
    k3_pay1 v24 v37 v40 v43 v47 (ix2 p q)
      = v24 (ix2 p q) + (((v37 (ix2 p q) * v40 (ix2 p (0 : Fin 1))) * v43 (ix1 q)) + v47 (ix1 q)) := by
  unfold k3_pay1
  simp only [addf_apply, mulf_apply, colBcast_apply]
  rw [rowBcast_apply, rowBcast_apply]

theorem blockOut3_apply (xa xx : Vec Ideal S2000x256 .f32) (xWo : Vec Ideal S128x128 .f32) (xbo : Vec Ideal S128 .f32)
    (xWf : Vec Ideal S256x128 .f32) (xbf xg xb : Vec Ideal S128 .f32) (p : Fin 2000) (q : Fin 128) :
    k3_pay1 (k3_pay2 xa xWo xbo xx xWf xbf) (k3_pay4 xa xWo xbo xx xWf xbf) (k3_pay5 xa xWo xbo xx xWf xbf) xg xb (ix2 p q)
      = outpR xa xx xWo xbo xWf xbf xg xb (ix2 p q) := by
  rw [store3_apply, pre3_apply, centred3_apply, rstd3_apply]
  rfl

theorem outpR_eq3 (acc x : Cert.Spec.Mat 50000 256) (Wao : Cert.Spec.Mat 128 128) (bao : Cert.Spec.Row 128)
    (Waffn : Cert.Spec.Mat 256 128) (baffn g b : Cert.Spec.Row 128) :
    Cert.Spec.outp acc x Wao bao Waffn baffn g b = outpR acc x Wao bao Waffn baffn g b := rfl

variable (V : (c : Dev nD) → (b : Ref sig .tc) → Buf (Elt Ideal) ((c : Thread nD τ).loc b))

theorem out3_8_eq (xa xx : Vec Ideal S2000x256 .f32) (xWo : Vec Ideal S128x128 .f32) (xbo : Vec Ideal S128 .f32) (xWf : Vec Ideal S256x128 .f32) (xbf xg xb : Vec Ideal S128 .f32) :
    out3_8 (F := Ideal) xa xx xWo xbo xWf xbf xg xb = outpR xa xx xWo xbo xWf xbf xg xb := by
  unfold out3_8
  rw [View.canon_unit_zero hzPair]
  simp only [View.ld_unit_zero (S := S2000x256) hzPair, View.ld_unit_zero (S := S128x128) hzPair,
    View.ld_unit_zero (S := S256x128) hzPair, View.ld_unit_zero (S := S128) hzOne]
  funext i
  obtain ⟨p, q, rfl⟩ : ∃ (p : Fin 2000) (q : Fin 128), i = ix2 p q := ⟨i 0, i 1, eq_ix2 i⟩
  exact blockOut3_apply xa xx xWo xbo xWf xbf xg xb p q

theorem idx_facts3 : ∀ t : Fin cfg3.N,
    win3_0.index t (0 : Fin 2) = win3_8.index t (0 : Fin 2) ∧ win3_0.index t (1 : Fin 2) = 0
    ∧ win3_1.index t (0 : Fin 2) = win3_8.index t (0 : Fin 2) ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0 ∧ win3_6.index t (0 : Fin 1) = 0 ∧ win3_7.index t (0 : Fin 1) = 0
    ∧ win3_8.index t (1 : Fin 2) = 0 ∧ win3_8.index t (0 : Fin 2) = t.val :=
  (by decide +kernel : ∀ t : Fin grid3.N, _)

theorem out_cut_eq (A X : RM 50000 256) (Wo : RM 128 128) (bo : RV 128) (Wf : RM 256 128) (bf g b : RV 128) (t : Fin cfg3.N) :
    (cfg3.win 8).cut (grid3.coords t) (out3_8 (F := Ideal) (((cfg3.win 0).blk t).view.read (Elt Ideal) A)
        (((cfg3.win 1).blk t).view.read (Elt Ideal) X) Wo bo Wf bf g b)
      = ((cfg3.win 8).blk t).view.read (Elt Ideal) (outpR A X Wo bo Wf bf g b) := by
  obtain ⟨e00, e01, e10, e11, -, -, -, -, -, -, -, -, e81, e80⟩ := idx_facts3 t
  funext j
  obtain ⟨p, q, rfl⟩ : ∃ (p : Fin 2000) (q : Fin 128), j = ix2 p q := ⟨j 0, j 1, eq_ix2 j⟩
  refine (congrFun (out3_8_eq _ _ Wo bo Wf bf g b) (ix2 p q)).trans ?_
  show outpR (((cfg3.win 0).blk t).view.read (Elt Ideal) A) (((cfg3.win 1).blk t).view.read (Elt Ideal) X) Wo bo Wf bf g b (ix2 p q)
    = outpR A X Wo bo Wf bf g b (((cfg3.win 8).blk t).view.emb (ix2 p q))
  have hi : ((cfg3.win 8).blk t).view.emb (ix2 p q) = ix2 ((((cfg3.win 8).blk t).view.emb (ix2 p q)) 0) q := by
    refine (eq_ix2 _).trans (congrArg (ix2 _) (Fin.ext ?_))
    show win3_8.index t (1 : Fin 2) * 128 + 1 * q.val = q.val; omega
  rw [hi]
  refine (outpR_row _ _ _ _ _ _ _ _ _ _ _ _ (fun k => ?_) (fun k => ?_) q).symm
  · show A (ix2 ((((cfg3.win 8).blk t).view.emb (ix2 p q)) 0) k) = A (((cfg3.win 0).blk t).view.emb (ix2 p k))
    refine congrArg _ (funext fun a => Fin.ext ?_)
    match a with
    | ⟨0, _⟩ => show win3_8.index t (0 : Fin 2) * 2000 + 1 * p.val = win3_0.index t (0 : Fin 2) * 2000 + 1 * p.val; omega
    | ⟨1, _⟩ => show k.val = win3_0.index t (1 : Fin 2) * 256 + 1 * k.val; omega
  · show X (ix2 ((((cfg3.win 8).blk t).view.emb (ix2 p q)) 0) k) = X (((cfg3.win 1).blk t).view.emb (ix2 p k))
    refine congrArg _ (funext fun a => Fin.ext ?_)
    match a with
    | ⟨0, _⟩ => show win3_8.index t (0 : Fin 2) * 2000 + 1 * p.val = win3_1.index t (0 : Fin 2) * 2000 + 1 * p.val; omega
    | ⟨1, _⟩ => show k.val = win3_1.index t (1 : Fin 2) * 256 + 1 * k.val; omega

abbrev G3 (c : Dev nD) : RM 50000 128 :=
  outpR (V c main_v6) (V c main_arg2) (V c main_arg23) (V c main_arg24) (V c main_arg25) (V c main_arg26) (V c main_arg27) (V c main_arg28)

theorem whole3_2 (c : Dev nD) (t : Fin cfg3.N) : (iblk3 V c 2 t : Vec Ideal S128x128 .f32) = V c main_arg23 := by
  obtain ⟨-, -, -, -, e20, e21, -⟩ := idx_facts3 t
  funext y
  show V c main_arg23 (((cfg3.win 2).blk t).view.emb y) = V c main_arg23 y
  refine congrArg _ (funext fun a => Fin.ext ?_)
  match a with
  | ⟨0, _⟩ => show win3_2.index t (0 : Fin 2) * 128 + 1 * (y 0).val = (y 0).val; omega
  | ⟨1, _⟩ => show win3_2.index t (1 : Fin 2) * 128 + 1 * (y 1).val = (y 1).val; omega
theorem whole3_4 (c : Dev nD) (t : Fin cfg3.N) : (iblk3 V c 4 t : Vec Ideal S256x128 .f32) = V c main_arg25 := by
  obtain ⟨-, -, -, -, -, -, -, e40, e41, -⟩ := idx_facts3 t
  funext y
  show V c main_arg25 (((cfg3.win 4).blk t).view.emb y) = V c main_arg25 y
  refine congrArg _ (funext fun a => Fin.ext ?_)
  match a with
  | ⟨0, _⟩ => show win3_4.index t (0 : Fin 2) * 256 + 1 * (y 0).val = (y 0).val; omega
  | ⟨1, _⟩ => show win3_4.index t (1 : Fin 2) * 128 + 1 * (y 1).val = (y 1).val; omega
theorem whole3_3 (c : Dev nD) (t : Fin cfg3.N) : (iblk3 V c 3 t : Vec Ideal S128 .f32) = V c main_arg24 := by
  obtain ⟨-, -, -, -, -, -, e30, -⟩ := idx_facts3 t
  funext y
  show V c main_arg24 (((cfg3.win 3).blk t).view.emb y) = V c main_arg24 y
  refine congrArg _ (funext fun a => Fin.ext ?_)
  match a with
  | ⟨0, _⟩ => show win3_3.index t (0 : Fin 1) * 128 + 1 * (y 0).val = (y 0).val; omega
theorem whole3_5 (c : Dev nD) (t : Fin cfg3.N) : (iblk3 V c 5 t : Vec Ideal S128 .f32) = V c main_arg26 := by
  obtain ⟨-, -, -, -, -, -, -, -, -, e50, -⟩ := idx_facts3 t
  funext y
  show V c main_arg26 (((cfg3.win 5).blk t).view.emb y) = V c main_arg26 y
  refine congrArg _ (funext fun a => Fin.ext ?_)
  match a with
  | ⟨0, _⟩ => show win3_5.index t (0 : Fin 1) * 128 + 1 * (y 0).val = (y 0).val; omega
theorem whole3_6 (c : Dev nD) (t : Fin cfg3.N) : (iblk3 V c 6 t : Vec Ideal S128 .f32) = V c main_arg27 := by
  obtain ⟨-, -, -, -, -, -, -, -, -, -, e60, -⟩ := idx_facts3 t
  funext y
  show V c main_arg27 (((cfg3.win 6).blk t).view.emb y) = V c main_arg27 y
  refine congrArg _ (funext fun a => Fin.ext ?_)
  match a with
  | ⟨0, _⟩ => show win3_6.index t (0 : Fin 1) * 128 + 1 * (y 0).val = (y 0).val; omega
theorem whole3_7 (c : Dev nD) (t : Fin cfg3.N) : (iblk3 V c 7 t : Vec Ideal S128 .f32) = V c main_arg28 := by
  obtain ⟨-, -, -, -, -, -, -, -, -, -, -, e70, -⟩ := idx_facts3 t
  funext y
  show V c main_arg28 (((cfg3.win 7).blk t).view.emb y) = V c main_arg28 y
  refine congrArg _ (funext fun a => Fin.ext ?_)
  match a with
  | ⟨0, _⟩ => show win3_7.index t (0 : Fin 1) * 128 + 1 * (y 0).val = (y 0).val; omega

theorem flushed3_8_eq (c : Dev nD) (t : Fin cfg3.N) :
    (dat3 (F := Ideal) V c).flushed 8 t = ((cfg3.win 8).blk t).view.read (Elt Ideal) (G3 V c) := by
  show (cfg3.win 8).cut (grid3.coords t) ((dat3 V c).after 8 t) = _
  rw [after3_8, whole3_2, whole3_3, whole3_4, whole3_5, whole3_6, whole3_7]
  exact out_cut_eq (V c main_v6) (V c main_arg2) _ _ _ _ _ _ t

theorem mem_blk3_8 (t : Fin cfg3.N) (i : S50000x128.Idx) :
    i ∈ ((cfg3.win 8).blk t).view.set ↔ ∀ a : Fin 2, win3_8.index t a * S2000x128.size a ≤ (i a).val ∧ (i a).val < win3_8.index t a * S2000x128.size a + S2000x128.size a := by
  show i ∈ ((View.whole main_v7).slice (win3_8.rect t)).set ↔ _
  rw [View.set_slice_whole, Rect.mem_set_unit]
  exact Iff.rfl

theorem cover3 (i : S50000x128.Idx) :
    ∃ t : Fin cfg3.N, (cfg3.win 8).flush t = true ∧ i ∈ ((cfg3.win 8).blk t).view.set := by
  have hi0 : (i 0).val < 50000 := (i 0).isLt
  have hi1 : (i 1).val < 128 := (i 1).isLt
  have hN : cfg3.N = 25 := N_3
  let t : Fin cfg3.N := ⟨(i 0).val / 2000, by omega⟩
  obtain ⟨-, -, -, -, -, -, -, -, -, -, -, -, e81, e80⟩ := idx_facts3 t
  have e80' : win3_8.index t (0 : Fin 2) = (i 0).val / 2000 := e80
  refine ⟨t, flush3_8 t, ?_⟩
  rw [mem_blk3_8]
  intro a
  match a with
  | ⟨0, _⟩ => show win3_8.index t (0 : Fin 2) * 2000 ≤ (i 0).val ∧ (i 0).val < win3_8.index t (0 : Fin 2) * 2000 + 2000; omega
  | ⟨1, _⟩ => show win3_8.index t (1 : Fin 2) * 128 ≤ (i 1).val ∧ (i 1).val < win3_8.index t (1 : Fin 2) * 128 + 128; omega

theorem val3R (c : Dev nD) : (dat3 (F := Ideal) V c).arrAt 8 cfg3.N = G3 V c :=
  (dat3 V c).arrAt_eq_of_cover 8 (G3 V c) (fun t _ => flushed3_8_eq V c t) cover3

theorem val3 (c : Dev nD) : (dat3 (F := Ideal) V c).arrAt 8 cfg3.N
    = Cert.Spec.outp (V c main_v6) (V c main_arg2) (V c main_arg23) (V c main_arg24) (V c main_arg25) (V c main_arg26) (V c main_arg27) (V c main_arg28) :=
  (val3R V c).trans (outpR_eq3 _ _ _ _ _ _ _ _).symm

end Cert.KernelIdeal.Hand

end
-- ==== Proof.KI.Val6.lean ====
import proofs.«406288_j68358699483732_1_alg».proof.Proof.KI.Stage4b
import proofs.«406288_j68358699483732_1_alg».proof.Proof.KI.Val3

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

abbrev G6 (c : Dev nD) : RM 50000 128 :=
  outpR (V c main_v11) (V c main_arg2) (V c main_arg23) (V c main_arg24) (V c main_arg25) (V c main_arg26) (V c main_arg27) (V c main_arg28)

theorem whole6_2 (c : Dev nD) (t : Fin cfg6.N) : (iblk6 V c 2 t : Vec Ideal S128x128 .f32) = V c main_arg23 := whole3_2 V c t
theorem whole6_4 (c : Dev nD) (t : Fin cfg6.N) : (iblk6 V c 4 t : Vec Ideal S256x128 .f32) = V c main_arg25 := whole3_4 V c t
theorem whole6_3 (c : Dev nD) (t : Fin cfg6.N) : (iblk6 V c 3 t : Vec Ideal S128 .f32) = V c main_arg24 := whole3_3 V c t
theorem whole6_5 (c : Dev nD) (t : Fin cfg6.N) : (iblk6 V c 5 t : Vec Ideal S128 .f32) = V c main_arg26 := whole3_5 V c t
theorem whole6_6 (c : Dev nD) (t : Fin cfg6.N) : (iblk6 V c 6 t : Vec Ideal S128 .f32) = V c main_arg27 := whole3_6 V c t
theorem whole6_7 (c : Dev nD) (t : Fin cfg6.N) : (iblk6 V c 7 t : Vec Ideal S128 .f32) = V c main_arg28 := whole3_7 V c t

theorem flushed6_8_eq (c : Dev nD) (t : Fin cfg6.N) :
    (dat6 (F := Ideal) V c).flushed 8 t = ((cfg6.win 8).blk t).view.read (Elt Ideal) (G6 V c) := by
  show (cfg6.win 8).cut (grid6.coords t) ((dat6 V c).after 8 t) = _
  rw [after6_8, whole6_2, whole6_3, whole6_4, whole6_5, whole6_6, whole6_7]
  exact out_cut_eq (V c main_v11) (V c main_arg2) _ _ _ _ _ _ t

theorem val6R (c : Dev nD) : (dat6 (F := Ideal) V c).arrAt 8 cfg6.N = G6 V c :=
  (dat6 V c).arrAt_eq_of_cover 8 (G6 V c) (fun t _ => flushed6_8_eq V c t) fun i => cover3 i

theorem val6 (c : Dev nD) : (dat6 (F := Ideal) V c).arrAt 8 cfg6.N
    = Cert.Spec.outp (V c main_v11) (V c main_arg2) (V c main_arg23) (V c main_arg24) (V c main_arg25) (V c main_arg26) (V c main_arg27) (V c main_arg28) :=
  (val6R V c).trans (outpR_eq3 _ _ _ _ _ _ _ _).symm

end Cert.KernelIdeal.Hand

end
-- ==== Proof.KI.Value.lean ====
import proofs.«406288_j68358699483732_1_alg».proof.Proof.KI.Run
import proofs.«406288_j68358699483732_1_alg».proof.Proof.KI.Glue
import proofs.«406288_j68358699483732_1_alg».proof.Proof.KI.Val0
import proofs.«406288_j68358699483732_1_alg».proof.Proof.KI.Vals
import proofs.«406288_j68358699483732_1_alg».proof.Proof.KI.Val3
import proofs.«406288_j68358699483732_1_alg».proof.Proof.KI.Val6
import proofs.«406288_j68358699483732_1_alg».proof.Proof.Spec

set_option maxRecDepth 16384

noncomputable section
namespace Cert.KernelIdeal.Hand

open Cert.KernelIdeal Cert.KernelIdeal.Gen
open Idealize.ShloMosaic Idealize.ShloMosaic.TcCoe
open Idealize.SL.Sem

section Value

variable (m : (ℓ : Loc nD τ sig) → Buf (Elt Ideal) ℓ) (c : Dev nD)

abbrev kvOf : Cert.Spec.Mat 50000 256 :=
  Cert.Spec.lin (m ((c : Thread nD τ).loc main_arg2))
    (Cert.Spec.catCols (m ((c : Thread nD τ).loc main_arg19)) (m ((c : Thread nD τ).loc main_arg21)))
    (Cert.Spec.catRow (m ((c : Thread nD τ).loc main_arg20)) (m ((c : Thread nD τ).loc main_arg22)))
abbrev qOf : Cert.Spec.Mat 50000 128 :=
  Cert.Spec.lin (m ((c : Thread nD τ).loc main_arg2)) (m ((c : Thread nD τ).loc main_arg17))
    (m ((c : Thread nD τ).loc main_arg18))

-- One edge type's pass of the launch memory's arguments, at given index words and edge features; edge types 0 and 1.
abbrev passWith (src dst : IVec ⟨1, ![800000]⟩ 32) (feat : Cert.Spec.Mat 800000 2) : Cert.Spec.Mat 50000 128 :=
  Cert.Spec.passOf (m ((c : Thread nD τ).loc main_arg2)) (m ((c : Thread nD τ).loc main_arg19)) (m ((c : Thread nD τ).loc main_arg21)) (m ((c : Thread nD τ).loc main_arg17)) (m ((c : Thread nD τ).loc main_arg20)) (m ((c : Thread nD τ).loc main_arg22)) (m ((c : Thread nD τ).loc main_arg18))
    src dst feat (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28))
abbrev pass0 : Cert.Spec.Mat 50000 128 := passWith m c (m ((c : Thread nD τ).loc main_arg29)) (m ((c : Thread nD τ).loc main_arg30)) (m ((c : Thread nD τ).loc main_arg3))
abbrev pass1 : Cert.Spec.Mat 50000 128 := passWith m c (m ((c : Thread nD τ).loc main_arg31)) (m ((c : Thread nD τ).loc main_arg32)) (m ((c : Thread nD τ).loc main_arg4))

theorem in0_v0 : (Bin0 m c (Proc.devRef .tc main_v0) : Cert.Spec.Mat 256 256)
    = Cert.Spec.catCols (m ((c : Thread nD τ).loc main_arg19)) (m ((c : Thread nD τ).loc main_arg21)) :=
  after_hostOps0_v0 (Bstart m c)

theorem in0_v1 : (Bin0 m c (Proc.devRef .tc main_v1) : Cert.Spec.Row 256)
    = Cert.Spec.catRow (m ((c : Thread nD τ).loc main_arg20)) (m ((c : Thread nD τ).loc main_arg22)) :=
  after_hostOps0_v1 (Bstart m c)

theorem out0_kv : (Bout0 m c (Proc.devRef .tc main_v2_0) : Cert.Spec.Mat 50000 256) = kvOf m c := by
  have h := (Bout0_arr m c 5).trans (val0_kv (Ein0 m) c)
  rw [show Ein0 m c main_arg2 = m ((c : Thread nD τ).loc main_arg2) from in0_keep m c main_arg2 (by decide),
    show Ein0 m c main_v0 = _ from in0_v0 m c, show Ein0 m c main_v1 = _ from in0_v1 m c] at h
  exact h

theorem out0_q : (Bout0 m c (Proc.devRef .tc main_v2_1) : Cert.Spec.Mat 50000 128) = qOf m c := by
  have h := (Bout0_arr m c 6).trans (val0_q (Ein0 m) c)
  rw [show Ein0 m c main_arg2 = m ((c : Thread nD τ).loc main_arg2) from in0_keep m c main_arg2 (by decide),
    show Ein0 m c main_arg17 = m ((c : Thread nD τ).loc main_arg17) from in0_keep m c main_arg17 (by decide),
    show Ein0 m c main_arg18 = m ((c : Thread nD τ).loc main_arg18) from in0_keep m c main_arg18 (by decide)] at h
  exact h

theorem in1_v3 : (Bin1 m c (Proc.devRef .tc main_v3) : Cert.Spec.ICol 800000)
    = Cert.Spec.colOf (m ((c : Thread nD τ).loc main_arg29)) :=
  (after_hostOps1_v3 (Bout0 m c)).trans (congrArg Cert.Spec.colOf (out0_keep m c main_arg29 (by decide)))

theorem in1_v4 : (Bin1 m c (Proc.devRef .tc main_v4) : Cert.Spec.ICol 800000)
    = Cert.Spec.colOf (m ((c : Thread nD τ).loc main_arg30)) :=
  (after_hostOps1_v4 (Bout0 m c)).trans (congrArg Cert.Spec.colOf (out0_keep m c main_arg30 (by decide)))

theorem in1_kv : (Bin1 m c (Proc.devRef .tc main_v2_0) : Cert.Spec.Mat 50000 256) = kvOf m c :=
  (StableHlo.after_of_writes_sub hostOps1 _ hostOps1_writes (by decide)).trans (out0_kv m c)

theorem in1_q : (Bin1 m c (Proc.devRef .tc main_v2_1) : Cert.Spec.Mat 50000 128) = qOf m c :=
  (StableHlo.after_of_writes_sub hostOps1 _ hostOps1_writes (by decide)).trans (out0_q m c)

theorem out1_v5 : (Bout1 m c (Proc.devRef .tc main_v5) : Cert.Spec.Mat 800000 256)
    = Cert.Spec.payload (Cert.Spec.colOf (m ((c : Thread nD τ).loc main_arg29)))
        (Cert.Spec.colOf (m ((c : Thread nD τ).loc main_arg30))) (m ((c : Thread nD τ).loc main_arg3))
        (kvOf m c) (qOf m c) := by
  have h := (Bout1_arr m c 5).trans (val1 (Ein1 m) c)
  rw [show Ein1 m c main_v3 = _ from in1_v3 m c, show Ein1 m c main_v4 = _ from in1_v4 m c,
    show Ein1 m c main_arg3 = m ((c : Thread nD τ).loc main_arg3) from in1_keep m c main_arg3 (by decide),
    show Ein1 m c main_v2_0 = _ from in1_kv m c, show Ein1 m c main_v2_1 = _ from in1_q m c] at h
  exact h

theorem out1_v4 : (Bout1 m c (Proc.devRef .tc main_v4) : Cert.Spec.ICol 800000)
    = Cert.Spec.colOf (m ((c : Thread nD τ).loc main_arg30)) :=
  (keep1 m c main_v4 (by decide)).trans (in1_v4 m c)

theorem out2_v6 : (Bout2 m c (Proc.devRef .tc main_v6) : Cert.Spec.Mat 50000 256)
    = Cert.Spec.scat (Cert.Spec.colOf (m ((c : Thread nD τ).loc main_arg30)))
        (Cert.Spec.payload (Cert.Spec.colOf (m ((c : Thread nD τ).loc main_arg29)))
          (Cert.Spec.colOf (m ((c : Thread nD τ).loc main_arg30))) (m ((c : Thread nD τ).loc main_arg3))
          (kvOf m c) (qOf m c)) := by
  have h := (Bout2_arr m c 2).trans (val2 (Ein2 m) c)
  rw [show Ein2 m c main_v4 = _ from out1_v4 m c, show Ein2 m c main_v5 = _ from out1_v5 m c] at h
  exact h

theorem out3_v7 : (Bout3 m c (Proc.devRef .tc main_v7) : Cert.Spec.Mat 50000 128)
    = pass0 m c := by
  have h := (Bout3_arr m c 8).trans (val3 (Ein3 m) c)
  rw [show Ein3 m c main_v6 = _ from out2_v6 m c,
    show Ein3 m c main_arg2 = m ((c : Thread nD τ).loc main_arg2) from out2_keep m c main_arg2 (by decide),
    show Ein3 m c main_arg23 = m ((c : Thread nD τ).loc main_arg23) from out2_keep m c main_arg23 (by decide),
    show Ein3 m c main_arg24 = m ((c : Thread nD τ).loc main_arg24) from out2_keep m c main_arg24 (by decide),
    show Ein3 m c main_arg25 = m ((c : Thread nD τ).loc main_arg25) from out2_keep m c main_arg25 (by decide),
    show Ein3 m c main_arg26 = m ((c : Thread nD τ).loc main_arg26) from out2_keep m c main_arg26 (by decide),
    show Ein3 m c main_arg27 = m ((c : Thread nD τ).loc main_arg27) from out2_keep m c main_arg27 (by decide),
    show Ein3 m c main_arg28 = m ((c : Thread nD τ).loc main_arg28) from out2_keep m c main_arg28 (by decide)] at h
  exact h

theorem res0 : (Bout6 m c (Proc.devRef .tc main_v7) : Cert.Spec.Mat 50000 128)
    = pass0 m c :=
  (keep6 m c main_v7 (by decide)).trans <| (keep5 m c main_v7 (by decide)).trans <|
    (keep4 m c main_v7 (by decide)).trans <|
      (StableHlo.after_of_writes_sub hostOps4 _ hostOps4_writes (by decide)).trans (out3_v7 m c)

theorem out3_kv : (Bout3 m c (Proc.devRef .tc main_v2_0) : Cert.Spec.Mat 50000 256) = kvOf m c :=
  (keep3 m c main_v2_0 (by decide)).trans <| (keep2 m c main_v2_0 (by decide)).trans <|
    (keep1 m c main_v2_0 (by decide)).trans (in1_kv m c)

theorem out3_q : (Bout3 m c (Proc.devRef .tc main_v2_1) : Cert.Spec.Mat 50000 128) = qOf m c :=
  (keep3 m c main_v2_1 (by decide)).trans <| (keep2 m c main_v2_1 (by decide)).trans <|
    (keep1 m c main_v2_1 (by decide)).trans (in1_q m c)

theorem in4_v8 : (Bin4 m c (Proc.devRef .tc main_v8) : Cert.Spec.ICol 800000)
    = Cert.Spec.colOf (m ((c : Thread nD τ).loc main_arg31)) :=
  (after_hostOps4_v8 (Bout3 m c)).trans (congrArg Cert.Spec.colOf (out3_keep m c main_arg31 (by decide)))

theorem in4_v9 : (Bin4 m c (Proc.devRef .tc main_v9) : Cert.Spec.ICol 800000)
    = Cert.Spec.colOf (m ((c : Thread nD τ).loc main_arg32)) :=
  (after_hostOps4_v9 (Bout3 m c)).trans (congrArg Cert.Spec.colOf (out3_keep m c main_arg32 (by decide)))

theorem in4_kv : (Bin4 m c (Proc.devRef .tc main_v2_0) : Cert.Spec.Mat 50000 256) = kvOf m c :=
  (StableHlo.after_of_writes_sub hostOps4 _ hostOps4_writes (by decide)).trans (out3_kv m c)

theorem in4_q : (Bin4 m c (Proc.devRef .tc main_v2_1) : Cert.Spec.Mat 50000 128) = qOf m c :=
  (StableHlo.after_of_writes_sub hostOps4 _ hostOps4_writes (by decide)).trans (out3_q m c)

theorem out4_v10 : (Bout4 m c (Proc.devRef .tc main_v10) : Cert.Spec.Mat 800000 256)
    = Cert.Spec.payload (Cert.Spec.colOf (m ((c : Thread nD τ).loc main_arg31)))
        (Cert.Spec.colOf (m ((c : Thread nD τ).loc main_arg32))) (m ((c : Thread nD τ).loc main_arg4))
        (kvOf m c) (qOf m c) := by
  have h := (Bout4_arr m c 5).trans (val4 (Ein4 m) c)
  rw [show Ein4 m c main_v8 = _ from in4_v8 m c, show Ein4 m c main_v9 = _ from in4_v9 m c,
    show Ein4 m c main_arg4 = m ((c : Thread nD τ).loc main_arg4) from in4_keep m c main_arg4 (by decide),
    show Ein4 m c main_v2_0 = _ from in4_kv m c, show Ein4 m c main_v2_1 = _ from in4_q m c] at h
  exact h

theorem out4_v9 : (Bout4 m c (Proc.devRef .tc main_v9) : Cert.Spec.ICol 800000)
    = Cert.Spec.colOf (m ((c : Thread nD τ).loc main_arg32)) :=
  (keep4 m c main_v9 (by decide)).trans (in4_v9 m c)

theorem out5_v11 : (Bout5 m c (Proc.devRef .tc main_v11) : Cert.Spec.Mat 50000 256)
    = Cert.Spec.scat (Cert.Spec.colOf (m ((c : Thread nD τ).loc main_arg32)))
        (Cert.Spec.payload (Cert.Spec.colOf (m ((c : Thread nD τ).loc main_arg31)))
          (Cert.Spec.colOf (m ((c : Thread nD τ).loc main_arg32))) (m ((c : Thread nD τ).loc main_arg4))
          (kvOf m c) (qOf m c)) := by
  have h := (Bout5_arr m c 2).trans (val5 (Ein5 m) c)
  rw [show Ein5 m c main_v9 = _ from out4_v9 m c, show Ein5 m c main_v10 = _ from out4_v10 m c] at h
  exact h

theorem res1 : (Bout6 m c (Proc.devRef .tc main_v12) : Cert.Spec.Mat 50000 128)
    = pass1 m c := by
  have h := (Bout6_arr m c 8).trans (val6 (Ein6 m) c)
  rw [show Ein6 m c main_v11 = _ from out5_v11 m c,
    show Ein6 m c main_arg2 = m ((c : Thread nD τ).loc main_arg2) from out5_keep m c main_arg2 (by decide),
    show Ein6 m c main_arg23 = m ((c : Thread nD τ).loc main_arg23) from out5_keep m c main_arg23 (by decide),
    show Ein6 m c main_arg24 = m ((c : Thread nD τ).loc main_arg24) from out5_keep m c main_arg24 (by decide),
    show Ein6 m c main_arg25 = m ((c : Thread nD τ).loc main_arg25) from out5_keep m c main_arg25 (by decide),
    show Ein6 m c main_arg26 = m ((c : Thread nD τ).loc main_arg26) from out5_keep m c main_arg26 (by decide),
    show Ein6 m c main_arg27 = m ((c : Thread nD τ).loc main_arg27) from out5_keep m c main_arg27 (by decide),
    show Ein6 m c main_arg28 = m ((c : Thread nD τ).loc main_arg28) from out5_keep m c main_arg28 (by decide)] at h
  exact h

end Value

-- The run over the extended reals: each result array ends at its edge type's pass, and what no item writes ends as launched.
theorem value_all (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = pass0 m c ∧ r.2.mem ((c.tc : Thread nD τ).loc main_v12) = pass1 m c
      ∧ ∀ b : Ref sig .tc, ¬(Proc.devRef .tc b : DevRef τ sig).isScoped → b ∉ (written : List (Ref sig .tc)) →
        r.2.mem ((c.tc : Thread nD τ).loc b) = m ((c.tc : Thread nD τ).loc b)) :=
  (θ_run defs _ _).mono (fun r h c =>
    ⟨(h c _ (mem_uc main_v7 (by decide))).trans (res0 m c), (h c _ (mem_uc main_v12 (by decide))).trans (res1 m c),
      fun b hs hw => (h c _ (mem_uc b hs)).trans (out6_keep m c b hw)⟩) (run_all m ρ)

end Cert.KernelIdeal.Hand

end
-- ==== Proof.Ref.RunHOps01.lean ====
import proofs.«406288_j68358699483732_1_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Operations 0 to 44 of @main, in order. -/
abbrev ops01 : List (HloOp τ sig (Elt F)) :=
  [ binary main_arg0 main_arg5 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v1 (broadcastInDim S1x128 ![1] bcast_S128_S1x128_1 : (⟨S128, .f32⟩ : BufTy).Contents (Elt F) → (⟨S1x128, .f32⟩ : BufTy).Contents (Elt F)),
    unary main_v1 main_v2 (broadcastInDim S50000x128 ![0, 1] bcast_S1x128_S50000x128_0_1 : (⟨S1x128, .f32⟩ : BufTy).Contents (Elt F) → (⟨S50000x128, .f32⟩ : BufTy).Contents (Elt F)),
    binary main_v0 main_v2 main_v3 (addf : (⟨S50000x128, .f32⟩ : BufTy).Contents (Elt F) → (⟨S50000x128, .f32⟩ : BufTy).Contents (Elt F) → (⟨S50000x128, .f32⟩ : BufTy).Contents (Elt F)),
    reshape main_v3 main_v4 rfl shapeCasts_S50000x128_S50000x4x32,
    binary main_arg1 main_arg5 main_v5 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v6 (broadcastInDim S1x128 ![1] bcast_S128_S1x128_1 : (⟨S128, .f32⟩ : BufTy).Contents (Elt F) → (⟨S1x128, .f32⟩ : BufTy).Contents (Elt F)),
    unary main_v6 main_v7 (broadcastInDim S50000x128 ![0, 1] bcast_S1x128_S50000x128_0_1 : (⟨S1x128, .f32⟩ : BufTy).Contents (Elt F) → (⟨S50000x128, .f32⟩ : BufTy).Contents (Elt F)),
    binary main_v5 main_v7 main_v8 (addf : (⟨S50000x128, .f32⟩ : BufTy).Contents (Elt F) → (⟨S50000x128, .f32⟩ : BufTy).Contents (Elt F) → (⟨S50000x128, .f32⟩ : BufTy).Contents (Elt F)),
    reshape main_v8 main_v9 rfl shapeCasts_S50000x128_S50000x4x32,
    binary main_arg0 main_arg7 main_v10 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg8 main_v11 (broadcastInDim S1x128 ![1] bcast_S128_S1x128_1 : (⟨S128, .f32⟩ : BufTy).Contents (Elt F) → (⟨S1x128, .f32⟩ : BufTy).Contents (Elt F)),
    unary main_v11 main_v12 (broadcastInDim S50000x128 ![0, 1] bcast_S1x128_S50000x128_0_1 : (⟨S1x128, .f32⟩ : BufTy).Contents (Elt F) → (⟨S50000x128, .f32⟩ : BufTy).Contents (Elt F)),
    binary main_v10 main_v12 main_v13 (addf : (⟨S50000x128, .f32⟩ : BufTy).Contents (Elt F) → (⟨S50000x128, .f32⟩ : BufTy).Contents (Elt F) → (⟨S50000x128, .f32⟩ : BufTy).Contents (Elt F)),
    reshape main_v13 main_v14 rfl shapeCasts_S50000x128_S50000x4x32,
    binary main_arg1 main_arg7 main_v15 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg8 main_v16 (broadcastInDim S1x128 ![1] bcast_S128_S1x128_1 : (⟨S128, .f32⟩ : BufTy).Contents (Elt F) → (⟨S1x128, .f32⟩ : BufTy).Contents (Elt F)),
    unary main_v16 main_v17 (broadcastInDim S50000x128 ![0, 1] bcast_S1x128_S50000x128_0_1 : (⟨S1x128, .f32⟩ : BufTy).Contents (Elt F) → (⟨S50000x128, .f32⟩ : BufTy).Contents (Elt F)),
    binary main_v15 main_v17 main_v18 (addf : (⟨S50000x128, .f32⟩ : BufTy).Contents (Elt F) → (⟨S50000x128, .f32⟩ : BufTy).Contents (Elt F) → (⟨S50000x128, .f32⟩ : BufTy).Contents (Elt F)),
    reshape main_v18 main_v19 rfl shapeCasts_S50000x128_S50000x4x32,
    binary main_arg0 main_arg9 main_v20 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v21 (broadcastInDim S1x128 ![1] bcast_S128_S1x128_1 : (⟨S128, .f32⟩ : BufTy).Contents (Elt F) → (⟨S1x128, .f32⟩ : BufTy).Contents (Elt F)),
    unary main_v21 main_v22 (broadcastInDim S50000x128 ![0, 1] bcast_S1x128_S50000x128_0_1 : (⟨S1x128, .f32⟩ : BufTy).Contents (Elt F) → (⟨S50000x128, .f32⟩ : BufTy).Contents (Elt F)),
    binary main_v20 main_v22 main_v23 (addf : (⟨S50000x128, .f32⟩ : BufTy).Contents (Elt F) → (⟨S50000x128, .f32⟩ : BufTy).Contents (Elt F) → (⟨S50000x128, .f32⟩ : BufTy).Contents (Elt F)),
    reshape main_v23 main_v24 rfl shapeCasts_S50000x128_S50000x4x32,
    binary main_arg1 main_arg9 main_v25 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v26 (broadcastInDim S1x128 ![1] bcast_S128_S1x128_1 : (⟨S128, .f32⟩ : BufTy).Contents (Elt F) → (⟨S1x128, .f32⟩ : BufTy).Contents (Elt F)),
    unary main_v26 main_v27 (broadcastInDim S50000x128 ![0, 1] bcast_S1x128_S50000x128_0_1 : (⟨S1x128, .f32⟩ : BufTy).Contents (Elt F) → (⟨S50000x128, .f32⟩ : BufTy).Contents (Elt F)),
    binary main_v25 main_v27 main_v28 (addf : (⟨S50000x128, .f32⟩ : BufTy).Contents (Elt F) → (⟨S50000x128, .f32⟩ : BufTy).Contents (Elt F) → (⟨S50000x128, .f32⟩ : BufTy).Contents (Elt F)),
    reshape main_v28 main_v29 rfl shapeCasts_S50000x128_S50000x4x32,
    binary main_arg2 main_arg17 main_v30 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg18 main_v31 (broadcastInDim S1x128 ![1] bcast_S128_S1x128_1 : (⟨S128, .f32⟩ : BufTy).Contents (Elt F) → (⟨S1x128, .f32⟩ : BufTy).Contents (Elt F)),
    unary main_v31 main_v32 (broadcastInDim S50000x128 ![0, 1] bcast_S1x128_S50000x128_0_1 : (⟨S1x128, .f32⟩ : BufTy).Contents (Elt F) → (⟨S50000x128, .f32⟩ : BufTy).Contents (Elt F)),
    binary main_v30 main_v32 main_v33 (addf : (⟨S50000x128, .f32⟩ : BufTy).Contents (Elt F) → (⟨S50000x128, .f32⟩ : BufTy).Contents (Elt F) → (⟨S50000x128, .f32⟩ : BufTy).Contents (Elt F)),
    reshape main_v33 main_v34 rfl shapeCasts_S50000x128_S50000x4x32,
    binary main_arg2 main_arg19 main_v35 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg20 main_v36 (broadcastInDim S1x128 ![1] bcast_S128_S1x128_1 : (⟨S128, .f32⟩ : BufTy).Contents (Elt F) → (⟨S1x128, .f32⟩ : BufTy).Contents (Elt F)),
    unary main_v36 main_v37 (broadcastInDim S50000x128 ![0, 1] bcast_S1x128_S50000x128_0_1 : (⟨S1x128, .f32⟩ : BufTy).Contents (Elt F) → (⟨S50000x128, .f32⟩ : BufTy).Contents (Elt F)),
    binary main_v35 main_v37 main_v38 (addf : (⟨S50000x128, .f32⟩ : BufTy).Contents (Elt F) → (⟨S50000x128, .f32⟩ : BufTy).Contents (Elt F) → (⟨S50000x128, .f32⟩ : BufTy).Contents (Elt F)),
    reshape main_v38 main_v39 rfl shapeCasts_S50000x128_S50000x4x32,
    binary main_arg2 main_arg21 main_v40 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg22 main_v41 (broadcastInDim S1x128 ![1] bcast_S128_S1x128_1 : (⟨S128, .f32⟩ : BufTy).Contents (Elt F) → (⟨S1x128, .f32⟩ : BufTy).Contents (Elt F)),
    unary main_v41 main_v42 (broadcastInDim S50000x128 ![0, 1] bcast_S1x128_S50000x128_0_1 : (⟨S1x128, .f32⟩ : BufTy).Contents (Elt F) → (⟨S50000x128, .f32⟩ : BufTy).Contents (Elt F)),
    binary main_v40 main_v42 main_v43 (addf : (⟨S50000x128, .f32⟩ : BufTy).Contents (Elt F) → (⟨S50000x128, .f32⟩ : BufTy).Contents (Elt F) → (⟨S50000x128, .f32⟩ : BufTy).Contents (Elt F)),
    reshape main_v43 main_v44 rfl shapeCasts_S50000x128_S50000x4x32 ]

set_option maxRecDepth 8192 in
/-- Every buffer they touch is a TensorCore reference. -/
theorem ops01_sub : (ops01 : List (HloOp τ sig (Elt F))).Forall fun op => op.bufs ⊆ tcRefs τ sig :=
  ⟨binary_bufs_sub .., unary_bufs_sub .., unary_bufs_sub .., binary_bufs_sub .., reshape_bufs_sub .., binary_bufs_sub .., unary_bufs_sub .., unary_bufs_sub .., binary_bufs_sub .., reshape_bufs_sub .., binary_bufs_sub .., unary_bufs_sub .., unary_bufs_sub .., binary_bufs_sub .., reshape_bufs_sub .., binary_bufs_sub .., unary_bufs_sub .., unary_bufs_sub .., binary_bufs_sub .., reshape_bufs_sub .., binary_bufs_sub .., unary_bufs_sub .., unary_bufs_sub .., binary_bufs_sub .., reshape_bufs_sub .., binary_bufs_sub .., unary_bufs_sub .., unary_bufs_sub .., binary_bufs_sub .., reshape_bufs_sub .., binary_bufs_sub .., unary_bufs_sub .., unary_bufs_sub .., binary_bufs_sub .., reshape_bufs_sub .., binary_bufs_sub .., unary_bufs_sub .., unary_bufs_sub .., binary_bufs_sub .., reshape_bufs_sub .., binary_bufs_sub .., unary_bufs_sub .., unary_bufs_sub .., binary_bufs_sub .., reshape_bufs_sub ..⟩

set_option maxRecDepth 8192 in
/-- Each of them determines its results. -/
theorem ops01_fresh : (ops01 : List (HloOp τ sig (Elt F))).Forall fun op => op.fresh = ∅ := by
  simp only [List.Forall]; repeat' constructor

/-- The references they write. -/
abbrev ops01_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44]

set_option maxRecDepth 8192 in
set_option maxHeartbeats 4000000 in
/-- Every write of theirs is in that list. -/
theorem ops01_writes : (ops01 : List (HloOp τ sig (Elt F))).Forall fun op => op.writes ⊆ (ops01_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [TRef.unary, TRef.binary, nullary_writes, unary_writes, binary_writes, ternary_writes, reshape_writes, Finset.singleton_subset_iff, List.mem_toFinset]; exact List.mem_map_of_mem (by decide))

/-- A reference they do not write keeps its contents. -/
theorem ops01_kept {r : Ref sig .tc} (V : Valuation τ sig (Elt F)) (hr : r ∉ ops01_W) :
    StableHlo.after ops01 V (Proc.devRef .tc r) = V (Proc.devRef .tc r) :=
  after_of_writes_sub ops01 V ops01_writes hr

end Cert.ReferenceIdeal.RunH

end
-- ==== Proof.Ref.RunHOps02.lean ====
import proofs.«406288_j68358699483732_1_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Operations 45 to 98 of @main, in order. -/
abbrev ops02 : List (HloOp τ sig (Elt F)) :=
  [ unary main_arg3 main_v45 ((extractStridedSlice S800000x1 ![0, 0] · slices_S800000x2_S800000x1_0_0) : (⟨S800000x2, .f32⟩ : BufTy).Contents (Elt F) → (⟨S800000x1, .f32⟩ : BufTy).Contents (Elt F)),
    unary main_v45 main_v46 (broadcastInDim S800000x1x1 ![0, 2] bcast_S800000x1_S800000x1x1_0_2 : (⟨S800000x1, .f32⟩ : BufTy).Contents (Elt F) → (⟨S800000x1x1, .f32⟩ : BufTy).Contents (Elt F)),
    nullary main_c (constantI S_ 32 0#32),
    unary main_c main_v47 (broadcastInDim S800000 ![] bcast_S_S800000 : (⟨S_, .i32⟩ : BufTy).Contents (Elt F) → (⟨S800000, .i32⟩ : BufTy).Contents (Elt F)),
    binary main_arg29 main_v47 main_v48 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v49 (broadcastInDim S800000 ![] bcast_S_S800000 : (⟨S_, .i32⟩ : BufTy).Contents (Elt F) → (⟨S800000, .i32⟩ : BufTy).Contents (Elt F)),
    binary main_arg29 main_v49 main_v50 (addi : (⟨S800000, .i32⟩ : BufTy).Contents (Elt F) → (⟨S800000, .i32⟩ : BufTy).Contents (Elt F) → (⟨S800000, .i32⟩ : BufTy).Contents (Elt F)),
    ternary main_v48 main_v50 main_arg29 main_v51 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v51 main_v52 (broadcastInDim S800000x1 ![0] bcast_S800000_S800000x1_0 : (⟨S800000, .i32⟩ : BufTy).Contents (Elt F) → (⟨S800000x1, .i32⟩ : BufTy).Contents (Elt F)),
    binary main_v14 main_v52 main_v53 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)),
    nullary main_c_1 (constantI S_ 32 0#32),
    unary main_c_1 main_v54 (broadcastInDim S800000 ![] bcast_S_S800000 : (⟨S_, .i32⟩ : BufTy).Contents (Elt F) → (⟨S800000, .i32⟩ : BufTy).Contents (Elt F)),
    binary main_arg30 main_v54 main_v55 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v56 (broadcastInDim S800000 ![] bcast_S_S800000 : (⟨S_, .i32⟩ : BufTy).Contents (Elt F) → (⟨S800000, .i32⟩ : BufTy).Contents (Elt F)),
    binary main_arg30 main_v56 main_v57 (addi : (⟨S800000, .i32⟩ : BufTy).Contents (Elt F) → (⟨S800000, .i32⟩ : BufTy).Contents (Elt F) → (⟨S800000, .i32⟩ : BufTy).Contents (Elt F)),
    ternary main_v55 main_v57 main_arg30 main_v58 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v58 main_v59 (broadcastInDim S800000x1 ![0] bcast_S800000_S800000x1_0 : (⟨S800000, .i32⟩ : BufTy).Contents (Elt F) → (⟨S800000x1, .i32⟩ : BufTy).Contents (Elt F)),
    binary main_v4 main_v59 main_v60 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)),
    binary main_v53 main_v60 main_v61 (mulf : (⟨S800000x4x32, .f32⟩ : BufTy).Contents (Elt F) → (⟨S800000x4x32, .f32⟩ : BufTy).Contents (Elt F) → (⟨S800000x4x32, .f32⟩ : BufTy).Contents (Elt F)),
    nullary main_cst (constant S_ .f32 0x00000000#32),
    binary main_v61 main_cst main_v62 ((fun x v => Host.reduceAdd x v reducesTo_S800000x4x32_S800000x4_d2 h_S_) : (⟨S800000x4x32, .f32⟩ : BufTy).Contents (Elt F) → (⟨S_, .f32⟩ : BufTy).Contents (Elt F) → (⟨S800000x4, .f32⟩ : BufTy).Contents (Elt F)),
    unary main_v62 main_v63 (broadcastInDim S800000x4x1 ![0, 1] bcast_S800000x4_S800000x4x1_0_1 : (⟨S800000x4, .f32⟩ : BufTy).Contents (Elt F) → (⟨S800000x4x1, .f32⟩ : BufTy).Contents (Elt F)),
    unary main_v46 main_v64 (broadcastInDim S800000x4x1 ![0, 1, 2] bcast_S800000x1x1_S800000x4x1_0_1_2 : (⟨S800000x1x1, .f32⟩ : BufTy).Contents (Elt F) → (⟨S800000x4x1, .f32⟩ : BufTy).Contents (Elt F)),
    binary main_v63 main_v64 main_v65 (mulf : (⟨S800000x4x1, .f32⟩ : BufTy).Contents (Elt F) → (⟨S800000x4x1, .f32⟩ : BufTy).Contents (Elt F) → (⟨S800000x4x1, .f32⟩ : BufTy).Contents (Elt F)),
    nullary main_c_3 (constantI S_ 32 0#32),
    unary main_c_3 main_v66 (broadcastInDim S800000 ![] bcast_S_S800000 : (⟨S_, .i32⟩ : BufTy).Contents (Elt F) → (⟨S800000, .i32⟩ : BufTy).Contents (Elt F)),
    binary main_arg29 main_v66 main_v67 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v68 (broadcastInDim S800000 ![] bcast_S_S800000 : (⟨S_, .i32⟩ : BufTy).Contents (Elt F) → (⟨S800000, .i32⟩ : BufTy).Contents (Elt F)),
    binary main_arg29 main_v68 main_v69 (addi : (⟨S800000, .i32⟩ : BufTy).Contents (Elt F) → (⟨S800000, .i32⟩ : BufTy).Contents (Elt F) → (⟨S800000, .i32⟩ : BufTy).Contents (Elt F)),
    ternary main_v67 main_v69 main_arg29 main_v70 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v70 main_v71 (broadcastInDim S800000x1 ![0] bcast_S800000_S800000x1_0 : (⟨S800000, .i32⟩ : BufTy).Contents (Elt F) → (⟨S800000x1, .i32⟩ : BufTy).Contents (Elt F)),
    binary main_v39 main_v71 main_v72 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)),
    nullary main_c_5 (constantI S_ 32 0#32),
    unary main_c_5 main_v73 (broadcastInDim S800000 ![] bcast_S_S800000 : (⟨S_, .i32⟩ : BufTy).Contents (Elt F) → (⟨S800000, .i32⟩ : BufTy).Contents (Elt F)),
    binary main_arg30 main_v73 main_v74 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v75 (broadcastInDim S800000 ![] bcast_S_S800000 : (⟨S_, .i32⟩ : BufTy).Contents (Elt F) → (⟨S800000, .i32⟩ : BufTy).Contents (Elt F)),
    binary main_arg30 main_v75 main_v76 (addi : (⟨S800000, .i32⟩ : BufTy).Contents (Elt F) → (⟨S800000, .i32⟩ : BufTy).Contents (Elt F) → (⟨S800000, .i32⟩ : BufTy).Contents (Elt F)),
    ternary main_v74 main_v76 main_arg30 main_v77 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v77 main_v78 (broadcastInDim S800000x1 ![0] bcast_S800000_S800000x1_0 : (⟨S800000, .i32⟩ : BufTy).Contents (Elt F) → (⟨S800000x1, .i32⟩ : BufTy).Contents (Elt F)),
    binary main_v34 main_v78 main_v79 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)),
    binary main_v72 main_v79 main_v80 (mulf : (⟨S800000x4x32, .f32⟩ : BufTy).Contents (Elt F) → (⟨S800000x4x32, .f32⟩ : BufTy).Contents (Elt F) → (⟨S800000x4x32, .f32⟩ : BufTy).Contents (Elt F)),
    nullary main_cst_7 (constant S_ .f32 0x00000000#32),
    binary main_v80 main_cst_7 main_v81 ((fun x v => Host.reduceAdd x v reducesTo_S800000x4x32_S800000x4_d2 h_S_) : (⟨S800000x4x32, .f32⟩ : BufTy).Contents (Elt F) → (⟨S_, .f32⟩ : BufTy).Contents (Elt F) → (⟨S800000x4, .f32⟩ : BufTy).Contents (Elt F)),
    unary main_v81 main_v82 (broadcastInDim S800000x4x1 ![0, 1] bcast_S800000x4_S800000x4x1_0_1 : (⟨S800000x4, .f32⟩ : BufTy).Contents (Elt F) → (⟨S800000x4x1, .f32⟩ : BufTy).Contents (Elt F)),
    unary main_v46 main_v83 (broadcastInDim S800000x4x1 ![0, 1, 2] bcast_S800000x1x1_S800000x4x1_0_1_2 : (⟨S800000x1x1, .f32⟩ : BufTy).Contents (Elt F) → (⟨S800000x4x1, .f32⟩ : BufTy).Contents (Elt F)),
    binary main_v82 main_v83 main_v84 (mulf : (⟨S800000x4x1, .f32⟩ : BufTy).Contents (Elt F) → (⟨S800000x4x1, .f32⟩ : BufTy).Contents (Elt F) → (⟨S800000x4x1, .f32⟩ : BufTy).Contents (Elt F)),
    nullary main_cst_8 (constant S_ .f32 0x3DB504F3#32),
    unary main_cst_8 main_v85 (broadcastInDim S800000x4x1 ![] bcast_S_S800000x4x1 : (⟨S_, .f32⟩ : BufTy).Contents (Elt F) → (⟨S800000x4x1, .f32⟩ : BufTy).Contents (Elt F)),
    binary main_v65 main_v85 main_v86 (mulf : (⟨S800000x4x1, .f32⟩ : BufTy).Contents (Elt F) → (⟨S800000x4x1, .f32⟩ : BufTy).Contents (Elt F) → (⟨S800000x4x1, .f32⟩ : BufTy).Contents (Elt F)),
    nullary main_cst_9 (constant S_ .f32 0xC0A00000#32) ]

set_option maxRecDepth 8192 in
/-- Every buffer they touch is a TensorCore reference. -/
theorem ops02_sub : (ops02 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., binary_bufs_sub .., nullary_bufs_sub .., unary_bufs_sub .., binary_bufs_sub .., nullary_bufs_sub ..⟩

set_option maxRecDepth 8192 in
/-- Each of them determines its results. -/
theorem ops02_fresh : (ops02 : List (HloOp τ sig (Elt F))).Forall fun op => op.fresh = ∅ := by
  simp only [List.Forall]; repeat' constructor

/-- The references they write. -/
abbrev ops02_W : List (Ref sig .tc) := [main_v45, main_v46, main_c, main_v47, main_v48, main_c_0, main_v49, main_v50, main_v51, main_v52, main_v53, main_c_1, main_v54, main_v55, main_c_2, main_v56, main_v57, main_v58, main_v59, main_v60, main_v61, main_cst, main_v62, main_v63, main_v64, main_v65, main_c_3, main_v66, main_v67, main_c_4, main_v68, main_v69, main_v70, main_v71, main_v72, main_c_5, main_v73, main_v74, main_c_6, main_v75, main_v76, main_v77, main_v78, main_v79, main_v80, main_cst_7, main_v81, main_v82, main_v83, main_v84, main_cst_8, main_v85, main_v86, main_cst_9]

set_option maxRecDepth 8192 in
set_option maxHeartbeats 4000000 in
/-- Every write of theirs is in that list. -/
theorem ops02_writes : (ops02 : List (HloOp τ sig (Elt F))).Forall fun op => op.writes ⊆ (ops02_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [TRef.unary, TRef.binary, nullary_writes, unary_writes, binary_writes, ternary_writes, reshape_writes, Finset.singleton_subset_iff, List.mem_toFinset]; exact List.mem_map_of_mem (by decide))

/-- A reference they do not write keeps its contents. -/
theorem ops02_kept {r : Ref sig .tc} (V : Valuation τ sig (Elt F)) (hr : r ∉ ops02_W) :
    StableHlo.after ops02 V (Proc.devRef .tc r) = V (Proc.devRef .tc r) :=
  after_of_writes_sub ops02 V ops02_writes hr

end Cert.ReferenceIdeal.RunH

end
-- ==== Proof.Ref.RunHOps03.lean ====
import proofs.«406288_j68358699483732_1_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Operations 99 to 118 of @main, in order. -/
abbrev ops03 : List (HloOp τ sig (Elt F)) :=
  [ nullary main_cst_10 (constant S_ .f32 0x40A00000#32),
    TRef.unary (TRef.of (T := ⟨S_, .f32⟩) main_cst_9) (TRef.of (T := ⟨S_, .f32⟩) main_call0_v0) id,
    TRef.unary (TRef.of (T := ⟨S_, .f32⟩) main_call0_v0) (TRef.of (T := ⟨S800000x4x1, .f32⟩) main_call0_v1) (broadcastInDim S800000x4x1 ![] bcast_S_S800000x4x1),
    TRef.binary (TRef.of (T := ⟨S800000x4x1, .f32⟩) main_call0_v1) (TRef.of (T := ⟨S800000x4x1, .f32⟩) main_v86) (TRef.of (T := ⟨S800000x4x1, .f32⟩) main_call0_v2) maximumf,
    TRef.unary (TRef.of (T := ⟨S_, .f32⟩) main_cst_10) (TRef.of (T := ⟨S_, .f32⟩) main_call0_v3) id,
    TRef.unary (TRef.of (T := ⟨S_, .f32⟩) main_call0_v3) (TRef.of (T := ⟨S800000x4x1, .f32⟩) main_call0_v4) (broadcastInDim S800000x4x1 ![] bcast_S_S800000x4x1),
    TRef.binary (TRef.of (T := ⟨S800000x4x1, .f32⟩) main_call0_v4) (TRef.of (T := ⟨S800000x4x1, .f32⟩) main_call0_v2) (TRef.of (T := ⟨S800000x4x1, .f32⟩) main_v87) minimumf,
    unary main_v87 main_v88 (Host.exp : (⟨S800000x4x1, .f32⟩ : BufTy).Contents (Elt F) → (⟨S800000x4x1, .f32⟩ : BufTy).Contents (Elt F)),
    nullary main_cst_11 (constant S_ .f32 0x3DB504F3#32),
    unary main_cst_11 main_v89 (broadcastInDim S800000x4x1 ![] bcast_S_S800000x4x1 : (⟨S_, .f32⟩ : BufTy).Contents (Elt F) → (⟨S800000x4x1, .f32⟩ : BufTy).Contents (Elt F)),
    binary main_v84 main_v89 main_v90 (mulf : (⟨S800000x4x1, .f32⟩ : BufTy).Contents (Elt F) → (⟨S800000x4x1, .f32⟩ : BufTy).Contents (Elt F) → (⟨S800000x4x1, .f32⟩ : BufTy).Contents (Elt F)),
    nullary main_cst_12 (constant S_ .f32 0xC0A00000#32),
    nullary main_cst_13 (constant S_ .f32 0x40A00000#32),
    TRef.unary (TRef.of (T := ⟨S_, .f32⟩) main_cst_12) (TRef.of (T := ⟨S_, .f32⟩) main_call1_v0) id,
    TRef.unary (TRef.of (T := ⟨S_, .f32⟩) main_call1_v0) (TRef.of (T := ⟨S800000x4x1, .f32⟩) main_call1_v1) (broadcastInDim S800000x4x1 ![] bcast_S_S800000x4x1),
    TRef.binary (TRef.of (T := ⟨S800000x4x1, .f32⟩) main_call1_v1) (TRef.of (T := ⟨S800000x4x1, .f32⟩) main_v90) (TRef.of (T := ⟨S800000x4x1, .f32⟩) main_call1_v2) maximumf,
    TRef.unary (TRef.of (T := ⟨S_, .f32⟩) main_cst_13) (TRef.of (T := ⟨S_, .f32⟩) main_call1_v3) id,
    TRef.unary (TRef.of (T := ⟨S_, .f32⟩) main_call1_v3) (TRef.of (T := ⟨S800000x4x1, .f32⟩) main_call1_v4) (broadcastInDim S800000x4x1 ![] bcast_S_S800000x4x1),
    TRef.binary (TRef.of (T := ⟨S800000x4x1, .f32⟩) main_call1_v4) (TRef.of (T := ⟨S800000x4x1, .f32⟩) main_call1_v2) (TRef.of (T := ⟨S800000x4x1, .f32⟩) main_v91) minimumf,
    unary main_v91 main_v92 (Host.exp : (⟨S800000x4x1, .f32⟩ : BufTy).Contents (Elt F) → (⟨S800000x4x1, .f32⟩ : BufTy).Contents (Elt F)) ]

set_option maxRecDepth 8192 in
/-- Every buffer they touch is a TensorCore reference. -/
theorem ops03_sub : (ops03 : List (HloOp τ sig (Elt F))).Forall fun op => op.bufs ⊆ tcRefs τ sig :=
  ⟨nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub ..⟩

set_option maxRecDepth 8192 in
/-- Each of them determines its results. -/
theorem ops03_fresh : (ops03 : List (HloOp τ sig (Elt F))).Forall fun op => op.fresh = ∅ := by
  simp only [List.Forall]; repeat' constructor

/-- The references they write. -/
abbrev ops03_W : List (Ref sig .tc) := [main_cst_10, main_call0_v0, main_call0_v1, main_call0_v2, main_call0_v3, main_call0_v4, main_v87, main_v88, main_cst_11, main_v89, main_v90, main_cst_12, main_cst_13, main_call1_v0, main_call1_v1, main_call1_v2, main_call1_v3, main_call1_v4, main_v91, main_v92]

set_option maxRecDepth 8192 in
set_option maxHeartbeats 4000000 in
/-- Every write of theirs is in that list. -/
theorem ops03_writes : (ops03 : List (HloOp τ sig (Elt F))).Forall fun op => op.writes ⊆ (ops03_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [TRef.unary, TRef.binary, nullary_writes, unary_writes, binary_writes, ternary_writes, reshape_writes, Finset.singleton_subset_iff, List.mem_toFinset]; exact List.mem_map_of_mem (by decide))

/-- A reference they do not write keeps its contents. -/
theorem ops03_kept {r : Ref sig .tc} (V : Valuation τ sig (Elt F)) (hr : r ∉ ops03_W) :
    StableHlo.after ops03 V (Proc.devRef .tc r) = V (Proc.devRef .tc r) :=
  after_of_writes_sub ops03 V ops03_writes hr

end Cert.ReferenceIdeal.RunH

end
-- ==== Proof.Ref.RunHOps04.lean ====
import proofs.«406288_j68358699483732_1_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Operations 119 to 161 of @main, in order. -/
abbrev ops04 : List (HloOp τ sig (Elt F)) :=
  [ nullary main_c_14 (constantI S_ 32 0#32),
    unary main_c_14 main_v93 (broadcastInDim S800000 ![] bcast_S_S800000 : (⟨S_, .i32⟩ : BufTy).Contents (Elt F) → (⟨S800000, .i32⟩ : BufTy).Contents (Elt F)),
    binary main_arg29 main_v93 main_v94 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v95 (broadcastInDim S800000 ![] bcast_S_S800000 : (⟨S_, .i32⟩ : BufTy).Contents (Elt F) → (⟨S800000, .i32⟩ : BufTy).Contents (Elt F)),
    binary main_arg29 main_v95 main_v96 (addi : (⟨S800000, .i32⟩ : BufTy).Contents (Elt F) → (⟨S800000, .i32⟩ : BufTy).Contents (Elt F) → (⟨S800000, .i32⟩ : BufTy).Contents (Elt F)),
    ternary main_v94 main_v96 main_arg29 main_v97 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v97 main_v98 (broadcastInDim S800000x1 ![0] bcast_S800000_S800000x1_0 : (⟨S800000, .i32⟩ : BufTy).Contents (Elt F) → (⟨S800000x1, .i32⟩ : BufTy).Contents (Elt F)),
    binary main_v24 main_v98 main_v99 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)),
    unary main_v88 main_v100 (broadcastInDim S800000x4x32 ![0, 1, 2] bcast_S800000x4x1_S800000x4x32_0_1_2 : (⟨S800000x4x1, .f32⟩ : BufTy).Contents (Elt F) → (⟨S800000x4x32, .f32⟩ : BufTy).Contents (Elt F)),
    binary main_v99 main_v100 main_v101 (mulf : (⟨S800000x4x32, .f32⟩ : BufTy).Contents (Elt F) → (⟨S800000x4x32, .f32⟩ : BufTy).Contents (Elt F) → (⟨S800000x4x32, .f32⟩ : BufTy).Contents (Elt F)),
    nullary main_cst_16 (constant S_ .f32 0x00000000#32),
    unary main_cst_16 main_v102 (broadcastInDim S50000x4x32 ![] bcast_S_S50000x4x32 : (⟨S_, .f32⟩ : BufTy).Contents (Elt F) → (⟨S50000x4x32, .f32⟩ : BufTy).Contents (Elt F)),
    unary main_arg30 main_v103 (broadcastInDim S800000x1 ![0] bcast_S800000_S800000x1_0 : (⟨S800000, .i32⟩ : BufTy).Contents (Elt F) → (⟨S800000x1, .i32⟩ : BufTy).Contents (Elt F)),
    ternary main_v102 main_v103 main_v101 main_v104 ((fun x i u => Host.scatterAdd scatter_S50000x4x32_S800000x1_S800000x4x32_12_0_0_1 x i u) : (⟨S50000x4x32, .f32⟩ : BufTy).Contents (Elt F) → (⟨S800000x1, .i32⟩ : BufTy).Contents (Elt F) → (⟨S800000x4x32, .f32⟩ : BufTy).Contents (Elt F) → (⟨S50000x4x32, .f32⟩ : BufTy).Contents (Elt F)),
    nullary main_cst_17 (constant S_ .f32 0x00000000#32),
    unary main_cst_17 main_v105 (broadcastInDim S50000x4x1 ![] bcast_S_S50000x4x1 : (⟨S_, .f32⟩ : BufTy).Contents (Elt F) → (⟨S50000x4x1, .f32⟩ : BufTy).Contents (Elt F)),
    unary main_arg30 main_v106 (broadcastInDim S800000x1 ![0] bcast_S800000_S800000x1_0 : (⟨S800000, .i32⟩ : BufTy).Contents (Elt F) → (⟨S800000x1, .i32⟩ : BufTy).Contents (Elt F)),
    ternary main_v105 main_v106 main_v88 main_v107 ((fun x i u => Host.scatterAdd scatter_S50000x4x1_S800000x1_S800000x4x1_12_0_0_1 x i u) : (⟨S50000x4x1, .f32⟩ : BufTy).Contents (Elt F) → (⟨S800000x1, .i32⟩ : BufTy).Contents (Elt F) → (⟨S800000x4x1, .f32⟩ : BufTy).Contents (Elt F) → (⟨S50000x4x1, .f32⟩ : BufTy).Contents (Elt F)),
    nullary main_c_18 (constantI S_ 32 0#32),
    unary main_c_18 main_v108 (broadcastInDim S800000 ![] bcast_S_S800000 : (⟨S_, .i32⟩ : BufTy).Contents (Elt F) → (⟨S800000, .i32⟩ : BufTy).Contents (Elt F)),
    binary main_arg29 main_v108 main_v109 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v110 (broadcastInDim S800000 ![] bcast_S_S800000 : (⟨S_, .i32⟩ : BufTy).Contents (Elt F) → (⟨S800000, .i32⟩ : BufTy).Contents (Elt F)),
    binary main_arg29 main_v110 main_v111 (addi : (⟨S800000, .i32⟩ : BufTy).Contents (Elt F) → (⟨S800000, .i32⟩ : BufTy).Contents (Elt F) → (⟨S800000, .i32⟩ : BufTy).Contents (Elt F)),
    ternary main_v109 main_v111 main_arg29 main_v112 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v112 main_v113 (broadcastInDim S800000x1 ![0] bcast_S800000_S800000x1_0 : (⟨S800000, .i32⟩ : BufTy).Contents (Elt F) → (⟨S800000x1, .i32⟩ : BufTy).Contents (Elt F)),
    binary main_v44 main_v113 main_v114 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)),
    unary main_v92 main_v115 (broadcastInDim S800000x4x32 ![0, 1, 2] bcast_S800000x4x1_S800000x4x32_0_1_2 : (⟨S800000x4x1, .f32⟩ : BufTy).Contents (Elt F) → (⟨S800000x4x32, .f32⟩ : BufTy).Contents (Elt F)),
    binary main_v114 main_v115 main_v116 (mulf : (⟨S800000x4x32, .f32⟩ : BufTy).Contents (Elt F) → (⟨S800000x4x32, .f32⟩ : BufTy).Contents (Elt F) → (⟨S800000x4x32, .f32⟩ : BufTy).Contents (Elt F)),
    nullary main_cst_20 (constant S_ .f32 0x00000000#32),
    unary main_cst_20 main_v117 (broadcastInDim S50000x4x32 ![] bcast_S_S50000x4x32 : (⟨S_, .f32⟩ : BufTy).Contents (Elt F) → (⟨S50000x4x32, .f32⟩ : BufTy).Contents (Elt F)),
    unary main_arg30 main_v118 (broadcastInDim S800000x1 ![0] bcast_S800000_S800000x1_0 : (⟨S800000, .i32⟩ : BufTy).Contents (Elt F) → (⟨S800000x1, .i32⟩ : BufTy).Contents (Elt F)),
    ternary main_v117 main_v118 main_v116 main_v119 ((fun x i u => Host.scatterAdd scatter_S50000x4x32_S800000x1_S800000x4x32_12_0_0_1 x i u) : (⟨S50000x4x32, .f32⟩ : BufTy).Contents (Elt F) → (⟨S800000x1, .i32⟩ : BufTy).Contents (Elt F) → (⟨S800000x4x32, .f32⟩ : BufTy).Contents (Elt F) → (⟨S50000x4x32, .f32⟩ : BufTy).Contents (Elt F)),
    nullary main_cst_21 (constant S_ .f32 0x00000000#32),
    unary main_cst_21 main_v120 (broadcastInDim S50000x4x1 ![] bcast_S_S50000x4x1 : (⟨S_, .f32⟩ : BufTy).Contents (Elt F) → (⟨S50000x4x1, .f32⟩ : BufTy).Contents (Elt F)),
    unary main_arg30 main_v121 (broadcastInDim S800000x1 ![0] bcast_S800000_S800000x1_0 : (⟨S800000, .i32⟩ : BufTy).Contents (Elt F) → (⟨S800000x1, .i32⟩ : BufTy).Contents (Elt F)),
    ternary main_v120 main_v121 main_v92 main_v122 ((fun x i u => Host.scatterAdd scatter_S50000x4x1_S800000x1_S800000x4x1_12_0_0_1 x i u) : (⟨S50000x4x1, .f32⟩ : BufTy).Contents (Elt F) → (⟨S800000x1, .i32⟩ : BufTy).Contents (Elt F) → (⟨S800000x4x1, .f32⟩ : BufTy).Contents (Elt F) → (⟨S50000x4x1, .f32⟩ : BufTy).Contents (Elt F)),
    nullary main_cst_22 (constant S_ .f32 0x3F800000#32),
    unary main_cst_22 main_v123 (broadcastInDim S50000x4x1 ![] bcast_S_S50000x4x1 : (⟨S_, .f32⟩ : BufTy).Contents (Elt F) → (⟨S50000x4x1, .f32⟩ : BufTy).Contents (Elt F)),
    binary main_v107 main_v123 main_v124 (addf : (⟨S50000x4x1, .f32⟩ : BufTy).Contents (Elt F) → (⟨S50000x4x1, .f32⟩ : BufTy).Contents (Elt F) → (⟨S50000x4x1, .f32⟩ : BufTy).Contents (Elt F)),
    unary main_v124 main_v125 (broadcastInDim S50000x4x32 ![0, 1, 2] bcast_S50000x4x1_S50000x4x32_0_1_2 : (⟨S50000x4x1, .f32⟩ : BufTy).Contents (Elt F) → (⟨S50000x4x32, .f32⟩ : BufTy).Contents (Elt F)),
    binary main_v104 main_v125 main_v126 (Host.divf : (⟨S50000x4x32, .f32⟩ : BufTy).Contents (Elt F) → (⟨S50000x4x32, .f32⟩ : BufTy).Contents (Elt F) → (⟨S50000x4x32, .f32⟩ : BufTy).Contents (Elt F)) ]

set_option maxRecDepth 8192 in
/-- Every buffer they touch is a TensorCore reference. -/
theorem ops04_sub : (ops04 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., binary_bufs_sub ..⟩

set_option maxRecDepth 8192 in
/-- Each of them determines its results. -/
theorem ops04_fresh : (ops04 : List (HloOp τ sig (Elt F))).Forall fun op => op.fresh = ∅ := by
  simp only [List.Forall]; repeat' constructor

/-- The references they write. -/
abbrev ops04_W : List (Ref sig .tc) := [main_c_14, main_v93, main_v94, main_c_15, main_v95, main_v96, main_v97, main_v98, main_v99, main_v100, main_v101, main_cst_16, main_v102, main_v103, main_v104, main_cst_17, main_v105, main_v106, main_v107, main_c_18, main_v108, main_v109, main_c_19, main_v110, main_v111, main_v112, main_v113, main_v114, main_v115, main_v116, main_cst_20, main_v117, main_v118, main_v119, main_cst_21, main_v120, main_v121, main_v122, main_cst_22, main_v123, main_v124, main_v125, main_v126]

set_option maxRecDepth 8192 in
set_option maxHeartbeats 4000000 in
/-- Every write of theirs is in that list. -/
theorem ops04_writes : (ops04 : List (HloOp τ sig (Elt F))).Forall fun op => op.writes ⊆ (ops04_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [TRef.unary, TRef.binary, nullary_writes, unary_writes, binary_writes, ternary_writes, reshape_writes, Finset.singleton_subset_iff, List.mem_toFinset]; exact List.mem_map_of_mem (by decide))

/-- A reference they do not write keeps its contents. -/
theorem ops04_kept {r : Ref sig .tc} (V : Valuation τ sig (Elt F)) (hr : r ∉ ops04_W) :
    StableHlo.after ops04 V (Proc.devRef .tc r) = V (Proc.devRef .tc r) :=
  after_of_writes_sub ops04 V ops04_writes hr

end Cert.ReferenceIdeal.RunH

end
-- ==== Proof.Ref.RunHOps05.lean ====
import proofs.«406288_j68358699483732_1_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Operations 162 to 201 of @main, in order. -/
abbrev ops05 : List (HloOp τ sig (Elt F)) :=
  [ reshape main_v126 main_v127 rfl shapeCasts_S50000x4x32_S50000x128,
    binary main_v127 main_arg11 main_v128 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg12 main_v129 (broadcastInDim S1x128 ![1] bcast_S128_S1x128_1 : (⟨S128, .f32⟩ : BufTy).Contents (Elt F) → (⟨S1x128, .f32⟩ : BufTy).Contents (Elt F)),
    unary main_v129 main_v130 (broadcastInDim S50000x128 ![0, 1] bcast_S1x128_S50000x128_0_1 : (⟨S1x128, .f32⟩ : BufTy).Contents (Elt F) → (⟨S50000x128, .f32⟩ : BufTy).Contents (Elt F)),
    binary main_v128 main_v130 main_v131 (addf : (⟨S50000x128, .f32⟩ : BufTy).Contents (Elt F) → (⟨S50000x128, .f32⟩ : BufTy).Contents (Elt F) → (⟨S50000x128, .f32⟩ : BufTy).Contents (Elt F)),
    binary main_arg0 main_arg13 main_v132 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg14 main_v133 (broadcastInDim S1x128 ![1] bcast_S128_S1x128_1 : (⟨S128, .f32⟩ : BufTy).Contents (Elt F) → (⟨S1x128, .f32⟩ : BufTy).Contents (Elt F)),
    unary main_v133 main_v134 (broadcastInDim S50000x128 ![0, 1] bcast_S1x128_S50000x128_0_1 : (⟨S1x128, .f32⟩ : BufTy).Contents (Elt F) → (⟨S50000x128, .f32⟩ : BufTy).Contents (Elt F)),
    binary main_v132 main_v134 main_v135 (addf : (⟨S50000x128, .f32⟩ : BufTy).Contents (Elt F) → (⟨S50000x128, .f32⟩ : BufTy).Contents (Elt F) → (⟨S50000x128, .f32⟩ : BufTy).Contents (Elt F)),
    binary main_v135 main_v131 main_v136 (addf : (⟨S50000x128, .f32⟩ : BufTy).Contents (Elt F) → (⟨S50000x128, .f32⟩ : BufTy).Contents (Elt F) → (⟨S50000x128, .f32⟩ : BufTy).Contents (Elt F)),
    nullary main_cst_23 (constant S_ .f32 0x00000000#32),
    binary main_v136 main_cst_23 main_v137 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v137 main_v138 (broadcastInDim S50000x1 ![0] bcast_S50000_S50000x1_0 : (⟨S50000, .f32⟩ : BufTy).Contents (Elt F) → (⟨S50000x1, .f32⟩ : BufTy).Contents (Elt F)),
    nullary main_cst_24 (constant S_ .f32 0x43000000#32),
    unary main_cst_24 main_v139 (broadcastInDim S50000x1 ![] bcast_S_S50000x1 : (⟨S_, .f32⟩ : BufTy).Contents (Elt F) → (⟨S50000x1, .f32⟩ : BufTy).Contents (Elt F)),
    binary main_v138 main_v139 main_v140 (Host.divf : (⟨S50000x1, .f32⟩ : BufTy).Contents (Elt F) → (⟨S50000x1, .f32⟩ : BufTy).Contents (Elt F) → (⟨S50000x1, .f32⟩ : BufTy).Contents (Elt F)),
    unary main_v140 main_v141 (broadcastInDim S50000x128 ![0, 1] bcast_S50000x1_S50000x128_0_1 : (⟨S50000x1, .f32⟩ : BufTy).Contents (Elt F) → (⟨S50000x128, .f32⟩ : BufTy).Contents (Elt F)),
    binary main_v136 main_v141 main_v142 (subf : (⟨S50000x128, .f32⟩ : BufTy).Contents (Elt F) → (⟨S50000x128, .f32⟩ : BufTy).Contents (Elt F) → (⟨S50000x128, .f32⟩ : BufTy).Contents (Elt F)),
    binary main_v142 main_v142 main_v143 (mulf : (⟨S50000x128, .f32⟩ : BufTy).Contents (Elt F) → (⟨S50000x128, .f32⟩ : BufTy).Contents (Elt F) → (⟨S50000x128, .f32⟩ : BufTy).Contents (Elt F)),
    nullary main_cst_25 (constant S_ .f32 0x00000000#32),
    binary main_v143 main_cst_25 main_v144 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v144 main_v145 (broadcastInDim S50000x1 ![0] bcast_S50000_S50000x1_0 : (⟨S50000, .f32⟩ : BufTy).Contents (Elt F) → (⟨S50000x1, .f32⟩ : BufTy).Contents (Elt F)),
    nullary main_cst_26 (constant S_ .f32 0x43000000#32),
    unary main_cst_26 main_v146 (broadcastInDim S50000x1 ![] bcast_S_S50000x1 : (⟨S_, .f32⟩ : BufTy).Contents (Elt F) → (⟨S50000x1, .f32⟩ : BufTy).Contents (Elt F)),
    binary main_v145 main_v146 main_v147 (Host.divf : (⟨S50000x1, .f32⟩ : BufTy).Contents (Elt F) → (⟨S50000x1, .f32⟩ : BufTy).Contents (Elt F) → (⟨S50000x1, .f32⟩ : BufTy).Contents (Elt F)),
    unary main_v140 main_v148 (broadcastInDim S50000x128 ![0, 1] bcast_S50000x1_S50000x128_0_1 : (⟨S50000x1, .f32⟩ : BufTy).Contents (Elt F) → (⟨S50000x128, .f32⟩ : BufTy).Contents (Elt F)),
    binary main_v136 main_v148 main_v149 (subf : (⟨S50000x128, .f32⟩ : BufTy).Contents (Elt F) → (⟨S50000x128, .f32⟩ : BufTy).Contents (Elt F) → (⟨S50000x128, .f32⟩ : BufTy).Contents (Elt F)),
    nullary main_cst_27 (constant S_ .f32 0x3727C5AC#32),
    unary main_cst_27 main_v150 (broadcastInDim S50000x1 ![] bcast_S_S50000x1 : (⟨S_, .f32⟩ : BufTy).Contents (Elt F) → (⟨S50000x1, .f32⟩ : BufTy).Contents (Elt F)),
    binary main_v147 main_v150 main_v151 (addf : (⟨S50000x1, .f32⟩ : BufTy).Contents (Elt F) → (⟨S50000x1, .f32⟩ : BufTy).Contents (Elt F) → (⟨S50000x1, .f32⟩ : BufTy).Contents (Elt F)),
    unary main_v151 main_v152 (Host.rsqrt : (⟨S50000x1, .f32⟩ : BufTy).Contents (Elt F) → (⟨S50000x1, .f32⟩ : BufTy).Contents (Elt F)),
    unary main_v152 main_v153 (broadcastInDim S50000x128 ![0, 1] bcast_S50000x1_S50000x128_0_1 : (⟨S50000x1, .f32⟩ : BufTy).Contents (Elt F) → (⟨S50000x128, .f32⟩ : BufTy).Contents (Elt F)),
    binary main_v149 main_v153 main_v154 (mulf : (⟨S50000x128, .f32⟩ : BufTy).Contents (Elt F) → (⟨S50000x128, .f32⟩ : BufTy).Contents (Elt F) → (⟨S50000x128, .f32⟩ : BufTy).Contents (Elt F)),
    unary main_arg15 main_v155 (broadcastInDim S1x128 ![1] bcast_S128_S1x128_1 : (⟨S128, .f32⟩ : BufTy).Contents (Elt F) → (⟨S1x128, .f32⟩ : BufTy).Contents (Elt F)),
    unary main_v155 main_v156 (broadcastInDim S50000x128 ![0, 1] bcast_S1x128_S50000x128_0_1 : (⟨S1x128, .f32⟩ : BufTy).Contents (Elt F) → (⟨S50000x128, .f32⟩ : BufTy).Contents (Elt F)),
    binary main_v154 main_v156 main_v157 (mulf : (⟨S50000x128, .f32⟩ : BufTy).Contents (Elt F) → (⟨S50000x128, .f32⟩ : BufTy).Contents (Elt F) → (⟨S50000x128, .f32⟩ : BufTy).Contents (Elt F)),
    unary main_arg16 main_v158 (broadcastInDim S1x128 ![1] bcast_S128_S1x128_1 : (⟨S128, .f32⟩ : BufTy).Contents (Elt F) → (⟨S1x128, .f32⟩ : BufTy).Contents (Elt F)),
    unary main_v158 main_v159 (broadcastInDim S50000x128 ![0, 1] bcast_S1x128_S50000x128_0_1 : (⟨S1x128, .f32⟩ : BufTy).Contents (Elt F) → (⟨S50000x128, .f32⟩ : BufTy).Contents (Elt F)),
    binary main_v157 main_v159 main_v160 (addf : (⟨S50000x128, .f32⟩ : BufTy).Contents (Elt F) → (⟨S50000x128, .f32⟩ : BufTy).Contents (Elt F) → (⟨S50000x128, .f32⟩ : BufTy).Contents (Elt F)),
    binary main_v136 main_v160 main_v161 (addf : (⟨S50000x128, .f32⟩ : BufTy).Contents (Elt F) → (⟨S50000x128, .f32⟩ : BufTy).Contents (Elt F) → (⟨S50000x128, .f32⟩ : BufTy).Contents (Elt F)) ]

set_option maxRecDepth 8192 in
/-- Every buffer they touch is a TensorCore reference. -/
theorem ops05_sub : (ops05 : List (HloOp τ sig (Elt F))).Forall fun op => op.bufs ⊆ tcRefs τ sig :=
  ⟨reshape_bufs_sub .., binary_bufs_sub .., unary_bufs_sub .., unary_bufs_sub .., binary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub ..⟩

set_option maxRecDepth 8192 in
/-- Each of them determines its results. -/
theorem ops05_fresh : (ops05 : List (HloOp τ sig (Elt F))).Forall fun op => op.fresh = ∅ := by
  simp only [List.Forall]; repeat' constructor

/-- The references they write. -/
abbrev ops05_W : List (Ref sig .tc) := [main_v127, main_v128, main_v129, main_v130, main_v131, main_v132, main_v133, main_v134, main_v135, main_v136, main_cst_23, main_v137, main_v138, main_cst_24, main_v139, main_v140, main_v141, main_v142, main_v143, main_cst_25, main_v144, main_v145, main_cst_26, main_v146, main_v147, main_v148, main_v149, main_cst_27, main_v150, main_v151, main_v152, main_v153, main_v154, main_v155, main_v156, main_v157, main_v158, main_v159, main_v160, main_v161]

set_option maxRecDepth 8192 in
set_option maxHeartbeats 4000000 in
/-- Every write of theirs is in that list. -/
theorem ops05_writes : (ops05 : List (HloOp τ sig (Elt F))).Forall fun op => op.writes ⊆ (ops05_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [TRef.unary, TRef.binary, nullary_writes, unary_writes, binary_writes, ternary_writes, reshape_writes, Finset.singleton_subset_iff, List.mem_toFinset]; exact List.mem_map_of_mem (by decide))

/-- A reference they do not write keeps its contents. -/
theorem ops05_kept {r : Ref sig .tc} (V : Valuation τ sig (Elt F)) (hr : r ∉ ops05_W) :
    StableHlo.after ops05 V (Proc.devRef .tc r) = V (Proc.devRef .tc r) :=
  after_of_writes_sub ops05 V ops05_writes hr

end Cert.ReferenceIdeal.RunH

end
-- ==== Proof.Ref.RunHOps06.lean ====
import proofs.«406288_j68358699483732_1_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Operations 202 to 246 of @main, in order. -/
abbrev ops06 : List (HloOp τ sig (Elt F)) :=
  [ nullary main_cst_28 (constant S_ .f32 0x3F800000#32),
    unary main_cst_28 main_v162 (broadcastInDim S50000x4x1 ![] bcast_S_S50000x4x1 : (⟨S_, .f32⟩ : BufTy).Contents (Elt F) → (⟨S50000x4x1, .f32⟩ : BufTy).Contents (Elt F)),
    binary main_v122 main_v162 main_v163 (addf : (⟨S50000x4x1, .f32⟩ : BufTy).Contents (Elt F) → (⟨S50000x4x1, .f32⟩ : BufTy).Contents (Elt F) → (⟨S50000x4x1, .f32⟩ : BufTy).Contents (Elt F)),
    unary main_v163 main_v164 (broadcastInDim S50000x4x32 ![0, 1, 2] bcast_S50000x4x1_S50000x4x32_0_1_2 : (⟨S50000x4x1, .f32⟩ : BufTy).Contents (Elt F) → (⟨S50000x4x32, .f32⟩ : BufTy).Contents (Elt F)),
    binary main_v119 main_v164 main_v165 (Host.divf : (⟨S50000x4x32, .f32⟩ : BufTy).Contents (Elt F) → (⟨S50000x4x32, .f32⟩ : BufTy).Contents (Elt F) → (⟨S50000x4x32, .f32⟩ : BufTy).Contents (Elt F)),
    reshape main_v165 main_v166 rfl shapeCasts_S50000x4x32_S50000x128,
    binary main_v166 main_arg23 main_v167 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg24 main_v168 (broadcastInDim S1x128 ![1] bcast_S128_S1x128_1 : (⟨S128, .f32⟩ : BufTy).Contents (Elt F) → (⟨S1x128, .f32⟩ : BufTy).Contents (Elt F)),
    unary main_v168 main_v169 (broadcastInDim S50000x128 ![0, 1] bcast_S1x128_S50000x128_0_1 : (⟨S1x128, .f32⟩ : BufTy).Contents (Elt F) → (⟨S50000x128, .f32⟩ : BufTy).Contents (Elt F)),
    binary main_v167 main_v169 main_v170 (addf : (⟨S50000x128, .f32⟩ : BufTy).Contents (Elt F) → (⟨S50000x128, .f32⟩ : BufTy).Contents (Elt F) → (⟨S50000x128, .f32⟩ : BufTy).Contents (Elt F)),
    binary main_arg2 main_arg25 main_v171 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg26 main_v172 (broadcastInDim S1x128 ![1] bcast_S128_S1x128_1 : (⟨S128, .f32⟩ : BufTy).Contents (Elt F) → (⟨S1x128, .f32⟩ : BufTy).Contents (Elt F)),
    unary main_v172 main_v173 (broadcastInDim S50000x128 ![0, 1] bcast_S1x128_S50000x128_0_1 : (⟨S1x128, .f32⟩ : BufTy).Contents (Elt F) → (⟨S50000x128, .f32⟩ : BufTy).Contents (Elt F)),
    binary main_v171 main_v173 main_v174 (addf : (⟨S50000x128, .f32⟩ : BufTy).Contents (Elt F) → (⟨S50000x128, .f32⟩ : BufTy).Contents (Elt F) → (⟨S50000x128, .f32⟩ : BufTy).Contents (Elt F)),
    binary main_v174 main_v170 main_v175 (addf : (⟨S50000x128, .f32⟩ : BufTy).Contents (Elt F) → (⟨S50000x128, .f32⟩ : BufTy).Contents (Elt F) → (⟨S50000x128, .f32⟩ : BufTy).Contents (Elt F)),
    nullary main_cst_29 (constant S_ .f32 0x00000000#32),
    binary main_v175 main_cst_29 main_v176 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v176 main_v177 (broadcastInDim S50000x1 ![0] bcast_S50000_S50000x1_0 : (⟨S50000, .f32⟩ : BufTy).Contents (Elt F) → (⟨S50000x1, .f32⟩ : BufTy).Contents (Elt F)),
    nullary main_cst_30 (constant S_ .f32 0x43000000#32),
    unary main_cst_30 main_v178 (broadcastInDim S50000x1 ![] bcast_S_S50000x1 : (⟨S_, .f32⟩ : BufTy).Contents (Elt F) → (⟨S50000x1, .f32⟩ : BufTy).Contents (Elt F)),
    binary main_v177 main_v178 main_v179 (Host.divf : (⟨S50000x1, .f32⟩ : BufTy).Contents (Elt F) → (⟨S50000x1, .f32⟩ : BufTy).Contents (Elt F) → (⟨S50000x1, .f32⟩ : BufTy).Contents (Elt F)),
    unary main_v179 main_v180 (broadcastInDim S50000x128 ![0, 1] bcast_S50000x1_S50000x128_0_1 : (⟨S50000x1, .f32⟩ : BufTy).Contents (Elt F) → (⟨S50000x128, .f32⟩ : BufTy).Contents (Elt F)),
    binary main_v175 main_v180 main_v181 (subf : (⟨S50000x128, .f32⟩ : BufTy).Contents (Elt F) → (⟨S50000x128, .f32⟩ : BufTy).Contents (Elt F) → (⟨S50000x128, .f32⟩ : BufTy).Contents (Elt F)),
    binary main_v181 main_v181 main_v182 (mulf : (⟨S50000x128, .f32⟩ : BufTy).Contents (Elt F) → (⟨S50000x128, .f32⟩ : BufTy).Contents (Elt F) → (⟨S50000x128, .f32⟩ : BufTy).Contents (Elt F)),
    nullary main_cst_31 (constant S_ .f32 0x00000000#32),
    binary main_v182 main_cst_31 main_v183 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v183 main_v184 (broadcastInDim S50000x1 ![0] bcast_S50000_S50000x1_0 : (⟨S50000, .f32⟩ : BufTy).Contents (Elt F) → (⟨S50000x1, .f32⟩ : BufTy).Contents (Elt F)),
    nullary main_cst_32 (constant S_ .f32 0x43000000#32),
    unary main_cst_32 main_v185 (broadcastInDim S50000x1 ![] bcast_S_S50000x1 : (⟨S_, .f32⟩ : BufTy).Contents (Elt F) → (⟨S50000x1, .f32⟩ : BufTy).Contents (Elt F)),
    binary main_v184 main_v185 main_v186 (Host.divf : (⟨S50000x1, .f32⟩ : BufTy).Contents (Elt F) → (⟨S50000x1, .f32⟩ : BufTy).Contents (Elt F) → (⟨S50000x1, .f32⟩ : BufTy).Contents (Elt F)),
    unary main_v179 main_v187 (broadcastInDim S50000x128 ![0, 1] bcast_S50000x1_S50000x128_0_1 : (⟨S50000x1, .f32⟩ : BufTy).Contents (Elt F) → (⟨S50000x128, .f32⟩ : BufTy).Contents (Elt F)),
    binary main_v175 main_v187 main_v188 (subf : (⟨S50000x128, .f32⟩ : BufTy).Contents (Elt F) → (⟨S50000x128, .f32⟩ : BufTy).Contents (Elt F) → (⟨S50000x128, .f32⟩ : BufTy).Contents (Elt F)),
    nullary main_cst_33 (constant S_ .f32 0x3727C5AC#32),
    unary main_cst_33 main_v189 (broadcastInDim S50000x1 ![] bcast_S_S50000x1 : (⟨S_, .f32⟩ : BufTy).Contents (Elt F) → (⟨S50000x1, .f32⟩ : BufTy).Contents (Elt F)),
    binary main_v186 main_v189 main_v190 (addf : (⟨S50000x1, .f32⟩ : BufTy).Contents (Elt F) → (⟨S50000x1, .f32⟩ : BufTy).Contents (Elt F) → (⟨S50000x1, .f32⟩ : BufTy).Contents (Elt F)),
    unary main_v190 main_v191 (Host.rsqrt : (⟨S50000x1, .f32⟩ : BufTy).Contents (Elt F) → (⟨S50000x1, .f32⟩ : BufTy).Contents (Elt F)),
    unary main_v191 main_v192 (broadcastInDim S50000x128 ![0, 1] bcast_S50000x1_S50000x128_0_1 : (⟨S50000x1, .f32⟩ : BufTy).Contents (Elt F) → (⟨S50000x128, .f32⟩ : BufTy).Contents (Elt F)),
    binary main_v188 main_v192 main_v193 (mulf : (⟨S50000x128, .f32⟩ : BufTy).Contents (Elt F) → (⟨S50000x128, .f32⟩ : BufTy).Contents (Elt F) → (⟨S50000x128, .f32⟩ : BufTy).Contents (Elt F)),
    unary main_arg27 main_v194 (broadcastInDim S1x128 ![1] bcast_S128_S1x128_1 : (⟨S128, .f32⟩ : BufTy).Contents (Elt F) → (⟨S1x128, .f32⟩ : BufTy).Contents (Elt F)),
    unary main_v194 main_v195 (broadcastInDim S50000x128 ![0, 1] bcast_S1x128_S50000x128_0_1 : (⟨S1x128, .f32⟩ : BufTy).Contents (Elt F) → (⟨S50000x128, .f32⟩ : BufTy).Contents (Elt F)),
    binary main_v193 main_v195 main_v196 (mulf : (⟨S50000x128, .f32⟩ : BufTy).Contents (Elt F) → (⟨S50000x128, .f32⟩ : BufTy).Contents (Elt F) → (⟨S50000x128, .f32⟩ : BufTy).Contents (Elt F)),
    unary main_arg28 main_v197 (broadcastInDim S1x128 ![1] bcast_S128_S1x128_1 : (⟨S128, .f32⟩ : BufTy).Contents (Elt F) → (⟨S1x128, .f32⟩ : BufTy).Contents (Elt F)),
    unary main_v197 main_v198 (broadcastInDim S50000x128 ![0, 1] bcast_S1x128_S50000x128_0_1 : (⟨S1x128, .f32⟩ : BufTy).Contents (Elt F) → (⟨S50000x128, .f32⟩ : BufTy).Contents (Elt F)),
    binary main_v196 main_v198 main_v199 (addf : (⟨S50000x128, .f32⟩ : BufTy).Contents (Elt F) → (⟨S50000x128, .f32⟩ : BufTy).Contents (Elt F) → (⟨S50000x128, .f32⟩ : BufTy).Contents (Elt F)),
    binary main_v175 main_v199 main_v200 (addf : (⟨S50000x128, .f32⟩ : BufTy).Contents (Elt F) → (⟨S50000x128, .f32⟩ : BufTy).Contents (Elt F) → (⟨S50000x128, .f32⟩ : BufTy).Contents (Elt F)) ]

set_option maxRecDepth 8192 in
/-- Every buffer they touch is a TensorCore reference. -/
theorem ops06_sub : (ops06 : List (HloOp τ sig (Elt F))).Forall fun op => op.bufs ⊆ tcRefs τ sig :=
  ⟨nullary_bufs_sub .., unary_bufs_sub .., binary_bufs_sub .., unary_bufs_sub .., binary_bufs_sub .., reshape_bufs_sub .., binary_bufs_sub .., unary_bufs_sub .., unary_bufs_sub .., binary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub ..⟩

set_option maxRecDepth 8192 in
/-- Each of them determines its results. -/
theorem ops06_fresh : (ops06 : List (HloOp τ sig (Elt F))).Forall fun op => op.fresh = ∅ := by
  simp only [List.Forall]; repeat' constructor

/-- The references they write. -/
abbrev ops06_W : List (Ref sig .tc) := [main_cst_28, main_v162, main_v163, main_v164, main_v165, main_v166, main_v167, main_v168, main_v169, main_v170, main_v171, main_v172, main_v173, main_v174, main_v175, main_cst_29, main_v176, main_v177, main_cst_30, main_v178, main_v179, main_v180, main_v181, main_v182, main_cst_31, main_v183, main_v184, main_cst_32, main_v185, main_v186, main_v187, main_v188, main_cst_33, main_v189, main_v190, main_v191, main_v192, main_v193, main_v194, main_v195, main_v196, main_v197, main_v198, main_v199, main_v200]

set_option maxRecDepth 8192 in
set_option maxHeartbeats 4000000 in
/-- Every write of theirs is in that list. -/
theorem ops06_writes : (ops06 : List (HloOp τ sig (Elt F))).Forall fun op => op.writes ⊆ (ops06_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [TRef.unary, TRef.binary, nullary_writes, unary_writes, binary_writes, ternary_writes, reshape_writes, Finset.singleton_subset_iff, List.mem_toFinset]; exact List.mem_map_of_mem (by decide))

/-- A reference they do not write keeps its contents. -/
theorem ops06_kept {r : Ref sig .tc} (V : Valuation τ sig (Elt F)) (hr : r ∉ ops06_W) :
    StableHlo.after ops06 V (Proc.devRef .tc r) = V (Proc.devRef .tc r) :=
  after_of_writes_sub ops06 V ops06_writes hr

end Cert.ReferenceIdeal.RunH

end
-- ==== Proof.Ref.RunHOps07.lean ====
import proofs.«406288_j68358699483732_1_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Operations 247 to 300 of @main, in order. -/
abbrev ops07 : List (HloOp τ sig (Elt F)) :=
  [ unary main_arg4 main_v201 ((extractStridedSlice S800000x1 ![0, 0] · slices_S800000x2_S800000x1_0_0) : (⟨S800000x2, .f32⟩ : BufTy).Contents (Elt F) → (⟨S800000x1, .f32⟩ : BufTy).Contents (Elt F)),
    unary main_v201 main_v202 (broadcastInDim S800000x1x1 ![0, 2] bcast_S800000x1_S800000x1x1_0_2 : (⟨S800000x1, .f32⟩ : BufTy).Contents (Elt F) → (⟨S800000x1x1, .f32⟩ : BufTy).Contents (Elt F)),
    nullary main_c_34 (constantI S_ 32 0#32),
    unary main_c_34 main_v203 (broadcastInDim S800000 ![] bcast_S_S800000 : (⟨S_, .i32⟩ : BufTy).Contents (Elt F) → (⟨S800000, .i32⟩ : BufTy).Contents (Elt F)),
    binary main_arg31 main_v203 main_v204 (cmpi .slt : (⟨S800000, .i32⟩ : BufTy).Contents (Elt F) → (⟨S800000, .i32⟩ : BufTy).Contents (Elt F) → (⟨S800000, .i1⟩ : BufTy).Contents (Elt F)),
    nullary main_c_35 (constantI S_ 32 50000#32),
    unary main_c_35 main_v205 (broadcastInDim S800000 ![] bcast_S_S800000 : (⟨S_, .i32⟩ : BufTy).Contents (Elt F) → (⟨S800000, .i32⟩ : BufTy).Contents (Elt F)),
    binary main_arg31 main_v205 main_v206 (addi : (⟨S800000, .i32⟩ : BufTy).Contents (Elt F) → (⟨S800000, .i32⟩ : BufTy).Contents (Elt F) → (⟨S800000, .i32⟩ : BufTy).Contents (Elt F)),
    ternary main_v204 main_v206 main_arg31 main_v207 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v207 main_v208 (broadcastInDim S800000x1 ![0] bcast_S800000_S800000x1_0 : (⟨S800000, .i32⟩ : BufTy).Contents (Elt F) → (⟨S800000x1, .i32⟩ : BufTy).Contents (Elt F)),
    binary main_v19 main_v208 main_v209 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)),
    nullary main_c_36 (constantI S_ 32 0#32),
    unary main_c_36 main_v210 (broadcastInDim S800000 ![] bcast_S_S800000 : (⟨S_, .i32⟩ : BufTy).Contents (Elt F) → (⟨S800000, .i32⟩ : BufTy).Contents (Elt F)),
    binary main_arg32 main_v210 main_v211 (cmpi .slt : (⟨S800000, .i32⟩ : BufTy).Contents (Elt F) → (⟨S800000, .i32⟩ : BufTy).Contents (Elt F) → (⟨S800000, .i1⟩ : BufTy).Contents (Elt F)),
    nullary main_c_37 (constantI S_ 32 50000#32),
    unary main_c_37 main_v212 (broadcastInDim S800000 ![] bcast_S_S800000 : (⟨S_, .i32⟩ : BufTy).Contents (Elt F) → (⟨S800000, .i32⟩ : BufTy).Contents (Elt F)),
    binary main_arg32 main_v212 main_v213 (addi : (⟨S800000, .i32⟩ : BufTy).Contents (Elt F) → (⟨S800000, .i32⟩ : BufTy).Contents (Elt F) → (⟨S800000, .i32⟩ : BufTy).Contents (Elt F)),
    ternary main_v211 main_v213 main_arg32 main_v214 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v214 main_v215 (broadcastInDim S800000x1 ![0] bcast_S800000_S800000x1_0 : (⟨S800000, .i32⟩ : BufTy).Contents (Elt F) → (⟨S800000x1, .i32⟩ : BufTy).Contents (Elt F)),
    binary main_v9 main_v215 main_v216 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)),
    binary main_v209 main_v216 main_v217 (mulf : (⟨S800000x4x32, .f32⟩ : BufTy).Contents (Elt F) → (⟨S800000x4x32, .f32⟩ : BufTy).Contents (Elt F) → (⟨S800000x4x32, .f32⟩ : BufTy).Contents (Elt F)),
    nullary main_cst_38 (constant S_ .f32 0x00000000#32),
    binary main_v217 main_cst_38 main_v218 ((fun x v => Host.reduceAdd x v reducesTo_S800000x4x32_S800000x4_d2 h_S_) : (⟨S800000x4x32, .f32⟩ : BufTy).Contents (Elt F) → (⟨S_, .f32⟩ : BufTy).Contents (Elt F) → (⟨S800000x4, .f32⟩ : BufTy).Contents (Elt F)),
    unary main_v218 main_v219 (broadcastInDim S800000x4x1 ![0, 1] bcast_S800000x4_S800000x4x1_0_1 : (⟨S800000x4, .f32⟩ : BufTy).Contents (Elt F) → (⟨S800000x4x1, .f32⟩ : BufTy).Contents (Elt F)),
    unary main_v202 main_v220 (broadcastInDim S800000x4x1 ![0, 1, 2] bcast_S800000x1x1_S800000x4x1_0_1_2 : (⟨S800000x1x1, .f32⟩ : BufTy).Contents (Elt F) → (⟨S800000x4x1, .f32⟩ : BufTy).Contents (Elt F)),
    binary main_v219 main_v220 main_v221 (mulf : (⟨S800000x4x1, .f32⟩ : BufTy).Contents (Elt F) → (⟨S800000x4x1, .f32⟩ : BufTy).Contents (Elt F) → (⟨S800000x4x1, .f32⟩ : BufTy).Contents (Elt F)),
    nullary main_c_39 (constantI S_ 32 0#32),
    unary main_c_39 main_v222 (broadcastInDim S800000 ![] bcast_S_S800000 : (⟨S_, .i32⟩ : BufTy).Contents (Elt F) → (⟨S800000, .i32⟩ : BufTy).Contents (Elt F)),
    binary main_arg31 main_v222 main_v223 (cmpi .slt : (⟨S800000, .i32⟩ : BufTy).Contents (Elt F) → (⟨S800000, .i32⟩ : BufTy).Contents (Elt F) → (⟨S800000, .i1⟩ : BufTy).Contents (Elt F)),
    nullary main_c_40 (constantI S_ 32 50000#32),
    unary main_c_40 main_v224 (broadcastInDim S800000 ![] bcast_S_S800000 : (⟨S_, .i32⟩ : BufTy).Contents (Elt F) → (⟨S800000, .i32⟩ : BufTy).Contents (Elt F)),
    binary main_arg31 main_v224 main_v225 (addi : (⟨S800000, .i32⟩ : BufTy).Contents (Elt F) → (⟨S800000, .i32⟩ : BufTy).Contents (Elt F) → (⟨S800000, .i32⟩ : BufTy).Contents (Elt F)),
    ternary main_v223 main_v225 main_arg31 main_v226 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v226 main_v227 (broadcastInDim S800000x1 ![0] bcast_S800000_S800000x1_0 : (⟨S800000, .i32⟩ : BufTy).Contents (Elt F) → (⟨S800000x1, .i32⟩ : BufTy).Contents (Elt F)),
    binary main_v39 main_v227 main_v228 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)),
    nullary main_c_41 (constantI S_ 32 0#32),
    unary main_c_41 main_v229 (broadcastInDim S800000 ![] bcast_S_S800000 : (⟨S_, .i32⟩ : BufTy).Contents (Elt F) → (⟨S800000, .i32⟩ : BufTy).Contents (Elt F)),
    binary main_arg32 main_v229 main_v230 (cmpi .slt : (⟨S800000, .i32⟩ : BufTy).Contents (Elt F) → (⟨S800000, .i32⟩ : BufTy).Contents (Elt F) → (⟨S800000, .i1⟩ : BufTy).Contents (Elt F)),
    nullary main_c_42 (constantI S_ 32 50000#32),
    unary main_c_42 main_v231 (broadcastInDim S800000 ![] bcast_S_S800000 : (⟨S_, .i32⟩ : BufTy).Contents (Elt F) → (⟨S800000, .i32⟩ : BufTy).Contents (Elt F)),
    binary main_arg32 main_v231 main_v232 (addi : (⟨S800000, .i32⟩ : BufTy).Contents (Elt F) → (⟨S800000, .i32⟩ : BufTy).Contents (Elt F) → (⟨S800000, .i32⟩ : BufTy).Contents (Elt F)),
    ternary main_v230 main_v232 main_arg32 main_v233 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v233 main_v234 (broadcastInDim S800000x1 ![0] bcast_S800000_S800000x1_0 : (⟨S800000, .i32⟩ : BufTy).Contents (Elt F) → (⟨S800000x1, .i32⟩ : BufTy).Contents (Elt F)),
    binary main_v34 main_v234 main_v235 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)),
    binary main_v228 main_v235 main_v236 (mulf : (⟨S800000x4x32, .f32⟩ : BufTy).Contents (Elt F) → (⟨S800000x4x32, .f32⟩ : BufTy).Contents (Elt F) → (⟨S800000x4x32, .f32⟩ : BufTy).Contents (Elt F)),
    nullary main_cst_43 (constant S_ .f32 0x00000000#32),
    binary main_v236 main_cst_43 main_v237 ((fun x v => Host.reduceAdd x v reducesTo_S800000x4x32_S800000x4_d2 h_S_) : (⟨S800000x4x32, .f32⟩ : BufTy).Contents (Elt F) → (⟨S_, .f32⟩ : BufTy).Contents (Elt F) → (⟨S800000x4, .f32⟩ : BufTy).Contents (Elt F)),
    unary main_v237 main_v238 (broadcastInDim S800000x4x1 ![0, 1] bcast_S800000x4_S800000x4x1_0_1 : (⟨S800000x4, .f32⟩ : BufTy).Contents (Elt F) → (⟨S800000x4x1, .f32⟩ : BufTy).Contents (Elt F)),
    unary main_v202 main_v239 (broadcastInDim S800000x4x1 ![0, 1, 2] bcast_S800000x1x1_S800000x4x1_0_1_2 : (⟨S800000x1x1, .f32⟩ : BufTy).Contents (Elt F) → (⟨S800000x4x1, .f32⟩ : BufTy).Contents (Elt F)),
    binary main_v238 main_v239 main_v240 (mulf : (⟨S800000x4x1, .f32⟩ : BufTy).Contents (Elt F) → (⟨S800000x4x1, .f32⟩ : BufTy).Contents (Elt F) → (⟨S800000x4x1, .f32⟩ : BufTy).Contents (Elt F)),
    nullary main_cst_44 (constant S_ .f32 0x3DB504F3#32),
    unary main_cst_44 main_v241 (broadcastInDim S800000x4x1 ![] bcast_S_S800000x4x1 : (⟨S_, .f32⟩ : BufTy).Contents (Elt F) → (⟨S800000x4x1, .f32⟩ : BufTy).Contents (Elt F)),
    binary main_v221 main_v241 main_v242 (mulf : (⟨S800000x4x1, .f32⟩ : BufTy).Contents (Elt F) → (⟨S800000x4x1, .f32⟩ : BufTy).Contents (Elt F) → (⟨S800000x4x1, .f32⟩ : BufTy).Contents (Elt F)),
    nullary main_cst_45 (constant S_ .f32 0xC0A00000#32) ]

set_option maxRecDepth 8192 in
/-- Every buffer they touch is a TensorCore reference. -/
theorem ops07_sub : (ops07 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., binary_bufs_sub .., nullary_bufs_sub .., unary_bufs_sub .., binary_bufs_sub .., nullary_bufs_sub ..⟩

set_option maxRecDepth 8192 in
/-- Each of them determines its results. -/
theorem ops07_fresh : (ops07 : List (HloOp τ sig (Elt F))).Forall fun op => op.fresh = ∅ := by
  simp only [List.Forall]; repeat' constructor

/-- The references they write. -/
abbrev ops07_W : List (Ref sig .tc) := [main_v201, main_v202, main_c_34, main_v203, main_v204, main_c_35, main_v205, main_v206, main_v207, main_v208, main_v209, main_c_36, main_v210, main_v211, main_c_37, main_v212, main_v213, main_v214, main_v215, main_v216, main_v217, main_cst_38, main_v218, main_v219, main_v220, main_v221, main_c_39, main_v222, main_v223, main_c_40, main_v224, main_v225, main_v226, main_v227, main_v228, main_c_41, main_v229, main_v230, main_c_42, main_v231, main_v232, main_v233, main_v234, main_v235, main_v236, main_cst_43, main_v237, main_v238, main_v239, main_v240, main_cst_44, main_v241, main_v242, main_cst_45]

set_option maxRecDepth 8192 in
set_option maxHeartbeats 4000000 in
/-- Every write of theirs is in that list. -/
theorem ops07_writes : (ops07 : List (HloOp τ sig (Elt F))).Forall fun op => op.writes ⊆ (ops07_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [TRef.unary, TRef.binary, nullary_writes, unary_writes, binary_writes, ternary_writes, reshape_writes, Finset.singleton_subset_iff, List.mem_toFinset]; exact List.mem_map_of_mem (by decide))

/-- A reference they do not write keeps its contents. -/
theorem ops07_kept {r : Ref sig .tc} (V : Valuation τ sig (Elt F)) (hr : r ∉ ops07_W) :
    StableHlo.after ops07 V (Proc.devRef .tc r) = V (Proc.devRef .tc r) :=
  after_of_writes_sub ops07 V ops07_writes hr

end Cert.ReferenceIdeal.RunH

end
-- ==== Proof.Ref.RunHOps08.lean ====
import proofs.«406288_j68358699483732_1_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Operations 301 to 320 of @main, in order. -/
abbrev ops08 : List (HloOp τ sig (Elt F)) :=
  [ nullary main_cst_46 (constant S_ .f32 0x40A00000#32),
    TRef.unary (TRef.of (T := ⟨S_, .f32⟩) main_cst_45) (TRef.of (T := ⟨S_, .f32⟩) main_call2_v0) id,
    TRef.unary (TRef.of (T := ⟨S_, .f32⟩) main_call2_v0) (TRef.of (T := ⟨S800000x4x1, .f32⟩) main_call2_v1) (broadcastInDim S800000x4x1 ![] bcast_S_S800000x4x1),
    TRef.binary (TRef.of (T := ⟨S800000x4x1, .f32⟩) main_call2_v1) (TRef.of (T := ⟨S800000x4x1, .f32⟩) main_v242) (TRef.of (T := ⟨S800000x4x1, .f32⟩) main_call2_v2) maximumf,
    TRef.unary (TRef.of (T := ⟨S_, .f32⟩) main_cst_46) (TRef.of (T := ⟨S_, .f32⟩) main_call2_v3) id,
    TRef.unary (TRef.of (T := ⟨S_, .f32⟩) main_call2_v3) (TRef.of (T := ⟨S800000x4x1, .f32⟩) main_call2_v4) (broadcastInDim S800000x4x1 ![] bcast_S_S800000x4x1),
    TRef.binary (TRef.of (T := ⟨S800000x4x1, .f32⟩) main_call2_v4) (TRef.of (T := ⟨S800000x4x1, .f32⟩) main_call2_v2) (TRef.of (T := ⟨S800000x4x1, .f32⟩) main_v243) minimumf,
    unary main_v243 main_v244 (Host.exp : (⟨S800000x4x1, .f32⟩ : BufTy).Contents (Elt F) → (⟨S800000x4x1, .f32⟩ : BufTy).Contents (Elt F)),
    nullary main_cst_47 (constant S_ .f32 0x3DB504F3#32),
    unary main_cst_47 main_v245 (broadcastInDim S800000x4x1 ![] bcast_S_S800000x4x1 : (⟨S_, .f32⟩ : BufTy).Contents (Elt F) → (⟨S800000x4x1, .f32⟩ : BufTy).Contents (Elt F)),
    binary main_v240 main_v245 main_v246 (mulf : (⟨S800000x4x1, .f32⟩ : BufTy).Contents (Elt F) → (⟨S800000x4x1, .f32⟩ : BufTy).Contents (Elt F) → (⟨S800000x4x1, .f32⟩ : BufTy).Contents (Elt F)),
    nullary main_cst_48 (constant S_ .f32 0xC0A00000#32),
    nullary main_cst_49 (constant S_ .f32 0x40A00000#32),
    TRef.unary (TRef.of (T := ⟨S_, .f32⟩) main_cst_48) (TRef.of (T := ⟨S_, .f32⟩) main_call3_v0) id,
    TRef.unary (TRef.of (T := ⟨S_, .f32⟩) main_call3_v0) (TRef.of (T := ⟨S800000x4x1, .f32⟩) main_call3_v1) (broadcastInDim S800000x4x1 ![] bcast_S_S800000x4x1),
    TRef.binary (TRef.of (T := ⟨S800000x4x1, .f32⟩) main_call3_v1) (TRef.of (T := ⟨S800000x4x1, .f32⟩) main_v246) (TRef.of (T := ⟨S800000x4x1, .f32⟩) main_call3_v2) maximumf,
    TRef.unary (TRef.of (T := ⟨S_, .f32⟩) main_cst_49) (TRef.of (T := ⟨S_, .f32⟩) main_call3_v3) id,
    TRef.unary (TRef.of (T := ⟨S_, .f32⟩) main_call3_v3) (TRef.of (T := ⟨S800000x4x1, .f32⟩) main_call3_v4) (broadcastInDim S800000x4x1 ![] bcast_S_S800000x4x1),
    TRef.binary (TRef.of (T := ⟨S800000x4x1, .f32⟩) main_call3_v4) (TRef.of (T := ⟨S800000x4x1, .f32⟩) main_call3_v2) (TRef.of (T := ⟨S800000x4x1, .f32⟩) main_v247) minimumf,
    unary main_v247 main_v248 (Host.exp : (⟨S800000x4x1, .f32⟩ : BufTy).Contents (Elt F) → (⟨S800000x4x1, .f32⟩ : BufTy).Contents (Elt F)) ]

set_option maxRecDepth 8192 in
/-- Every buffer they touch is a TensorCore reference. -/
theorem ops08_sub : (ops08 : List (HloOp τ sig (Elt F))).Forall fun op => op.bufs ⊆ tcRefs τ sig :=
  ⟨nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub ..⟩

set_option maxRecDepth 8192 in
/-- Each of them determines its results. -/
theorem ops08_fresh : (ops08 : List (HloOp τ sig (Elt F))).Forall fun op => op.fresh = ∅ := by
  simp only [List.Forall]; repeat' constructor

/-- The references they write. -/
abbrev ops08_W : List (Ref sig .tc) := [main_cst_46, main_call2_v0, main_call2_v1, main_call2_v2, main_call2_v3, main_call2_v4, main_v243, main_v244, main_cst_47, main_v245, main_v246, main_cst_48, main_cst_49, main_call3_v0, main_call3_v1, main_call3_v2, main_call3_v3, main_call3_v4, main_v247, main_v248]

set_option maxRecDepth 8192 in
set_option maxHeartbeats 4000000 in
/-- Every write of theirs is in that list. -/
theorem ops08_writes : (ops08 : List (HloOp τ sig (Elt F))).Forall fun op => op.writes ⊆ (ops08_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [TRef.unary, TRef.binary, nullary_writes, unary_writes, binary_writes, ternary_writes, reshape_writes, Finset.singleton_subset_iff, List.mem_toFinset]; exact List.mem_map_of_mem (by decide))

/-- A reference they do not write keeps its contents. -/
theorem ops08_kept {r : Ref sig .tc} (V : Valuation τ sig (Elt F)) (hr : r ∉ ops08_W) :
    StableHlo.after ops08 V (Proc.devRef .tc r) = V (Proc.devRef .tc r) :=
  after_of_writes_sub ops08 V ops08_writes hr

end Cert.ReferenceIdeal.RunH

end
-- ==== Proof.Ref.RunHOps09.lean ====
import proofs.«406288_j68358699483732_1_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Operations 321 to 364 of @main, in order. -/
abbrev ops09 : List (HloOp τ sig (Elt F)) :=
  [ nullary main_c_50 (constantI S_ 32 0#32),
    unary main_c_50 main_v249 (broadcastInDim S800000 ![] bcast_S_S800000 : (⟨S_, .i32⟩ : BufTy).Contents (Elt F) → (⟨S800000, .i32⟩ : BufTy).Contents (Elt F)),
    binary main_arg31 main_v249 main_v250 (cmpi .slt : (⟨S800000, .i32⟩ : BufTy).Contents (Elt F) → (⟨S800000, .i32⟩ : BufTy).Contents (Elt F) → (⟨S800000, .i1⟩ : BufTy).Contents (Elt F)),
    nullary main_c_51 (constantI S_ 32 50000#32),
    unary main_c_51 main_v251 (broadcastInDim S800000 ![] bcast_S_S800000 : (⟨S_, .i32⟩ : BufTy).Contents (Elt F) → (⟨S800000, .i32⟩ : BufTy).Contents (Elt F)),
    binary main_arg31 main_v251 main_v252 (addi : (⟨S800000, .i32⟩ : BufTy).Contents (Elt F) → (⟨S800000, .i32⟩ : BufTy).Contents (Elt F) → (⟨S800000, .i32⟩ : BufTy).Contents (Elt F)),
    ternary main_v250 main_v252 main_arg31 main_v253 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v253 main_v254 (broadcastInDim S800000x1 ![0] bcast_S800000_S800000x1_0 : (⟨S800000, .i32⟩ : BufTy).Contents (Elt F) → (⟨S800000x1, .i32⟩ : BufTy).Contents (Elt F)),
    binary main_v29 main_v254 main_v255 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)),
    unary main_v244 main_v256 (broadcastInDim S800000x4x32 ![0, 1, 2] bcast_S800000x4x1_S800000x4x32_0_1_2 : (⟨S800000x4x1, .f32⟩ : BufTy).Contents (Elt F) → (⟨S800000x4x32, .f32⟩ : BufTy).Contents (Elt F)),
    binary main_v255 main_v256 main_v257 (mulf : (⟨S800000x4x32, .f32⟩ : BufTy).Contents (Elt F) → (⟨S800000x4x32, .f32⟩ : BufTy).Contents (Elt F) → (⟨S800000x4x32, .f32⟩ : BufTy).Contents (Elt F)),
    nullary main_cst_52 (constant S_ .f32 0x00000000#32),
    unary main_cst_52 main_v258 (broadcastInDim S50000x4x32 ![] bcast_S_S50000x4x32 : (⟨S_, .f32⟩ : BufTy).Contents (Elt F) → (⟨S50000x4x32, .f32⟩ : BufTy).Contents (Elt F)),
    unary main_arg32 main_v259 (broadcastInDim S800000x1 ![0] bcast_S800000_S800000x1_0 : (⟨S800000, .i32⟩ : BufTy).Contents (Elt F) → (⟨S800000x1, .i32⟩ : BufTy).Contents (Elt F)),
    ternary main_v258 main_v259 main_v257 main_v260 ((fun x i u => Host.scatterAdd scatter_S50000x4x32_S800000x1_S800000x4x32_12_0_0_1 x i u) : (⟨S50000x4x32, .f32⟩ : BufTy).Contents (Elt F) → (⟨S800000x1, .i32⟩ : BufTy).Contents (Elt F) → (⟨S800000x4x32, .f32⟩ : BufTy).Contents (Elt F) → (⟨S50000x4x32, .f32⟩ : BufTy).Contents (Elt F)),
    nullary main_cst_53 (constant S_ .f32 0x00000000#32),
    unary main_cst_53 main_v261 (broadcastInDim S50000x4x1 ![] bcast_S_S50000x4x1 : (⟨S_, .f32⟩ : BufTy).Contents (Elt F) → (⟨S50000x4x1, .f32⟩ : BufTy).Contents (Elt F)),
    unary main_arg32 main_v262 (broadcastInDim S800000x1 ![0] bcast_S800000_S800000x1_0 : (⟨S800000, .i32⟩ : BufTy).Contents (Elt F) → (⟨S800000x1, .i32⟩ : BufTy).Contents (Elt F)),
    ternary main_v261 main_v262 main_v244 main_v263 ((fun x i u => Host.scatterAdd scatter_S50000x4x1_S800000x1_S800000x4x1_12_0_0_1 x i u) : (⟨S50000x4x1, .f32⟩ : BufTy).Contents (Elt F) → (⟨S800000x1, .i32⟩ : BufTy).Contents (Elt F) → (⟨S800000x4x1, .f32⟩ : BufTy).Contents (Elt F) → (⟨S50000x4x1, .f32⟩ : BufTy).Contents (Elt F)),
    nullary main_c_54 (constantI S_ 32 0#32),
    unary main_c_54 main_v264 (broadcastInDim S800000 ![] bcast_S_S800000 : (⟨S_, .i32⟩ : BufTy).Contents (Elt F) → (⟨S800000, .i32⟩ : BufTy).Contents (Elt F)),
    binary main_arg31 main_v264 main_v265 (cmpi .slt : (⟨S800000, .i32⟩ : BufTy).Contents (Elt F) → (⟨S800000, .i32⟩ : BufTy).Contents (Elt F) → (⟨S800000, .i1⟩ : BufTy).Contents (Elt F)),
    nullary main_c_55 (constantI S_ 32 50000#32),
    unary main_c_55 main_v266 (broadcastInDim S800000 ![] bcast_S_S800000 : (⟨S_, .i32⟩ : BufTy).Contents (Elt F) → (⟨S800000, .i32⟩ : BufTy).Contents (Elt F)),
    binary main_arg31 main_v266 main_v267 (addi : (⟨S800000, .i32⟩ : BufTy).Contents (Elt F) → (⟨S800000, .i32⟩ : BufTy).Contents (Elt F) → (⟨S800000, .i32⟩ : BufTy).Contents (Elt F)),
    ternary main_v265 main_v267 main_arg31 main_v268 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v268 main_v269 (broadcastInDim S800000x1 ![0] bcast_S800000_S800000x1_0 : (⟨S800000, .i32⟩ : BufTy).Contents (Elt F) → (⟨S800000x1, .i32⟩ : BufTy).Contents (Elt F)),
    binary main_v44 main_v269 main_v270 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)),
    unary main_v248 main_v271 (broadcastInDim S800000x4x32 ![0, 1, 2] bcast_S800000x4x1_S800000x4x32_0_1_2 : (⟨S800000x4x1, .f32⟩ : BufTy).Contents (Elt F) → (⟨S800000x4x32, .f32⟩ : BufTy).Contents (Elt F)),
    binary main_v270 main_v271 main_v272 (mulf : (⟨S800000x4x32, .f32⟩ : BufTy).Contents (Elt F) → (⟨S800000x4x32, .f32⟩ : BufTy).Contents (Elt F) → (⟨S800000x4x32, .f32⟩ : BufTy).Contents (Elt F)),
    nullary main_cst_56 (constant S_ .f32 0x00000000#32),
    unary main_cst_56 main_v273 (broadcastInDim S50000x4x32 ![] bcast_S_S50000x4x32 : (⟨S_, .f32⟩ : BufTy).Contents (Elt F) → (⟨S50000x4x32, .f32⟩ : BufTy).Contents (Elt F)),
    unary main_arg32 main_v274 (broadcastInDim S800000x1 ![0] bcast_S800000_S800000x1_0 : (⟨S800000, .i32⟩ : BufTy).Contents (Elt F) → (⟨S800000x1, .i32⟩ : BufTy).Contents (Elt F)),
    ternary main_v273 main_v274 main_v272 main_v275 ((fun x i u => Host.scatterAdd scatter_S50000x4x32_S800000x1_S800000x4x32_12_0_0_1 x i u) : (⟨S50000x4x32, .f32⟩ : BufTy).Contents (Elt F) → (⟨S800000x1, .i32⟩ : BufTy).Contents (Elt F) → (⟨S800000x4x32, .f32⟩ : BufTy).Contents (Elt F) → (⟨S50000x4x32, .f32⟩ : BufTy).Contents (Elt F)),
    nullary main_cst_57 (constant S_ .f32 0x00000000#32),
    unary main_cst_57 main_v276 (broadcastInDim S50000x4x1 ![] bcast_S_S50000x4x1 : (⟨S_, .f32⟩ : BufTy).Contents (Elt F) → (⟨S50000x4x1, .f32⟩ : BufTy).Contents (Elt F)),
    unary main_arg32 main_v277 (broadcastInDim S800000x1 ![0] bcast_S800000_S800000x1_0 : (⟨S800000, .i32⟩ : BufTy).Contents (Elt F) → (⟨S800000x1, .i32⟩ : BufTy).Contents (Elt F)),
    ternary main_v276 main_v277 main_v248 main_v278 ((fun x i u => Host.scatterAdd scatter_S50000x4x1_S800000x1_S800000x4x1_12_0_0_1 x i u) : (⟨S50000x4x1, .f32⟩ : BufTy).Contents (Elt F) → (⟨S800000x1, .i32⟩ : BufTy).Contents (Elt F) → (⟨S800000x4x1, .f32⟩ : BufTy).Contents (Elt F) → (⟨S50000x4x1, .f32⟩ : BufTy).Contents (Elt F)),
    nullary main_cst_58 (constant S_ .f32 0x3F800000#32),
    unary main_cst_58 main_v279 (broadcastInDim S50000x4x1 ![] bcast_S_S50000x4x1 : (⟨S_, .f32⟩ : BufTy).Contents (Elt F) → (⟨S50000x4x1, .f32⟩ : BufTy).Contents (Elt F)),
    binary main_v263 main_v279 main_v280 (addf : (⟨S50000x4x1, .f32⟩ : BufTy).Contents (Elt F) → (⟨S50000x4x1, .f32⟩ : BufTy).Contents (Elt F) → (⟨S50000x4x1, .f32⟩ : BufTy).Contents (Elt F)),
    unary main_v280 main_v281 (broadcastInDim S50000x4x32 ![0, 1, 2] bcast_S50000x4x1_S50000x4x32_0_1_2 : (⟨S50000x4x1, .f32⟩ : BufTy).Contents (Elt F) → (⟨S50000x4x32, .f32⟩ : BufTy).Contents (Elt F)),
    binary main_v260 main_v281 main_v282 (Host.divf : (⟨S50000x4x32, .f32⟩ : BufTy).Contents (Elt F) → (⟨S50000x4x32, .f32⟩ : BufTy).Contents (Elt F) → (⟨S50000x4x32, .f32⟩ : BufTy).Contents (Elt F)),
    reshape main_v282 main_v283 rfl shapeCasts_S50000x4x32_S50000x128 ]

set_option maxRecDepth 8192 in
/-- Every buffer they touch is a TensorCore reference. -/
theorem ops09_sub : (ops09 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., binary_bufs_sub .., reshape_bufs_sub ..⟩

set_option maxRecDepth 8192 in
/-- Each of them determines its results. -/
theorem ops09_fresh : (ops09 : List (HloOp τ sig (Elt F))).Forall fun op => op.fresh = ∅ := by
  simp only [List.Forall]; repeat' constructor

/-- The references they write. -/
abbrev ops09_W : List (Ref sig .tc) := [main_c_50, main_v249, main_v250, main_c_51, main_v251, main_v252, main_v253, main_v254, main_v255, main_v256, main_v257, main_cst_52, main_v258, main_v259, main_v260, main_cst_53, main_v261, main_v262, main_v263, main_c_54, main_v264, main_v265, main_c_55, main_v266, main_v267, main_v268, main_v269, main_v270, main_v271, main_v272, main_cst_56, main_v273, main_v274, main_v275, main_cst_57, main_v276, main_v277, main_v278, main_cst_58, main_v279, main_v280, main_v281, main_v282, main_v283]

set_option maxRecDepth 8192 in
set_option maxHeartbeats 4000000 in
/-- Every write of theirs is in that list. -/
theorem ops09_writes : (ops09 : List (HloOp τ sig (Elt F))).Forall fun op => op.writes ⊆ (ops09_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [TRef.unary, TRef.binary, nullary_writes, unary_writes, binary_writes, ternary_writes, reshape_writes, Finset.singleton_subset_iff, List.mem_toFinset]; exact List.mem_map_of_mem (by decide))

/-- A reference they do not write keeps its contents. -/
theorem ops09_kept {r : Ref sig .tc} (V : Valuation τ sig (Elt F)) (hr : r ∉ ops09_W) :
    StableHlo.after ops09 V (Proc.devRef .tc r) = V (Proc.devRef .tc r) :=
  after_of_writes_sub ops09 V ops09_writes hr

end Cert.ReferenceIdeal.RunH

end
-- ==== Proof.Ref.RunHOps10.lean ====
import proofs.«406288_j68358699483732_1_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Operations 365 to 403 of @main, in order. -/
abbrev ops10 : List (HloOp τ sig (Elt F)) :=
  [ binary main_v283 main_arg11 main_v284 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg12 main_v285 (broadcastInDim S1x128 ![1] bcast_S128_S1x128_1 : (⟨S128, .f32⟩ : BufTy).Contents (Elt F) → (⟨S1x128, .f32⟩ : BufTy).Contents (Elt F)),
    unary main_v285 main_v286 (broadcastInDim S50000x128 ![0, 1] bcast_S1x128_S50000x128_0_1 : (⟨S1x128, .f32⟩ : BufTy).Contents (Elt F) → (⟨S50000x128, .f32⟩ : BufTy).Contents (Elt F)),
    binary main_v284 main_v286 main_v287 (addf : (⟨S50000x128, .f32⟩ : BufTy).Contents (Elt F) → (⟨S50000x128, .f32⟩ : BufTy).Contents (Elt F) → (⟨S50000x128, .f32⟩ : BufTy).Contents (Elt F)),
    binary main_arg1 main_arg13 main_v288 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg14 main_v289 (broadcastInDim S1x128 ![1] bcast_S128_S1x128_1 : (⟨S128, .f32⟩ : BufTy).Contents (Elt F) → (⟨S1x128, .f32⟩ : BufTy).Contents (Elt F)),
    unary main_v289 main_v290 (broadcastInDim S50000x128 ![0, 1] bcast_S1x128_S50000x128_0_1 : (⟨S1x128, .f32⟩ : BufTy).Contents (Elt F) → (⟨S50000x128, .f32⟩ : BufTy).Contents (Elt F)),
    binary main_v288 main_v290 main_v291 (addf : (⟨S50000x128, .f32⟩ : BufTy).Contents (Elt F) → (⟨S50000x128, .f32⟩ : BufTy).Contents (Elt F) → (⟨S50000x128, .f32⟩ : BufTy).Contents (Elt F)),
    binary main_v291 main_v287 main_v292 (addf : (⟨S50000x128, .f32⟩ : BufTy).Contents (Elt F) → (⟨S50000x128, .f32⟩ : BufTy).Contents (Elt F) → (⟨S50000x128, .f32⟩ : BufTy).Contents (Elt F)),
    nullary main_cst_59 (constant S_ .f32 0x00000000#32),
    binary main_v292 main_cst_59 main_v293 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v293 main_v294 (broadcastInDim S50000x1 ![0] bcast_S50000_S50000x1_0 : (⟨S50000, .f32⟩ : BufTy).Contents (Elt F) → (⟨S50000x1, .f32⟩ : BufTy).Contents (Elt F)),
    nullary main_cst_60 (constant S_ .f32 0x43000000#32),
    unary main_cst_60 main_v295 (broadcastInDim S50000x1 ![] bcast_S_S50000x1 : (⟨S_, .f32⟩ : BufTy).Contents (Elt F) → (⟨S50000x1, .f32⟩ : BufTy).Contents (Elt F)),
    binary main_v294 main_v295 main_v296 (Host.divf : (⟨S50000x1, .f32⟩ : BufTy).Contents (Elt F) → (⟨S50000x1, .f32⟩ : BufTy).Contents (Elt F) → (⟨S50000x1, .f32⟩ : BufTy).Contents (Elt F)),
    unary main_v296 main_v297 (broadcastInDim S50000x128 ![0, 1] bcast_S50000x1_S50000x128_0_1 : (⟨S50000x1, .f32⟩ : BufTy).Contents (Elt F) → (⟨S50000x128, .f32⟩ : BufTy).Contents (Elt F)),
    binary main_v292 main_v297 main_v298 (subf : (⟨S50000x128, .f32⟩ : BufTy).Contents (Elt F) → (⟨S50000x128, .f32⟩ : BufTy).Contents (Elt F) → (⟨S50000x128, .f32⟩ : BufTy).Contents (Elt F)),
    binary main_v298 main_v298 main_v299 (mulf : (⟨S50000x128, .f32⟩ : BufTy).Contents (Elt F) → (⟨S50000x128, .f32⟩ : BufTy).Contents (Elt F) → (⟨S50000x128, .f32⟩ : BufTy).Contents (Elt F)),
    nullary main_cst_61 (constant S_ .f32 0x00000000#32),
    binary main_v299 main_cst_61 main_v300 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v300 main_v301 (broadcastInDim S50000x1 ![0] bcast_S50000_S50000x1_0 : (⟨S50000, .f32⟩ : BufTy).Contents (Elt F) → (⟨S50000x1, .f32⟩ : BufTy).Contents (Elt F)),
    nullary main_cst_62 (constant S_ .f32 0x43000000#32),
    unary main_cst_62 main_v302 (broadcastInDim S50000x1 ![] bcast_S_S50000x1 : (⟨S_, .f32⟩ : BufTy).Contents (Elt F) → (⟨S50000x1, .f32⟩ : BufTy).Contents (Elt F)),
    binary main_v301 main_v302 main_v303 (Host.divf : (⟨S50000x1, .f32⟩ : BufTy).Contents (Elt F) → (⟨S50000x1, .f32⟩ : BufTy).Contents (Elt F) → (⟨S50000x1, .f32⟩ : BufTy).Contents (Elt F)),
    unary main_v296 main_v304 (broadcastInDim S50000x128 ![0, 1] bcast_S50000x1_S50000x128_0_1 : (⟨S50000x1, .f32⟩ : BufTy).Contents (Elt F) → (⟨S50000x128, .f32⟩ : BufTy).Contents (Elt F)),
    binary main_v292 main_v304 main_v305 (subf : (⟨S50000x128, .f32⟩ : BufTy).Contents (Elt F) → (⟨S50000x128, .f32⟩ : BufTy).Contents (Elt F) → (⟨S50000x128, .f32⟩ : BufTy).Contents (Elt F)),
    nullary main_cst_63 (constant S_ .f32 0x3727C5AC#32),
    unary main_cst_63 main_v306 (broadcastInDim S50000x1 ![] bcast_S_S50000x1 : (⟨S_, .f32⟩ : BufTy).Contents (Elt F) → (⟨S50000x1, .f32⟩ : BufTy).Contents (Elt F)),
    binary main_v303 main_v306 main_v307 (addf : (⟨S50000x1, .f32⟩ : BufTy).Contents (Elt F) → (⟨S50000x1, .f32⟩ : BufTy).Contents (Elt F) → (⟨S50000x1, .f32⟩ : BufTy).Contents (Elt F)),
    unary main_v307 main_v308 (Host.rsqrt : (⟨S50000x1, .f32⟩ : BufTy).Contents (Elt F) → (⟨S50000x1, .f32⟩ : BufTy).Contents (Elt F)),
    unary main_v308 main_v309 (broadcastInDim S50000x128 ![0, 1] bcast_S50000x1_S50000x128_0_1 : (⟨S50000x1, .f32⟩ : BufTy).Contents (Elt F) → (⟨S50000x128, .f32⟩ : BufTy).Contents (Elt F)),
    binary main_v305 main_v309 main_v310 (mulf : (⟨S50000x128, .f32⟩ : BufTy).Contents (Elt F) → (⟨S50000x128, .f32⟩ : BufTy).Contents (Elt F) → (⟨S50000x128, .f32⟩ : BufTy).Contents (Elt F)),
    unary main_arg15 main_v311 (broadcastInDim S1x128 ![1] bcast_S128_S1x128_1 : (⟨S128, .f32⟩ : BufTy).Contents (Elt F) → (⟨S1x128, .f32⟩ : BufTy).Contents (Elt F)),
    unary main_v311 main_v312 (broadcastInDim S50000x128 ![0, 1] bcast_S1x128_S50000x128_0_1 : (⟨S1x128, .f32⟩ : BufTy).Contents (Elt F) → (⟨S50000x128, .f32⟩ : BufTy).Contents (Elt F)),
    binary main_v310 main_v312 main_v313 (mulf : (⟨S50000x128, .f32⟩ : BufTy).Contents (Elt F) → (⟨S50000x128, .f32⟩ : BufTy).Contents (Elt F) → (⟨S50000x128, .f32⟩ : BufTy).Contents (Elt F)),
    unary main_arg16 main_v314 (broadcastInDim S1x128 ![1] bcast_S128_S1x128_1 : (⟨S128, .f32⟩ : BufTy).Contents (Elt F) → (⟨S1x128, .f32⟩ : BufTy).Contents (Elt F)),
    unary main_v314 main_v315 (broadcastInDim S50000x128 ![0, 1] bcast_S1x128_S50000x128_0_1 : (⟨S1x128, .f32⟩ : BufTy).Contents (Elt F) → (⟨S50000x128, .f32⟩ : BufTy).Contents (Elt F)),
    binary main_v313 main_v315 main_v316 (addf : (⟨S50000x128, .f32⟩ : BufTy).Contents (Elt F) → (⟨S50000x128, .f32⟩ : BufTy).Contents (Elt F) → (⟨S50000x128, .f32⟩ : BufTy).Contents (Elt F)),
    binary main_v292 main_v316 main_v317 (addf : (⟨S50000x128, .f32⟩ : BufTy).Contents (Elt F) → (⟨S50000x128, .f32⟩ : BufTy).Contents (Elt F) → (⟨S50000x128, .f32⟩ : BufTy).Contents (Elt F)) ]

set_option maxRecDepth 8192 in
/-- Every buffer they touch is a TensorCore reference. -/
theorem ops10_sub : (ops10 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub ..⟩

set_option maxRecDepth 8192 in
/-- Each of them determines its results. -/
theorem ops10_fresh : (ops10 : List (HloOp τ sig (Elt F))).Forall fun op => op.fresh = ∅ := by
  simp only [List.Forall]; repeat' constructor

/-- The references they write. -/
abbrev ops10_W : List (Ref sig .tc) := [main_v284, main_v285, main_v286, main_v287, main_v288, main_v289, main_v290, main_v291, main_v292, main_cst_59, main_v293, main_v294, main_cst_60, main_v295, main_v296, main_v297, main_v298, main_v299, main_cst_61, main_v300, main_v301, main_cst_62, main_v302, main_v303, main_v304, main_v305, main_cst_63, main_v306, main_v307, main_v308, main_v309, main_v310, main_v311, main_v312, main_v313, main_v314, main_v315, main_v316, main_v317]

set_option maxRecDepth 8192 in
set_option maxHeartbeats 4000000 in
/-- Every write of theirs is in that list. -/
theorem ops10_writes : (ops10 : List (HloOp τ sig (Elt F))).Forall fun op => op.writes ⊆ (ops10_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [TRef.unary, TRef.binary, nullary_writes, unary_writes, binary_writes, ternary_writes, reshape_writes, Finset.singleton_subset_iff, List.mem_toFinset]; exact List.mem_map_of_mem (by decide))

/-- A reference they do not write keeps its contents. -/
theorem ops10_kept {r : Ref sig .tc} (V : Valuation τ sig (Elt F)) (hr : r ∉ ops10_W) :
    StableHlo.after ops10 V (Proc.devRef .tc r) = V (Proc.devRef .tc r) :=
  after_of_writes_sub ops10 V ops10_writes hr

end Cert.ReferenceIdeal.RunH

end
-- ==== Proof.Ref.RunHOps11.lean ====
import proofs.«406288_j68358699483732_1_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Operations 404 to 448 of @main, in order. -/
abbrev ops11 : List (HloOp τ sig (Elt F)) :=
  [ nullary main_cst_64 (constant S_ .f32 0x3F800000#32),
    unary main_cst_64 main_v318 (broadcastInDim S50000x4x1 ![] bcast_S_S50000x4x1 : (⟨S_, .f32⟩ : BufTy).Contents (Elt F) → (⟨S50000x4x1, .f32⟩ : BufTy).Contents (Elt F)),
    binary main_v278 main_v318 main_v319 (addf : (⟨S50000x4x1, .f32⟩ : BufTy).Contents (Elt F) → (⟨S50000x4x1, .f32⟩ : BufTy).Contents (Elt F) → (⟨S50000x4x1, .f32⟩ : BufTy).Contents (Elt F)),
    unary main_v319 main_v320 (broadcastInDim S50000x4x32 ![0, 1, 2] bcast_S50000x4x1_S50000x4x32_0_1_2 : (⟨S50000x4x1, .f32⟩ : BufTy).Contents (Elt F) → (⟨S50000x4x32, .f32⟩ : BufTy).Contents (Elt F)),
    binary main_v275 main_v320 main_v321 (Host.divf : (⟨S50000x4x32, .f32⟩ : BufTy).Contents (Elt F) → (⟨S50000x4x32, .f32⟩ : BufTy).Contents (Elt F) → (⟨S50000x4x32, .f32⟩ : BufTy).Contents (Elt F)),
    reshape main_v321 main_v322 rfl shapeCasts_S50000x4x32_S50000x128,
    binary main_v322 main_arg23 main_v323 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg24 main_v324 (broadcastInDim S1x128 ![1] bcast_S128_S1x128_1 : (⟨S128, .f32⟩ : BufTy).Contents (Elt F) → (⟨S1x128, .f32⟩ : BufTy).Contents (Elt F)),
    unary main_v324 main_v325 (broadcastInDim S50000x128 ![0, 1] bcast_S1x128_S50000x128_0_1 : (⟨S1x128, .f32⟩ : BufTy).Contents (Elt F) → (⟨S50000x128, .f32⟩ : BufTy).Contents (Elt F)),
    binary main_v323 main_v325 main_v326 (addf : (⟨S50000x128, .f32⟩ : BufTy).Contents (Elt F) → (⟨S50000x128, .f32⟩ : BufTy).Contents (Elt F) → (⟨S50000x128, .f32⟩ : BufTy).Contents (Elt F)),
    binary main_arg2 main_arg25 main_v327 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg26 main_v328 (broadcastInDim S1x128 ![1] bcast_S128_S1x128_1 : (⟨S128, .f32⟩ : BufTy).Contents (Elt F) → (⟨S1x128, .f32⟩ : BufTy).Contents (Elt F)),
    unary main_v328 main_v329 (broadcastInDim S50000x128 ![0, 1] bcast_S1x128_S50000x128_0_1 : (⟨S1x128, .f32⟩ : BufTy).Contents (Elt F) → (⟨S50000x128, .f32⟩ : BufTy).Contents (Elt F)),
    binary main_v327 main_v329 main_v330 (addf : (⟨S50000x128, .f32⟩ : BufTy).Contents (Elt F) → (⟨S50000x128, .f32⟩ : BufTy).Contents (Elt F) → (⟨S50000x128, .f32⟩ : BufTy).Contents (Elt F)),
    binary main_v330 main_v326 main_v331 (addf : (⟨S50000x128, .f32⟩ : BufTy).Contents (Elt F) → (⟨S50000x128, .f32⟩ : BufTy).Contents (Elt F) → (⟨S50000x128, .f32⟩ : BufTy).Contents (Elt F)),
    nullary main_cst_65 (constant S_ .f32 0x00000000#32),
    binary main_v331 main_cst_65 main_v332 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v332 main_v333 (broadcastInDim S50000x1 ![0] bcast_S50000_S50000x1_0 : (⟨S50000, .f32⟩ : BufTy).Contents (Elt F) → (⟨S50000x1, .f32⟩ : BufTy).Contents (Elt F)),
    nullary main_cst_66 (constant S_ .f32 0x43000000#32),
    unary main_cst_66 main_v334 (broadcastInDim S50000x1 ![] bcast_S_S50000x1 : (⟨S_, .f32⟩ : BufTy).Contents (Elt F) → (⟨S50000x1, .f32⟩ : BufTy).Contents (Elt F)),
    binary main_v333 main_v334 main_v335 (Host.divf : (⟨S50000x1, .f32⟩ : BufTy).Contents (Elt F) → (⟨S50000x1, .f32⟩ : BufTy).Contents (Elt F) → (⟨S50000x1, .f32⟩ : BufTy).Contents (Elt F)),
    unary main_v335 main_v336 (broadcastInDim S50000x128 ![0, 1] bcast_S50000x1_S50000x128_0_1 : (⟨S50000x1, .f32⟩ : BufTy).Contents (Elt F) → (⟨S50000x128, .f32⟩ : BufTy).Contents (Elt F)),
    binary main_v331 main_v336 main_v337 (subf : (⟨S50000x128, .f32⟩ : BufTy).Contents (Elt F) → (⟨S50000x128, .f32⟩ : BufTy).Contents (Elt F) → (⟨S50000x128, .f32⟩ : BufTy).Contents (Elt F)),
    binary main_v337 main_v337 main_v338 (mulf : (⟨S50000x128, .f32⟩ : BufTy).Contents (Elt F) → (⟨S50000x128, .f32⟩ : BufTy).Contents (Elt F) → (⟨S50000x128, .f32⟩ : BufTy).Contents (Elt F)),
    nullary main_cst_67 (constant S_ .f32 0x00000000#32),
    binary main_v338 main_cst_67 main_v339 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v339 main_v340 (broadcastInDim S50000x1 ![0] bcast_S50000_S50000x1_0 : (⟨S50000, .f32⟩ : BufTy).Contents (Elt F) → (⟨S50000x1, .f32⟩ : BufTy).Contents (Elt F)),
    nullary main_cst_68 (constant S_ .f32 0x43000000#32),
    unary main_cst_68 main_v341 (broadcastInDim S50000x1 ![] bcast_S_S50000x1 : (⟨S_, .f32⟩ : BufTy).Contents (Elt F) → (⟨S50000x1, .f32⟩ : BufTy).Contents (Elt F)),
    binary main_v340 main_v341 main_v342 (Host.divf : (⟨S50000x1, .f32⟩ : BufTy).Contents (Elt F) → (⟨S50000x1, .f32⟩ : BufTy).Contents (Elt F) → (⟨S50000x1, .f32⟩ : BufTy).Contents (Elt F)),
    unary main_v335 main_v343 (broadcastInDim S50000x128 ![0, 1] bcast_S50000x1_S50000x128_0_1 : (⟨S50000x1, .f32⟩ : BufTy).Contents (Elt F) → (⟨S50000x128, .f32⟩ : BufTy).Contents (Elt F)),
    binary main_v331 main_v343 main_v344 (subf : (⟨S50000x128, .f32⟩ : BufTy).Contents (Elt F) → (⟨S50000x128, .f32⟩ : BufTy).Contents (Elt F) → (⟨S50000x128, .f32⟩ : BufTy).Contents (Elt F)),
    nullary main_cst_69 (constant S_ .f32 0x3727C5AC#32),
    unary main_cst_69 main_v345 (broadcastInDim S50000x1 ![] bcast_S_S50000x1 : (⟨S_, .f32⟩ : BufTy).Contents (Elt F) → (⟨S50000x1, .f32⟩ : BufTy).Contents (Elt F)),
    binary main_v342 main_v345 main_v346 (addf : (⟨S50000x1, .f32⟩ : BufTy).Contents (Elt F) → (⟨S50000x1, .f32⟩ : BufTy).Contents (Elt F) → (⟨S50000x1, .f32⟩ : BufTy).Contents (Elt F)),
    unary main_v346 main_v347 (Host.rsqrt : (⟨S50000x1, .f32⟩ : BufTy).Contents (Elt F) → (⟨S50000x1, .f32⟩ : BufTy).Contents (Elt F)),
    unary main_v347 main_v348 (broadcastInDim S50000x128 ![0, 1] bcast_S50000x1_S50000x128_0_1 : (⟨S50000x1, .f32⟩ : BufTy).Contents (Elt F) → (⟨S50000x128, .f32⟩ : BufTy).Contents (Elt F)),
    binary main_v344 main_v348 main_v349 (mulf : (⟨S50000x128, .f32⟩ : BufTy).Contents (Elt F) → (⟨S50000x128, .f32⟩ : BufTy).Contents (Elt F) → (⟨S50000x128, .f32⟩ : BufTy).Contents (Elt F)),
    unary main_arg27 main_v350 (broadcastInDim S1x128 ![1] bcast_S128_S1x128_1 : (⟨S128, .f32⟩ : BufTy).Contents (Elt F) → (⟨S1x128, .f32⟩ : BufTy).Contents (Elt F)),
    unary main_v350 main_v351 (broadcastInDim S50000x128 ![0, 1] bcast_S1x128_S50000x128_0_1 : (⟨S1x128, .f32⟩ : BufTy).Contents (Elt F) → (⟨S50000x128, .f32⟩ : BufTy).Contents (Elt F)),
    binary main_v349 main_v351 main_v352 (mulf : (⟨S50000x128, .f32⟩ : BufTy).Contents (Elt F) → (⟨S50000x128, .f32⟩ : BufTy).Contents (Elt F) → (⟨S50000x128, .f32⟩ : BufTy).Contents (Elt F)),
    unary main_arg28 main_v353 (broadcastInDim S1x128 ![1] bcast_S128_S1x128_1 : (⟨S128, .f32⟩ : BufTy).Contents (Elt F) → (⟨S1x128, .f32⟩ : BufTy).Contents (Elt F)),
    unary main_v353 main_v354 (broadcastInDim S50000x128 ![0, 1] bcast_S1x128_S50000x128_0_1 : (⟨S1x128, .f32⟩ : BufTy).Contents (Elt F) → (⟨S50000x128, .f32⟩ : BufTy).Contents (Elt F)),
    binary main_v352 main_v354 main_v355 (addf : (⟨S50000x128, .f32⟩ : BufTy).Contents (Elt F) → (⟨S50000x128, .f32⟩ : BufTy).Contents (Elt F) → (⟨S50000x128, .f32⟩ : BufTy).Contents (Elt F)),
    binary main_v331 main_v355 main_v356 (addf : (⟨S50000x128, .f32⟩ : BufTy).Contents (Elt F) → (⟨S50000x128, .f32⟩ : BufTy).Contents (Elt F) → (⟨S50000x128, .f32⟩ : BufTy).Contents (Elt F)) ]

set_option maxRecDepth 8192 in
/-- Every buffer they touch is a TensorCore reference. -/
theorem ops11_sub : (ops11 : List (HloOp τ sig (Elt F))).Forall fun op => op.bufs ⊆ tcRefs τ sig :=
  ⟨nullary_bufs_sub .., unary_bufs_sub .., binary_bufs_sub .., unary_bufs_sub .., binary_bufs_sub .., reshape_bufs_sub .., binary_bufs_sub .., unary_bufs_sub .., unary_bufs_sub .., binary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub ..⟩

set_option maxRecDepth 8192 in
/-- Each of them determines its results. -/
theorem ops11_fresh : (ops11 : List (HloOp τ sig (Elt F))).Forall fun op => op.fresh = ∅ := by
  simp only [List.Forall]; repeat' constructor

/-- The references they write. -/
abbrev ops11_W : List (Ref sig .tc) := [main_cst_64, main_v318, main_v319, main_v320, main_v321, main_v322, main_v323, main_v324, main_v325, main_v326, main_v327, main_v328, main_v329, main_v330, main_v331, main_cst_65, main_v332, main_v333, main_cst_66, main_v334, main_v335, main_v336, main_v337, main_v338, main_cst_67, main_v339, main_v340, main_cst_68, main_v341, main_v342, main_v343, main_v344, main_cst_69, main_v345, main_v346, main_v347, main_v348, main_v349, main_v350, main_v351, main_v352, main_v353, main_v354, main_v355, main_v356]

set_option maxRecDepth 8192 in
set_option maxHeartbeats 4000000 in
/-- Every write of theirs is in that list. -/
theorem ops11_writes : (ops11 : List (HloOp τ sig (Elt F))).Forall fun op => op.writes ⊆ (ops11_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [TRef.unary, TRef.binary, nullary_writes, unary_writes, binary_writes, ternary_writes, reshape_writes, Finset.singleton_subset_iff, List.mem_toFinset]; exact List.mem_map_of_mem (by decide))

/-- A reference they do not write keeps its contents. -/
theorem ops11_kept {r : Ref sig .tc} (V : Valuation τ sig (Elt F)) (hr : r ∉ ops11_W) :
    StableHlo.after ops11 V (Proc.devRef .tc r) = V (Proc.devRef .tc r) :=
  after_of_writes_sub ops11 V ops11_writes hr

end Cert.ReferenceIdeal.RunH

end
-- ==== Proof.Ref.RunHJoin.lean ====
import proofs.«406288_j68358699483732_1_alg».proof.Proof.Ref.RunHOps01
import proofs.«406288_j68358699483732_1_alg».proof.Proof.Ref.RunHOps02
import proofs.«406288_j68358699483732_1_alg».proof.Proof.Ref.RunHOps03
import proofs.«406288_j68358699483732_1_alg».proof.Proof.Ref.RunHOps04
import proofs.«406288_j68358699483732_1_alg».proof.Proof.Ref.RunHOps05
import proofs.«406288_j68358699483732_1_alg».proof.Proof.Ref.RunHOps06
import proofs.«406288_j68358699483732_1_alg».proof.Proof.Ref.RunHOps07
import proofs.«406288_j68358699483732_1_alg».proof.Proof.Ref.RunHOps08
import proofs.«406288_j68358699483732_1_alg».proof.Proof.Ref.RunHOps09
import proofs.«406288_j68358699483732_1_alg».proof.Proof.Ref.RunHOps10
import proofs.«406288_j68358699483732_1_alg».proof.Proof.Ref.RunHOps11
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

theorem after_append : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, after_cons, after_cons, after_append l₁ l₂]

theorem forall_append {P : HloOp τ sig (Elt F) → Prop} {l₁ l₂ : List (HloOp τ sig (Elt F))}
    (h₁ : l₁.Forall P) (h₂ : l₂.Forall P) : (l₁ ++ l₂).Forall P :=
  List.forall_iff_forall_mem.mpr fun op hop => by
    rcases List.mem_append.mp hop with h | h
    · exact List.forall_iff_forall_mem.mp h₁ op h
    · exact List.forall_iff_forall_mem.mp h₂ op h

abbrev ops : List (HloOp τ sig (Elt F)) :=
  ops01 ++ (ops02 ++ (ops03 ++ (ops04 ++ (ops05 ++ (ops06 ++ (ops07 ++ (ops08 ++ (ops09 ++ (ops10 ++ (ops11))))))))))

set_option maxRecDepth 16384 in
set_option maxHeartbeats 8000000 in

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append ops01_sub (forall_append ops02_sub (forall_append ops03_sub (forall_append ops04_sub (forall_append ops05_sub (forall_append ops06_sub (forall_append ops07_sub (forall_append ops08_sub (forall_append ops09_sub (forall_append ops10_sub (ops11_sub))))))))))

theorem ops_fresh : ∀ op ∈ (ops : List (HloOp τ sig (Elt F))), op.fresh = ∅ :=
  List.forall_iff_forall_mem.mp
    (forall_append ops01_fresh (forall_append ops02_fresh (forall_append ops03_fresh (forall_append ops04_fresh (forall_append ops05_fresh (forall_append ops06_fresh (forall_append ops07_fresh (forall_append ops08_fresh (forall_append ops09_fresh (forall_append ops10_fresh (ops11_fresh)))))))))))

abbrev ops_W : List (Ref sig .tc) :=
  ops01_W ++ (ops02_W ++ (ops03_W ++ (ops04_W ++ (ops05_W ++ (ops06_W ++ (ops07_W ++ (ops08_W ++ (ops09_W ++ (ops10_W ++ (ops11_W))))))))))

theorem ops_kept {r : Ref sig .tc} (V : Valuation τ sig (Elt F)) (hr : r ∉ ops_W) :
    StableHlo.after ops V (Proc.devRef .tc r) = V (Proc.devRef .tc r) := by
  simp only [ops_W, List.mem_append, not_or] at hr
  obtain ⟨h01, h02, h03, h04, h05, h06, h07, h08, h09, h10, h11⟩ := hr
  simp only [ops, after_append]
  rw [ops11_kept _ h11, ops10_kept _ h10, ops09_kept _ h09, ops08_kept _ h08, ops07_kept _ h07, ops06_kept _ h06, ops05_kept _ h05, ops04_kept _ h04, ops03_kept _ h03, ops02_kept _ h02, ops01_kept _ h01]

theorem arg_kept (m : (ℓ : Loc nD τ sig) → Buf (Elt F) ℓ) (c : Dev nD) {r : Ref sig .tc} (hr : r ∉ ops_W) :
    StableHlo.after ops (launchContents m c) (Proc.devRef .tc r) = m ((c.tc : Thread nD τ).loc r) :=
  ops_kept (launchContents m c) hr

theorem run_ops (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = StableHlo.after ops (launchContents m d) (Proc.devRef .tc b) :=
  run_seq scopedRefs_eq scopedSems_eq defs main (fun _ => ops) main_eq (fun _ => ops_sub) m ρ (fun _ => ops_fresh)

-- Whatever holds of every reference no stretch writes holds of each of the 33 arguments.
theorem args_all {P : Ref sig .tc → Prop} (h : ∀ r, r ∉ (ops_W : List (Ref sig .tc)) → P r) :
    P main_arg0 ∧ P main_arg1 ∧ P main_arg2 ∧ P main_arg3 ∧ P main_arg4 ∧ P main_arg5 ∧ P main_arg6 ∧ P main_arg7 ∧ P main_arg8 ∧ P main_arg9 ∧ P main_arg10 ∧ P main_arg11 ∧ P main_arg12 ∧ P main_arg13 ∧ P main_arg14 ∧ P main_arg15 ∧ P main_arg16 ∧ P main_arg17 ∧ P main_arg18 ∧ P main_arg19 ∧ P main_arg20 ∧ P main_arg21 ∧ P main_arg22 ∧ P main_arg23 ∧ P main_arg24 ∧ P main_arg25 ∧ P main_arg26 ∧ P main_arg27 ∧ P main_arg28 ∧ P main_arg29 ∧ P main_arg30 ∧ P main_arg31 ∧ P main_arg32 :=
  ⟨h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide)⟩

end Cert.ReferenceIdeal.RunH

end
-- ==== Proof.Ref.RefSpec.lean ====
import Idealize.ShloMosaic.PureOps.Ideal
import Idealize.ShloMosaic.Lib.ValueIdx

noncomputable section

namespace Cert.RefRead

open Idealize.ShloMosaic Idealize.ShloMosaic.ValueIdx

abbrev Mat (a b : Nat) : Type := FVec Ideal ⟨2, ![a, b]⟩ .f32
abbrev Row (a : Nat) : Type := FVec Ideal ⟨1, ![a]⟩ .f32
abbrev IV (a : Nat) : Type := IVec ⟨1, ![a]⟩ 32

abbrev cScale : EReal := Ideal.ofBits .f32 0x3DB504F3#32
abbrev cLo : EReal := Ideal.ofBits .f32 0xC0A00000#32
abbrev cHi : EReal := Ideal.ofBits .f32 0x40A00000#32
abbrev cOne : EReal := Ideal.ofBits .f32 0x3F800000#32
abbrev c128 : EReal := Ideal.ofBits .f32 0x43000000#32
abbrev cEps : EReal := Ideal.ofBits .f32 0x3727C5AC#32

def wrap (w : BitVec 32) : BitVec 32 := if w.slt 0#32 then w + 50000#32 else w

def rowOf (w : BitVec 32) : Fin 50000 :=
  ⟨min (wrap w).toInt.toNat 49999, Nat.lt_succ_of_le (Nat.min_le_right _ _)⟩

def lin {r a b : Nat} (x : Mat r a) (W : Mat a b) (bias : Row b) : Mat r b :=
  fun i => (∑ k : Fin a, x (ix2 (i 0) k) * W (ix2 k (i 1))) + bias (ix1 (i 1))

def hd (h : Fin 4) (d : Fin 32) : Fin 128 := ⟨32 * h.val + d.val, by omega⟩

def headOf (j : Fin 128) : Fin 4 := ⟨j.val / 32, by omega⟩

def pick {b : Nat} (idx : IV 800000) (T : Mat 50000 b) : Mat 800000 b :=
  fun i => T (ix2 (rowOf (idx (ix1 (i 0)))) (i 1))

def score (kg qg : Mat 800000 128) (feat : Mat 800000 2) (e : Fin 800000) (h : Fin 4) : EReal :=
  Ideal.exp (min cHi (max cLo
    (((∑ d : Fin 32, kg (ix2 e (hd h d)) * qg (ix2 e (hd h d))) * feat (ix2 e 0)) * cScale)))

def weights (kg qg : Mat 800000 128) (feat : Mat 800000 2) : Mat 800000 4 :=
  fun i => score kg qg feat (i 0) (i 1)

def weighted (vg : Mat 800000 128) (w : Mat 800000 4) : Mat 800000 128 :=
  fun i => vg i * w (ix2 (i 0) (headOf (i 1)))

def segSum {b : Nat} (idx : IV 800000) (P : Mat 800000 b) : Mat 50000 b :=
  fun i => ∑ e ∈ Finset.univ.filter (fun e : Fin 800000 => idx (ix1 e) = BitVec.ofNat 32 (i 0).val),
    P (ix2 e (i 1))

def wmean (num : Mat 50000 128) (den : Mat 50000 4) : Mat 50000 128 :=
  fun i => Ideal.div (num i) (den (ix2 (i 0) (headOf (i 1))) + cOne)

def preLn (wm : Mat 50000 128) (x : Mat 50000 256) (Wao : Mat 128 128) (bao : Row 128)
    (Waffn : Mat 256 128) (baffn : Row 128) : Mat 50000 128 :=
  fun i => ((∑ k : Fin 256, x (ix2 (i 0) k) * Waffn (ix2 k (i 1))) + baffn (ix1 (i 1)))
    + ((∑ k : Fin 128, wm (ix2 (i 0) k) * Wao (ix2 k (i 1))) + bao (ix1 (i 1)))

def rowMean (a : Mat 50000 128) (n : Fin 50000) : EReal := Ideal.div (∑ j : Fin 128, a (ix2 n j)) c128
def rowRstd (a : Mat 50000 128) (n : Fin 50000) : EReal :=
  Ideal.rsqrt (Ideal.div (∑ j : Fin 128, (a (ix2 n j) - rowMean a n) * (a (ix2 n j) - rowMean a n)) c128 + cEps)

def addLn (a : Mat 50000 128) (g b : Row 128) : Mat 50000 128 :=
  fun i => a i + ((((a i - rowMean a (i 0)) * rowRstd a (i 0)) * g (ix1 (i 1))) + b (ix1 (i 1)))

def meanOf (x : Mat 50000 256) (Wak Wav Waq : Mat 256 128) (bak bav baq : Row 128)
    (src dst : IV 800000) (feat : Mat 800000 2) : Mat 50000 128 :=
  wmean
    (segSum dst (weighted (pick src (lin x Wav bav))
      (weights (pick src (lin x Wak bak)) (pick dst (lin x Waq baq)) feat)))
    (segSum dst (weights (pick src (lin x Wak bak)) (pick dst (lin x Waq baq)) feat))

def refPass (x : Mat 50000 256) (Wak Wav Waq : Mat 256 128) (bak bav baq : Row 128)
    (src dst : IVec ⟨1, ![800000]⟩ 32) (feat : Mat 800000 2) (Wao : Mat 128 128) (bao : Row 128)
    (Waffn : Mat 256 128) (baffn : Row 128) (g b : Row 128) : Mat 50000 128 :=
  addLn (preLn (meanOf x Wak Wav Waq bak bav baq src dst feat) x Wao bao Waffn baffn) g b

end Cert.RefRead

end
-- ==== Proof.Ref.RefOps.lean ====
import proofs.«406288_j68358699483732_1_alg».proof.Proof.Gen.ReferenceIdeal
import Idealize.ShloMosaic.PureOps.Ideal
import Idealize.ShloMosaic.Lib.ValueIdx
import Mathlib.Algebra.BigOperators.Group.Finset.Basic

set_option maxRecDepth 16384

noncomputable section

namespace Cert.RefOps

open Idealize.ShloMosaic Idealize.ShloMosaic.ValueIdx
open Cert.ReferenceIdeal Cert.ReferenceIdeal.Gen

abbrev gD := gather_S50000x4x32_S800000x1_S800000x4x32_12_0_n_n_0_1_1432

theorem word_eq_iff (w : BitVec 32) (n : Nat) (hn : n < 50000) : w.toInt = (n : Int) ↔ w = BitVec.ofNat 32 n := by
  have hw : w.toNat < 2 ^ 32 := w.isLt
  constructor
  · intro h
    apply BitVec.eq_of_toNat_eq
    rw [BitVec.toNat_ofNat]
    rw [BitVec.toInt_eq_toNat_cond] at h
    split at h <;> omega
  · rintro rfl
    have h2 : 2 * (BitVec.ofNat 32 n).toNat < 2 ^ 32 := by rw [BitVec.toNat_ofNat]; omega
    rw [BitVec.toInt_eq_toNat_of_lt h2, BitVec.toNat_ofNat]
    omega

theorem gather_apply {α : Type} (x : S50000x4x32.Idx → α) (idx : IVec S800000x1 32) (j : S800000x4x32.Idx) :
    Host.gather gD x idx j
      = x (ix3 ⟨min (idx (ix2 (j 0) 0)).toInt.toNat 49999, Nat.lt_succ_of_le (Nat.min_le_right _ _)⟩ (j 1) (j 2)) := by
  have hsi : gD.siIdx j ⟨List.idxOf (0 : Fin 3) gD.startIndexMap,
      List.idxOf_lt_length_iff.2 (List.mem_singleton.mpr rfl)⟩ = ix2 (j 0) 0 := by
    funext b; refine Fin.ext ?_
    match b with
    | ⟨0, _⟩ => rfl
    | ⟨1, _⟩ => rfl
  have hs0 : gD.start j idx 0 = min (idx (ix2 (j 0) 0)).toInt.toNat 49999 := by
    unfold GatherDims.start
    rw [dif_pos (show (0 : Fin 3) ∈ gD.startIndexMap from List.mem_singleton.mpr rfl), hsi]
    rfl
  have hs1 : gD.start j idx 1 = 0 := rfl
  have hs2 : gD.start j idx 2 = 0 := rfl
  have hb0 : gD.batchCoord j 0 = 0 := rfl
  have hb1 : gD.batchCoord j 1 = 0 := rfl
  have hb2 : gD.batchCoord j 2 = 0 := rfl
  have ho0 : gD.offCoord j 0 = 0 := rfl
  have ho1 : gD.offCoord j 1 = (j 1).val := rfl
  have ho2 : gD.offCoord j 2 = (j 2).val := rfl
  unfold Host.gather
  congr 1
  funext a
  refine Fin.ext ?_
  match a with
  | ⟨0, _⟩ =>
    show gD.start j idx 0 + gD.batchCoord j 0 + gD.offCoord j 0 = min (idx (ix2 (j 0) 0)).toInt.toNat 49999
    rw [hs0, hb0, ho0]; rfl
  | ⟨1, _⟩ =>
    show gD.start j idx 1 + gD.batchCoord j 1 + gD.offCoord j 1 = (j 1).val
    rw [hs1, hb1, ho1]; omega
  | ⟨2, _⟩ =>
    show gD.start j idx 2 + gD.batchCoord j 2 + gD.offCoord j 2 = (j 2).val
    rw [hs2, hb2, ho2]; omega

abbrev scDims (L : Nat)
    (wf : ScatterDims.WF ⟨3, ![50000, 4, L]⟩ ⟨2, ![800000, 1]⟩ ⟨3, ![800000, 4, L]⟩ [1, 2] [0] [0] 1) :
    ScatterDims ⟨3, ![50000, 4, L]⟩ ⟨2, ![800000, 1]⟩ ⟨3, ![800000, 4, L]⟩ where
  updateWindowDims := [1, 2]
  insertedWindowDims := [0]
  scatterDimsToOperandDims := [0]
  indexVectorDim := 1
  wf := wf

section Scatter

variable {L : Nat}
  (wf : ScatterDims.WF ⟨3, ![50000, 4, L]⟩ ⟨2, ![800000, 1]⟩ ⟨3, ![800000, 4, L]⟩ [1, 2] [0] [0] 1)

theorem resultIdx_iff (j : (⟨3, ![800000, 4, L]⟩ : Shape).Idx) (idx : IVec ⟨2, ![800000, 1]⟩ 32)
    (i : (⟨3, ![50000, 4, L]⟩ : Shape).Idx) :
    (scDims L wf).resultIdx? j idx = some i ↔
      idx (ix2 (j 0) 0) = BitVec.ofNat 32 (i 0).val ∧ (j 1).val = (i 1).val ∧ (j 2).val = (i 2).val := by
  have hsi : (scDims L wf).siIdx j ⟨List.idxOf (0 : Fin 3) (scDims L wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  have hs0 : (scDims L wf).start j idx 0 = (idx (ix2 (j 0) 0)).toInt := by
    unfold ScatterDims.start
    rw [dif_pos (show (0 : Fin 3) ∈ (scDims L wf).scatterDimsToOperandDims from List.mem_singleton.mpr rfl), hsi]
    rfl
  have hs1 : (scDims L wf).start j idx 1 = 0 := rfl
  have hs2 : (scDims L wf).start j idx 2 = 0 := rfl
  have hw0 : (scDims L wf).window j 0 = 0 := rfl
  have hw1 : (scDims L wf).window j 1 = (j 1).val := rfl
  have hw2 : (scDims L wf).window j 2 = (j 2).val := rfl
  have hi0 : (i 0).val < 50000 := (i 0).isLt
  have hi1 : (i 1).val < 4 := (i 1).isLt
  have hi2 : (i 2).val < L := (i 2).isLt
  have hz0 : (⟨3, ![50000, 4, L]⟩ : Shape).size 0 = 50000 := rfl
  have hz1 : (⟨3, ![50000, 4, L]⟩ : Shape).size 1 = 4 := rfl
  have hz2 : (⟨3, ![50000, 4, L]⟩ : Shape).size 2 = L := rfl
  unfold ScatterDims.resultIdx?
  split
  · rename_i h
    have h0 := h 0
    rw [hs0, hw0, hz0] at h0
    rw [Option.some.injEq]
    constructor
    · intro hf
      have e0 : ((scDims L wf).start j idx 0 + ((scDims L wf).window j 0 : Int)).toNat = (i 0).val :=
        congrArg (fun f => (f 0).val) hf
      have e1 : ((scDims L wf).start j idx 1 + ((scDims L wf).window j 1 : Int)).toNat = (i 1).val :=
        congrArg (fun f => (f 1).val) hf
      have e2 : ((scDims L wf).start j idx 2 + ((scDims L wf).window j 2 : Int)).toNat = (i 2).val :=
        congrArg (fun f => (f 2).val) hf
      rw [hs0, hw0] at e0
      rw [hs1, hw1] at e1
      rw [hs2, hw2] at e2
      exact ⟨(word_eq_iff _ _ hi0).1 (by omega), by omega, by omega⟩
    · rintro ⟨hw, h1, h2⟩
      have hw' := (word_eq_iff _ _ hi0).2 hw
      funext a; refine Fin.ext ?_
      match a with
      | ⟨0, _⟩ =>
        show ((scDims L wf).start j idx 0 + ((scDims L wf).window j 0 : Int)).toNat = (i 0).val
        rw [hs0, hw0]; omega
      | ⟨1, _⟩ =>
        show ((scDims L wf).start j idx 1 + ((scDims L wf).window j 1 : Int)).toNat = (i 1).val
        rw [hs1, hw1]; omega
      | ⟨2, _⟩ =>
        show ((scDims L wf).start j idx 2 + ((scDims L wf).window j 2 : Int)).toNat = (i 2).val
        rw [hs2, hw2]; omega
  · rename_i h
    constructor
    · intro hn; exact absurd hn (by simp)
    · rintro ⟨hw, h1, h2⟩
      have hw' := (word_eq_iff _ _ hi0).2 hw
      refine absurd ?_ h
      intro a
      match a with
      | ⟨0, _⟩ =>
        show 0 ≤ (scDims L wf).start j idx 0 + ((scDims L wf).window j 0 : Int) ∧
          (scDims L wf).start j idx 0 + ((scDims L wf).window j 0 : Int) < ((⟨3, ![50000, 4, L]⟩ : Shape).size 0 : Nat)
        rw [hs0, hw0, hz0]; omega
      | ⟨1, _⟩ =>
        show 0 ≤ (scDims L wf).start j idx 1 + ((scDims L wf).window j 1 : Int) ∧
          (scDims L wf).start j idx 1 + ((scDims L wf).window j 1 : Int) < ((⟨3, ![50000, 4, L]⟩ : Shape).size 1 : Nat)
        rw [hs1, hw1, hz1]; omega
      | ⟨2, _⟩ =>
        show 0 ≤ (scDims L wf).start j idx 2 + ((scDims L wf).window j 2 : Int) ∧
          (scDims L wf).start j idx 2 + ((scDims L wf).window j 2 : Int) < ((⟨3, ![50000, 4, L]⟩ : Shape).size 2 : Nat)
        rw [hs2, hw2, hz2]; omega

theorem scatterAdd_apply (x : (⟨3, ![50000, 4, L]⟩ : Shape).Idx → EReal) (idx : IVec ⟨2, ![800000, 1]⟩ 32)
    (upd : (⟨3, ![800000, 4, L]⟩ : Shape).Idx → EReal) (i : (⟨3, ![50000, 4, L]⟩ : Shape).Idx) :
    Ideal.hostScatterAdd (scDims L wf) x idx upd i
      = x i + ∑ e ∈ Finset.univ.filter (fun e : Fin 800000 => idx (ix2 e 0) = BitVec.ofNat 32 (i 0).val),
          upd (ix3 e (i 1) (i 2)) := by
  have back : ∀ j : (⟨3, ![800000, 4, L]⟩ : Shape).Idx,
      (scDims L wf).resultIdx? j idx = some i → ix3 (j 0) (i 1) (i 2) = j := by
    intro j hj
    obtain ⟨_, h1, h2⟩ := (resultIdx_iff wf j idx i).1 hj
    funext a
    match a with
    | ⟨0, _⟩ => rfl
    | ⟨1, _⟩ => exact (Fin.ext h1).symm
    | ⟨2, _⟩ => exact (Fin.ext h2).symm
  unfold Ideal.hostScatterAdd
  refine congrArg (x i + ·) ?_
  refine Finset.sum_nbij' (fun j => (j 0 : Fin 800000)) (fun e => ix3 e (i 1) (i 2)) ?_ ?_ ?_ ?_ ?_
  · intro j hj
    exact Finset.mem_filter.2 ⟨Finset.mem_univ _, ((resultIdx_iff wf j idx i).1 (Finset.mem_filter.1 hj).2).1⟩
  · intro e he
    exact Finset.mem_filter.2 ⟨Finset.mem_univ _, (resultIdx_iff wf _ idx i).2 ⟨(Finset.mem_filter.1 he).2, rfl, rfl⟩⟩
  · intro j hj
    exact back j (Finset.mem_filter.1 hj).2
  · intro e _
    rfl
  · intro j hj
    exact congrArg upd (back j (Finset.mem_filter.1 hj).2).symm

end Scatter

theorem sD32_eq : scatter_S50000x4x32_S800000x1_S800000x4x32_12_0_0_1
    = scDims 32 scatter_S50000x4x32_S800000x1_S800000x4x32_12_0_0_1_wf := rfl
theorem sD1_eq : scatter_S50000x4x1_S800000x1_S800000x4x1_12_0_0_1
    = scDims 1 scatter_S50000x4x1_S800000x1_S800000x4x1_12_0_0_1_wf := rfl

end Cert.RefOps

end
-- ==== Proof.Ref.RefChain.lean ====
import proofs.«406288_j68358699483732_1_alg».proof.Proof.Gen.ReferenceIdeal
import proofs.«406288_j68358699483732_1_alg».proof.Proof.Ref.RefSpec
import proofs.«406288_j68358699483732_1_alg».proof.Proof.Ref.RefOps
import Idealize.ShloMosaic.PureOps.Ideal
import Idealize.ShloMosaic.PureOps.Ideal.Laws
import Idealize.ShloMosaic.Lib.ValueIdx
import Idealize.ShloMosaic.Lib.Pipeline.Value
import Mathlib.Algebra.BigOperators.Group.Finset.Basic

set_option maxRecDepth 16384

noncomputable section

namespace Cert.RefRead

open Idealize.ShloMosaic Idealize.ShloMosaic.ValueIdx
open Cert.ReferenceIdeal Cert.ReferenceIdeal.Gen Cert.RefOps

theorem plainDot_apply (M K N : Nat) (lhs : FVec Ideal ⟨2, ![M, K]⟩ .f32) (rhs : FVec Ideal ⟨2, ![K, N]⟩ .f32)
    (j : (⟨2, ![M, N]⟩ : Shape).Idx) :
    Host.dotGeneral (DotDims.plain M K N) none lhs rhs j = ∑ k : Fin K, lhs (ix2 (j 0) k) * rhs (ix2 k (j 1)) := by
  show FloatOps.dotGeneral (DotDims.plain M K N) none .single lhs rhs j = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

theorem D256_eq : dot_S50000x256_S256x128_S50000x128_1_0_0_1_n_n = DotDims.plain 50000 256 128 := rfl
theorem D128_eq : dot_S50000x128_S128x128_S50000x128_1_0_0_1_n_n = DotDims.plain 50000 128 128 := rfl

def biasRows (b : FVec Ideal S128 .f32) : FVec Ideal S50000x128 .f32 :=
  broadcastInDim S50000x128 ![0, 1] bcast_S1x128_S50000x128_0_1 (broadcastInDim S1x128 ![1] bcast_S128_S1x128_1 b)

theorem biasRows_apply (b : FVec Ideal S128 .f32) (n : Fin 50000) (c : Fin 128) :
    biasRows b (ix2 n c) = b (ix1 c) := by
  unfold biasRows
  refine (broadcastInDim_apply _ _ _ (ix2 n c) (ix2 0 c) (fun a => by
    match a with
    | ⟨0, _⟩ => rfl
    | ⟨1, _⟩ => rfl)).trans ?_
  exact broadcastInDim_apply _ _ _ (ix2 0 c) (ix1 c) (fun a => by
    match a with
    | ⟨0, _⟩ => rfl)

def linC (x : FVec Ideal S50000x256 .f32) (W : FVec Ideal S256x128 .f32) (b : FVec Ideal S128 .f32) :
    FVec Ideal S50000x128 .f32 :=
  addf (Host.dotGeneral dot_S50000x256_S256x128_S50000x128_1_0_0_1_n_n none x W) (biasRows b)

theorem linC_eq (x : FVec Ideal S50000x256 .f32) (W : FVec Ideal S256x128 .f32) (b : FVec Ideal S128 .f32) :
    linC x W b = lin x W b := by
  funext j
  obtain ⟨n, c, rfl⟩ : ∃ (n : Fin 50000) (c : Fin 128), j = ix2 n c := ⟨j 0, j 1, eq_ix2 j⟩
  show Host.dotGeneral dot_S50000x256_S256x128_S50000x128_1_0_0_1_n_n none x W (ix2 n c) + biasRows b (ix2 n c) = _
  rw [D256_eq, plainDot_apply, biasRows_apply]
  rfl

def tabC (x : FVec Ideal S50000x256 .f32) (W : FVec Ideal S256x128 .f32) (b : FVec Ideal S128 .f32) :
    FVec Ideal S50000x4x32 .f32 :=
  shapeCast S50000x4x32 (linC x W b) shapeCasts_S50000x128_S50000x4x32

theorem tabC_apply (x : FVec Ideal S50000x256 .f32) (W : FVec Ideal S256x128 .f32) (b : FVec Ideal S128 .f32)
    (n : Fin 50000) (h : Fin 4) (d : Fin 32) : tabC x W b (ix3 n h d) = lin x W b (ix2 n (hd h d)) := by
  unfold tabC
  refine (shapeCast_apply _ _ (ix3 n h d) (ix2 n (hd h d)) (by
    rw [Shape.rowMajor_val_two, Shape.rowMajor_val_three]
    show n.val * 128 + (32 * h.val + d.val) = (n.val * 4 + h.val) * 32 + d.val
    omega)).trans ?_
  rw [linC_eq]

def wrapC (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

theorem wrap_eq (w : BitVec 32) :
    Scalar.select (IntOp.cmpi .slt w 0#32) (IntOp.addi w 50000#32) w = wrap w := by
  unfold Scalar.select IntOp.cmpi IntOp.addi wrap
  cases hs : w.slt 0#32 <;> simp

theorem wrapC_apply (idx : IVec S800000 32) (e : Fin 800000) : wrapC idx (ix2 e 0) = wrap (idx (ix1 e)) := by
  unfold wrapC
  refine (broadcastInDim_apply _ _ _ (ix2 e 0) (ix1 e) (fun a => by
    match a with
    | ⟨0, _⟩ => rfl)).trans ?_
  exact wrap_eq _

def gatC (T : FVec Ideal S50000x4x32 .f32) (idx : IVec S800000 32) : FVec Ideal S800000x4x32 .f32 :=
  Host.gather gather_S50000x4x32_S800000x1_S800000x4x32_12_0_n_n_0_1_1432 T (wrapC idx)

theorem gatC_apply (T : FVec Ideal S50000x4x32 .f32) (idx : IVec S800000 32) (e : Fin 800000) (h : Fin 4) (d : Fin 32) :
    gatC T idx (ix3 e h d) = T (ix3 (rowOf (idx (ix1 e))) h d) := by
  unfold gatC
  refine (gather_apply T (wrapC idx) (ix3 e h d)).trans ?_
  show T (ix3 ⟨min (wrapC idx (ix2 e 0)).toInt.toNat 49999, _⟩ h d) = _
  refine congrArg T ?_
  funext a
  match a with
  | ⟨0, _⟩ => exact Fin.ext (by show min (wrapC idx (ix2 e 0)).toInt.toNat 49999 = _; rw [wrapC_apply]; rfl)
  | ⟨1, _⟩ => rfl
  | ⟨2, _⟩ => rfl

theorem gatC_tabC (x : FVec Ideal S50000x256 .f32) (W : FVec Ideal S256x128 .f32) (b : FVec Ideal S128 .f32)
    (idx : IVec S800000 32) (e : Fin 800000) (h : Fin 4) (d : Fin 32) :
    gatC (tabC x W b) idx (ix3 e h d) = pick idx (lin x W b) (ix2 e (hd h d)) := by
  rw [gatC_apply, tabC_apply]
  rfl

def featC (feat : FVec Ideal S800000x2 .f32) : FVec Ideal S800000x4x1 .f32 :=
  broadcastInDim S800000x4x1 ![0, 1, 2] bcast_S800000x1x1_S800000x4x1_0_1_2
    (broadcastInDim S800000x1x1 ![0, 2] bcast_S800000x1_S800000x1x1_0_2
      (extractStridedSlice S800000x1 ![0, 0] feat slices_S800000x2_S800000x1_0_0))

theorem featC_apply (feat : FVec Ideal S800000x2 .f32) (e : Fin 800000) (h : Fin 4) :
    featC feat (ix3 e h 0) = feat (ix2 e 0) := by
  unfold featC
  refine (broadcastInDim_apply _ _ _ (ix3 e h 0) (ix3 e 0 0) (fun a => by
    match a with
    | ⟨0, _⟩ => rfl
    | ⟨1, _⟩ => rfl
    | ⟨2, _⟩ => rfl)).trans ?_
  refine (broadcastInDim_apply _ _ _ (ix3 e 0 0) (ix2 e 0) (fun a => by
    match a with
    | ⟨0, _⟩ => rfl
    | ⟨1, _⟩ => rfl)).trans ?_
  exact extractStridedSlice_apply _ _ _ (ix2 e 0) (ix2 e 0) (fun a => by
    match a with
    | ⟨0, _⟩ => show e.val = 0 + e.val; omega
    | ⟨1, _⟩ => rfl)

theorem laneSum_apply (X : FVec Ideal S800000x4x32 .f32) (e : Fin 800000) (h : Fin 4) :
    Host.reduceAdd X (constant S_ .f32 0x00000000#32) reducesTo_S800000x4x32_S800000x4_d2 h_S_ (ix2 e h)
      = ∑ d : Fin 32, X (ix3 e h d) := by
  show Ideal.hostReduceAdd reducesTo_S800000x4x32_S800000x4_d2 X (Ideal.ofBits .f32 0x00000000#32) (ix2 e h) = _
  rw [Ideal.hostReduceAdd_single reducesTo_S800000x4x32_S800000x4_d2 (by decide), Ideal.ofBits_zero_f32, zero_add]
  refine Finset.sum_congr rfl fun d _ => congrArg X (funext fun a => Fin.ext ?_)
  match a with
  | ⟨0, _⟩ => rfl
  | ⟨1, _⟩ => rfl
  | ⟨2, _⟩ => rfl

def dotsC (kT qT : FVec Ideal S50000x4x32 .f32) (src dst : IVec S800000 32) : FVec Ideal S800000x4x1 .f32 :=
  broadcastInDim S800000x4x1 ![0, 1] bcast_S800000x4_S800000x4x1_0_1
    (Host.reduceAdd (mulf (gatC kT src) (gatC qT dst)) (constant S_ .f32 0x00000000#32)
      reducesTo_S800000x4x32_S800000x4_d2 h_S_)

theorem dotsC_apply (kT qT : FVec Ideal S50000x4x32 .f32) (src dst : IVec S800000 32) (e : Fin 800000) (h : Fin 4) :
    dotsC kT qT src dst (ix3 e h 0) = ∑ d : Fin 32, gatC kT src (ix3 e h d) * gatC qT dst (ix3 e h d) := by
  unfold dotsC
  refine (broadcastInDim_apply _ _ _ (ix3 e h 0) (ix2 e h) (fun a => by
    match a with
    | ⟨0, _⟩ => rfl
    | ⟨1, _⟩ => rfl)).trans ?_
  exact (laneSum_apply _ e h).trans (Finset.sum_congr rfl fun d _ => mulf_apply _ _ _)

def clipExpC (s : FVec Ideal S800000x4x1 .f32) : FVec Ideal S800000x4x1 .f32 :=
  Host.exp (minimumf (broadcastInDim S800000x4x1 ![] bcast_S_S800000x4x1 (constant S_ .f32 0x40A00000#32))
    (maximumf (broadcastInDim S800000x4x1 ![] bcast_S_S800000x4x1 (constant S_ .f32 0xC0A00000#32)) s))

theorem clipExpC_apply (s : FVec Ideal S800000x4x1 .f32) (i : S800000x4x1.Idx) :
    clipExpC s i = Ideal.exp (min cHi (max cLo (s i))) := by
  simp only [clipExpC, Host.exp, minimumf, maximumf, broadcastInDim, constant, Ideal.hostUnary_exp_def,
    Ideal.minimumf_def, Ideal.maximumf_def, Ideal.ofBits_def]

def scaleC (s : FVec Ideal S800000x4x1 .f32) : FVec Ideal S800000x4x1 .f32 :=
  mulf s (broadcastInDim S800000x4x1 ![] bcast_S_S800000x4x1 (constant S_ .f32 0x3DB504F3#32))

theorem scaleC_apply (s : FVec Ideal S800000x4x1 .f32) (i : S800000x4x1.Idx) : scaleC s i = s i * cScale := by
  simp only [scaleC, mulf, broadcastInDim, constant, Ideal.mulf_def, Ideal.ofBits_def]

def wtsC (kT qT : FVec Ideal S50000x4x32 .f32) (src dst : IVec S800000 32) (feat : FVec Ideal S800000x2 .f32) :
    FVec Ideal S800000x4x1 .f32 :=
  clipExpC (scaleC (mulf (dotsC kT qT src dst) (featC feat)))

theorem wtsC_apply (kT qT : FVec Ideal S50000x4x32 .f32) (src dst : IVec S800000 32) (feat : FVec Ideal S800000x2 .f32)
    (e : Fin 800000) (h : Fin 4) :
    wtsC kT qT src dst feat (ix3 e h 0)
      = Ideal.exp (min cHi (max cLo
          (((∑ d : Fin 32, gatC kT src (ix3 e h d) * gatC qT dst (ix3 e h d)) * feat (ix2 e 0)) * cScale))) := by
  unfold wtsC
  rw [clipExpC_apply, scaleC_apply, mulf_apply, dotsC_apply, featC_apply]

theorem wtsC_tabC (x : FVec Ideal S50000x256 .f32) (Wk Wq : FVec Ideal S256x128 .f32) (bk bq : FVec Ideal S128 .f32)
    (src dst : IVec S800000 32) (feat : FVec Ideal S800000x2 .f32) (e : Fin 800000) (h : Fin 4) :
    wtsC (tabC x Wk bk) (tabC x Wq bq) src dst feat (ix3 e h 0)
      = weights (pick src (lin x Wk bk)) (pick dst (lin x Wq bq)) feat (ix2 e h) := by
  have hs : ∀ d : Fin 32, gatC (tabC x Wk bk) src (ix3 e h d) * gatC (tabC x Wq bq) dst (ix3 e h d)
      = pick src (lin x Wk bk) (ix2 e (hd h d)) * pick dst (lin x Wq bq) (ix2 e (hd h d)) := by
    intro d
    rw [gatC_tabC, gatC_tabC]
  rw [wtsC_apply, Finset.sum_congr rfl fun d _ => hs d]
  rfl

def colC (idx : IVec S800000 32) : IVec S800000x1 32 :=
  broadcastInDim S800000x1 ![0] bcast_S800000_S800000x1_0 idx

theorem colC_apply (idx : IVec S800000 32) (e : Fin 800000) : colC idx (ix2 e 0) = idx (ix1 e) :=
  broadcastInDim_apply _ _ _ (ix2 e 0) (ix1 e) (fun a => by
    match a with
    | ⟨0, _⟩ => rfl)

theorem litC_apply {t : Shape} (hb : S_.BroadcastsInDim t ![]) (b : BitVec 32) (i : t.Idx) :
    broadcastInDim t ![] hb (constant (F := Ideal) S_ .f32 b) i = Ideal.ofBits .f32 b := by
  simp only [broadcastInDim, constant, Ideal.ofBits_def]

def numC (vT : FVec Ideal S50000x4x32 .f32) (src dst : IVec S800000 32) (w : FVec Ideal S800000x4x1 .f32) :
    FVec Ideal S50000x4x32 .f32 :=
  Host.scatterAdd scatter_S50000x4x32_S800000x1_S800000x4x32_12_0_0_1
    (broadcastInDim S50000x4x32 ![] bcast_S_S50000x4x32 (constant S_ .f32 0x00000000#32)) (colC dst)
    (mulf (gatC vT src) (broadcastInDim S800000x4x32 ![0, 1, 2] bcast_S800000x4x1_S800000x4x32_0_1_2 w))

def denC (dst : IVec S800000 32) (w : FVec Ideal S800000x4x1 .f32) : FVec Ideal S50000x4x1 .f32 :=
  Host.scatterAdd scatter_S50000x4x1_S800000x1_S800000x4x1_12_0_0_1
    (broadcastInDim S50000x4x1 ![] bcast_S_S50000x4x1 (constant S_ .f32 0x00000000#32)) (colC dst) w

theorem scatterAddC_eq {s si u : Shape} {w : Nat} (d : ScatterDims s si u) (x : FVec Ideal s .f32) (idx : IVec si w)
    (upd : FVec Ideal u .f32) : Host.scatterAdd d x idx upd = Ideal.hostScatterAdd d x idx upd := rfl

theorem numC_apply (vT : FVec Ideal S50000x4x32 .f32) (src dst : IVec S800000 32) (w : FVec Ideal S800000x4x1 .f32)
    (n : Fin 50000) (h : Fin 4) (d : Fin 32) :
    numC vT src dst w (ix3 n h d)
      = ∑ e ∈ Finset.univ.filter (fun e : Fin 800000 => dst (ix1 e) = BitVec.ofNat 32 n.val),
          gatC vT src (ix3 e h d) * w (ix3 e h 0) := by
  unfold numC
  rw [scatterAddC_eq, sD32_eq, scatterAdd_apply, litC_apply, Ideal.ofBits_zero_f32, zero_add]
  refine Finset.sum_congr (Finset.filter_congr fun e _ =>
    Iff.of_eq (congrArg (fun t => t = BitVec.ofNat 32 n.val) (colC_apply dst e))) fun e _ => ?_
  rw [mulf_apply]
  exact congrArg (gatC vT src (ix3 e h d) * ·) (broadcastInDim_apply _ _ _ (ix3 e h d) (ix3 e h 0) (fun a => by
    match a with
    | ⟨0, _⟩ => rfl
    | ⟨1, _⟩ => rfl
    | ⟨2, _⟩ => rfl))

theorem denC_apply (dst : IVec S800000 32) (w : FVec Ideal S800000x4x1 .f32) (n : Fin 50000) (h : Fin 4) :
    denC dst w (ix3 n h 0)
      = ∑ e ∈ Finset.univ.filter (fun e : Fin 800000 => dst (ix1 e) = BitVec.ofNat 32 n.val), w (ix3 e h 0) := by
  unfold denC
  rw [scatterAddC_eq, sD1_eq, scatterAdd_apply, litC_apply, Ideal.ofBits_zero_f32, zero_add]
  exact Finset.sum_congr (Finset.filter_congr fun e _ =>
    Iff.of_eq (congrArg (fun t => t = BitVec.ofNat 32 n.val) (colC_apply dst e))) fun e _ => rfl

def meanC (num : FVec Ideal S50000x4x32 .f32) (den : FVec Ideal S50000x4x1 .f32) : FVec Ideal S50000x128 .f32 :=
  shapeCast S50000x128
    (Host.divf num (broadcastInDim S50000x4x32 ![0, 1, 2] bcast_S50000x4x1_S50000x4x32_0_1_2
      (addf den (broadcastInDim S50000x4x1 ![] bcast_S_S50000x4x1 (constant S_ .f32 0x3F800000#32)))))
    shapeCasts_S50000x4x32_S50000x128

def laneOf (c : Fin 128) : Fin 32 := ⟨c.val % 32, Nat.mod_lt _ (by decide)⟩

theorem hd_headOf_laneOf (c : Fin 128) : hd (headOf c) (laneOf c) = c :=
  Fin.ext (by show 32 * (c.val / 32) + c.val % 32 = c.val; omega)

theorem meanC_apply (num : FVec Ideal S50000x4x32 .f32) (den : FVec Ideal S50000x4x1 .f32) (n : Fin 50000) (c : Fin 128) :
    meanC num den (ix2 n c)
      = Ideal.div (num (ix3 n (headOf c) (laneOf c))) (den (ix3 n (headOf c) 0) + cOne) := by
  unfold meanC
  refine (shapeCast_apply _ _ (ix2 n c) (ix3 n (headOf c) (laneOf c)) (by
    rw [Shape.rowMajor_val_three, Shape.rowMajor_val_two]
    show (n.val * 4 + c.val / 32) * 32 + c.val % 32 = n.val * 128 + c.val
    omega)).trans ?_
  have hd' : broadcastInDim S50000x4x32 ![0, 1, 2] bcast_S50000x4x1_S50000x4x32_0_1_2
      (addf den (broadcastInDim S50000x4x1 ![] bcast_S_S50000x4x1 (constant S_ .f32 0x3F800000#32)))
      (ix3 n (headOf c) (laneOf c)) = den (ix3 n (headOf c) 0) + cOne := by
    refine (broadcastInDim_apply _ _ _ (ix3 n (headOf c) (laneOf c)) (ix3 n (headOf c) 0) (fun a => by
      match a with
      | ⟨0, _⟩ => rfl
      | ⟨1, _⟩ => rfl
      | ⟨2, _⟩ => rfl)).trans ?_
    simp only [addf, Ideal.addf_def]
    rw [litC_apply]
  simp only [Host.divf, Ideal.hostDivf_def]
  rw [hd']

theorem meanOf_apply (x : Mat 50000 256) (Wak Wav Waq : Mat 256 128) (bak bav baq : Row 128)
    (src dst : IV 800000) (feat : Mat 800000 2) (n : Fin 50000) (c : Fin 128) :
    meanOf x Wak Wav Waq bak bav baq src dst feat (ix2 n c)
      = Ideal.div
        (∑ e ∈ Finset.univ.filter (fun e : Fin 800000 => dst (ix1 e) = BitVec.ofNat 32 n.val),
          pick src (lin x Wav bav) (ix2 e c)
            * weights (pick src (lin x Wak bak)) (pick dst (lin x Waq baq)) feat (ix2 e (headOf c)))
        ((∑ e ∈ Finset.univ.filter (fun e : Fin 800000 => dst (ix1 e) = BitVec.ofNat 32 n.val),
          weights (pick src (lin x Wak bak)) (pick dst (lin x Waq baq)) feat (ix2 e (headOf c))) + cOne) := rfl

theorem meanC_eq (x : FVec Ideal S50000x256 .f32) (Wak Wav Waq : FVec Ideal S256x128 .f32) (bak bav baq : FVec Ideal S128 .f32)
    (src dst : IVec S800000 32) (feat : FVec Ideal S800000x2 .f32) :
    meanC (numC (tabC x Wav bav) src dst (wtsC (tabC x Wak bak) (tabC x Waq baq) src dst feat))
        (denC dst (wtsC (tabC x Wak bak) (tabC x Waq baq) src dst feat))
      = meanOf x Wak Wav Waq bak bav baq src dst feat := by
  funext j
  obtain ⟨n, c, rfl⟩ : ∃ (n : Fin 50000) (c : Fin 128), j = ix2 n c := ⟨j 0, j 1, eq_ix2 j⟩
  have hnum : ∀ e : Fin 800000,
      gatC (tabC x Wav bav) src (ix3 e (headOf c) (laneOf c))
          * wtsC (tabC x Wak bak) (tabC x Waq baq) src dst feat (ix3 e (headOf c) 0)
        = pick src (lin x Wav bav) (ix2 e c)
          * weights (pick src (lin x Wak bak)) (pick dst (lin x Waq baq)) feat (ix2 e (headOf c)) := by
    intro e
    rw [gatC_tabC, wtsC_tabC, hd_headOf_laneOf]
  have hden : ∀ e : Fin 800000,
      wtsC (tabC x Wak bak) (tabC x Waq baq) src dst feat (ix3 e (headOf c) 0)
        = weights (pick src (lin x Wak bak)) (pick dst (lin x Waq baq)) feat (ix2 e (headOf c)) :=
    fun e => wtsC_tabC x Wak Waq bak baq src dst feat e (headOf c)
  rw [meanC_apply, numC_apply, denC_apply, meanOf_apply,
    Finset.sum_congr rfl fun e _ => hnum e, Finset.sum_congr rfl fun e _ => hden e]

def preC (wm : FVec Ideal S50000x128 .f32) (x : FVec Ideal S50000x256 .f32) (Wao : FVec Ideal S128x128 .f32)
    (bao : FVec Ideal S128 .f32) (Waffn : FVec Ideal S256x128 .f32) (baffn : FVec Ideal S128 .f32) :
    FVec Ideal S50000x128 .f32 :=
  addf (addf (Host.dotGeneral dot_S50000x256_S256x128_S50000x128_1_0_0_1_n_n none x Waffn) (biasRows baffn))
    (addf (Host.dotGeneral dot_S50000x128_S128x128_S50000x128_1_0_0_1_n_n none wm Wao) (biasRows bao))

theorem preC_eq (wm : FVec Ideal S50000x128 .f32) (x : FVec Ideal S50000x256 .f32) (Wao : FVec Ideal S128x128 .f32)
    (bao : FVec Ideal S128 .f32) (Waffn : FVec Ideal S256x128 .f32) (baffn : FVec Ideal S128 .f32) :
    preC wm x Wao bao Waffn baffn = preLn wm x Wao bao Waffn baffn := by
  funext j
  obtain ⟨n, c, rfl⟩ : ∃ (n : Fin 50000) (c : Fin 128), j = ix2 n c := ⟨j 0, j 1, eq_ix2 j⟩
  show (Host.dotGeneral dot_S50000x256_S256x128_S50000x128_1_0_0_1_n_n none x Waffn (ix2 n c) + biasRows baffn (ix2 n c))
    + (Host.dotGeneral dot_S50000x128_S128x128_S50000x128_1_0_0_1_n_n none wm Wao (ix2 n c) + biasRows bao (ix2 n c)) = _
  rw [D256_eq, D128_eq, plainDot_apply, plainDot_apply, biasRows_apply, biasRows_apply]
  rfl

def rowSumC (a : FVec Ideal S50000x128 .f32) : FVec Ideal S50000x1 .f32 :=
  broadcastInDim S50000x1 ![0] bcast_S50000_S50000x1_0
    (Host.reduceAdd a (constant S_ .f32 0x00000000#32) reducesTo_S50000x128_S50000_d1 h_S_)

theorem rowSumC_apply (a : FVec Ideal S50000x128 .f32) (n : Fin 50000) :
    rowSumC a (ix2 n 0) = ∑ j : Fin 128, a (ix2 n j) := by
  unfold rowSumC
  refine (broadcastInDim_apply _ _ _ (ix2 n 0) (ix1 n) (fun a => by
    match a with
    | ⟨0, _⟩ => rfl)).trans ?_
  show Ideal.hostReduceAdd reducesTo_S50000x128_S50000_d1 a (Ideal.ofBits .f32 0x00000000#32) (ix1 n) = _
  rw [Ideal.hostReduceAdd_single reducesTo_S50000x128_S50000_d1 (by decide), Ideal.ofBits_zero_f32, zero_add]
  refine Finset.sum_congr rfl fun j _ => congrArg a (funext fun q => Fin.ext ?_)
  match q with
  | ⟨0, _⟩ => rfl
  | ⟨1, _⟩ => rfl

def meanRowC (a : FVec Ideal S50000x128 .f32) : FVec Ideal S50000x1 .f32 :=
  Host.divf (rowSumC a) (broadcastInDim S50000x1 ![] bcast_S_S50000x1 (constant S_ .f32 0x43000000#32))

def cenC (a : FVec Ideal S50000x128 .f32) : FVec Ideal S50000x128 .f32 :=
  subf a (broadcastInDim S50000x128 ![0, 1] bcast_S50000x1_S50000x128_0_1 (meanRowC a))

def rstdC (a : FVec Ideal S50000x128 .f32) : FVec Ideal S50000x1 .f32 :=
  Host.rsqrt (addf
    (Host.divf (rowSumC (mulf (cenC a) (cenC a))) (broadcastInDim S50000x1 ![] bcast_S_S50000x1 (constant S_ .f32 0x43000000#32)))
    (broadcastInDim S50000x1 ![] bcast_S_S50000x1 (constant S_ .f32 0x3727C5AC#32)))

theorem meanRowC_apply (a : FVec Ideal S50000x128 .f32) (n : Fin 50000) : meanRowC a (ix2 n 0) = rowMean a n := by
  simp only [meanRowC, Host.divf, Ideal.hostDivf_def, litC_apply]
  rw [rowSumC_apply]
  rfl

theorem cenC_apply (a : FVec Ideal S50000x128 .f32) (n : Fin 50000) (c : Fin 128) :
    cenC a (ix2 n c) = a (ix2 n c) - rowMean a n := by
  simp only [cenC, subf, Ideal.subf_def]
  refine congrArg (a (ix2 n c) - ·) ?_
  refine (broadcastInDim_apply _ _ _ (ix2 n c) (ix2 n 0) (fun q => by
    match q with
    | ⟨0, _⟩ => rfl
    | ⟨1, _⟩ => rfl)).trans ?_
  exact meanRowC_apply a n

theorem rstdC_apply (a : FVec Ideal S50000x128 .f32) (n : Fin 50000) : rstdC a (ix2 n 0) = rowRstd a n := by
  simp only [rstdC, Host.rsqrt, Ideal.hostUnary_rsqrt_def, addf, Ideal.addf_def, Host.divf, Ideal.hostDivf_def, litC_apply]
  rw [rowSumC_apply]
  have hsq : ∀ j : Fin 128, mulf (cenC a) (cenC a) (ix2 n j)
      = (a (ix2 n j) - rowMean a n) * (a (ix2 n j) - rowMean a n) := by
    intro j
    simp only [mulf, Ideal.mulf_def]
    rw [cenC_apply]
  rw [Finset.sum_congr rfl fun j _ => hsq j]
  rfl

def lnC (a : FVec Ideal S50000x128 .f32) (g b : FVec Ideal S128 .f32) : FVec Ideal S50000x128 .f32 :=
  addf a (addf
    (mulf (mulf (cenC a) (broadcastInDim S50000x128 ![0, 1] bcast_S50000x1_S50000x128_0_1 (rstdC a))) (biasRows g))
    (biasRows b))

theorem lnC_eq (a : FVec Ideal S50000x128 .f32) (g b : FVec Ideal S128 .f32) : lnC a g b = addLn a g b := by
  funext j
  obtain ⟨n, c, rfl⟩ : ∃ (n : Fin 50000) (c : Fin 128), j = ix2 n c := ⟨j 0, j 1, eq_ix2 j⟩
  have hr : broadcastInDim S50000x128 ![0, 1] bcast_S50000x1_S50000x128_0_1 (rstdC a) (ix2 n c) = rowRstd a n :=
    (broadcastInDim_apply _ _ _ (ix2 n c) (ix2 n 0) (fun q => by
      match q with
      | ⟨0, _⟩ => rfl
      | ⟨1, _⟩ => rfl)).trans (rstdC_apply a n)
  simp only [lnC, addf, mulf, Ideal.addf_def, Ideal.mulf_def]
  rw [hr, cenC_apply, biasRows_apply, biasRows_apply]
  rfl

def refChain (x : FVec Ideal S50000x256 .f32) (Wak Wav Waq : FVec Ideal S256x128 .f32) (bak bav baq : FVec Ideal S128 .f32)
    (src dst : IVec S800000 32) (feat : FVec Ideal S800000x2 .f32) (Wao : FVec Ideal S128x128 .f32)
    (bao : FVec Ideal S128 .f32) (Waffn : FVec Ideal S256x128 .f32) (baffn : FVec Ideal S128 .f32)
    (g b : FVec Ideal S128 .f32) : FVec Ideal S50000x128 .f32 :=
  lnC (preC
    (meanC (numC (tabC x Wav bav) src dst (wtsC (tabC x Wak bak) (tabC x Waq baq) src dst feat))
      (denC dst (wtsC (tabC x Wak bak) (tabC x Waq baq) src dst feat)))
    x Wao bao Waffn baffn) g b

theorem refChain_eq (x : FVec Ideal S50000x256 .f32) (Wak Wav Waq : FVec Ideal S256x128 .f32)
    (bak bav baq : FVec Ideal S128 .f32) (src dst : IVec S800000 32) (feat : FVec Ideal S800000x2 .f32)
    (Wao : FVec Ideal S128x128 .f32) (bao : FVec Ideal S128 .f32) (Waffn : FVec Ideal S256x128 .f32)
    (baffn : FVec Ideal S128 .f32) (g b : FVec Ideal S128 .f32) :
    refChain x Wak Wav Waq bak bav baq src dst feat Wao bao Waffn baffn g b
      = refPass x Wak Wav Waq bak bav baq src dst feat Wao bao Waffn baffn g b := by
  unfold refChain refPass
  rw [meanC_eq, preC_eq, lnC_eq]

end Cert.RefRead

end
-- ==== Proof.Ref.RunHVal01.lean ====
import proofs.«406288_j68358699483732_1_alg».proof.Proof.Ref.RunHOps01
import proofs.«406288_j68358699483732_1_alg».proof.Proof.Ref.RefChain

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.RefRead

variable (V : Valuation τ sig (Elt Ideal))

-- The first stretch leaves the key, query and value tables: one linear layer each, cut into heads.
set_option maxRecDepth 8192 in
set_option maxHeartbeats 4000000 in
theorem val01_main_v39 : StableHlo.after ops01 V (no_index (Proc.devRef .tc main_v39)) = tabC (V (Proc.devRef .tc main_arg2)) (V (Proc.devRef .tc main_arg19)) (V (Proc.devRef .tc main_arg20)) := by
  after_results_simp <;> rfl

set_option maxRecDepth 8192 in
set_option maxHeartbeats 4000000 in
theorem val01_main_v34 : StableHlo.after ops01 V (no_index (Proc.devRef .tc main_v34)) = tabC (V (Proc.devRef .tc main_arg2)) (V (Proc.devRef .tc main_arg17)) (V (Proc.devRef .tc main_arg18)) := by
  after_results_simp <;> rfl

set_option maxRecDepth 8192 in
set_option maxHeartbeats 4000000 in
theorem val01_main_v44 : StableHlo.after ops01 V (no_index (Proc.devRef .tc main_v44)) = tabC (V (Proc.devRef .tc main_arg2)) (V (Proc.devRef .tc main_arg21)) (V (Proc.devRef .tc main_arg22)) := by
  after_results_simp <;> rfl

end Cert.ReferenceIdeal.RunH

end
-- ==== Proof.Ref.RunHVal02.lean ====
import proofs.«406288_j68358699483732_1_alg».proof.Proof.Ref.RunHOps02
import proofs.«406288_j68358699483732_1_alg».proof.Proof.Ref.RefChain

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.RefRead

variable (V : Valuation τ sig (Elt Ideal))

-- Edge type 0's raw scores: the gathered key and query rows' head-wise products, times the edge feature.
set_option maxRecDepth 8192 in
set_option maxHeartbeats 4000000 in
theorem val02_main_v84 : StableHlo.after ops02 V (no_index (Proc.devRef .tc main_v84)) = mulf (dotsC (V (Proc.devRef .tc main_v39)) (V (Proc.devRef .tc main_v34)) (V (Proc.devRef .tc main_arg29)) (V (Proc.devRef .tc main_arg30))) (featC (V (Proc.devRef .tc main_arg3))) := by
  after_results_simp <;> rfl

end Cert.ReferenceIdeal.RunH

end
-- ==== Proof.Ref.RunHVal03.lean ====
import proofs.«406288_j68358699483732_1_alg».proof.Proof.Ref.RunHOps03
import proofs.«406288_j68358699483732_1_alg».proof.Proof.Ref.RefChain

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.RefRead

variable (V : Valuation τ sig (Elt Ideal))

-- The scores scaled, clipped and exponentiated.
set_option maxRecDepth 8192 in
set_option maxHeartbeats 4000000 in
theorem val03_main_v92 : StableHlo.after ops03 V (no_index (Proc.devRef .tc main_v92)) = clipExpC (scaleC (V (Proc.devRef .tc main_v84))) := by
  after_results_simp <;> rfl

end Cert.ReferenceIdeal.RunH

end
-- ==== Proof.Ref.RunHVal04.lean ====
import proofs.«406288_j68358699483732_1_alg».proof.Proof.Ref.RunHOps04
import proofs.«406288_j68358699483732_1_alg».proof.Proof.Ref.RefChain

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.RefRead

variable (V : Valuation τ sig (Elt Ideal))

-- The weights summed at their destination nodes, and the weighted value rows likewise.
set_option maxRecDepth 8192 in
set_option maxHeartbeats 4000000 in
theorem val04_main_v122 : StableHlo.after ops04 V (no_index (Proc.devRef .tc main_v122)) = denC (V (Proc.devRef .tc main_arg30)) (V (Proc.devRef .tc main_v92)) := by
  after_results_simp <;> rfl

set_option maxRecDepth 8192 in
set_option maxHeartbeats 4000000 in
theorem val04_main_v119 : StableHlo.after ops04 V (no_index (Proc.devRef .tc main_v119)) = numC (V (Proc.devRef .tc main_v44)) (V (Proc.devRef .tc main_arg29)) (V (Proc.devRef .tc main_arg30)) (V (Proc.devRef .tc main_v92)) := by
  after_results_simp <;> rfl

end Cert.ReferenceIdeal.RunH

end
-- ==== Proof.Ref.RunHVal06.lean ====
import proofs.«406288_j68358699483732_1_alg».proof.Proof.Ref.RunHOps06
import proofs.«406288_j68358699483732_1_alg».proof.Proof.Ref.RefChain

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.RefRead

variable (V : Valuation τ sig (Elt Ideal))

-- The weighted mean, the projection with the residual, and the layer norm.
set_option maxRecDepth 8192 in
set_option maxHeartbeats 4000000 in
theorem val06_main_v200 : StableHlo.after ops06 V (no_index (Proc.devRef .tc main_v200)) = lnC (preC (meanC (V (Proc.devRef .tc main_v119)) (V (Proc.devRef .tc main_v122))) (V (Proc.devRef .tc main_arg2)) (V (Proc.devRef .tc main_arg23)) (V (Proc.devRef .tc main_arg24)) (V (Proc.devRef .tc main_arg25)) (V (Proc.devRef .tc main_arg26))) (V (Proc.devRef .tc main_arg27)) (V (Proc.devRef .tc main_arg28)) := by
  after_results_simp <;> rfl

end Cert.ReferenceIdeal.RunH

end
-- ==== Proof.Ref.RunHVal07.lean ====
import proofs.«406288_j68358699483732_1_alg».proof.Proof.Ref.RunHOps07
import proofs.«406288_j68358699483732_1_alg».proof.Proof.Ref.RefChain

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.RefRead

variable (V : Valuation τ sig (Elt Ideal))

-- Edge type 1's raw scores.
set_option maxRecDepth 8192 in
set_option maxHeartbeats 4000000 in
theorem val07_main_v240 : StableHlo.after ops07 V (no_index (Proc.devRef .tc main_v240)) = mulf (dotsC (V (Proc.devRef .tc main_v39)) (V (Proc.devRef .tc main_v34)) (V (Proc.devRef .tc main_arg31)) (V (Proc.devRef .tc main_arg32))) (featC (V (Proc.devRef .tc main_arg4))) := by
  after_results_simp <;> rfl

end Cert.ReferenceIdeal.RunH

end
-- ==== Proof.Ref.RunHVal08.lean ====
import proofs.«406288_j68358699483732_1_alg».proof.Proof.Ref.RunHOps08
import proofs.«406288_j68358699483732_1_alg».proof.Proof.Ref.RefChain

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.RefRead

variable (V : Valuation τ sig (Elt Ideal))

set_option maxRecDepth 8192 in
set_option maxHeartbeats 4000000 in
theorem val08_main_v248 : StableHlo.after ops08 V (no_index (Proc.devRef .tc main_v248)) = clipExpC (scaleC (V (Proc.devRef .tc main_v240))) := by
  after_results_simp <;> rfl

end Cert.ReferenceIdeal.RunH

end
-- ==== Proof.Ref.RunHVal09.lean ====
import proofs.«406288_j68358699483732_1_alg».proof.Proof.Ref.RunHOps09
import proofs.«406288_j68358699483732_1_alg».proof.Proof.Ref.RefChain

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.RefRead

variable (V : Valuation τ sig (Elt Ideal))

set_option maxRecDepth 8192 in
set_option maxHeartbeats 4000000 in
theorem val09_main_v278 : StableHlo.after ops09 V (no_index (Proc.devRef .tc main_v278)) = denC (V (Proc.devRef .tc main_arg32)) (V (Proc.devRef .tc main_v248)) := by
  after_results_simp <;> rfl

set_option maxRecDepth 8192 in
set_option maxHeartbeats 4000000 in
theorem val09_main_v275 : StableHlo.after ops09 V (no_index (Proc.devRef .tc main_v275)) = numC (V (Proc.devRef .tc main_v44)) (V (Proc.devRef .tc main_arg31)) (V (Proc.devRef .tc main_arg32)) (V (Proc.devRef .tc main_v248)) := by
  after_results_simp <;> rfl

end Cert.ReferenceIdeal.RunH

end
-- ==== Proof.Ref.RunHVal11.lean ====
import proofs.«406288_j68358699483732_1_alg».proof.Proof.Ref.RunHOps11
import proofs.«406288_j68358699483732_1_alg».proof.Proof.Ref.RefChain

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.RefRead

variable (V : Valuation τ sig (Elt Ideal))

set_option maxRecDepth 8192 in
set_option maxHeartbeats 4000000 in
theorem val11_main_v356 : StableHlo.after ops11 V (no_index (Proc.devRef .tc main_v356)) = lnC (preC (meanC (V (Proc.devRef .tc main_v275)) (V (Proc.devRef .tc main_v278))) (V (Proc.devRef .tc main_arg2)) (V (Proc.devRef .tc main_arg23)) (V (Proc.devRef .tc main_arg24)) (V (Proc.devRef .tc main_arg25)) (V (Proc.devRef .tc main_arg26))) (V (Proc.devRef .tc main_arg27)) (V (Proc.devRef .tc main_arg28)) := by
  after_results_simp <;> rfl

end Cert.ReferenceIdeal.RunH

end
-- ==== Proof.Ref.RefRead.lean ====
import proofs.«406288_j68358699483732_1_alg».proof.Proof.Ref.RunHJoin
import proofs.«406288_j68358699483732_1_alg».proof.Proof.Ref.RunHVal01
import proofs.«406288_j68358699483732_1_alg».proof.Proof.Ref.RunHVal02
import proofs.«406288_j68358699483732_1_alg».proof.Proof.Ref.RunHVal03
import proofs.«406288_j68358699483732_1_alg».proof.Proof.Ref.RunHVal04
import proofs.«406288_j68358699483732_1_alg».proof.Proof.Ref.RunHVal06
import proofs.«406288_j68358699483732_1_alg».proof.Proof.Ref.RunHVal07
import proofs.«406288_j68358699483732_1_alg».proof.Proof.Ref.RunHVal08
import proofs.«406288_j68358699483732_1_alg».proof.Proof.Ref.RunHVal09
import proofs.«406288_j68358699483732_1_alg».proof.Proof.Ref.RunHVal11
import proofs.«406288_j68358699483732_1_alg».proof.Proof.Ref.RefChain

set_option maxRecDepth 16384

noncomputable section

namespace Cert.RefRead

open Idealize.ShloMosaic Idealize.ShloMosaic.TcCoe Idealize.SL.Sem Idealize.ShloMosaic.StableHlo
open Cert.ReferenceIdeal Cert.ReferenceIdeal.Gen Cert.ReferenceIdeal.RunH

-- A stretch leaves a reference it does not write as it found it.
theorem kept' {l : List (HloOp τ sig (Elt Ideal))} {W : List (Ref sig .tc)}
    (hw : l.Forall fun op => op.writes ⊆ (W.map (Proc.devRef (τ := τ) .tc)).toFinset)
    {r : Ref sig .tc} (V : Valuation τ sig (Elt Ideal)) (hr : r ∉ W) :
    StableHlo.after l V (no_index (Proc.devRef .tc r)) = V (Proc.devRef .tc r) :=
  after_of_writes_sub l V hw hr

variable (m : (ℓ : Loc nD τ sig) → Buf (Elt Ideal) ℓ) (c : Dev nD)

-- The first result is the fold of the eleven stretches over the launch contents: stretch by stretch, from the last back, it is the chain of operations at edge type 0's words and features, which computes the reference's pass.
set_option maxRecDepth 65536 in
set_option maxHeartbeats 16000000 in
theorem ref_v200 : (StableHlo.after ops (launchContents m c) (Proc.devRef .tc main_v200) : Mat 50000 128)
    = refPass (m ((c.tc : Thread nD τ).loc main_arg2)) (m ((c.tc : Thread nD τ).loc main_arg19)) (m ((c.tc : Thread nD τ).loc main_arg21)) (m ((c.tc : Thread nD τ).loc main_arg17)) (m ((c.tc : Thread nD τ).loc main_arg20)) (m ((c.tc : Thread nD τ).loc main_arg22)) (m ((c.tc : Thread nD τ).loc main_arg18)) (m ((c.tc : Thread nD τ).loc main_arg29)) (m ((c.tc : Thread nD τ).loc main_arg30)) (m ((c.tc : Thread nD τ).loc main_arg3)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  Eq.trans (by
    simp (disch := decide) only [after_append, kept' ops11_writes, kept' ops10_writes, kept' ops09_writes, kept' ops08_writes, kept' ops07_writes, kept' ops06_writes, kept' ops05_writes, kept' ops04_writes, kept' ops03_writes, kept' ops02_writes, kept' ops01_writes, val06_main_v200, val04_main_v119, val04_main_v122,
      val03_main_v92, val02_main_v84, val01_main_v34, val01_main_v39, val01_main_v44]
    rfl) (refChain_eq _ _ _ _ _ _ _ _ _ _ _ _ _ _ _ _)

set_option maxRecDepth 65536 in
set_option maxHeartbeats 16000000 in
theorem ref_v356 : (StableHlo.after ops (launchContents m c) (Proc.devRef .tc main_v356) : Mat 50000 128)
    = refPass (m ((c.tc : Thread nD τ).loc main_arg2)) (m ((c.tc : Thread nD τ).loc main_arg19)) (m ((c.tc : Thread nD τ).loc main_arg21)) (m ((c.tc : Thread nD τ).loc main_arg17)) (m ((c.tc : Thread nD τ).loc main_arg20)) (m ((c.tc : Thread nD τ).loc main_arg22)) (m ((c.tc : Thread nD τ).loc main_arg18)) (m ((c.tc : Thread nD τ).loc main_arg31)) (m ((c.tc : Thread nD τ).loc main_arg32)) (m ((c.tc : Thread nD τ).loc main_arg4)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  Eq.trans (by
    simp (disch := decide) only [after_append, kept' ops11_writes, kept' ops10_writes, kept' ops09_writes, kept' ops08_writes, kept' ops07_writes, kept' ops06_writes, kept' ops05_writes, kept' ops04_writes, kept' ops03_writes, kept' ops02_writes, kept' ops01_writes, val11_main_v356, val09_main_v275, val09_main_v278,
      val08_main_v248, val07_main_v240, val01_main_v34, val01_main_v39, val01_main_v44]
    rfl) (refChain_eq _ _ _ _ _ _ _ _ _ _ _ _ _ _ _ _)

end Cert.RefRead

end
-- ==== Proof.Bridge.HotSum.lean ====
import proofs.«406288_j68358699483732_1_alg».proof.Proof.Spec
import Mathlib.Logic.Equiv.Fin.Basic
import Mathlib.Data.Fintype.BigOperators
import Mathlib.Algebra.BigOperators.Group.Finset.Basic
import Mathlib.Algebra.BigOperators.Group.Finset.Piecewise

noncomputable section

namespace Cert.Bridge

open Idealize.ShloMosaic Idealize.ShloMosaic.ValueIdx Cert.Spec

theorem flat_lt {m n N : Nat} (h : m * n = N) (q : Fin m) (r : Fin n) : q.val * n + r.val < N := by
  have hq := q.isLt
  have hr := r.isLt
  calc q.val * n + r.val < q.val * n + n := by omega
    _ = (q.val + 1) * n := (Nat.succ_mul _ _).symm
    _ ≤ m * n := Nat.mul_le_mul_right _ (by omega)
    _ = N := h

theorem sum_blocks {M : Type*} [AddCommMonoid M] (m n N : Nat) (h : m * n = N) (f : Fin N → M) :
    (∑ q : Fin m, ∑ r : Fin n, f ⟨q.val * n + r.val, flat_lt h q r⟩) = ∑ e : Fin N, f e := by
  subst h
  rw [← Equiv.sum_comp finProdFinEquiv f, Fintype.sum_prod_type]
  refine Finset.sum_congr rfl fun q _ => Finset.sum_congr rfl fun r _ => ?_
  congr 1
  apply Fin.ext
  show q.val * n + r.val = r.val + n * q.val
  rw [Nat.mul_comm, Nat.add_comm]

theorem hot_mul (w : BitVec 32) (n : Nat) (x : EReal) :
    hot w n * x = if w = BitVec.ofNat 32 n then x else 0 := by
  unfold hot
  split_ifs
  · exact one_mul x
  · exact zero_mul x

theorem word_eq_iff (w : BitVec 32) (n : Nat) (hn : n < 2 ^ 32) : w = BitVec.ofNat 32 n ↔ w.toNat = n := by
  constructor
  · intro h
    rw [h, BitVec.toNat_ofNat, Nat.mod_eq_of_lt hn]
  · intro h
    apply BitVec.eq_of_toNat_eq
    rw [BitVec.toNat_ofNat, Nat.mod_eq_of_lt hn, h]

theorem toNat_of_range (w : BitVec 32) (hw : 0 ≤ w.toInt ∧ w.toInt < 50000) :
    w.toInt = (w.toNat : Int) ∧ w.toNat < 50000 := by
  have hlt := w.isLt
  rw [BitVec.toInt_eq_toNat_cond] at hw
  rw [BitVec.toInt_eq_toNat_cond]
  split_ifs at hw ⊢ <;> omega

theorem hot_pick {b : Nat} (w : BitVec 32) (hw : 0 ≤ w.toInt ∧ w.toInt < 50000) (T : Mat 50000 b) (j : Fin b) :
    (∑ q : Fin 50, ∑ r : Fin 1000,
        hot w (q.val * 1000 + r.val) * T (ix2 ⟨q.val * 1000 + r.val, by omega⟩ j))
      = T (ix2 ⟨w.toNat, (toNat_of_range w hw).2⟩ j) := by
  refine (sum_blocks 50 1000 50000 rfl (fun e : Fin 50000 => hot w e.val * T (ix2 e j))).trans ?_
  rw [Finset.sum_eq_single (⟨w.toNat, (toNat_of_range w hw).2⟩ : Fin 50000)]
  · rw [hot_mul, if_pos]
    exact (word_eq_iff w w.toNat w.isLt).2 rfl
  · intro e _ hne
    rw [hot_mul, if_neg]
    intro h
    apply hne
    apply Fin.ext
    have he : e.val < 2 ^ 32 := by have := e.isLt; omega
    exact ((word_eq_iff w e.val he).1 h).symm
  · intro h
    exact absurd (Finset.mem_univ _) h

theorem hot_scatter {b : Nat} (dst : ICol 800000) (P : Mat 800000 b) (n : Nat) (c : Fin b) :
    (∑ q : Fin 400, ∑ r : Fin 2000,
        hot (dst (ix2 ⟨q.val * 2000 + r.val, by omega⟩ 0)) n * P (ix2 ⟨q.val * 2000 + r.val, by omega⟩ c))
      = ∑ e ∈ Finset.univ.filter (fun e : Fin 800000 => dst (ix2 e 0) = BitVec.ofNat 32 n), P (ix2 e c) := by
  refine (sum_blocks 400 2000 800000 rfl
    (fun e : Fin 800000 => hot (dst (ix2 e 0)) n * P (ix2 e c))).trans ?_
  rw [Finset.sum_filter]
  exact Finset.sum_congr rfl fun e _ => hot_mul _ _ _

end Cert.Bridge

end
-- ==== Proof.Bridge.Bridge.lean ====
import proofs.«406288_j68358699483732_1_alg».proof.Proof.Spec
import proofs.«406288_j68358699483732_1_alg».proof.Proof.Ref.RefSpec
import proofs.«406288_j68358699483732_1_alg».proof.Proof.Bridge.HotSum

noncomputable section

namespace Cert.Bridge

open Idealize.ShloMosaic Idealize.ShloMosaic.ValueIdx

theorem lin_eq {r a b : Nat} (x : Spec.Mat r a) (W : Spec.Mat a b) (bias : Spec.Row b) :
    RefRead.lin x W bias = Spec.lin x W bias := rfl

theorem lin_cat_lo (x : Spec.Mat 50000 256) (Wak Wav : Spec.Mat 256 128) (bak bav : Spec.Row 128)
    (r : Fin 50000) (j : Fin 128) (c : Fin 256) (hc : c.val = j.val) :
    Spec.lin x (Spec.catCols Wak Wav) (Spec.catRow bak bav) (ix2 r c) = Spec.lin x Wak bak (ix2 r j) := by
  have hlt : c.val < 128 := by have := j.isLt; omega
  have hcj : (⟨c.val, hlt⟩ : Fin 128) = j := Fin.ext hc
  have hW : ∀ k : Fin 256, Spec.catCols Wak Wav (ix2 k c) = Wak (ix2 k j) := by
    intro k
    unfold Spec.catCols
    rw [dif_pos (show ((ix2 k c : (⟨2, ![256, 256]⟩ : Shape).Idx) 1).val < 128 from hlt)]
    show Wak (ix2 k ⟨c.val, hlt⟩) = _
    rw [hcj]
  have hb : Spec.catRow bak bav (ix1 c) = bak (ix1 j) := by
    unfold Spec.catRow
    rw [dif_pos (show ((ix1 c : (⟨1, ![256]⟩ : Shape).Idx) 0).val < 128 from hlt)]
    show bak (ix1 ⟨c.val, hlt⟩) = _
    rw [hcj]
  unfold Spec.lin
  show (∑ k : Fin 256, x (ix2 r k) * Spec.catCols Wak Wav (ix2 k c)) + Spec.catRow bak bav (ix1 c)
    = (∑ k : Fin 256, x (ix2 r k) * Wak (ix2 k j)) + bak (ix1 j)
  rw [hb]
  congr 1
  exact Finset.sum_congr rfl fun k _ => by rw [hW k]

theorem lin_cat_hi (x : Spec.Mat 50000 256) (Wak Wav : Spec.Mat 256 128) (bak bav : Spec.Row 128)
    (r : Fin 50000) (j : Fin 128) (c : Fin 256) (hc : c.val = 128 + j.val) :
    Spec.lin x (Spec.catCols Wak Wav) (Spec.catRow bak bav) (ix2 r c) = Spec.lin x Wav bav (ix2 r j) := by
  have hge : ¬ c.val < 128 := by omega
  have hcj : ∀ h, (⟨c.val - 128, h⟩ : Fin 128) = j := fun _ => Fin.ext (by show c.val - 128 = j.val; omega)
  have hW : ∀ k : Fin 256, Spec.catCols Wak Wav (ix2 k c) = Wav (ix2 k j) := by
    intro k
    unfold Spec.catCols
    rw [dif_neg (show ¬ ((ix2 k c : (⟨2, ![256, 256]⟩ : Shape).Idx) 1).val < 128 from hge)]
    show Wav (ix2 k ⟨c.val - 128, _⟩) = _
    rw [hcj]
  have hb : Spec.catRow bak bav (ix1 c) = bav (ix1 j) := by
    unfold Spec.catRow
    rw [dif_neg (show ¬ ((ix1 c : (⟨1, ![256]⟩ : Shape).Idx) 0).val < 128 from hge)]
    show bav (ix1 ⟨c.val - 128, _⟩) = _
    rw [hcj]
  unfold Spec.lin
  show (∑ k : Fin 256, x (ix2 r k) * Spec.catCols Wak Wav (ix2 k c)) + Spec.catRow bak bav (ix1 c)
    = (∑ k : Fin 256, x (ix2 r k) * Wav (ix2 k j)) + bav (ix1 j)
  rw [hb]
  congr 1
  exact Finset.sum_congr rfl fun k _ => by rw [hW k]

theorem rowOf_of_range (w : BitVec 32) (hw : 0 ≤ w.toInt ∧ w.toInt < 50000) :
    RefRead.rowOf w = ⟨w.toNat, (toNat_of_range w hw).2⟩ := by
  obtain ⟨hi, hn⟩ := toNat_of_range w hw
  have hns : ¬ (w.slt 0#32) = true := by
    rw [BitVec.slt_iff_toInt_lt, show (0#32 : BitVec 32).toInt = 0 from by decide]
    omega
  apply Fin.ext
  show min (RefRead.wrap w).toInt.toNat 49999 = w.toNat
  unfold RefRead.wrap
  rw [if_neg hns, hi, Int.toNat_natCast]
  omega

theorem range_of_word (n : Nat) (hn : n < 50000) :
    0 ≤ (BitVec.ofNat 32 n).toInt ∧ (BitVec.ofNat 32 n).toInt < 50000 := by
  have h : (BitVec.ofNat 32 n).toNat = n := by rw [BitVec.toNat_ofNat]; omega
  rw [BitVec.toInt_eq_toNat_cond, h]
  split_ifs <;> omega

theorem gath_eq_pick {b : Nat} (idx : RefRead.IV 800000) (T : Spec.Mat 50000 b) (e : Fin 800000) (j : Fin b)
    (hw : 0 ≤ (idx (ix1 e)).toInt ∧ (idx (ix1 e)).toInt < 50000) :
    Spec.gath (Spec.colOf idx) T (ix2 e j) = RefRead.pick idx T (ix2 e j) := by
  unfold Spec.gath RefRead.pick
  show (∑ q : Fin 50, ∑ r : Fin 1000,
      Spec.hot (idx (ix1 e)) (q.val * 1000 + r.val) * T (ix2 ⟨q.val * 1000 + r.val, by omega⟩ j))
    = T (ix2 (RefRead.rowOf (idx (ix1 e))) j)
  rw [hot_pick (idx (ix1 e)) hw T j, rowOf_of_range (idx (ix1 e)) hw]

theorem score_congr (kv : Spec.Mat 800000 256) (kg qS qR : Spec.Mat 800000 128) (feat : Spec.Mat 800000 2)
    (e : Fin 800000) (h : Fin 4)
    (hk : ∀ d : Fin 32, kv (ix2 e ⟨32 * h.val + d.val, by omega⟩) = kg (ix2 e (RefRead.hd h d)))
    (hq : ∀ d : Fin 32, qS (ix2 e (Spec.hd h d)) = qR (ix2 e (RefRead.hd h d))) :
    Spec.score kv qS feat e h = RefRead.score kg qR feat e h := by
  unfold Spec.score RefRead.score
  rw [Finset.sum_congr rfl (fun d _ => by rw [hk d, hq d] :
    ∀ d ∈ (Finset.univ : Finset (Fin 32)),
      kv (ix2 e ⟨32 * h.val + d.val, by omega⟩) * qS (ix2 e (Spec.hd h d))
        = kg (ix2 e (RefRead.hd h d)) * qR (ix2 e (RefRead.hd h d)))]

theorem edge_score (KV : Spec.Mat 50000 256) (K QT : Spec.Mat 50000 128)
    (hK : ∀ (r : Fin 50000) (j : Fin 128) (c : Fin 256), c.val = j.val → KV (ix2 r c) = K (ix2 r j))
    (src dst : RefRead.IV 800000) (feat : Spec.Mat 800000 2) (e : Fin 800000) (h : Fin 4)
    (hs : 0 ≤ (src (ix1 e)).toInt ∧ (src (ix1 e)).toInt < 50000)
    (hd : 0 ≤ (dst (ix1 e)).toInt ∧ (dst (ix1 e)).toInt < 50000) :
    Spec.score (Spec.gath (Spec.colOf src) KV) (Spec.gath (Spec.colOf dst) QT) feat e h
      = RefRead.score (RefRead.pick src K) (RefRead.pick dst QT) feat e h := by
  refine score_congr _ _ _ _ feat e h (fun d => ?_) (fun d => ?_)
  · rw [gath_eq_pick src KV e _ hs]
    unfold RefRead.pick
    exact hK _ (RefRead.hd h d) _ rfl
  · exact gath_eq_pick dst QT e _ hd

theorem payload_lo (KV : Spec.Mat 50000 256) (K V QT : Spec.Mat 50000 128)
    (hK : ∀ (r : Fin 50000) (j : Fin 128) (c : Fin 256), c.val = j.val → KV (ix2 r c) = K (ix2 r j))
    (hV : ∀ (r : Fin 50000) (j : Fin 128) (c : Fin 256), c.val = 128 + j.val → KV (ix2 r c) = V (ix2 r j))
    (src dst : RefRead.IV 800000) (feat : Spec.Mat 800000 2) (e : Fin 800000) (k : Fin 128) (c : Fin 256)
    (hc : c.val = k.val)
    (hs : 0 ≤ (src (ix1 e)).toInt ∧ (src (ix1 e)).toInt < 50000)
    (hd : 0 ≤ (dst (ix1 e)).toInt ∧ (dst (ix1 e)).toInt < 50000) :
    Spec.payload (Spec.colOf src) (Spec.colOf dst) feat KV QT (ix2 e c)
      = RefRead.weighted (RefRead.pick src V)
          (RefRead.weights (RefRead.pick src K) (RefRead.pick dst QT) feat) (ix2 e k) := by
  have hlt : c.val < 128 := by have := k.isLt; omega
  unfold Spec.payload
  rw [dif_pos (show ((ix2 e c : (⟨2, ![800000, 256]⟩ : Shape).Idx) 1).val < 128 from hlt)]
  show Spec.gath (Spec.colOf src) KV (ix2 e ⟨128 + c.val, _⟩)
      * Spec.score (Spec.gath (Spec.colOf src) KV) (Spec.gath (Spec.colOf dst) QT) feat e ⟨c.val / 32, _⟩
    = RefRead.pick src V (ix2 e k)
      * RefRead.score (RefRead.pick src K) (RefRead.pick dst QT) feat e (RefRead.headOf k)
  rw [edge_score KV K QT hK src dst feat e _ hs hd, gath_eq_pick src KV e _ hs]
  have hh : (⟨c.val / 32, by omega⟩ : Fin 4) = RefRead.headOf k := Fin.ext (by show c.val / 32 = k.val / 32; rw [hc])
  rw [hh]
  congr 1
  unfold RefRead.pick
  exact hV _ k _ (by show 128 + c.val = 128 + k.val; rw [hc])

theorem payload_hi (KV : Spec.Mat 50000 256) (K QT : Spec.Mat 50000 128)
    (hK : ∀ (r : Fin 50000) (j : Fin 128) (c : Fin 256), c.val = j.val → KV (ix2 r c) = K (ix2 r j))
    (src dst : RefRead.IV 800000) (feat : Spec.Mat 800000 2) (e : Fin 800000) (k : Fin 128) (c : Fin 256)
    (hc : c.val = 128 + k.val)
    (hs : 0 ≤ (src (ix1 e)).toInt ∧ (src (ix1 e)).toInt < 50000)
    (hd : 0 ≤ (dst (ix1 e)).toInt ∧ (dst (ix1 e)).toInt < 50000) :
    Spec.payload (Spec.colOf src) (Spec.colOf dst) feat KV QT (ix2 e c)
      = RefRead.weights (RefRead.pick src K) (RefRead.pick dst QT) feat (ix2 e (RefRead.headOf k)) := by
  have hge : ¬ c.val < 128 := by omega
  unfold Spec.payload
  rw [dif_neg (show ¬ ((ix2 e c : (⟨2, ![800000, 256]⟩ : Shape).Idx) 1).val < 128 from hge)]
  show Spec.score (Spec.gath (Spec.colOf src) KV) (Spec.gath (Spec.colOf dst) QT) feat e ⟨(c.val - 128) / 32, _⟩
    = RefRead.score (RefRead.pick src K) (RefRead.pick dst QT) feat e (RefRead.headOf k)
  rw [edge_score KV K QT hK src dst feat e _ hs hd]
  have hh : (⟨(c.val - 128) / 32, by omega⟩ : Fin 4) = RefRead.headOf k :=
    Fin.ext (by show (c.val - 128) / 32 = k.val / 32; rw [hc, Nat.add_sub_cancel_left])
  rw [hh]

theorem scat_eq_segSum {b : Nat} (dst : RefRead.IV 800000) (P : Spec.Mat 800000 256) (X : Spec.Mat 800000 b)
    (n : Fin 50000) (c : Fin 256) (k : Fin b)
    (hPX : ∀ e : Fin 800000, (0 ≤ (dst (ix1 e)).toInt ∧ (dst (ix1 e)).toInt < 50000) → P (ix2 e c) = X (ix2 e k)) :
    Spec.scat (Spec.colOf dst) P (ix2 n c) = RefRead.segSum dst X (ix2 n k) := by
  unfold Spec.scat RefRead.segSum
  show (∑ q : Fin 400, ∑ r : Fin 2000,
      Spec.hot (Spec.colOf dst (ix2 ⟨q.val * 2000 + r.val, by omega⟩ 0)) n.val
        * P (ix2 ⟨q.val * 2000 + r.val, by omega⟩ c))
    = ∑ e ∈ Finset.univ.filter (fun e : Fin 800000 => dst (ix1 e) = BitVec.ofNat 32 n.val), X (ix2 e k)
  rw [hot_scatter (Spec.colOf dst) P n.val c]
  refine Finset.sum_congr rfl fun e he => ?_
  have hd : dst (ix1 e) = BitVec.ofNat 32 n.val := (Finset.mem_filter.1 he).2
  apply hPX e
  rw [hd]
  exact range_of_word n.val n.isLt

theorem mean_eq (x : Spec.Mat 50000 256) (Wak Wav Waq : Spec.Mat 256 128) (bak bav baq : Spec.Row 128)
    (src dst : IVec ⟨1, ![800000]⟩ 32) (feat : Spec.Mat 800000 2)
    (hsrc : ∀ e : Fin 800000, 0 ≤ (src (ix1 e)).toInt ∧ (src (ix1 e)).toInt < 50000) :
    Spec.wmean (Spec.scat (Spec.colOf dst) (Spec.payload (Spec.colOf src) (Spec.colOf dst) feat
        (Spec.lin x (Spec.catCols Wak Wav) (Spec.catRow bak bav)) (Spec.lin x Waq baq)))
      = RefRead.meanOf x Wak Wav Waq bak bav baq src dst feat := by
  funext i
  obtain ⟨n, k, rfl⟩ : ∃ (n : Fin 50000) (k : Fin 128), i = ix2 n k := ⟨i 0, i 1, eq_ix2 i⟩
  have hK := lin_cat_lo x Wak Wav bak bav
  have hV := lin_cat_hi x Wak Wav bak bav
  unfold RefRead.meanOf Spec.wmean RefRead.wmean
  show Ideal.div
      (Spec.scat (Spec.colOf dst) _ (ix2 n ⟨k.val, _⟩))
      (Spec.scat (Spec.colOf dst) _ (ix2 n ⟨128 + k.val, _⟩) + Spec.cOne)
    = Ideal.div (RefRead.segSum dst _ (ix2 n k)) (RefRead.segSum dst _ (ix2 n (RefRead.headOf k)) + RefRead.cOne)
  rw [scat_eq_segSum dst _ _ n ⟨k.val, by have := k.isLt; omega⟩ k
        (fun e hd => payload_lo _ _ _ _ hK hV src dst feat e k _ rfl (hsrc e) hd),
      scat_eq_segSum dst _ _ n ⟨128 + k.val, by have := k.isLt; omega⟩ (RefRead.headOf k)
        (fun e hd => payload_hi _ _ _ hK src dst feat e k _ rfl (hsrc e) hd)]
  rfl

theorem bridge (x : Spec.Mat 50000 256) (Wak Wav Waq : Spec.Mat 256 128) (bak bav baq : Spec.Row 128)
    (src dst : IVec ⟨1, ![800000]⟩ 32) (feat : Spec.Mat 800000 2) (Wao : Spec.Mat 128 128) (bao : Spec.Row 128)
    (Waffn : Spec.Mat 256 128) (baffn : Spec.Row 128) (g b : Spec.Row 128)
    (hsrc : ∀ e : Fin 800000, 0 ≤ (src (ix1 e)).toInt ∧ (src (ix1 e)).toInt < 50000) :
    Cert.RefRead.refPass x Wak Wav Waq bak bav baq src dst feat Wao bao Waffn baffn g b
      = Cert.Spec.passOf x Wak Wav Waq bak bav baq src dst feat Wao bao Waffn baffn g b := by
  have hm := mean_eq x Wak Wav Waq bak bav baq src dst feat hsrc
  have hp : Spec.preLn (Spec.scat (Spec.colOf dst) (Spec.payload (Spec.colOf src) (Spec.colOf dst) feat
        (Spec.lin x (Spec.catCols Wak Wav) (Spec.catRow bak bav)) (Spec.lin x Waq baq))) x Wao bao Waffn baffn
      = RefRead.preLn (RefRead.meanOf x Wak Wav Waq bak bav baq src dst feat) x Wao bao Waffn baffn := by
    funext i
    unfold Spec.preLn RefRead.preLn
    rw [hm]
  unfold RefRead.refPass Spec.passOf Spec.pass
  funext i
  unfold Spec.outp RefRead.addLn
  rw [hp]
  rfl

end Cert.Bridge

end
-- ==== Proof.PreDecode.lean ====
import proofs.«406288_j68358699483732_1_alg».proof.Defs
import Idealize.ShloMosaic.Lib.ReduceAll
import Idealize.ShloMosaic.Lib.ValueIdx

set_option maxRecDepth 16384

noncomputable section

namespace Cert.PreDecode

open Idealize.ShloMosaic Idealize.ShloMosaic.ValueIdx Idealize.SL.Sem
open Cert.Pre_finite_inputs

variable [hF : Cert.Pre_finite_inputs.Facts]

instance : Subsingleton S_.Idx := ⟨fun _ _ => funext fun d => d.elim0⟩

theorem range_of_all (a : IVec S800000 32) (init : IVec S_ 1)
    (bc : S_.BroadcastsInDim S800000 (![] : Fin 0 → Fin S800000.rank)) (rd : S800000.ReducesTo [0] S_)
    (hu : 0 < S_.numel)
    (h : Host.reduce IntOp.andi
          (andi (cmpi .sge a (broadcastInDim S800000 ![] bc (constantI S_ 32 0#32)))
                (cmpi .slt a (broadcastInDim S800000 ![] bc (constantI S_ 32 50000#32))))
          init rd hu ix0 = 1#1)
    (e : Fin 800000) : 0 ≤ (a (ix1 e)).toInt ∧ (a (ix1 e)).toInt < 50000 := by
  have h1 := Host.reduce_andi_all _ _ _ _ _ h (ix1 e)
  change IntOp.andi (IntOp.cmpi .sge (a (ix1 e)) 0#32) (IntOp.cmpi .slt (a (ix1 e)) 50000#32) = 1#1 at h1
  obtain ⟨hge, hlt⟩ := IntOp.andi_eq_one.1 h1
  have h0 := IntOp.cmpi_sge.1 hge
  have h5 := IntOp.cmpi_slt.1 hlt
  rw [show (0#32 : BitVec 32).toInt = 0 from by decide] at h0
  rw [show (50000#32 : BitVec 32).toInt = 50000 from by decide] at h5
  exact ⟨h0, h5⟩

theorem src_range (m : (ℓ : Loc Cert.KernelIdeal.nD Cert.KernelIdeal.τ Cert.KernelIdeal.sig) → Buf (Elt Ideal) ℓ)
    (h : Cert.Pre_KernelIdeal m) (c : Dev Cert.KernelIdeal.nD) :
    (∀ e : Fin 800000,
        0 ≤ ((m ((c.tc : Thread Cert.KernelIdeal.nD Cert.KernelIdeal.τ).loc Cert.KernelIdeal.main_arg29) : IVec S800000 32) (ix1 e)).toInt
        ∧ ((m ((c.tc : Thread Cert.KernelIdeal.nD Cert.KernelIdeal.τ).loc Cert.KernelIdeal.main_arg29) : IVec S800000 32) (ix1 e)).toInt < 50000)
    ∧ (∀ e : Fin 800000,
        0 ≤ ((m ((c.tc : Thread Cert.KernelIdeal.nD Cert.KernelIdeal.τ).loc Cert.KernelIdeal.main_arg31) : IVec S800000 32) (ix1 e)).toInt
        ∧ ((m ((c.tc : Thread Cert.KernelIdeal.nD Cert.KernelIdeal.τ).loc Cert.KernelIdeal.main_arg31) : IVec S800000 32) (ix1 e)).toInt < 50000) := by
  have e := congrFun (h c) ix0
  dsimp only [Cert.Pre_finite_inputs.fn, fn_part1, fn_part2, fn_part3, fn_part4, fn_part5, fn_part6, fn_part7,
    fn_part8, fn_part9] at e
  change IntOp.andi (IntOp.andi _ _) _ = 1#1 at e
  obtain ⟨e1, h31⟩ := IntOp.andi_eq_one.1 e
  obtain ⟨-, h29⟩ := IntOp.andi_eq_one.1 e1
  exact ⟨range_of_all _ _ _ _ _ h29, range_of_all _ _ _ _ _ h31⟩

end Cert.PreDecode

end
-- ==== Proof.lean ====
import proofs.«406288_j68358699483732_1_alg».proof.Defs
import proofs.«406288_j68358699483732_1_alg».proof.Proof.Gen.Kernel
import proofs.«406288_j68358699483732_1_alg».proof.Proof.Gen.KernelIdeal
import proofs.«406288_j68358699483732_1_alg».proof.Proof.Gen.ReferenceIdeal
import proofs.«406288_j68358699483732_1_alg».proof.Proof.Gen.Pre_finite_inputs
import proofs.«406288_j68358699483732_1_alg».proof.Proof.K.Run
import proofs.«406288_j68358699483732_1_alg».proof.Proof.KI.Value
import proofs.«406288_j68358699483732_1_alg».proof.Proof.Ref.RefRead
import proofs.«406288_j68358699483732_1_alg».proof.Proof.Bridge.Bridge
import proofs.«406288_j68358699483732_1_alg».proof.Proof.PreDecode

set_option maxRecDepth 16384

noncomputable section

namespace Cert.Proof

open Idealize.ShloMosaic Idealize.ShloMosaic.TcCoe Idealize.ShloMosaic.ValueIdx Idealize.SL.Sem

theorem frame_k : Cert.frame_Kernel := fun m ρ _ =>
  (θ_run Cert.Kernel.defs _ _).mono (fun r h c => Cert.Kernel.Hand.args_all (P := fun b => r.2.mem ((c.tc : Thread Cert.Kernel.nD Cert.Kernel.τ).loc b) = m ((c.tc : Thread Cert.Kernel.nD Cert.Kernel.τ).loc b)) (h c)) (Cert.Kernel.Hand.kept_all m ρ)

theorem frame_ki : Cert.frame_KernelIdeal := fun m ρ _ =>
  (θ_run Cert.KernelIdeal.defs _ _).mono (fun r h c => Cert.KernelIdeal.Hand.args_all (P := fun b => r.2.mem ((c.tc : Thread Cert.KernelIdeal.nD Cert.KernelIdeal.τ).loc b) = m ((c.tc : Thread Cert.KernelIdeal.nD Cert.KernelIdeal.τ).loc b)) (h c)) (Cert.KernelIdeal.Hand.kept_all m ρ)

theorem frame_ri : Cert.frame_ReferenceIdeal := fun m ρ _ =>
  (θ_run Cert.ReferenceIdeal.defs _ _).mono (fun r h c => Cert.ReferenceIdeal.RunH.args_all (P := fun b => r.2.mem ((c.tc : Thread Cert.ReferenceIdeal.nD Cert.ReferenceIdeal.τ).loc b) = m ((c.tc : Thread Cert.ReferenceIdeal.nD Cert.ReferenceIdeal.τ).loc b))
    fun b hb => (h c b).trans (Cert.ReferenceIdeal.RunH.arg_kept m c hb)) (Cert.ReferenceIdeal.RunH.run_ops m ρ)

theorem preserves : Cert.preserves_Kernel_KernelIdeal := trivial

-- The reference's pass at arguments equal to the kernel's is the kernel's pass, when every source word is a node number.
theorem pass_agree {x x' : Cert.Spec.Mat 50000 256} {Wak Wak' Wav Wav' Waq Waq' : Cert.Spec.Mat 256 128}
    {bak bak' bav bav' baq baq' : Cert.Spec.Row 128} {src src' dst dst' : IVec ⟨1, ![800000]⟩ 32}
    {feat feat' : Cert.Spec.Mat 800000 2} {Wao Wao' : Cert.Spec.Mat 128 128} {bao bao' : Cert.Spec.Row 128}
    {Waffn Waffn' : Cert.Spec.Mat 256 128} {baffn baffn' g g' b b' : Cert.Spec.Row 128}
    (hx : x' = x) (hWak : Wak' = Wak) (hWav : Wav' = Wav) (hWaq : Waq' = Waq) (hbak : bak' = bak) (hbav : bav' = bav)
    (hbaq : baq' = baq) (hsrc' : src' = src) (hdst : dst' = dst) (hfeat : feat' = feat) (hWao : Wao' = Wao)
    (hbao : bao' = bao) (hWaffn : Waffn' = Waffn) (hbaffn : baffn' = baffn) (hg : g' = g) (hb : b' = b)
    (hsrc : ∀ e : Fin 800000, 0 ≤ (src (ix1 e)).toInt ∧ (src (ix1 e)).toInt < 50000) :
    Cert.RefRead.refPass x' Wak' Wav' Waq' bak' bav' baq' src' dst' feat' Wao' bao' Waffn' baffn' g' b'
      = Cert.Spec.passOf x Wak Wav Waq bak bav baq src dst feat Wao bao Waffn baffn g b := by
  subst hx hWak hWav hWaq hbak hbav hbaq hsrc' hdst hfeat hWao hbao hWaffn hbaffn hg hb
  exact Cert.Bridge.bridge _ _ _ _ _ _ _ _ _ _ _ _ _ _ _ _ hsrc

-- Over the extended reals both programs end with one edge type's pass of the arguments in each result; the two memories agree on the arguments, and the precondition makes every source word a node number.
theorem algebraic : Cert.algebraic_KernelIdeal_ReferenceIdeal := by
  intro m ρ m' ρ' hpre hagree
  refine ⟨fun c => Cert.KernelIdeal.Hand.pass0 m c, fun c => Cert.KernelIdeal.Hand.pass1 m c,
    (θ_run Cert.KernelIdeal.defs _ _).mono (fun r h c => ⟨(h c).1, (h c).2.1,
      Cert.KernelIdeal.Hand.args_all (P := fun b => r.2.mem ((c.tc : Thread Cert.KernelIdeal.nD Cert.KernelIdeal.τ).loc b) = m ((c.tc : Thread Cert.KernelIdeal.nD Cert.KernelIdeal.τ).loc b)) (h c).2.2⟩) (Cert.KernelIdeal.Hand.value_all m ρ), ?_⟩
  refine (θ_run Cert.ReferenceIdeal.defs _ _).mono (fun r h c => ?_) (Cert.ReferenceIdeal.RunH.run_ops m' ρ')
  obtain ⟨h0, h1, h2, h3, h4, h5, h6, h7, h8, h9, h10, h11, h12, h13, h14, h15, h16, h17, h18, h19, h20, h21, h22, h23, h24, h25, h26, h27, h28, h29, h30, h31, h32⟩ := hagree c
  exact ⟨(h c Cert.ReferenceIdeal.main_v200).trans ((Cert.RefRead.ref_v200 m' c).trans
      (pass_agree h2 h19 h21 h17 h20 h22 h18 h29 h30 h3 h23 h24 h25 h26 h27 h28 (Cert.PreDecode.src_range m hpre c).1)),
    (h c Cert.ReferenceIdeal.main_v356).trans ((Cert.RefRead.ref_v356 m' c).trans
      (pass_agree h2 h19 h21 h17 h20 h22 h18 h31 h32 h4 h23 h24 h25 h26 h27 h28 (Cert.PreDecode.src_range m hpre c).2)),
    Cert.ReferenceIdeal.RunH.args_all (P := fun b => r.2.mem ((c.tc : Thread Cert.ReferenceIdeal.nD Cert.ReferenceIdeal.τ).loc b) = m' ((c.tc : Thread Cert.ReferenceIdeal.nD Cert.ReferenceIdeal.τ).loc b)) fun b hb => (h c b).trans (Cert.ReferenceIdeal.RunH.arg_kept m' c hb)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
